-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x2048 : Shape := ⟨2, ![1024, 2048]⟩
abbrev S2048x1024 : Shape := ⟨2, ![2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S1024x1024 .f32) (main_arg1 : FVec F S1024x2048 .f32) (main_arg2 : FVec F S2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_inputs_ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S1024x1024 .f32) (main_arg1 : FVec F S1024x8192 .f32) (main_arg2 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S2x2x2x256x512 : Shape := ⟨5, ![2, 2, 2, 256, 512]⟩
abbrev S2x3x2 : Shape := ⟨3, ![2, 3, 2]⟩
abbrev S_ : Shape := ⟨0, ![]⟩
abbrev S256x1024 : Shape := ⟨2, ![256, 1024]⟩
abbrev S256x2048 : Shape := ⟨2, ![256, 2048]⟩
abbrev S2048x512 : Shape := ⟨2, ![2048, 512]⟩
abbrev S256x512 : Shape := ⟨2, ![256, 512]⟩
abbrev S1x1x1 : Shape := ⟨3, ![1, 1, 1]⟩
abbrev S1x1x1x256x512 : Shape := ⟨5, ![1, 1, 1, 256, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S2048x1024, .f32⟩
  | .hbm, ⟨3, _⟩ => ⟨S1024x1024, .bf16⟩
  | .local _ .vmem, ⟨0, _⟩ => ⟨S1024x1024, .f32⟩
  | .local _ .vmem, ⟨1, _⟩ => ⟨S1024x2048, .f32⟩
  | .local _ .vmem, ⟨2, _⟩ => ⟨S2048x1024, .f32⟩
  | .local _ .vmem, ⟨3, _⟩ => ⟨S1024x1024, .bf16⟩
  | .local _ .vmem, ⟨4, _⟩ => ⟨S1024x2048, .bf16⟩
  | .local _ .vmem, ⟨5, _⟩ => ⟨S2x2x2x256x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_14 : BitVec 32 := 1#32
  let v30 : BitVec 32 := Scalar.muli v3 c1_i32_14
  let v31 : BitVec 32 := Scalar.addi c0_i32_15 v30
  v31.toNat
def k0_dev2 (d0 : Dev nD) : Nat :=
  let c0_i32_18 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_17 : BitVec 32 := 1#32
  let v32 : BitVec 32 := Scalar.muli v4 c1_i32_17
  let v33 : BitVec 32 := Scalar.addi c0_i32_18 v32
  v33.toNat
def k0_off1 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let v27 : BitVec 32 := Scalar.subi c1_i32_11 v8
  let c256_i32 : BitVec 32 := 256#32
  let v40 : BitVec 32 := Scalar.muli v27 c256_i32
  let v41 : Index := Scalar.indexCast v40
  let c0_23 : Index := 0#32
  ![v41.toNat, 0]
def k0_off2 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let v27 : BitVec 32 := Scalar.subi c1_i32_11 v8
  let c256_i32_25 : BitVec 32 := 256#32
  let v49 : BitVec 32 := Scalar.muli v27 c256_i32_25
  let v50 : Index := Scalar.indexCast v49
  let c0_26 : Index := 0#32
  ![v50.toNat, 0]
def k0_off3 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let v27 : BitVec 32 := Scalar.subi c1_i32_11 v8
  let c256_i32_30 : BitVec 32 := 256#32
  let v60 : BitVec 32 := Scalar.muli v27 c256_i32_30
  let v61 : Index := Scalar.indexCast v60
  let c0_31 : Index := 0#32
  ![v61.toNat, 0]
def k0_off4 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let v27 : BitVec 32 := Scalar.subi c1_i32_11 v8
  let c256_i32_32 : BitVec 32 := 256#32
  let v63 : BitVec 32 := Scalar.muli v27 c256_i32_32
  let c0_i32_46 : BitVec 32 := 0#32
  ![v63.toNat, 0]
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_42 : BitVec 32 := 1#32
  let v64 : BitVec 32 := Scalar.muli v3 c1_i32_42
  let v65 : BitVec 32 := Scalar.addi c0_i32_43 v64
  v65.toNat
def k0_off5 (d0 : Dev nD) : Fin 2 → Nat :=
  let c3_i32_12 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v28 : BitVec 32 := Scalar.subi c3_i32_12 v25
  let c256_i32_47 : BitVec 32 := 256#32
  let v73 : BitVec 32 := Scalar.muli v28 c256_i32_47
  let v74 : Index := Scalar.indexCast v73
  let c0_48 : Index := 0#32
  ![v74.toNat, 0]
def k0_off6 (d0 : Dev nD) : Fin 2 → Nat :=
  let c3_i32_12 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v28 : BitVec 32 := Scalar.subi c3_i32_12 v25
  let c256_i32_51 : BitVec 32 := 256#32
  let v82 : BitVec 32 := Scalar.muli v28 c256_i32_51
  let v83 : Index := Scalar.indexCast v82
  let c0_52 : Index := 0#32
  ![v83.toNat, 0]
def k0_off7 (d0 : Dev nD) : Fin 2 → Nat :=
  let c3_i32_12 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v28 : BitVec 32 := Scalar.subi c3_i32_12 v25
  let c256_i32_56 : BitVec 32 := 256#32
  let v93 : BitVec 32 := Scalar.muli v28 c256_i32_56
  let v94 : Index := Scalar.indexCast v93
  let c0_57 : Index := 0#32
  ![v94.toNat, 0]
def k0_off8 (d0 : Dev nD) : Fin 2 → Nat :=
  let c3_i32_12 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v28 : BitVec 32 := Scalar.subi c3_i32_12 v25
  let c256_i32_58 : BitVec 32 := 256#32
  let v96 : BitVec 32 := Scalar.muli v28 c256_i32_58
  let c0_i32_72 : BitVec 32 := 0#32
  ![v96.toNat, 0]
def k0_dev4 (d0 : Dev nD) : Nat :=
  let c0_i32_69 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_68 : BitVec 32 := 1#32
  let v97 : BitVec 32 := Scalar.muli v4 c1_i32_68
  let v98 : BitVec 32 := Scalar.addi c0_i32_69 v97
  v98.toNat
def k0_off9 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let v27 : BitVec 32 := Scalar.subi c1_i32_11 v8
  let c256_i32_76 : BitVec 32 := 256#32
  let v112 : BitVec 32 := Scalar.muli v27 c256_i32_76
  let v113 : Index := Scalar.indexCast v112
  let c512 : Index := 512#32
  ![v113.toNat, 512]
def k0_off10 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let v27 : BitVec 32 := Scalar.subi c1_i32_11 v8
  let c256_i32_77 : BitVec 32 := 256#32
  let v115 : BitVec 32 := Scalar.muli v27 c256_i32_77
  let c512_i32 : BitVec 32 := 512#32
  ![v115.toNat, 512]
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_87 : BitVec 32 := 1#32
  let v116 : BitVec 32 := Scalar.muli v3 c1_i32_87
  let v117 : BitVec 32 := Scalar.addi c0_i32_88 v116
  v117.toNat
def k0_off11 (d0 : Dev nD) : Fin 2 → Nat :=
  let c3_i32_12 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v28 : BitVec 32 := Scalar.subi c3_i32_12 v25
  let c256_i32_94 : BitVec 32 := 256#32
  let v131 : BitVec 32 := Scalar.muli v28 c256_i32_94
  let v132 : Index := Scalar.indexCast v131
  let c512_95 : Index := 512#32
  ![v132.toNat, 512]
def k0_off12 (d0 : Dev nD) : Fin 2 → Nat :=
  let c3_i32_12 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v28 : BitVec 32 := Scalar.subi c3_i32_12 v25
  let c256_i32_96 : BitVec 32 := 256#32
  let v134 : BitVec 32 := Scalar.muli v28 c256_i32_96
  let c512_i32_110 : BitVec 32 := 512#32
  ![v134.toNat, 512]
def k0_dev6 (d0 : Dev nD) : Nat :=
  let c0_i32_107 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_106 : BitVec 32 := 1#32
  let v135 : BitVec 32 := Scalar.muli v4 c1_i32_106
  let v136 : BitVec 32 := Scalar.addi c0_i32_107 v135
  v136.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_111 : BitVec 32 := 256#32
  let v144 : BitVec 32 := Scalar.muli v8 c256_i32_111
  let v145 : Index := Scalar.indexCast v144
  let c0_112 : Index := 0#32
  ![v145.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_115 : BitVec 32 := 256#32
  let v153 : BitVec 32 := Scalar.muli v8 c256_i32_115
  let v154 : Index := Scalar.indexCast v153
  let c0_116 : Index := 0#32
  ![v154.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_120 : BitVec 32 := 256#32
  let v164 : BitVec 32 := Scalar.muli v8 c256_i32_120
  let v165 : Index := Scalar.indexCast v164
  let c0_121 : Index := 0#32
  ![v165.toNat, 0]
def k0_off16 (d0 : Dev nD) : Fin 2 → Nat :=
  let c2_i32_10 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v26 : BitVec 32 := Scalar.addi c2_i32_10 v25
  let c256_i32_122 : BitVec 32 := 256#32
  let v167 : BitVec 32 := Scalar.muli v26 c256_i32_122
  let v168 : Index := Scalar.indexCast v167
  let c0_123 : Index := 0#32
  ![v168.toNat, 0]
def k0_off17 (d0 : Dev nD) : Fin 2 → Nat :=
  let c2_i32_10 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v26 : BitVec 32 := Scalar.addi c2_i32_10 v25
  let c256_i32_126 : BitVec 32 := 256#32
  let v176 : BitVec 32 := Scalar.muli v26 c256_i32_126
  let v177 : Index := Scalar.indexCast v176
  let c0_127 : Index := 0#32
  ![v177.toNat, 0]
def k0_off18 (d0 : Dev nD) : Fin 2 → Nat :=
  let c2_i32_10 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v26 : BitVec 32 := Scalar.addi c2_i32_10 v25
  let c256_i32_131 : BitVec 32 := 256#32
  let v187 : BitVec 32 := Scalar.muli v26 c256_i32_131
  let v188 : Index := Scalar.indexCast v187
  let c0_132 : Index := 0#32
  ![v188.toNat, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_169 : BitVec 32 := 256#32
  let v212 : BitVec 32 := Scalar.muli v8 c256_i32_169
  let c0_i32_183 : BitVec 32 := 0#32
  ![v212.toNat, 0]
def k0_dev7 (d0 : Dev nD) : Nat :=
  let c0_i32_180 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_179 : BitVec 32 := 1#32
  let v213 : BitVec 32 := Scalar.muli v4 c1_i32_179
  let v214 : BitVec 32 := Scalar.addi c0_i32_180 v213
  v214.toNat
def k0_off20 (d0 : Dev nD) : Fin 2 → Nat :=
  let c2_i32_10 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v26 : BitVec 32 := Scalar.addi c2_i32_10 v25
  let c256_i32_219 : BitVec 32 := 256#32
  let v244 : BitVec 32 := Scalar.muli v26 c256_i32_219
  let c0_i32_233 : BitVec 32 := 0#32
  ![v244.toNat, 0]
def k0_dev8 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_229 : BitVec 32 := 1#32
  let v245 : BitVec 32 := Scalar.muli v3 c1_i32_229
  let v246 : BitVec 32 := Scalar.addi c0_i32_230 v245
  v246.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_237 : BitVec 32 := 256#32
  let v260 : BitVec 32 := Scalar.muli v8 c256_i32_237
  let v261 : Index := Scalar.indexCast v260
  let c512_238 : Index := 512#32
  ![v261.toNat, 512]
def k0_off22 (d0 : Dev nD) : Fin 2 → Nat :=
  let c2_i32_10 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v26 : BitVec 32 := Scalar.addi c2_i32_10 v25
  let c256_i32_242 : BitVec 32 := 256#32
  let v269 : BitVec 32 := Scalar.muli v26 c256_i32_242
  let v270 : Index := Scalar.indexCast v269
  let c512_243 : Index := 512#32
  ![v270.toNat, 512]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let c1_i32_2 : BitVec 32 := 1#32
  let c0_i32 : BitVec 32 := 0#32
  let v8 : BitVec 32 := Scalar.select v7 c1_i32_2 c0_i32
  let c256_i32_280 : BitVec 32 := 256#32
  let v294 : BitVec 32 := Scalar.muli v8 c256_i32_280
  let c512_i32_294 : BitVec 32 := 512#32
  ![v294.toNat, 512]
def k0_dev9 (d0 : Dev nD) : Nat :=
  let c0_i32_291 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_290 : BitVec 32 := 1#32
  let v295 : BitVec 32 := Scalar.muli v4 c1_i32_290
  let v296 : BitVec 32 := Scalar.addi c0_i32_291 v295
  v296.toNat
def k0_off24 (d0 : Dev nD) : Fin 2 → Nat :=
  let c2_i32_10 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v2 c2_i32_3
  let c0_i32_8 : BitVec 32 := 0#32
  let v22 : BitVec 1 := Scalar.cmpi .ne v21 c0_i32_8
  let v23 : BitVec 1 := Scalar.andi v20 v22
  let v9 : BitVec 32 := Scalar.divsi v2 c2_i32_3
  let c1_i32_9 : BitVec 32 := 1#32
  let v24 : BitVec 32 := Scalar.subi v9 c1_i32_9
  let v25 : BitVec 32 := Scalar.select v23 v24 v9
  let v26 : BitVec 32 := Scalar.addi c2_i32_10 v25
  let c256_i32_331 : BitVec 32 := 256#32
  let v326 : BitVec 32 := Scalar.muli v26 c256_i32_331
  let c512_i32_345 : BitVec 32 := 512#32
  ![v326.toNat, 512]
def k0_dev10 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_341 : BitVec 32 := 1#32
  let v327 : BitVec 32 := Scalar.muli v3 c1_i32_341
  let v328 : BitVec 32 := Scalar.addi c0_i32_342 v327
  v328.toNat
def k0_dev11 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_390 : BitVec 32 := 1#32
  let v360 : BitVec 32 := Scalar.muli v3 c1_i32_390
  let v361 : BitVec 32 := Scalar.addi c0_i32_391 v360
  v361.toNat
def k0_dev12 (d0 : Dev nD) : Nat :=
  let c0_i32_439 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_438 : BitVec 32 := 1#32
  let v392 : BitVec 32 := Scalar.muli v4 c1_i32_438
  let v393 : BitVec 32 := Scalar.addi c0_i32_439 v392
  v393.toNat
def k0_dev13 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_486 : BitVec 32 := 1#32
  let v424 : BitVec 32 := Scalar.muli v3 c1_i32_486
  let v425 : BitVec 32 := Scalar.addi c0_i32_487 v424
  v425.toNat
def k0_dev14 (d0 : Dev nD) : Nat :=
  let c0_i32_535 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_534 : BitVec 32 := 1#32
  let v456 : BitVec 32 := Scalar.muli v4 c1_i32_534
  let v457 : BitVec 32 := Scalar.addi c0_i32_535 v456
  v457.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  hamt_2 : (2#32 : BitVec 32).msb = false
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  h_S256x1024 : 0 < S256x1024.numel
  shapeCasts_S256x1024_S256x1024 : S256x1024.ShapeCasts S256x1024
  h_S256x2048 : 0 < S256x2048.numel
  shapeCasts_S256x2048_S256x2048 : S256x2048.ShapeCasts S256x2048
  slices_S2048x1024_o0_0_S2048x512 : S2048x1024.Slices ![0, 0] S2048x512
  h_S256x512 : 0 < S256x512.numel
  inb_S2x3x2_S1x1x1_0_0_0 : ∀ a, (![0, 0, 0] : Fin 3 → Nat) a + S1x1x1.size a ≤ S2x3x2.size a
  squeezes_S1x1x1_S_ : S1x1x1.Squeezes S_
  inb_S2x2x2x256x512_S1x1x1x256x512_0_0_0_0_0 : ∀ a, (![0, 0, 0, 0, 0] : Fin 5 → Nat) a + S1x1x1x256x512.size a ≤ S2x2x2x256x512.size a
  squeezes_S1x1x1x256x512_S256x512 : S1x1x1x256x512.Squeezes S256x512
  wordsbf16_S2x2x2x256x512_S1x1x1x256x512_0_0_0_0_0 : (Rect.unit (s := S2x2x2x256x512) ![0, 0, 0, 0, 0] S1x1x1x256x512.size inb_S2x2x2x256x512_S1x1x1x256x512_0_0_0_0_0).WholeWords (EltTy.packing .bf16)
  inb_S2x3x2_S1x1x1_0_0_1 : ∀ a, (![0, 0, 1] : Fin 3 → Nat) a + S1x1x1.size a ≤ S2x3x2.size a
  inb_S2x2x2x256x512_S1x1x1x256x512_0_0_1_0_0 : ∀ a, (![0, 0, 1, 0, 0] : Fin 5 → Nat) a + S1x1x1x256x512.size a ≤ S2x2x2x256x512.size a
  wordsbf16_S2x2x2x256x512_S1x1x1x256x512_0_0_1_0_0 : (Rect.unit (s := S2x2x2x256x512) ![0, 0, 1, 0, 0] S1x1x1x256x512.size inb_S2x2x2x256x512_S1x1x1x256x512_0_0_1_0_0).WholeWords (EltTy.packing .bf16)
  slices_S2048x1024_o0_512_S2048x512 : S2048x1024.Slices ![0, 512] S2048x512
  inb_S2x3x2_S1x1x1_1_0_0 : ∀ a, (![1, 0, 0] : Fin 3 → Nat) a + S1x1x1.size a ≤ S2x3x2.size a
  inb_S2x2x2x256x512_S1x1x1x256x512_1_0_0_0_0 : ∀ a, (![1, 0, 0, 0, 0] : Fin 5 → Nat) a + S1x1x1x256x512.size a ≤ S2x2x2x256x512.size a
  wordsbf16_S2x2x2x256x512_S1x1x1x256x512_1_0_0_0_0 : (Rect.unit (s := S2x2x2x256x512) ![1, 0, 0, 0, 0] S1x1x1x256x512.size inb_S2x2x2x256x512_S1x1x1x256x512_1_0_0_0_0).WholeWords (EltTy.packing .bf16)
  inb_S2x3x2_S1x1x1_1_0_1 : ∀ a, (![1, 0, 1] : Fin 3 → Nat) a + S1x1x1.size a ≤ S2x3x2.size a
  inb_S2x2x2x256x512_S1x1x1x256x512_1_0_1_0_0 : ∀ a, (![1, 0, 1, 0, 0] : Fin 5 → Nat) a + S1x1x1x256x512.size a ≤ S2x2x2x256x512.size a
  wordsbf16_S2x2x2x256x512_S1x1x1x256x512_1_0_1_0_0 : (Rect.unit (s := S2x2x2x256x512) ![1, 0, 1, 0, 0] S1x1x1x256x512.size inb_S2x2x2x256x512_S1x1x1x256x512_1_0_1_0_0).WholeWords (EltTy.packing .bf16)
  shapeCasts_S256x512_S256x512 : S256x512.ShapeCasts S256x512
  h_S1x1x1x256x512 : 0 < S1x1x1x256x512.numel
  shapeCasts_S1x1x1x256x512_S256x512 : S1x1x1x256x512.ShapeCasts S256x512
  inb_S2x3x2_S1x1x1_0_1_0 : ∀ a, (![0, 1, 0] : Fin 3 → Nat) a + S1x1x1.size a ≤ S2x3x2.size a
  inb_S2x2x2x256x512_S1x1x1x256x512_0_1_0_0_0 : ∀ a, (![0, 1, 0, 0, 0] : Fin 5 → Nat) a + S1x1x1x256x512.size a ≤ S2x2x2x256x512.size a
  wordsbf16_S2x2x2x256x512_S1x1x1x256x512_0_1_0_0_0 : (Rect.unit (s := S2x2x2x256x512) ![0, 1, 0, 0, 0] S1x1x1x256x512.size inb_S2x2x2x256x512_S1x1x1x256x512_0_1_0_0_0).WholeWords (EltTy.packing .bf16)
  inb_S2x3x2_S1x1x1_0_1_1 : ∀ a, (![0, 1, 1] : Fin 3 → Nat) a + S1x1x1.size a ≤ S2x3x2.size a
  inb_S2x2x2x256x512_S1x1x1x256x512_0_1_1_0_0 : ∀ a, (![0, 1, 1, 0, 0] : Fin 5 → Nat) a + S1x1x1x256x512.size a ≤ S2x2x2x256x512.size a
  wordsbf16_S2x2x2x256x512_S1x1x1x256x512_0_1_1_0_0 : (Rect.unit (s := S2x2x2x256x512) ![0, 1, 1, 0, 0] S1x1x1x256x512.size inb_S2x2x2x256x512_S1x1x1x256x512_0_1_1_0_0).WholeWords (EltTy.packing .bf16)
  inb_S2x3x2_S1x1x1_1_1_0 : ∀ a, (![1, 1, 0] : Fin 3 → Nat) a + S1x1x1.size a ≤ S2x3x2.size a
  inb_S2x2x2x256x512_S1x1x1x256x512_1_1_0_0_0 : ∀ a, (![1, 1, 0, 0, 0] : Fin 5 → Nat) a + S1x1x1x256x512.size a ≤ S2x2x2x256x512.size a
  wordsbf16_S2x2x2x256x512_S1x1x1x256x512_1_1_0_0_0 : (Rect.unit (s := S2x2x2x256x512) ![1, 1, 0, 0, 0] S1x1x1x256x512.size inb_S2x2x2x256x512_S1x1x1x256x512_1_1_0_0_0).WholeWords (EltTy.packing .bf16)
  inb_S2x3x2_S1x1x1_1_1_1 : ∀ a, (![1, 1, 1] : Fin 3 → Nat) a + S1x1x1.size a ≤ S2x3x2.size a
  inb_S2x2x2x256x512_S1x1x1x256x512_1_1_1_0_0 : ∀ a, (![1, 1, 1, 0, 0] : Fin 5 → Nat) a + S1x1x1x256x512.size a ≤ S2x2x2x256x512.size a
  wordsbf16_S2x2x2x256x512_S1x1x1x256x512_1_1_1_0_0 : (Rect.unit (s := S2x2x2x256x512) ![1, 1, 1, 0, 0] S1x1x1x256x512.size inb_S2x2x2x256x512_S1x1x1x256x512_1_1_1_0_0).WholeWords (EltTy.packing .bf16)
  inb_S2x3x2_S1x1x1_0_2_0 : ∀ a, (![0, 2, 0] : Fin 3 → Nat) a + S1x1x1.size a ≤ S2x3x2.size a
  inb_S2x3x2_S1x1x1_0_2_1 : ∀ a, (![0, 2, 1] : Fin 3 → Nat) a + S1x1x1.size a ≤ S2x3x2.size a
  inb_S2x3x2_S1x1x1_1_2_0 : ∀ a, (![1, 2, 0] : Fin 3 → Nat) a + S1x1x1.size a ≤ S2x3x2.size a
  inb_S2x3x2_S1x1x1_1_2_1 : ∀ a, (![1, 2, 1] : Fin 3 → Nat) a + S1x1x1.size a ≤ S2x3x2.size a
  dot_S256x1024_S1024x2048_S256x2048_1_0_0_1_n_n_wf : DotDims.WF S256x1024 S1024x2048 S256x2048 [1] [0] [0] [1] [] []
  dot_S256x2048_S2048x512_S256x512_1_0_0_1_n_n_wf : DotDims.WF S256x2048 S2048x512 S256x512 [1] [0] [0] [1] [] []
  hcc0_scratch2 : 4 + S2x3x2.numel ≤ 28
  hcc0_scratch3 : 16 + S2x3x2.numel ≤ 28
  k0_dev1_lt : ∀ d0 : Dev nD, (k0_dev1 d0) < nD
  k0_dev2_lt : ∀ d0 : Dev nD, (k0_dev2 d0) < nD
  k0_off1_inb : ∀ d0 : Dev nD, ∀ a, (k0_off1 d0) a + S256x1024.size a ≤ S1024x1024.size a
  k0_off2_inb : ∀ d0 : Dev nD, ∀ a, (k0_off2 d0) a + S256x2048.size a ≤ S1024x2048.size a
  k0_off2_packedbf16 : ∀ d0 : Dev nD, (Rect.unit (s := S1024x2048) (k0_off2 d0) S256x2048.size (k0_off2_inb d0)).PackedRows (EltTy.packing .bf16)
  k0_off3_inb : ∀ d0 : Dev nD, ∀ a, (k0_off3 d0) a + S256x512.size a ≤ S1024x1024.size a
  k0_off3_packedbf16 : ∀ d0 : Dev nD, (Rect.unit (s := S1024x1024) (k0_off3 d0) S256x512.size (k0_off3_inb d0)).PackedRows (EltTy.packing .bf16)
  k0_off4_inb : ∀ d0 : Dev nD, ∀ a, (k0_off4 d0) a + S256x512.size a ≤ S1024x1024.size a
  k0_off4_wordsbf16 : ∀ d0 : Dev nD, (Rect.unit (s := S1024x1024) (k0_off4 d0) S256x512.size (k0_off4_inb d0)).WholeWords (EltTy.packing .bf16)
  k0_dev3_lt : ∀ d0 : Dev nD, (k0_dev3 d0) < nD
  k0_off5_inb : ∀ d0 : Dev nD, ∀ a, (k0_off5 d0) a + S256x1024.size a ≤ S1024x1024.size a
  k0_off6_inb : ∀ d0 : Dev nD, ∀ a, (k0_off6 d0) a + S256x2048.size a ≤ S1024x2048.size a
  k0_off6_packedbf16 : ∀ d0 : Dev nD, (Rect.unit (s := S1024x2048) (k0_off6 d0) S256x2048.size (k0_off6_inb d0)).PackedRows (EltTy.packing .bf16)
  k0_off7_inb : ∀ d0 : Dev nD, ∀ a, (k0_off7 d0) a + S256x512.size a ≤ S1024x1024.size a
  k0_off7_packedbf16 : ∀ d0 : Dev nD, (Rect.unit (s := S1024x1024) (k0_off7 d0) S256x512.size (k0_off7_inb d0)).PackedRows (EltTy.packing .bf16)
  k0_off8_inb : ∀ d0 : Dev nD, ∀ a, (k0_off8 d0) a + S256x512.size a ≤ S1024x1024.size a
  k0_off8_wordsbf16 : ∀ d0 : Dev nD, (Rect.unit (s := S1024x1024) (k0_off8 d0) S256x512.size (k0_off8_inb d0)).WholeWords (EltTy.packing .bf16)
  k0_dev4_lt : ∀ d0 : Dev nD, (k0_dev4 d0) < nD
  k0_off9_inb : ∀ d0 : Dev nD, ∀ a, (k0_off9 d0) a + S256x512.size a ≤ S1024x1024.size a
  k0_off9_packedbf16 : ∀ d0 : Dev nD, (Rect.unit (s := S1024x1024) (k0_off9 d0) S256x512.size (k0_off9_inb d0)).PackedRows (EltTy.packing .bf16)
  k0_off10_inb : ∀ d0 : Dev nD, ∀ a, (k0_off10 d0) a + S256x512.size a ≤ S1024x1024.size a
  k0_off10_wordsbf16 : ∀ d0 : Dev nD, (Rect.unit (s := S1024x1024) (k0_off10 d0) S256x512.size (k0_off10_inb d0)).WholeWords (EltTy.packing .bf16)
  k0_dev5_lt : ∀ d0 : Dev nD, (k0_dev5 d0) < nD
  k0_off11_inb : ∀ d0 : Dev nD, ∀ a, (k0_off11 d0) a + S256x512.size a ≤ S1024x1024.size a
  k0_off11_packedbf16 : ∀ d0 : Dev nD, (Rect.unit (s := S1024x1024) (k0_off11 d0) S256x512.size (k0_off11_inb d0)).PackedRows (EltTy.packing .bf16)
  k0_off12_inb : ∀ d0 : Dev nD, ∀ a, (k0_off12 d0) a + S256x512.size a ≤ S1024x1024.size a
  k0_off12_wordsbf16 : ∀ d0 : Dev nD, (Rect.unit (s := S1024x1024) (k0_off12 d0) S256x512.size (k0_off12_inb d0)).WholeWords (EltTy.packing .bf16)
  k0_dev6_lt : ∀ d0 : Dev nD, (k0_dev6 d0) < nD
  k0_off13_inb : ∀ d0 : Dev nD, ∀ a, (k0_off13 d0) a + S256x1024.size a ≤ S1024x1024.size a
  k0_off14_inb : ∀ d0 : Dev nD, ∀ a, (k0_off14 d0) a + S256x2048.size a ≤ S1024x2048.size a
  k0_off14_packedbf16 : ∀ d0 : Dev nD, (Rect.unit (s := S1024x2048) (k0_off14 d0) S256x2048.size (k0_off14_inb d0)).PackedRows (EltTy.packing .bf16)
  k0_off15_inb : ∀ d0 : Dev nD, ∀ a, (k0_off15 d0) a + S256x512.size a ≤ S1024x1024.size a
  k0_off15_packedbf16 : ∀ d0 : Dev nD, (Rect.unit (s := S1024x1024) (k0_off15 d0) S256x512.size (k0_off15_inb d0)).PackedRows (EltTy.packing .bf16)
  k0_off16_inb : ∀ d0 : Dev nD, ∀ a, (k0_off16 d0) a + S256x1024.size a ≤ S1024x1024.size a
  k0_off17_inb : ∀ d0 : Dev nD, ∀ a, (k0_off17 d0) a + S256x2048.size a ≤ S1024x2048.size a
  k0_off17_packedbf16 : ∀ d0 : Dev nD, (Rect.unit (s := S1024x2048) (k0_off17 d0) S256x2048.size (k0_off17_inb d0)).PackedRows (EltTy.packing .bf16)
  k0_off18_inb : ∀ d0 : Dev nD, ∀ a, (k0_off18 d0) a + S256x512.size a ≤ S1024x1024.size a
  k0_off18_packedbf16 : ∀ d0 : Dev nD, (Rect.unit (s := S1024x1024) (k0_off18 d0) S256x512.size (k0_off18_inb d0)).PackedRows (EltTy.packing .bf16)
  k0_off19_inb : ∀ d0 : Dev nD, ∀ a, (k0_off19 d0) a + S256x512.size a ≤ S1024x1024.size a
  k0_off19_wordsbf16 : ∀ d0 : Dev nD, (Rect.unit (s := S1024x1024) (k0_off19 d0) S256x512.size (k0_off19_inb d0)).WholeWords (EltTy.packing .bf16)
  k0_dev7_lt : ∀ d0 : Dev nD, (k0_dev7 d0) < nD
  k0_off20_inb : ∀ d0 : Dev nD, ∀ a, (k0_off20 d0) a + S256x512.size a ≤ S1024x1024.size a
  k0_off20_wordsbf16 : ∀ d0 : Dev nD, (Rect.unit (s := S1024x1024) (k0_off20 d0) S256x512.size (k0_off20_inb d0)).WholeWords (EltTy.packing .bf16)
  k0_dev8_lt : ∀ d0 : Dev nD, (k0_dev8 d0) < nD
  k0_off21_inb : ∀ d0 : Dev nD, ∀ a, (k0_off21 d0) a + S256x512.size a ≤ S1024x1024.size a
  k0_off21_packedbf16 : ∀ d0 : Dev nD, (Rect.unit (s := S1024x1024) (k0_off21 d0) S256x512.size (k0_off21_inb d0)).PackedRows (EltTy.packing .bf16)
  k0_off22_inb : ∀ d0 : Dev nD, ∀ a, (k0_off22 d0) a + S256x512.size a ≤ S1024x1024.size a
  k0_off22_packedbf16 : ∀ d0 : Dev nD, (Rect.unit (s := S1024x1024) (k0_off22 d0) S256x512.size (k0_off22_inb d0)).PackedRows (EltTy.packing .bf16)
  k0_off23_inb : ∀ d0 : Dev nD, ∀ a, (k0_off23 d0) a + S256x512.size a ≤ S1024x1024.size a
  k0_off23_wordsbf16 : ∀ d0 : Dev nD, (Rect.unit (s := S1024x1024) (k0_off23 d0) S256x512.size (k0_off23_inb d0)).WholeWords (EltTy.packing .bf16)
  k0_dev9_lt : ∀ d0 : Dev nD, (k0_dev9 d0) < nD
  k0_off24_inb : ∀ d0 : Dev nD, ∀ a, (k0_off24 d0) a + S256x512.size a ≤ S1024x1024.size a
  k0_off24_wordsbf16 : ∀ d0 : Dev nD, (Rect.unit (s := S1024x1024) (k0_off24 d0) S256x512.size (k0_off24_inb d0)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch2 : DmaSems sig S2x3x2 := SemArray.consecutive 4 S2x3x2 hcc0_scratch2
abbrev cc0_scratch3 : DmaSems sig S2x3x2 := SemArray.consecutive 16 S2x3x2 hcc0_scratch3
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S_, .f32⟩
  | .hbm, ⟨5, _⟩ => ⟨S1024x8192, .f32⟩
  | .hbm, ⟨6, _⟩ => ⟨S1024x8192, .f32⟩
  | .hbm, ⟨7, _⟩ => ⟨S1024x1024, .f32⟩
  | .hbm, ⟨8, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S1024x8192 : S_.BroadcastsInDim S1024x8192 (![] : Fin 0 → Fin S1024x8192.rank)
  bitsLt_bf16_f32 : FTy.bits .bf16 < FTy.bits .f32
  dot_S1024x1024_S1024x8192_S1024x8192_1_0_0_1_n_n_wf : DotDims.WF S1024x1024 S1024x8192 S1024x8192 [1] [0] [0] [1] [] []
  dot_S1024x8192_S8192x1024_S1024x1024_1_0_0_1_n_n_wf : DotDims.WF S1024x8192 S8192x1024 S1024x1024 [1] [0] [0] [1] [] []

variable [Facts₀]

def dot_S1024x1024_S1024x8192_S1024x8192_1_0_0_1_n_n : DotDims S1024x1024 S1024x8192 S1024x8192 where
  lhsContracting := [1]
  rhsContracting := [0]
  lhsNonContracting := [0]
  rhsNonContracting := [1]
  lhsBatch := []
  rhsBatch := []
  wf := dot_S1024x1024_S1024x8192_S1024x8192_1_0_0_1_n_n_wf
def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf

class Facts : Prop extends Facts₀ where

variable [Facts]
-- ==== Proof.KernelIdeal.Spec.lean ====
/-
  The values, as functions of the arguments: device e's partial product of row quarter q and column half c, the
  first and second butterfly sums, and the tile a device ends holding.
-/
import proofs.«900576_g7700000000000577_dist_mlp2_tp_i_m1024_h2048_out1024_v7x_i4_bf16_1_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

def pA (d : Dev nD) : Dev nD := ⟨d.val ^^^ 1, by revert d; decide⟩

def pB (d : Dev nD) : Dev nD := ⟨3 - d.val, by revert d; decide⟩

def partner (s : Fin 3) (b : Fin 2) (d : Dev nD) : Dev nD := if (s = 1) = (b = 0) then pB d else pA d

def keepQ (b : Fin 2) (d : Dev nD) : Fin 4 :=
  if b = 0 then (if d.val = 1 ∨ d.val = 2 then 1 else 0) else ⟨2 + d.val / 2, by revert d; decide⟩

def sendQ (b : Fin 2) (d : Dev nD) : Fin 4 :=
  if b = 0 then (if d.val = 1 ∨ d.val = 2 then 0 else 1) else ⟨3 - d.val / 2, by revert d; decide⟩

theorem partner_invol (s : Fin 3) (b : Fin 2) (d : Dev nD) : partner s b (partner s b d) = d := by
  revert s b d; decide
theorem keepQ_partner0 (b : Fin 2) (d : Dev nD) : keepQ b (partner 0 b d) = sendQ b d := by revert b d; decide
theorem keepQ_partner1 (b : Fin 2) (d : Dev nD) : keepQ b (partner 1 b d) = keepQ b d := by revert b d; decide
theorem keepQ_partner2 (b : Fin 2) (d : Dev nD) : keepQ b (partner 2 b d) = sendQ b d := by revert b d; decide

def rowsQ (q : Fin 4) (x : Vec F S1024x1024 .f32) : Vec F S256x1024 .f32 :=
  fun i => x (ix2 (n0 := 1024) (n1 := 1024) ⟨256 * q.val + (i 0).val, by have h0 : (i 0).val < 256 := idx2_lt0 i; have := q.isLt; omega⟩ (i 1))

def hid (w1 : Vec F S1024x2048 .f32) (xq : Vec F S256x1024 .f32) : Vec F S256x2048 .bf16 := k0_pay5 (k0_pay1 w1) xq

def part (c : Fin 2) (w2 : Vec F S2048x1024 .f32) (h : Vec F S256x2048 .bf16) : Vec F S256x512 .bf16 :=
  if c = 0 then k0_pay6 (k0_pay2 w2) h else k0_pay7 (k0_pay2 w2) h

def inSlot (v : Vec F S256x512 .bf16) : Vec F S1x1x1x256x512 .bf16 := fun i => v (ix2 (n0 := 256) (n1 := 512) (i 3) (i 4))

def plus (a r : Vec F S256x512 .bf16) : Vec F S256x512 .bf16 := k0_pay13 a (inSlot r)

structure Args (F : FTy → Type) where
  x : Dev nD → Vec F S1024x1024 .f32
  w1 : Dev nD → Vec F S1024x2048 .f32
  w2 : Dev nD → Vec F S2048x1024 .f32

variable (A : Args F)

def partial_ (e : Dev nD) (q : Fin 4) (c : Fin 2) : Vec F S256x512 .bf16 := part c (A.w2 e) (hid (A.w1 e) (rowsQ q (A.x e)))

def afterFirst (d : Dev nD) (c b : Fin 2) : Vec F S256x512 .bf16 :=
  plus (partial_ A d (keepQ b d) c) (partial_ A (partner 0 b d) (keepQ b d) c)

def afterSecond (d : Dev nD) (c b : Fin 2) : Vec F S256x512 .bf16 :=
  plus (afterFirst A d c b) (afterFirst A (partner 1 b d) c b)

def tile (d : Dev nD) (q : Fin 4) (c : Fin 2) : Vec F S256x512 .bf16 :=
  if q = keepQ 0 d then afterSecond A d c 0
  else if q = keepQ 1 d then afterSecond A d c 1
  else if q = sendQ 0 d then afterSecond A (partner 2 0 d) c 0
  else afterSecond A (partner 2 1 d) c 1

def result (d : Dev nD) : Vec F S1024x1024 .bf16 := fun i =>
  tile A d ⟨(i 0).val / 256, by have h0 : (i 0).val < 1024 := idx2_lt0 i; omega⟩ ⟨(i 1).val / 512, by have h1 : (i 1).val < 1024 := idx2_lt1 i; omega⟩
    (ix2 (n0 := 256) (n1 := 512) ⟨(i 0).val % 256, Nat.mod_lt _ (by decide)⟩ ⟨(i 1).val % 512, Nat.mod_lt _ (by decide)⟩)

end Cert.KernelIdeal.Spec

end
-- ==== Proof.BridgePartial.lean ====
/-
  A device's partial at an index: both matrix products read as sums, the rectifier as a maximum with zero, a
  butterfly step as the sum of two entries.
-/
import proofs.«900576_g7700000000000577_dist_mlp2_tp_i_m1024_h2048_out1024_v7x_i4_bf16_1_alg».proof.Proof.KernelIdeal.Spec
import Idealize.ShloMosaic.Lib.ValueLayout
import Idealize.ShloMosaic.PureOps.Ideal.Laws

noncomputable section

open scoped BigOperators

namespace Cert.Bridge

open Idealize.ShloMosaic Idealize.ShloMosaic.ValueIdx Cert.KernelIdeal Cert.KernelIdeal.Gen Cert.KernelIdeal.Spec

theorem lhs_hid_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_hid_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_hid_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_hid_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

theorem matmul_hid_apply (a : FVec Ideal S256x1024 .bf16) (b : FVec Ideal S1024x2048 .bf16) (i : Fin 256) (k : Fin 2048) :
    matmul dot_S256x1024_S1024x2048_S256x2048_1_0_0_1_n_n none a b (constant S256x2048 .f32 0x00000000#32) (ix2 i k)
      = ∑ l : Fin 1024, a (ix2 i l) * b (ix2 l k) := by
  simp only [matmul]
  rw [Ideal.matmul_constant_zero_apply, ← Equiv.sum_comp (contrEquiv1 dot_S256x1024_S1024x2048_S256x2048_1_0_0_1_n_n 1024 rfl rfl).symm]
  refine Finset.sum_congr rfl fun l _ => ?_
  have hk := contrEquiv1_symm_val dot_S256x1024_S1024x2048_S256x2048_1_0_0_1_n_n 1024 rfl rfl l
  have el : dot_S256x1024_S1024x2048_S256x2048_1_0_0_1_n_n.lhsIdx (ix2 i k) ((contrEquiv1 dot_S256x1024_S1024x2048_S256x2048_1_0_0_1_n_n 1024 rfl rfl).symm l) = ix2 i l := funext fun a => Fin.ext (by
    match a with
    | ⟨0, _⟩ => exact lhs_hid_0 _ _
    | ⟨1, _⟩ => exact (lhs_hid_1 _ _).trans hk)
  have er : dot_S256x1024_S1024x2048_S256x2048_1_0_0_1_n_n.rhsIdx (ix2 i k) ((contrEquiv1 dot_S256x1024_S1024x2048_S256x2048_1_0_0_1_n_n 1024 rfl rfl).symm l) = ix2 l k := funext fun a => Fin.ext (by
    match a with
    | ⟨0, _⟩ => exact (rhs_hid_0 _ _).trans hk
    | ⟨1, _⟩ => exact rhs_hid_1 _ _)
  rw [el, er]

theorem lhs_out_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_out_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_out_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_out_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

theorem matmul_out_apply (a : FVec Ideal S256x2048 .bf16) (b : FVec Ideal S2048x512 .bf16) (i : Fin 256) (j : Fin 512) :
    matmul dot_S256x2048_S2048x512_S256x512_1_0_0_1_n_n none a b (constant S256x512 .f32 0x00000000#32) (ix2 i j)
      = ∑ k : Fin 2048, a (ix2 i k) * b (ix2 k j) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 i j) ((contrEquiv1 dot_S256x2048_S2048x512_S256x512_1_0_0_1_n_n 2048 rfl rfl).symm k) = ix2 i k := funext fun a => Fin.ext (by
    match a with
    | ⟨0, _⟩ => exact lhs_out_0 _ _
    | ⟨1, _⟩ => exact (lhs_out_1 _ _).trans hk)
  have er : dot_S256x2048_S2048x512_S256x512_1_0_0_1_n_n.rhsIdx (ix2 i j) ((contrEquiv1 dot_S256x2048_S2048x512_S256x512_1_0_0_1_n_n 2048 rfl rfl).symm k) = ix2 k j := funext fun a => Fin.ext (by
    match a with
    | ⟨0, _⟩ => exact (rhs_out_0 _ _).trans hk
    | ⟨1, _⟩ => exact rhs_out_1 _ _)
  rw [el, er]

theorem pay1_eq (w1 : Vec Ideal S1024x2048 .f32) : k0_pay1 (F := Ideal) w1 = fun i => w1 i := by
  unfold k0_pay1
  simp only [shapeCast_self]
  rfl

theorem pay2_eq (w2 : Vec Ideal S2048x1024 .f32) : k0_pay2 (F := Ideal) w2 = fun i => w2 i := by
  unfold k0_pay2
  simp only [shapeCast_self]
  rfl

theorem hid_apply (w1 : Vec Ideal S1024x2048 .f32) (xq : Vec Ideal S256x1024 .f32) (i : Fin 256) (k : Fin 2048) :
    hid (F := Ideal) w1 xq (ix2 i k)
      = max (∑ l : Fin 1024, xq (ix2 i l) * w1 (ix2 l k)) (Ideal.ofBits .f32 0x00000000#32) := by
  unfold hid
  rw [pay1_eq]
  unfold k0_pay5
  simp only [shapeCast_self]
  show max (matmul (F := Ideal) dot_S256x1024_S1024x2048_S256x2048_1_0_0_1_n_n none _ _ (constant (F := Ideal) S256x2048 .f32 0x00000000#32) (ix2 i k)) _ = _
  rw [matmul_hid_apply]
  rfl

theorem part_apply (c : Fin 2) (w2 : Vec Ideal S2048x1024 .f32) (h : FVec Ideal S256x2048 .bf16) (i : Fin 256) (j : Fin 512) :
    part (F := Ideal) c w2 h (ix2 i j)
      = ∑ k : Fin 2048, h (ix2 i k) * w2 (ix2 k ⟨512 * c.val + j.val, by have := c.isLt; have := j.isLt; omega⟩) := by
  unfold part
  rw [pay2_eq]
  by_cases hc : c = 0
  · rw [if_pos hc]
    subst hc
    unfold k0_pay6
    show matmul (F := Ideal) dot_S256x2048_S2048x512_S256x512_1_0_0_1_n_n none h _ (constant (F := Ideal) S256x512 .f32 0x00000000#32) (ix2 i j) = _
    rw [matmul_out_apply]
    refine Finset.sum_congr rfl fun k _ => ?_
    exact congrArg (h (ix2 i k) * ·) (slice2_axis1_apply 0 _ _ k j ⟨512 * (0 : Fin 2).val + j.val, _⟩ (by simp))
  · rw [if_neg hc]
    obtain rfl : c = 1 := by revert hc; revert c; decide
    unfold k0_pay7
    show matmul (F := Ideal) dot_S256x2048_S2048x512_S256x512_1_0_0_1_n_n none h _ (constant (F := Ideal) S256x512 .f32 0x00000000#32) (ix2 i j) = _
    rw [matmul_out_apply]
    refine Finset.sum_congr rfl fun k _ => ?_
    exact congrArg (h (ix2 i k) * ·) (slice2_axis1_apply 512 _ _ k j ⟨512 * (1 : Fin 2).val + j.val, _⟩ (by simp))

theorem plus_apply (a r : FVec Ideal S256x512 .bf16) (i : Fin 256) (j : Fin 512) :
    plus (F := Ideal) a r (ix2 i j) = a (ix2 i j) + r (ix2 i j) := by
  unfold plus k0_pay13 inSlot
  simp only [shapeCast_self]
  show a (ix2 i j) + shapeCast S256x512 (fun i : S1x1x1x256x512.Idx => r (ix2 (i 3) (i 4))) shapeCasts_S1x1x1x256x512_S256x512 (ix2 i j) = _
  have hk : (S1x1x1x256x512.rowMajor (ix5 (0 : Fin 1) (0 : Fin 1) (0 : Fin 1) i j)).val = (S256x512.rowMajor (ix2 i j)).val := by
    rw [Shape.rowMajor_val_five, Shape.rowMajor_val_two]
    show (((0 * 1 + 0) * 1 + 0) * 256 + i.val) * 512 + j.val = i.val * 512 + j.val
    omega
  rw [shapeCast_apply _ _ (ix2 i j) (ix5 (0 : Fin 1) (0 : Fin 1) (0 : Fin 1) i j) hk]

def rowOf (q : Fin 4) (i : Fin 256) : Fin 1024 := ⟨256 * q.val + i.val, by have := q.isLt; have := i.isLt; omega⟩

def colOf (c : Fin 2) (j : Fin 512) : Fin 1024 := ⟨512 * c.val + j.val, by have := c.isLt; have := j.isLt; omega⟩

def partAt (x : Vec Ideal S1024x1024 .f32) (w1 : Vec Ideal S1024x2048 .f32) (w2 : Vec Ideal S2048x1024 .f32)
    (I J : Fin 1024) : EReal :=
  ∑ k : Fin 2048, max (∑ l : Fin 1024, x (ix2 I l) * w1 (ix2 l k)) (Ideal.ofBits .f32 0x00000000#32) * w2 (ix2 k J)

theorem partial_apply (A : Args Ideal) (e : Dev nD) (q : Fin 4) (c : Fin 2) (i : Fin 256) (j : Fin 512) :
    partial_ A e q c (ix2 i j) = partAt (A.x e) (A.w1 e) (A.w2 e) (rowOf q i) (colOf c j) := by
  unfold partial_ partAt
  rw [part_apply]
  refine Finset.sum_congr rfl fun k _ => ?_
  rw [hid_apply]
  rfl

end Cert.Bridge

end
-- ==== Proof.BridgeAlgebra.lean ====
/-
  A sum over n·b indices is the sum over n blocks of b; a sum over four indices may be taken as two pairs in any
  order.
-/
import Mathlib.Algebra.BigOperators.Fin
import Mathlib.Logic.Equiv.Fin.Basic

open scoped BigOperators

namespace Cert.Bridge

variable {M : Type*} [AddCommMonoid M]

def inBlock {N : Nat} (n b : Nat) (h : N = n * b) (e : Fin n) (k : Fin b) : Fin N :=
  ⟨e.val * b + k.val, by
    subst h
    calc e.val * b + k.val < e.val * b + b := Nat.add_lt_add_left k.isLt _
      _ = (e.val + 1) * b := (Nat.succ_mul _ _).symm
      _ ≤ n * b := Nat.mul_le_mul_right _ e.isLt⟩

@[simp] theorem inBlock_val {N : Nat} (n b : Nat) (h : N = n * b) (e : Fin n) (k : Fin b) :
    (inBlock n b h e k).val = e.val * b + k.val := rfl

theorem sum_blocks {N : Nat} (n b : Nat) (h : N = n * b) (f : Fin N → M) :
    ∑ k, f k = ∑ e : Fin n, ∑ k : Fin b, f (inBlock n b h e k) := by
  subst h
  rw [← Equiv.sum_comp (finProdFinEquiv (m := n) (n := b)) f, Fintype.sum_prod_type]
  refine Finset.sum_congr rfl fun e _ => Finset.sum_congr rfl fun k _ => congrArg f (Fin.ext ?_)
  show k.val + b * e.val = e.val * b + k.val
  rw [Nat.mul_comm, Nat.add_comm]

theorem sum_four_of_bijective (σ : Fin 4 → Fin 4) (hσ : Function.Bijective σ) (P : Fin 4 → M) :
    (P (σ 0) + P (σ 1)) + (P (σ 2) + P (σ 3)) = ∑ e, P e := by
  rw [← Function.Bijective.sum_comp hσ P, Fin.sum_univ_four, add_assoc, add_assoc, add_assoc]

end Cert.Bridge
-- ==== Proof.BridgeTile.lean ====
/-
  Each butterfly lane meets all four devices, so every tile of every device's result is the sum of the four
  partials.
-/
import proofs.«900576_g7700000000000577_dist_mlp2_tp_i_m1024_h2048_out1024_v7x_i4_bf16_1_alg».proof.Proof.BridgePartial
import proofs.«900576_g7700000000000577_dist_mlp2_tp_i_m1024_h2048_out1024_v7x_i4_bf16_1_alg».proof.Proof.BridgeAlgebra
import Mathlib.Data.Fintype.Basic

noncomputable section

open scoped BigOperators

namespace Cert.Bridge

open Idealize.ShloMosaic Idealize.ShloMosaic.ValueIdx Cert.KernelIdeal Cert.KernelIdeal.Gen Cert.KernelIdeal.Spec

def met (b : Fin 2) (d : Dev nD) : Fin 4 → Fin 4 :=
  ![d, partner 0 b d, partner 1 b d, partner 0 b (partner 1 b d)]

theorem met_bijective (b : Fin 2) (d : Dev nD) : Function.Bijective (met b d) := by
  revert b d; decide

theorem quarter_cases (d : Dev nD) (q : Fin 4) (h0 : ¬q = keepQ 0 d) (h1 : ¬q = keepQ 1 d) (h2 : ¬q = sendQ 0 d) :
    q = sendQ 1 d := by
  revert d q; decide

variable (A : Args Ideal)

def sumAt (I J : Fin 1024) : EReal := ∑ e : Dev nD, partAt (A.x e) (A.w1 e) (A.w2 e) I J

theorem afterSecond_apply (d : Dev nD) (c b : Fin 2) (i : Fin 256) (j : Fin 512) :
    afterSecond A d c b (ix2 i j) = sumAt A (rowOf (keepQ b d) i) (colOf c j) := by
  unfold afterSecond afterFirst
  simp only [plus_apply, partial_apply, keepQ_partner1]
  exact sum_four_of_bijective (met b d) (met_bijective b d)
    (fun e => partAt (A.x e) (A.w1 e) (A.w2 e) (rowOf (keepQ b d) i) (colOf c j))

theorem tile_apply (d : Dev nD) (q : Fin 4) (c : Fin 2) (i : Fin 256) (j : Fin 512) :
    tile A d q c (ix2 i j) = sumAt A (rowOf q i) (colOf c j) := by
  unfold tile
  by_cases h0 : q = keepQ 0 d
  · rw [if_pos h0, afterSecond_apply, ← h0]
  · rw [if_neg h0]
    by_cases h1 : q = keepQ 1 d
    · rw [if_pos h1, afterSecond_apply, ← h1]
    · rw [if_neg h1]
      by_cases h2 : q = sendQ 0 d
      · rw [if_pos h2, afterSecond_apply, keepQ_partner2, ← h2]
      · rw [if_neg h2, afterSecond_apply, keepQ_partner2, ← quarter_cases d q h0 h1 h2]

theorem result_apply (d : Dev nD) (I J : Fin 1024) : result A d (ix2 I J) = sumAt A I J := by
  unfold result
  rw [tile_apply]
  unfold sumAt
  refine Finset.sum_congr rfl fun e _ => ?_
  congr 1 <;> exact Fin.ext (Nat.div_add_mod _ _)

end Cert.Bridge

end
-- ==== Proof.BridgeRef.lean ====
/-
  The reference at an index: the same double sum with the hidden axis whole.
-/
import proofs.«900576_g7700000000000577_dist_mlp2_tp_i_m1024_h2048_out1024_v7x_i4_bf16_1_alg».proof.Proof.Gen.ReferenceIdeal.Run
import proofs.«900576_g7700000000000577_dist_mlp2_tp_i_m1024_h2048_out1024_v7x_i4_bf16_1_alg».proof.Proof.Gen.ReferenceIdeal.Read

noncomputable section

open scoped BigOperators

namespace Cert.Bridge

open Idealize.ShloMosaic Idealize.ShloMosaic.ValueIdx Cert.ReferenceIdeal Cert.ReferenceIdeal.Gen

def refAt (x : Vec Ideal S1024x1024 .f32) (W1 : Vec Ideal S1024x8192 .f32) (W2 : Vec Ideal S8192x1024 .f32)
    (I J : Fin 1024) : EReal :=
  ∑ k : Fin 8192, max (∑ l : Fin 1024, x (ix2 I l) * W1 (ix2 l k)) (Ideal.ofBits .f32 0x00000000#32) * W2 (ix2 k J)

theorem lidx_v0 (I : Fin 1024) (k : Fin 8192) (l : Fin 1024) :
    Read.lidx_main_v0 (ix2 I k) l = ix2 I l :=
  funext fun a => Fin.ext (by match a with | ⟨0, _⟩ => rfl | ⟨1, _⟩ => rfl)
theorem ridx_v0 (I : Fin 1024) (k : Fin 8192) (l : Fin 1024) :
    Read.ridx_main_v0 (ix2 I k) l = ix2 l k :=
  funext fun a => Fin.ext (by match a with | ⟨0, _⟩ => rfl | ⟨1, _⟩ => rfl)

theorem lidx_v3 (I J : Fin 1024) (k : Fin 8192) :
    Read.lidx_main_v3 (ix2 I J) k = ix2 I k :=
  funext fun a => Fin.ext (by match a with | ⟨0, _⟩ => rfl | ⟨1, _⟩ => rfl)
theorem ridx_v3 (I J : Fin 1024) (k : Fin 8192) :
    Read.ridx_main_v3 (ix2 I J) k = ix2 k J :=
  funext fun a => Fin.ext (by match a with | ⟨0, _⟩ => rfl | ⟨1, _⟩ => rfl)

theorem reference_apply (x : Vec Ideal S1024x1024 .f32) (W1 : Vec Ideal S1024x8192 .f32) (W2 : Vec Ideal S8192x1024 .f32)
    (I J : Fin 1024) :
    Read.val_main_v4 (F := Ideal) x W1 W2 (ix2 I J) = refAt x W1 W2 I J := by
  rw [Read.val_main_v4_apply, Read.val_main_v3_apply]
  show (∑ k : Fin 8192, _) = _
  unfold refAt
  refine Finset.sum_congr rfl fun k _ => ?_
  rw [lidx_v3, ridx_v3, Read.val_main_v2_apply, Read.val_main_v0_apply, Read.val_main_v1_apply, Read.val_main_cst_apply]
  simp only [lidx_v0, ridx_v0]
  rfl

end Cert.Bridge

end
-- ==== Proof.Bridge.lean ====
/-
  The sum of the four devices' partials is the reference's product, the hidden axis of 8192 being four consecutive
  blocks of 2048; with it the kernel's run gives the algebraic claim.
-/
import proofs.«900576_g7700000000000577_dist_mlp2_tp_i_m1024_h2048_out1024_v7x_i4_bf16_1_alg».proof.Defs
import proofs.«900576_g7700000000000577_dist_mlp2_tp_i_m1024_h2048_out1024_v7x_i4_bf16_1_alg».proof.Proof.BridgeTile
import proofs.«900576_g7700000000000577_dist_mlp2_tp_i_m1024_h2048_out1024_v7x_i4_bf16_1_alg».proof.Proof.BridgeRef
import proofs.«900576_g7700000000000577_dist_mlp2_tp_i_m1024_h2048_out1024_v7x_i4_bf16_1_alg».proof.Proof.Gen.Pre_finite_inputs_Kernel
import proofs.«900576_g7700000000000577_dist_mlp2_tp_i_m1024_h2048_out1024_v7x_i4_bf16_1_alg».proof.Proof.Gen.Pre_finite_inputs_ReferenceIdeal

noncomputable section

open scoped BigOperators

namespace Cert.Bridge

open Idealize.ShloMosaic Idealize.ShloMosaic.ValueIdx Idealize.SL.Sem Cert.KernelIdeal.Spec

def argsOf {F : FTy → Type} [FloatOps F]
    (m : (ℓ : Loc Cert.KernelIdeal.nD Cert.KernelIdeal.τ Cert.KernelIdeal.sig) → Buf (Elt F) ℓ) : Args F :=
  ⟨fun e => m ((e.tc : Thread Cert.KernelIdeal.nD Cert.KernelIdeal.τ).loc Cert.KernelIdeal.main_arg0),
   fun e => m ((e.tc : Thread Cert.KernelIdeal.nD Cert.KernelIdeal.τ).loc Cert.KernelIdeal.main_arg1),
   fun e => m ((e.tc : Thread Cert.KernelIdeal.nD Cert.KernelIdeal.τ).loc Cert.KernelIdeal.main_arg2)⟩

def refResult (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v4) :=
  Cert.ReferenceIdeal.Read.val_main_v4 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))

theorem block_w1_apply (W1 : Vec Ideal Cert.ReferenceIdeal.S1024x8192 .f32) (e : Fin 4) (l : Fin 1024) (k : Fin 2048)
    (t : Layout.Tiles ⟨2, ![1024, 2048]⟩ ⟨2, ![1024, 8192]⟩ 1 4) :
    Layout.block ⟨2, ![1024, 2048]⟩ ⟨2, ![1024, 8192]⟩ 1 4 e W1 t (ix2 l k) = W1 (ix2 l (inBlock 4 2048 rfl e k)) := by
  rw [Layout.block_apply]
  refine congrArg W1 (funext fun a => Fin.ext ?_)
  match a with
  | ⟨0, _⟩ => rfl
  | ⟨1, _⟩ => rfl

theorem block_w2_apply (W2 : Vec Ideal Cert.ReferenceIdeal.S8192x1024 .f32) (e : Fin 4) (k : Fin 2048) (J : Fin 1024)
    (t : Layout.Tiles ⟨2, ![2048, 1024]⟩ ⟨2, ![8192, 1024]⟩ 0 4) :
    Layout.block ⟨2, ![2048, 1024]⟩ ⟨2, ![8192, 1024]⟩ 0 4 e W2 t (ix2 k J) = W2 (ix2 (inBlock 4 2048 rfl e k) J) := by
  rw [Layout.block_apply]
  refine congrArg W2 (funext fun a => Fin.ext ?_)
  match a with
  | ⟨0, _⟩ => rfl
  | ⟨1, _⟩ => rfl

theorem sumAt_eq_refAt (A : Args Ideal) (x : Vec Ideal Cert.ReferenceIdeal.S1024x1024 .f32)
    (W1 : Vec Ideal Cert.ReferenceIdeal.S1024x8192 .f32) (W2 : Vec Ideal Cert.ReferenceIdeal.S8192x1024 .f32)
    (t1 : Layout.Tiles ⟨2, ![1024, 2048]⟩ ⟨2, ![1024, 8192]⟩ 1 4)
    (t2 : Layout.Tiles ⟨2, ![2048, 1024]⟩ ⟨2, ![8192, 1024]⟩ 0 4)
    (hx : ∀ e, A.x e = x)
    (h1 : ∀ e, A.w1 e = Layout.block ⟨2, ![1024, 2048]⟩ ⟨2, ![1024, 8192]⟩ 1 4 e W1 t1)
    (h2 : ∀ e, A.w2 e = Layout.block ⟨2, ![2048, 1024]⟩ ⟨2, ![8192, 1024]⟩ 0 4 e W2 t2)
    (I J : Fin 1024) : sumAt A I J = refAt x W1 W2 I J := by
  unfold sumAt refAt partAt
  rw [sum_blocks 4 2048 rfl]
  refine Finset.sum_congr rfl fun e _ => Finset.sum_congr rfl fun k _ => ?_
  have ew2 : A.w2 e (ix2 k J) = W2 (ix2 (inBlock 4 2048 rfl e k) J) := by
    rw [h2 e]; exact block_w2_apply W2 e k J t2
  have ew1 : ∀ l : Fin 1024, A.w1 e (ix2 l k) = W1 (ix2 l (inBlock 4 2048 rfl e k)) := fun l => by
    rw [h1 e]; exact block_w1_apply W1 e l k t1
  rw [ew2, hx e, Finset.sum_congr rfl (fun l _ => congrArg (x (ix2 I l) * ·) (ew1 l))]

theorem result_eq_reference
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2)))
    (c : Dev Cert.KernelIdeal.nD) :
    result (F := Ideal) (argsOf m) c = refResult m' := by
  funext i
  obtain ⟨I, J, rfl⟩ : ∃ (I : Fin 1024) (J : Fin 1024), i = ix2 I J := ⟨i 0, i 1, eq_ix2 i⟩
  rw [result_apply]
  unfold refResult
  rw [reference_apply]
  exact sumAt_eq_refAt (argsOf m) _ _ _ _ _ (fun e => (hagree e).1) (fun e => (hagree e).2.1) (fun e => (hagree e).2.2) I J

theorem frame_ReferenceIdeal_holds :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = result (F := Ideal) (argsOf m) c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) :=
  fun m g m' g' _ hagree => ⟨refResult m',
    (θ_run Cert.KernelIdeal.defs _ _).mono
      (fun _ h c => ⟨(h c).1.trans (result_eq_reference m m' hagree c), (h c).2⟩) (hrun m g),
    (θ_run Cert.ReferenceIdeal.defs _ _).mono
      (fun _ h => ⟨(h 0).1.trans (Cert.ReferenceIdeal.Read.val_main_v4_eq _ _ _), (h 0).2⟩)
      (Cert.ReferenceIdeal.Value.run (F := Ideal) m' g')⟩

end Cert.Bridge

end
-- ==== Proof.KernelIdeal.Sched.lean ====
/-
  The exchange as a schedule of one round. A device's barrier cell is paid one unit by each of its two neighbours;
  every transfer (column half, step, lane) has a send and a receive cell, each paid one tile's credit. A payment's
  payload says which tile or slot changes hands and what it holds.
-/
import proofs.«900576_g7700000000000577_dist_mlp2_tp_i_m1024_h2048_out1024_v7x_i4_bf16_1_alg».proof.Proof.KernelIdeal.Spec
import proofs.«900576_g7700000000000577_dist_mlp2_tp_i_m1024_h2048_out1024_v7x_i4_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

-- The two spellings of the separating conjunction are one.
theorem sep_fold (P Q : sProp 𝕄) : BI.sep P Q = iprop(P ∗ Q) := rfl
-- Re-association as an equation, so that conjunctions can be flattened by rewriting.
theorem sep_assoc_eq (P Q R : sProp 𝕄) : iprop((P ∗ Q) ∗ R) = iprop(P ∗ Q ∗ R) := BI.equiv_iff.mp ⟨BI.sep_assoc, BI.sep_assoc'⟩

variable (m : (ℓ : Loc nD τ sig) → Buf (Elt F) ℓ) (ρ : Dev nD → PrngReg)

abbrev sendSem (c : Fin 2) (s : Fin 3) (b : Fin 2) : DmaSem sig := ⟨4 + (c.val * 6 + s.val * 2 + b.val), by have := c.isLt; have := s.isLt; have := b.isLt; show _ < 28; omega⟩

abbrev recvSem (c : Fin 2) (s : Fin 3) (b : Fin 2) : DmaSem sig := ⟨16 + (c.val * 6 + s.val * 2 + b.val), by have := c.isLt; have := s.isLt; have := b.isLt; show _ < 28; omega⟩

abbrev barS : Sem sig := (SemArray.scalar (sig.barrier 0 rfl) : Sems sig S_).sem

abbrev barCell (d : Dev nD) : GSem nD τ sig := ((d : Thread nD τ), .reg barS)
abbrev sendCell (d : Dev nD) (c : Fin 2) (s : Fin 3) (b : Fin 2) : GSem nD τ sig := ((d : Thread nD τ), .dma (sendSem c s b))
abbrev recvCell (d : Dev nD) (c : Fin 2) (s : Fin 3) (b : Fin 2) : GSem nD τ sig := ((d : Thread nD τ), .dma (recvSem c s b))

abbrev outM : Memref sig .tc .vmem S1024x1024 .bf16 := Memref.whole cc0_stg3_0
abbrev hidM : Memref sig .tc .vmem S1024x2048 .bf16 := Memref.whole cc0_scratch0
abbrev rbM : Memref sig .tc .vmem S2x2x2x256x512 .bf16 := Memref.whole cc0_scratch1

theorem tile_inb (q : Fin 4) (c : Fin 2) : ∀ a, (![256 * q.val, 512 * c.val] : Fin 2 → Nat) a + S256x512.size a ≤ S1024x1024.size a := by
  revert q c; decide
theorem slot_inb (c s b : Fin 2) : ∀ a, (![c.val, s.val, b.val, 0, 0] : Fin 5 → Nat) a + S1x1x1x256x512.size a ≤ S2x2x2x256x512.size a := by
  revert c s b; decide

abbrev tileR (q : Fin 4) (c : Fin 2) : Rect S1024x1024 := Rect.unit (s := S1024x1024) ![256 * q.val, 512 * c.val] S256x512.size (tile_inb q c)

abbrev tileM (q : Fin 4) (c : Fin 2) : Memref sig .tc .vmem S256x512 .bf16 := outM.slice (tileR q c) (fun _ => rfl)

abbrev slotR (c s b : Fin 2) : Rect S2x2x2x256x512 := Rect.unit (s := S2x2x2x256x512) ![c.val, s.val, b.val, 0, 0] S1x1x1x256x512.size (slot_inb c s b)

abbrev slotM (c s b : Fin 2) : Memref sig .tc .vmem S256x512 .bf16 :=
  (rbM.slice (slotR c s b) (fun _ => rfl)).squeeze S256x512 squeezes_S1x1x1x256x512_S256x512

theorem hidq_inb (q : Fin 4) : ∀ a, (![256 * q.val, 0] : Fin 2 → Nat) a + S256x2048.size a ≤ S1024x2048.size a := by
  revert q; decide

abbrev hidR (q : Fin 4) : Rect S1024x2048 := Rect.unit (s := S1024x2048) ![256 * q.val, 0] S256x2048.size (hidq_inb q)
abbrev hidQM (q : Fin 4) : Memref sig .tc .vmem S256x2048 .bf16 := hidM.slice (hidR q) (fun _ => rfl)

abbrev N : ℕ := (tileM 0 0).view.dmaCredit

def argsOf : Spec.Args F :=
  ⟨fun e => m ((e : Thread nD τ).loc main_arg0), fun e => m ((e : Thread nD τ).loc main_arg1), fun e => m ((e : Thread nD τ).loc main_arg2)⟩

abbrev tileOwns (d : Dev nD) (q : Fin 4) (c : Fin 2) (v : Vec F S256x512 .bf16) : sProp 𝕄 :=
  owns (d : Thread nD τ) (tileM q c) fullShare v

abbrev slotOwns (d : Dev nD) (c s b : Fin 2) (v : Vec F S256x512 .bf16) : sProp 𝕄 :=
  owns (d : Thread nD τ) (slotM c s b) fullShare v

abbrev hidOwns (d : Dev nD) (q : Fin 4) (v : Vec F S256x2048 .bf16) : sProp 𝕄 :=
  owns (d : Thread nD τ) (hidQM q) fullShare v

abbrev slotAny (d : Dev nD) (c s b : Fin 2) : sProp 𝕄 := iprop(∃ v, slotOwns (F := F) d c s b v)

def laneOf (dty : Bool) : Fin 2 := if dty then 1 else 0
def nbr (dty : Bool) (d : Dev nD) : Dev nD := if dty then pB d else pA d

def barPay (d : Dev nD) (dty : Bool) : sProp 𝕄 :=
  iprop(slotAny (F := F) (nbr dty d) 0 0 (laneOf dty) ∗ slotAny (F := F) (nbr dty d) 1 0 (laneOf dty)
    ∗ slotAny (F := F) (nbr dty d) 0 1 (laneOf (!dty)) ∗ slotAny (F := F) (nbr dty d) 1 1 (laneOf (!dty)))

def sendPay (d : Dev nD) (c : Fin 2) (s : Fin 3) (b : Fin 2) : sProp 𝕄 :=
  if s = 0 then iprop(emp)
  else if s = 1 then tileOwns d (keepQ b d) c (afterFirst (argsOf m) d c b)
  else tileOwns d (keepQ b d) c (afterSecond (argsOf m) d c b)

def recvPay (d : Dev nD) (c : Fin 2) (s : Fin 3) (b : Fin 2) : sProp 𝕄 :=
  if s = 0 then
    iprop(slotOwns d c 0 b (partial_ (argsOf m) (partner 0 b d) (keepQ b d) c)
      ∗ tileOwns (partner 0 b d) (keepQ b d) c (partial_ (argsOf m) (partner 0 b d) (keepQ b d) c))
  else if s = 1 then slotOwns d c 1 b (afterFirst (argsOf m) (partner 1 b d) c b)
  else tileOwns d (sendQ b d) c (afterSecond (argsOf m) (partner 2 b d) c b)

def decC (n : ℕ) : Fin 2 := ⟨((n - 4) % 12) / 6, by omega⟩
def decS (n : ℕ) : Fin 3 := ⟨(((n - 4) % 12) % 6) / 2, by omega⟩
def decB (n : ℕ) : Fin 2 := ⟨((n - 4) % 12) % 2, by omega⟩

def dmaPay (d : Dev nD) (n : ℕ) : sProp 𝕄 :=
  if n < 4 then iprop(emp) else if n < 16 then sendPay m d (decC n) (decS n) (decB n) else recvPay m d (decC n) (decS n) (decB n)

abbrev IsBar (g : GSem nD τ sig) : Prop := g.1.2 = .tc ∧ g.2 = .reg barS
def isXfer (g : GSem nD τ sig) : Prop := g.1.2 = .tc ∧ ∃ q : DmaSem sig, g.2 = .dma q ∧ 4 ≤ q.val
instance (g : GSem nD τ sig) : Decidable (isXfer g) := by unfold isXfer; infer_instance

def cellPay (g : GSem nD τ sig) (dty : Bool) : sProp 𝕄 :=
  match g.2 with
  | .reg _ => barPay g.1.1 dty
  | .dma q => dmaPay m g.1.1 q.val

theorem N_pos : 0 < N := View.dmaCredit_pos _ (by decide)

def rd : Rounds.Schedule (GSem nD τ sig) Bool 𝕄 where
  duties g r := if r = 0 ∧ IsBar g then Finset.univ else if r = 0 ∧ isXfer g then {false} else ∅
  unitless _ := False
  amount g _ _ := if g.2 = .reg barS then 1 else N
  payload g _ d := cellPay m g d
  amount_pos g _ _ _ := by
    by_cases h : g.2 = .reg barS
    · rw [if_pos h]; exact Nat.one_pos
    · rw [if_neg h]; exact N_pos

end Cert.KernelIdeal.Coll

end
-- ==== Proof.KernelIdeal.Data.lean ====
/-
  What a device owes its partners at launch, the levels that order the waits, and the body's pre- and
  postcondition.
-/
import proofs.«900576_g7700000000000577_dist_mlp2_tp_i_m1024_h2048_out1024_v7x_i4_bf16_1_alg».proof.Proof.KernelIdeal.Sched

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev Xf : Type := Fin 2 × Fin 3 × Fin 2

def sends : List Xf := [(0,0,0),(0,0,1),(1,0,0),(1,0,1),(0,1,0),(0,1,1),(1,1,0),(1,1,1),(0,2,0),(0,2,1),(1,2,0),(1,2,1)]

abbrev sendCellX (d : Dev nD) (x : Xf) : GSem nD τ sig := sendCell d x.1 x.2.1 x.2.2
abbrev recvCellX (d : Dev nD) (x : Xf) : GSem nD τ sig := recvCell d x.1 x.2.1 x.2.2

abbrev peerX (d : Dev nD) (x : Xf) : Dev nD := partner x.2.1 x.2.2 d

def oweT (d : Dev nD) (x : Xf) : CellTallies nD τ sig Unit := tallyAt (recvCellX (peerX d x) x) () N
def oweL (d : Dev nD) (l : List Xf) : CellTallies nD τ sig Unit := (l.map (oweT d)).sum

def O₁ (d : Dev nD) : CellTallies nD τ sig Unit := oweL d sends + tallyAt (barCell (pB d)) () 1
def O₀ (d : Dev nD) : CellTallies nD τ sig Unit := O₁ d + tallyAt (barCell (pA d)) () 1

def L (g : GSem nD τ sig) : Finset Unit := if g.1.2 = .tc then {()} else ∅

def lv (g : GSem nD τ sig) (_ : Unit) : ℕ :=
  match g.2 with
  | .reg _ => 1
  | .dma q => if 16 ≤ q.val then 2 + (decS q.val).val else 0

abbrev csem (k : Fin 25) : SemLoc sig := if k.val = 0 then .reg barS else .dma ⟨k.val + 3, by have := k.isLt; show _ < 28; omega⟩
abbrev kcell (ck : Dev nD × Fin 25) : GSem nD τ sig := ((ck.1 : Thread nD τ), csem ck.2)

def records (K : Dev nD × Fin 25 → ℕ) : sProp 𝕄 :=
  iprop((bigSep Finset.univ fun ck : Dev nD × Fin 25 => cellInv ER (rd m) (K ck) (kcell ck))
    ∗ bigSep Finset.univ fun ck : Dev nD × Fin 25 => reached ER (kcell ck) 0)

def payToks (d : Dev nD) : sProp 𝕄 :=
  iprop(dutyTok ER (barCell (pA d)) 0 false ∗ dutyTok ER (barCell (pB d)) 0 true
    ∗ bigSepL sends fun x => iprop(dutyTok ER (recvCellX (peerX d x) x) 0 false ∗ dutyTok ER (sendCellX d x) 0 false))

def positions (d : Dev nD) : sProp 𝕄 :=
  iprop(atPos ER (barCell d) 0 ∅ 0 ∗ bigSepL sends fun x => iprop(atPos ER (sendCellX d x) 0 ∅ 0 ∗ atPos ER (recvCellX d x) 0 ∅ 0))

def ghost (K : Dev nD × Fin 25 → ℕ) (d : Dev nD) : sProp 𝕄 := iprop(records m K ∗ positions d ∗ payToks d)

def creds (d : Dev nD) : sProp 𝕄 :=
  iprop(cred (tallyAt (barCell d) () 2) ∗ bigSepL sends fun x => cred (tallyAt (recvCellX d x) () N))

def start (d : Dev nD) : sProp 𝕄 := iprop((∃ K, ghost m K d) ∗ creds d ∗ levAts L lv)

def scratch (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f))

def Φ₀ (d : Dev nD) : sProp 𝕄 := iprop(start m d ∗ scratch d)

def Φ₁ (d : Dev nD) : sProp 𝕄 :=
  iprop(scratch d ∗ bigSepL sends fun x => iprop(semVal (sendCellX d x) 0 ∗ semVal (recvCellX d x) 0))

def xstg (d : Dev nD) : (cc0_stg0_0 : Ref sig .tc).ty.Contents (Elt F) :=
  (win0_0.blk (0 : Fin 1)).view.read (Elt F) (m ((d : Thread nD τ).loc main_arg0))
def w1stg (d : Dev nD) : (cc0_stg1_0 : Ref sig .tc).ty.Contents (Elt F) :=
  (win0_1.blk (0 : Fin 1)).view.read (Elt F) (m ((d : Thread nD τ).loc main_arg1))
def w2stg (d : Dev nD) : (cc0_stg2_0 : Ref sig .tc).ty.Contents (Elt F) :=
  (win0_2.blk (0 : Fin 1)).view.read (Elt F) (m ((d : Thread nD τ).loc main_arg2))

def outAt (d : Dev nD) : (cc0_stg3_0 : Ref sig .tc).ty.Contents (Elt F) := Spec.result (argsOf m) d

def dats (_ : Fin 1) (d : Dev nD) : Dat τ (Elt F) Unit ℕ UU ℕ cfg0 d where
  A w := (s₀ m ρ).mem ((cfg0.win w).arr.view.loc (d : Thread nD τ))
  after w _ := match w with
    | ⟨0, _⟩ => xstg m d
    | ⟨1, _⟩ => w1stg m d
    | ⟨2, _⟩ => w2stg m d
    | ⟨3, _⟩ => outAt m d
  Φ t := match t with
    | ⟨0, _⟩ => Φ₀ m d
    | ⟨_ + 1, _⟩ => Φ₁ d
  q _ := fullShare
  owed t := match t with
    | ⟨0, _⟩ => O₀ d
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (d : Dev nD) (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

def bodyPre (K : Dev nD × Fin 25 → ℕ) (d : Dev nD) : sProp 𝕄 :=
  iprop((ghost m K d ∗ creds d ∗ levAts L lv ∗ scratch d)
    ∗ (dats m ρ 0 d).owesAt () t₀.castSucc
    ∗ (∃ e, stg d cc0_stg0_0 ((dats m ρ 0 d).before (0 : Fin 4) t₀ e))
    ∗ (∃ e, stg d cc0_stg1_0 ((dats m ρ 0 d).before (1 : Fin 4) t₀ e))
    ∗ (∃ e, stg d cc0_stg2_0 ((dats m ρ 0 d).before (2 : Fin 4) t₀ e))
    ∗ (∃ e, stg d cc0_stg3_0 ((dats m ρ 0 d).before (3 : Fin 4) t₀ e)))

def bodyPost (d : Dev nD) : sProp 𝕄 :=
  iprop(Φ₁ d ∗ (dats m ρ 0 d).owesAt () t₀.succ ∗ stg d cc0_stg0_0 (xstg m d) ∗ stg d cc0_stg1_0 (w1stg m d)
    ∗ stg d cc0_stg2_0 (w2stg m d) ∗ stg d cc0_stg3_0 (outAt m d))

-- A function of the body's six buffers and two semaphore arrays, at the buffers the body is run on.
abbrev atBufs {β : Sort _} (f : (a0 : Memref sig .tc .vmem S1024x1024 .f32) → a0.IsWhole → (a1 : Memref sig .tc .vmem S1024x2048 .f32) → a1.IsWhole
    → (a2 : Memref sig .tc .vmem S2048x1024 .f32) → a2.IsWhole → (a3 : Memref sig .tc .vmem S1024x1024 .bf16) → a3.IsWhole
    → (a4 : Memref sig .tc .vmem S1024x2048 .bf16) → a4.IsWhole → (a5 : Memref sig .tc .vmem S2x2x2x256x512 .bf16) → a5.IsWhole
    → DmaSems sig S2x3x2 → DmaSems sig S2x3x2 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) cc0_scratch2 cc0_scratch3

abbrev theBody : Prog (TpuEff nD τ sig (Elt F) Λ₀ .tc) PUnit := atBufs cc0_body

def SoundBody : Prop :=
  ∀ (K : Dev nD × Fin 25 → ℕ) (d : Dev nD) (Kt : PUnit → sProp 𝕄),
    iprop(bodyPre m ρ K d ∗ (bodyPost m ρ d -∗ Kt ⟨⟩))
      ⊢ wp frame (wpE (defs₀ (F := F)) 𝒱₀ d none) Set.univ (theBody (F := F)) Kt

end Cert.KernelIdeal.Coll

end
-- ==== Proof.KernelIdeal.Tables.lean ====
/-
  The schedule read cell by cell, the body's names for its semaphores, and the level argument: every wait is on a
  cell below everything still owed.
-/
import proofs.«900576_g7700000000000577_dist_mlp2_tp_i_m1024_h2048_out1024_v7x_i4_bf16_1_alg».proof.Proof.KernelIdeal.Data

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (d : Dev nD) (c : Fin 2) (s : Fin 3) (b : Fin 2)

theorem dma_ne_bar (q : DmaSem sig) : (SemLoc.dma q : SemLoc sig) ≠ .reg barS := fun h => by cases h
theorem not_bar_dma (q : DmaSem sig) : ¬ IsBar (((d : Thread nD τ), SemLoc.dma q) : GSem nD τ sig) := fun h => dma_ne_bar q h.2
theorem isXfer_send : isXfer (sendCell d c s b) := ⟨rfl, sendSem c s b, rfl, Nat.le_add_right _ _⟩
theorem isXfer_recv : isXfer (recvCell d c s b) := ⟨rfl, recvSem c s b, rfl, by show 4 ≤ 16 + _; omega⟩

theorem dec_send : decC (4 + (c.val * 6 + s.val * 2 + b.val)) = c ∧ decS (4 + (c.val * 6 + s.val * 2 + b.val)) = s
    ∧ decB (4 + (c.val * 6 + s.val * 2 + b.val)) = b := by revert c s b; decide

theorem dec_recv : decC (16 + (c.val * 6 + s.val * 2 + b.val)) = c ∧ decS (16 + (c.val * 6 + s.val * 2 + b.val)) = s
    ∧ decB (16 + (c.val * 6 + s.val * 2 + b.val)) = b := by revert c s b; decide

theorem duties_bar : (rd (F := F) m).duties (barCell d) 0 = Finset.univ := by dsimp only [rd]; exact if_pos ⟨rfl, rfl, rfl⟩
theorem duties_send : (rd (F := F) m).duties (sendCell d c s b) 0 = {false} := by
  dsimp only [rd]; rw [if_neg (fun h => not_bar_dma d _ h.2)]; exact if_pos ⟨rfl, isXfer_send d c s b⟩
theorem duties_recv : (rd (F := F) m).duties (recvCell d c s b) 0 = {false} := by
  dsimp only [rd]; rw [if_neg (fun h => not_bar_dma d _ h.2)]; exact if_pos ⟨rfl, isXfer_recv d c s b⟩
theorem duties_later (g : GSem nD τ sig) : ∀ r, 1 ≤ r → (rd (F := F) m).duties g r = ∅ :=
  fun r hr => by dsimp only [rd]; rw [if_neg fun h => by omega, if_neg fun h => by omega]

theorem amount_bar (dty : Bool) : (rd (F := F) m).amount (barCell d) 0 dty = 1 := by dsimp only [rd]; exact if_pos rfl
theorem amount_send (dty : Bool) : (rd (F := F) m).amount (sendCell d c s b) 0 dty = N := by dsimp only [rd]; exact if_neg (dma_ne_bar _)
theorem amount_recv (dty : Bool) : (rd (F := F) m).amount (recvCell d c s b) 0 dty = N := by dsimp only [rd]; exact if_neg (dma_ne_bar _)

theorem expect_bar : (rd (F := F) m).expect (barCell d) 0 = 2 := by
  unfold Schedule.expect Schedule.amountOf
  rw [duties_bar, Finset.sum_congr rfl fun dty _ => amount_bar m d dty, Finset.sum_const, Finset.card_univ, Fintype.card_bool, smul_eq_mul]
theorem expect_send : (rd (F := F) m).expect (sendCell d c s b) 0 = N := by
  unfold Schedule.expect Schedule.amountOf; rw [duties_send, Finset.sum_singleton, amount_send]
theorem expect_recv : (rd (F := F) m).expect (recvCell d c s b) 0 = N := by
  unfold Schedule.expect Schedule.amountOf; rw [duties_recv, Finset.sum_singleton, amount_recv]

theorem payload_bar (dty : Bool) : (rd (F := F) m).payload (barCell d) 0 dty = barPay d dty := rfl
theorem payload_send (dty : Bool) : (rd (F := F) m).payload (sendCell d c s b) 0 dty = sendPay m d c s b := by
  show dmaPay m d (4 + (c.val * 6 + s.val * 2 + b.val)) = _
  unfold dmaPay
  have := c.isLt; have := s.isLt; have := b.isLt
  rw [if_neg (by omega), if_pos (by omega), (dec_send c s b).1, (dec_send c s b).2.1, (dec_send c s b).2.2]
theorem payload_recv (dty : Bool) : (rd (F := F) m).payload (recvCell d c s b) 0 dty = recvPay m d c s b := by
  show dmaPay m d (16 + (c.val * 6 + s.val * 2 + b.val)) = _
  unfold dmaPay
  rw [if_neg (by omega), if_neg (by omega), (dec_recv c s b).1, (dec_recv c s b).2.1, (dec_recv c s b).2.2]

theorem sendPay_0 : sendPay m d c 0 b = iprop(emp) := by unfold sendPay; exact if_pos rfl
theorem sendPay_1 : sendPay m d c 1 b = tileOwns d (keepQ b d) c (afterFirst (argsOf m) d c b) := by
  unfold sendPay; rw [if_neg (by decide)]; exact if_pos rfl
theorem sendPay_2 : sendPay m d c 2 b = tileOwns d (keepQ b d) c (afterSecond (argsOf m) d c b) := by
  unfold sendPay; rw [if_neg (by decide)]; exact if_neg (by decide)

theorem recvPay_0 : recvPay m d c 0 b
    = iprop(slotOwns d c 0 b (partial_ (argsOf m) (partner 0 b d) (keepQ b d) c)
        ∗ tileOwns (partner 0 b d) (keepQ b d) c (partial_ (argsOf m) (partner 0 b d) (keepQ b d) c)) := by
  unfold recvPay; exact if_pos rfl
theorem recvPay_1 : recvPay m d c 1 b = slotOwns d c 1 b (afterFirst (argsOf m) (partner 1 b d) c b) := by
  unfold recvPay; rw [if_neg (by decide)]; exact if_pos rfl
theorem recvPay_2 : recvPay m d c 2 b = tileOwns d (sendQ b d) c (afterSecond (argsOf m) (partner 2 b d) c b) := by
  unfold recvPay; rw [if_neg (by decide)]; exact if_neg (by decide)

theorem rest_bar : bigSep ((rd (F := F) m).duties (barCell d) 0 \ ∅) (fun dty => (rd (F := F) m).payload (barCell d) 0 dty)
    = iprop(barPay (F := F) d false ∗ barPay (F := F) d true) := by
  rw [Finset.sdiff_empty, duties_bar, bigSep_univ_eq_bigSepL [false, true] (by decide) (by decide), bigSepL_cons_cons, bigSepL_singleton]
  rfl

theorem rest_send : bigSep ((rd (F := F) m).duties (sendCell d c s b) 0 \ ∅) (fun dty => (rd (F := F) m).payload (sendCell d c s b) 0 dty)
    = sendPay m d c s b := by
  rw [Finset.sdiff_empty, duties_send, bigSep_singleton, payload_send]
theorem rest_recv : bigSep ((rd (F := F) m).duties (recvCell d c s b) 0 \ ∅) (fun dty => (rd (F := F) m).payload (recvCell d c s b) 0 dty)
    = recvPay m d c s b := by
  rw [Finset.sdiff_empty, duties_recv, bigSep_singleton, payload_recv]

end Sched

instance rd_payload_storable (g : GSem nD τ sig) (r : ℕ) (dty : Bool) :
    BI.Storable (upEmb : UEmb _ 𝕄) ((rd (F := F) m).payload g r dty) := by
  show BI.Storable upEmb (cellPay m g dty)
  unfold cellPay
  split
  · unfold barPay; infer_instance
  · unfold dmaPay sendPay recvPay
    (repeat' split) <;> infer_instance

theorem rowMajor_entry (c : Fin 2) (s : Fin 3) (b : Fin 2)
    (h : ∀ a, (![c.val, s.val, b.val] : Fin 3 → Nat) a + S1x1x1.size a ≤ S2x3x2.size a)
    (j : (Rect.unit (s := S2x3x2) ![c.val, s.val, b.val] S1x1x1.size h).shape.Idx) :
    (S2x3x2.rowMajor ((Rect.unit (s := S2x3x2) ![c.val, s.val, b.val] S1x1x1.size h).emb j)).val = c.val * 6 + s.val * 2 + b.val := by
  have h0 : (j 0).val < 1 := (j 0).isLt
  have h1 : (j 1).val < 1 := (j 1).isLt
  have h2 : (j 2).val < 1 := (j 2).isLt
  rw [Shape.rowMajor_val_three]
  show ((c.val + 1 * (j 0).val) * 3 + (s.val + 1 * (j 1).val)) * 2 + (b.val + 1 * (j 2).val) = _
  omega

theorem sendSem_spell (c : Fin 2) (s : Fin 3) (b : Fin 2)
    (h : ∀ a, (![c.val, s.val, b.val] : Fin 3 → Nat) a + S1x1x1.size a ≤ S2x3x2.size a) :
    ((cc0_scratch2.slice (Rect.unit (s := S2x3x2) ![c.val, s.val, b.val] S1x1x1.size h)).squeeze S_ squeezes_S1x1x1_S_).sem
      = sendSem c s b :=
  Fin.ext (congrArg (4 + ·) (rowMajor_entry c s b h _))

theorem recvSem_spell (c : Fin 2) (s : Fin 3) (b : Fin 2)
    (h : ∀ a, (![c.val, s.val, b.val] : Fin 3 → Nat) a + S1x1x1.size a ≤ S2x3x2.size a) :
    ((cc0_scratch3.slice (Rect.unit (s := S2x3x2) ![c.val, s.val, b.val] S1x1x1.size h)).squeeze S_ squeezes_S1x1x1_S_).sem
      = recvSem c s b :=
  Fin.ext (congrArg (16 + ·) (rowMajor_entry c s b h _))

theorem L_tc (d : Dev nD) (sm : SemLoc sig) : L ((d : Thread nD τ), sm) = {()} := if_pos rfl

theorem lv_bar (d : Dev nD) (u : Unit) : lv (barCell d) u = 1 := rfl
theorem lv_send (d : Dev nD) (c : Fin 2) (s : Fin 3) (b : Fin 2) (u : Unit) : lv (sendCell d c s b) u = 0 := by
  show (if 16 ≤ 4 + (c.val * 6 + s.val * 2 + b.val) then 2 + (decS (4 + (c.val * 6 + s.val * 2 + b.val))).val else 0) = 0
  have := c.isLt; have := s.isLt; have := b.isLt
  rw [if_neg (by omega)]
theorem lv_recv (d : Dev nD) (c : Fin 2) (s : Fin 3) (b : Fin 2) (u : Unit) : lv (recvCell d c s b) u = 2 + s.val := by
  show (if 16 ≤ 16 + (c.val * 6 + s.val * 2 + b.val) then 2 + (decS (16 + (c.val * 6 + s.val * 2 + b.val))).val else 0) = _
  rw [if_pos (by omega), (dec_recv c s b).2.1]
theorem lv_stage (d : Dev nD) (q : DmaSem sig) (hq : q.val < 4) (u : Unit) : lv ((d : Thread nD τ), SemLoc.dma q) u = 0 := by
  show (if 16 ≤ q.val then 2 + (decS q.val).val else 0) = 0
  rw [if_neg (by omega)]

theorem oweL_nil (d : Dev nD) : oweL d [] = 0 := rfl
theorem oweL_cons (d : Dev nD) (x : Xf) (l : List Xf) : oweL d (x :: l) = oweL d l + oweT d x := by
  unfold oweL; rw [List.map_cons, List.sum_cons, add_comm]

theorem oweL_pos {d : Dev nD} {l : List Xf} {g : GSem nD τ sig} {u : Unit} (h : 0 < oweL d l g u) :
    ∃ x ∈ l, g = recvCellX (peerX d x) x := by
  induction l with
  | nil => rw [oweL_nil] at h; exact absurd h (Nat.lt_irrefl 0)
  | cons x l ih =>
    rw [oweL_cons, Pi.add_apply, Finsupp.add_apply] at h
    rcases Nat.add_pos_iff_pos_or_pos.mp h with h | h
    · obtain ⟨y, hy, e⟩ := ih h; exact ⟨y, List.mem_cons_of_mem _ hy, e⟩
    · unfold oweT at h; rw [tallyAt_apply] at h
      by_cases hg : g = recvCellX (peerX d x) x ∧ u = ()
      · exact ⟨x, List.mem_cons_self, hg.1⟩
      · rw [if_neg hg] at h; exact absurd h (Nat.lt_irrefl 0)

theorem O₀_pos {d : Dev nD} {g : GSem nD τ sig} {u : Unit} (h : 0 < O₀ d g u) :
    g = barCell (pA d) ∨ g = barCell (pB d) ∨ ∃ x ∈ sends, g = recvCellX (peerX d x) x := by
  unfold O₀ O₁ at h
  rw [Pi.add_apply, Finsupp.add_apply, Pi.add_apply, Finsupp.add_apply, tallyAt_apply, tallyAt_apply] at h
  by_cases hA : g = barCell (pA d)
  · exact .inl hA
  by_cases hB : g = barCell (pB d)
  · exact .inr (.inl hB)
  rw [if_neg (fun h' => hB h'.1), if_neg (fun h' => hA h'.1)] at h
  exact .inr (.inr (oweL_pos (by omega)))

theorem mayWait_oweL (d : Dev nD) (sm : SemLoc sig) (l : List Xf) (k : ℕ) (hk : lv ((d : Thread nD τ), sm) () ≤ k)
    (h : ∀ x ∈ l, k < 2 + x.2.1.val) :
    (levAts L lv : sProp 𝕄) ⊢ MayWait (d : Thread nD τ) sm () (oweL d l) :=
  MayOwe.of_cut (L := L) (lev := lv) k (fun p hp => by rw [Finset.mem_singleton.mp hp, L_tc]; exact Finset.mem_singleton_self _)
    (fun g u hg => by obtain ⟨x, hx, rfl⟩ := oweL_pos hg; rw [L_tc]; exact Finset.mem_singleton_self _)
    (fun p hp => by rw [Finset.mem_singleton.mp hp]; exact hk)
    (fun g u hg => by obtain ⟨x, hx, rfl⟩ := oweL_pos hg; rw [lv_recv]; exact h x hx)

theorem mayWait_stage (d : Dev nD) (q : DmaSem sig) (hq : q.val < 4) (O : CellTallies nD τ sig Unit) (hO : O = O₀ d ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with rfl | rfl | ⟨x, hx, rfl⟩ <;> (rw [L_tc]; exact Finset.mem_singleton_self _))
      (fun p hp => by rw [Finset.mem_singleton.mp hp, lv_stage d q hq])
      (fun g u hg => by
        rcases O₀_pos hg with rfl | rfl | ⟨x, hx, rfl⟩
        · rw [lv_bar]; exact Nat.one_pos
        · rw [lv_bar]; exact Nat.one_pos
        · rw [lv_recv]; omega)
  · rw [MayWait_zero]; iintro -; iempintro

theorem mayWait_bar (d : Dev nD) : (levAts L lv : sProp 𝕄) ⊢ MayWait (d : Thread nD τ) (.reg barS) () (oweL d sends) :=
  mayWait_oweL d (.reg barS) sends 1 (Nat.le_of_eq (lv_bar d ())) (fun x _ => by omega)

theorem mayWait_send (d : Dev nD) (c : Fin 2) (s : Fin 3) (b : Fin 2) (l : List Xf) :
    (levAts L lv : sProp 𝕄) ⊢ MayWait (d : Thread nD τ) (.dma (sendSem c s b)) () (oweL d l) :=
  mayWait_oweL d (.dma (sendSem c s b)) l 0 (Nat.le_of_eq (lv_send d c s b ())) (fun x _ => by omega)

theorem mayWait_recv (d : Dev nD) (c : Fin 2) (s : Fin 3) (b : Fin 2) (l : List Xf) (h : ∀ x ∈ l, s.val < x.2.1.val) :
    (levAts L lv : sProp 𝕄) ⊢ MayWait (d : Thread nD τ) (.dma (recvSem c s b)) () (oweL d l) :=
  mayWait_oweL d (.dma (recvSem c s b)) l (2 + s.val) (Nat.le_of_eq (lv_recv d c s b ())) (fun x hx => by have := h x hx; omega)

theorem pA_invol (d : Dev nD) : pA (pA d) = d := by revert d; decide
theorem pB_invol (d : Dev nD) : pB (pB d) = d := by revert d; decide

end Cert.KernelIdeal.Coll

end
-- ==== Proof.KernelIdeal.Launch.lean ====
/-
  The launch: every cell's invariant allocated and its tokens dealt to the devices that pay it, the credit a
  device's partners owe it, and the run of the four devices with each result array named.
-/
import proofs.«900576_g7700000000000577_dist_mlp2_tp_i_m1024_h2048_out1024_v7x_i4_bf16_1_alg».proof.Proof.KernelIdeal.Tables

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev osem : Fin 24 → SemLoc sig := fun k => csem k.succ

theorem ownSemFacts : Pipeline.OwnSemFacts cfg0.spec osem := by decide

theorem share_eq (d : Dev nD) (w : Fin cfg0.W) : (dats m ρ 0 d).share w = fullShare := by unfold Dat.share; split <;> rfl

theorem csem_injective : Function.Injective csem := by decide

theorem kcell_injective : Function.Injective (kcell : Dev nD × Fin 25 → GSem nD τ sig) := by
  rintro ⟨d, k⟩ ⟨d', k'⟩ h
  have h1 : d = d' := by have := congrArg (fun g : GSem nD τ sig => g.1.1) h; exact this
  subst h1
  have h2 : csem k = csem k' := congrArg Prod.snd h
  rw [csem_injective h2]

def allCells : Finset (GSem nD τ sig) := Finset.univ.map ⟨kcell, kcell_injective⟩

def tokF : Dev nD × Fin 25 ↪ GSem nD τ sig × ℕ × Bool :=
  ⟨fun ck => (kcell ck, 0, false), fun a b h => kcell_injective (congrArg (fun x : GSem nD τ sig × ℕ × Bool => x.1) h)⟩

def tokT : Dev nD ↪ GSem nD τ sig × ℕ × Bool :=
  ⟨fun d => (barCell d, 0, true), fun a b h => by
    have := congrArg (fun x : GSem nD τ sig × ℕ × Bool => x.1.1.1) h; exact this⟩

theorem tok_disjoint : Disjoint (Finset.univ.map tokF) (Finset.univ.map tokT) := by
  rw [Finset.disjoint_left]
  intro x hx hx'
  obtain ⟨ck, -, rfl⟩ := Finset.mem_map.mp hx
  obtain ⟨d, -, hd⟩ := Finset.mem_map.mp hx'
  have := congrArg (fun x : GSem nD τ sig × ℕ × Bool => x.2.2) hd
  exact Bool.noConfusion this

def allToks : Finset (GSem nD τ sig × ℕ × Bool) := Finset.univ.map tokF ∪ Finset.univ.map tokT

def u₀ : UU :=
  (initOf (Pipeline.cells cfgs cellOf_inj) (Pipeline.launchToks cfgs cellOf_inj), initOf allCells allToks)

def toks (d : Dev nD) : sProp 𝕄 :=
  iprop((bigSep Finset.univ fun k : Fin 25 => dutyTok ER (kcell (d, k)) 0 false) ∗ dutyTok ER (barCell d) 0 true)

def G (d : Dev nD) : sProp 𝕄 :=
  iprop((bigSep Finset.univ fun k : Fin 25 => roundState ER (rd m) (kcell (d, k)) 0)
    ∗ (bigSep Finset.univ fun k : Fin 25 => iprop(atPos ER (kcell (d, k)) 0 ∅ 0 ∗ reached ER (kcell (d, k)) 0)) ∗ toks d)

def G' (d : Dev nD) : sProp 𝕄 := iprop(∃ K, ghost m K d)

theorem fund_cells : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun k : Fin 25 => Φ (kcell (d, k)) := by
    unfold allCells; rw [bigSep_map, bigSep_univ_prod]; rfl
  have hT : bigSep allToks (fun x => (dutyTok ER x.1 x.2.1 x.2.2 : sProp 𝕄)) = bigSep Finset.univ fun d : Dev nD => toks d := by
    unfold allToks toks
    rw [bigSep_union tok_disjoint, bigSep_map, bigSep_map, bigSep_univ_prod, bigSep_sep']
    rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe # ∗

theorem unscopedSems0_eq (d : Dev nD) : (unscopedSems0 d : sProp 𝕄) = semVal (barCell d) 0 := by
  unfold unscopedSems0; rw [bigSep_eq_bigSepL_of_eq [SemLoc.reg barS] (by decide) (by decide)]; rfl

theorem bigSep_fin25 (Φ : Fin 25 → sProp 𝕄) : bigSep Finset.univ Φ = iprop(Φ 0 ∗ bigSep Finset.univ fun k : Fin 24 => Φ k.succ) := by
  rw [bigSep_univ_at Φ (0 : Fin 25), show (Finset.univ.erase (0 : Fin 25)) = Finset.univ.map (Fin.succEmb 24) from by decide, bigSep_map]; rfl

theorem sems0_eq (d : Dev nD) :
    iprop(Pipeline.ownSems0 (Ix := Unit) (Name := ℕ) (U := UU) (Lvl := ℕ) (Val := Elt F) (τ := τ) osem d ∗ unscopedSems0 d)
      ⊢ (bigSep Finset.univ fun k : Fin 25 => semVal (kcell (d, k)) 0 : sProp 𝕄) := by
  rw [unscopedSems0_eq, bigSep_fin25]
  unfold Pipeline.ownSems0
  iintro ⟨HS, HB⟩
  iframe # ∗; iexact HB

theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : Fin 25 => iprop(∃ κ : ℕ, cellInv ER (rd m) κ (kcell (d, k))))
          ∗ (bigSep Finset.univ fun k : Fin 25 => iprop(atPos ER (kcell (d, k)) 0 ∅ 0 ∗ reached ER (kcell (d, k)) 0)) ∗ toks d) := by
  unfold G
  iintro ⟨Hos, Hus, Hst, Hat, Htok⟩
  ihave Hv := (sems0_eq (F := F) d) $$ [Hos Hus]
  · iframe # ∗
  imod (show iprop((bigSep Finset.univ fun k : Fin 25 => semVal (kcell (d, k)) 0) ∗ bigSep Finset.univ fun k : Fin 25 => roundState ER (rd m) (kcell (d, k)) 0)
      ⊢ (|={Set.univ}=> bigSep Finset.univ fun k : Fin 25 => iprop(∃ κ : ℕ, cellInv ER (rd m) κ (kcell (d, k))) : sProp 𝕄) from by
        rw [← bigSep_sep']
        exact (bigSep_mono fun k _ => (Rounds.body_intro ER (rd m) (kcell (d, k))).trans inv_alloc).trans (bigSep_fupd _ _)) $$ [Hv Hst] with Hinv
  · iframe # ∗
  imodintro
  iframe # ∗

instance records_persistent (K : Dev nD × Fin 25 → ℕ) : BI.Persistent (records m K) := by unfold records; infer_instance

-- A device's 24 transfer cells, listed transfer by transfer: the send cell then the receive cell.
theorem xfers_eq (d : Dev nD) (Φ : GSem nD τ sig → sProp 𝕄) :
    (bigSep Finset.univ fun k : Fin 24 => Φ (kcell (d, k.succ)))
      = bigSepL sends fun x => iprop(Φ (sendCellX d x) ∗ Φ (recvCellX d x)) := by
  rw [bigSep_univ_eq_bigSepL [0, 12, 1, 13, 6, 18, 7, 19, 2, 14, 3, 15, 8, 20, 9, 21, 4, 16, 5, 17, 10, 22, 11, 23] (by decide) (by decide)]
  simp only [sends, bigSepL_cons, bigSepL_nil, sep_fold, sep_assoc_eq]
  rfl

theorem cells_by_transfer (d : Dev nD) (Φ : GSem nD τ sig → sProp 𝕄) :
    (bigSep Finset.univ fun k : Fin 25 => Φ (kcell (d, k)))
      ⊢ iprop(Φ (barCell d) ∗ bigSepL sends fun x => iprop(Φ (sendCellX d x) ∗ Φ (recvCellX d x))) :=
  (Entails.of_eq (bigSep_fin25 _)).trans (sep_mono_right (Entails.of_eq (xfers_eq d Φ)))

theorem bigSepL_mono {J : Type} (l : List J) {Φ Ψ : J → sProp 𝕄} (h : ∀ j, Φ j ⊢ Ψ j) : bigSepL l Φ ⊢ bigSepL l Ψ := by
  induction l with
  | nil => exact .rfl
  | cons j l ih => rw [bigSepL_cons, bigSepL_cons]; exact BI.sep_mono (h j) ih

theorem cells_by_transfer' (d : Dev nD) (Φ : GSem nD τ sig → sProp 𝕄) :
    (bigSep Finset.univ fun k : Fin 25 => Φ (kcell (d, k)))
      ⊢ iprop(Φ (barCell d) ∗ bigSepL sends fun x => iprop(Φ (recvCellX d x) ∗ Φ (sendCellX d x))) :=
  (cells_by_transfer d Φ).trans (sep_mono_right (bigSepL_mono sends fun _ => Laws.sep_comm.1))

def peerEquiv (x : Xf) : Dev nD ≃ Dev nD :=
  ⟨fun d => peerX d x, fun d => peerX d x, fun d => partner_invol x.2.1 x.2.2 d, fun d => partner_invol x.2.1 x.2.2 d⟩
def pAEquiv : Dev nD ≃ Dev nD := ⟨pA, pA, pA_invol, pA_invol⟩
def pBEquiv : Dev nD ≃ Dev nD := ⟨pB, pB, pB_invol, pB_invol⟩

theorem bigSep_bigSepL {I J : Type} (S : Finset I) (l : List J) (Φ : I → J → sProp 𝕄) :
    bigSep S (fun i => bigSepL l (fun j => Φ i j)) = bigSepL l (fun j => bigSep S (fun i => Φ i j)) := by
  induction l with
  | nil => simp only [bigSepL_nil]; exact bigSep_emp_const S
  | cons j l ih =>
    simp only [bigSepL_cons]
    rw [← ih]
    exact bigSep_sep S (fun i => Φ i j) (fun i => bigSepL l fun j => Φ i j)

def toksX (d : Dev nD) : sProp 𝕄 :=
  iprop(dutyTok ER (barCell d) 0 false ∗ dutyTok ER (barCell d) 0 true
    ∗ bigSepL sends fun x => iprop(dutyTok ER (recvCellX d x) 0 false ∗ dutyTok ER (sendCellX d x) 0 false))

theorem toks_by_transfer (d : Dev nD) : (toks d : sProp 𝕄) ⊢ toksX d := by
  unfold toks toksX
  iintro ⟨HF, HT⟩
  ihave H := (cells_by_transfer' (F := F) d fun g => dutyTok ER g 0 false) $$ HF
  icases H with ⟨HB, HL⟩
  iframe # ∗

theorem recv_around (x : Xf) :
    (bigSep Finset.univ fun d : Dev nD => iprop(dutyTok ER (recvCellX d x) 0 false ∗ dutyTok ER (sendCellX d x) 0 false) : sProp 𝕄)
      = bigSep Finset.univ fun d : Dev nD => iprop(dutyTok ER (recvCellX (peerX d x) x) 0 false ∗ dutyTok ER (sendCellX d x) 0 false) := by
  rw [bigSep_sep', bigSep_sep', bigSep_univ_equiv (peerEquiv x) (fun e : Dev nD => (dutyTok ER (recvCellX e x) 0 false : sProp 𝕄))]
  rfl

theorem toks_around : (bigSep Finset.univ fun d : Dev nD => (toks d : sProp 𝕄)) ⊢ bigSep Finset.univ fun d : Dev nD => payToks d := by
  have hL : (bigSep Finset.univ fun d : Dev nD => (toksX d : sProp 𝕄))
      = iprop((bigSep Finset.univ fun d : Dev nD => dutyTok ER (barCell d) 0 false) ∗ (bigSep Finset.univ fun d : Dev nD => dutyTok ER (barCell d) 0 true)
        ∗ bigSepL sends fun x => bigSep Finset.univ fun d : Dev nD => iprop(dutyTok ER (recvCellX d x) 0 false ∗ dutyTok ER (sendCellX d x) 0 false)) := by
    unfold toksX; rw [bigSep_sep', bigSep_sep', bigSep_bigSepL]
  have hR : (bigSep Finset.univ fun d : Dev nD => (payToks d : sProp 𝕄))
      = iprop((bigSep Finset.univ fun d : Dev nD => dutyTok ER (barCell (pA d)) 0 false) ∗ (bigSep Finset.univ fun d : Dev nD => dutyTok ER (barCell (pB d)) 0 true)
        ∗ bigSepL sends fun x => bigSep Finset.univ fun d : Dev nD => iprop(dutyTok ER (recvCellX (peerX d x) x) 0 false ∗ dutyTok ER (sendCellX d x) 0 false)) := by
    unfold payToks; rw [bigSep_sep', bigSep_sep', bigSep_bigSepL]
  have hE : (bigSep Finset.univ fun d : Dev nD => (toksX d : sProp 𝕄)) = bigSep Finset.univ fun d : Dev nD => (payToks d : sProp 𝕄) := by
    rw [hL, hR, bigSep_univ_equiv pAEquiv (fun e : Dev nD => (dutyTok ER (barCell e) 0 false : sProp 𝕄)),
      bigSep_univ_equiv pBEquiv (fun e : Dev nD => (dutyTok ER (barCell e) 0 true : sProp 𝕄)),
      show (fun x : Xf => (bigSep Finset.univ fun d : Dev nD => iprop(dutyTok ER (recvCellX d x) 0 false ∗ dutyTok ER (sendCellX d x) 0 false) : sProp 𝕄))
        = fun x : Xf => bigSep Finset.univ fun d : Dev nD => iprop(dutyTok ER (recvCellX (peerX d x) x) 0 false ∗ dutyTok ER (sendCellX d x) 0 false)
        from funext recv_around]
    rfl
  iintro H
  ihave H' := (show (bigSep Finset.univ fun d : Dev nD => (toks d : sProp 𝕄)) ⊢ bigSep Finset.univ fun d : Dev nD => (toksX d : sProp 𝕄) from
    bigSep_mono fun d _ => toks_by_transfer d) $$ H
  ihave H'' := (Entails.of_eq hE) $$ H'
  iexact H''

theorem positions_intro (d : Dev nD) : (bigSep Finset.univ fun k : Fin 25 => (atPos ER (kcell (d, k)) 0 ∅ 0 : sProp 𝕄)) ⊢ positions d := by
  unfold positions; exact cells_by_transfer d fun g => atPos ER g 0 ∅ 0

theorem ghost_intro (K : Dev nD × Fin 25 → ℕ) (d : Dev nD) : iprop(records m K ∗ positions d ∗ payToks d) ⊢ G' m d := by
  unfold G' ghost
  iintro H; iexists K; iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep Finset.univ fun k : Fin 25 => iprop(∃ κ : ℕ, cellInv ER (rd m) κ (kcell (d, k))))
          ∗ (bigSep Finset.univ fun k : Fin 25 => iprop(atPos ER (kcell (d, k)) 0 ∅ 0 ∗ reached ER (kcell (d, k)) 0)) ∗ toks d) : sProp 𝕄)
      ⊢ bigSep Finset.univ (G' m) := by
  rw [bigSep_sep', bigSep_sep', ← bigSep_univ_prod (fun ck : Dev nD × Fin 25 => iprop(∃ κ : ℕ, cellInv ER (rd m) κ (kcell ck))),
    bigSep_congr (s := Finset.univ) (fun (d : Dev nD) _ => bigSep_sep' Finset.univ (fun k : Fin 25 => (atPos ER (kcell (d, k)) 0 ∅ 0 : sProp 𝕄)) (fun k => reached ER (kcell (d, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (rd m) κ (kcell ck) : sProp 𝕄))) $$ HI
  icases HK with ⟨%K, #HI⟩
  ihave Htk := (toks_around (F := F)) $$ Htok
  iapply (bigSep_with_persistent (R := records m K) fun d _ => ghost_intro m K d)
  isplitr
  · unfold records; isplitl; · iexact HI
    iexact HR
  · iapply ((Entails.of_eq (bigSep_sep' Finset.univ (fun d : Dev nD => bigSep Finset.univ fun k : Fin 25 => (atPos ER (kcell (d, k)) 0 ∅ 0 : sProp 𝕄)) payToks).symm).trans
      (bigSep_mono fun d _ => sep_mono_left (positions_intro d)))
    iframe # ∗

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

theorem launchCred_oweL (l : List Xf) (d : Dev nD) :
    (Pipeline.launchCred (fun e => oweL e l) d : sProp 𝕄) ⊢ bigSepL l fun x => cred (tallyAt (recvCellX d x) () N) := by
  induction l with
  | nil =>
    rw [show (fun e : Dev nD => oweL e []) = fun _ => (0 : CellTallies nD τ sig Unit) from rfl, Pipeline.launchCred_zero]
    exact BI.Entails.refl _
  | cons x l ih =>
    rw [show (fun e : Dev nD => oweL e (x :: l)) = fun e => oweT e x + oweL e l from funext fun e => by unfold oweL; rw [List.map_cons, List.sum_cons],
      Pipeline.launchCred_add, bigSepL_cons]
    exact BI.sep_mono (Pipeline.launchCred_tallyAt (SemLoc.dma (recvSem x.1 x.2.1 x.2.2)) (fun e => peerX e x) (fun e => peerX e x)
      (fun e => partner_invol x.2.1 x.2.2 e) (fun e => partner_invol x.2.1 x.2.2 e) () N d) ih

theorem launch_creds (d : Dev nD) : (Pipeline.launchCred O₀ d : sProp 𝕄) ⊢ creds d := by
  rw [show (O₀ : Dev nD → CellTallies nD τ sig Unit) = fun e => (oweL e sends + tallyAt (barCell (pB e)) () 1) + tallyAt (barCell (pA e)) () 1 from rfl,
    Pipeline.launchCred_add, Pipeline.launchCred_add]
  have h2 : (tallyAt (barCell d) () 2 : CellTallies nD τ sig Unit) = tallyAt (barCell d) () 1 + tallyAt (barCell d) () 1 := (tallyAt_add (barCell d) () 1 1).symm
  unfold creds
  rw [h2]
  iintro ⟨⟨HL, HB⟩, HA⟩
  ihave HA' := (Pipeline.launchCred_tallyAt (SemLoc.reg barS) pA pA pA_invol pA_invol () 1 d) $$ HA
  ihave HB' := (Pipeline.launchCred_tallyAt (SemLoc.reg barS) pB pB pB_invol pB_invol () 1 d) $$ HB
  ihave HL' := (launchCred_oweL (F := F) sends d) $$ HL
  isplitl [HA' HB']
  · iapply (cred_add _ _).2
    isplitl [HA'] <;> iassumption
  iexact HL'

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  iintro ⟨-, Hlev, Hcr, -, HG⟩
  ihave Hc := (launch_creds (F := F) d) $$ Hcr
  imodintro
  unfold start G'
  isplitl
  · isplitl [HG]; · iexact HG
    isplitl [Hc]; · iexact Hc
    iexact Hlev
  · iempintro

theorem phi0_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, scopedRest0_eq]
  unfold Φ₀ scratch
  iintro ⟨Hs, -, Hr⟩
  iframe # ∗

theorem ownSems0_intro (d : Dev nD) :
    (bigSepL sends fun x => iprop(semVal (sendCellX d x) 0 ∗ semVal (recvCellX d x) 0) : sProp 𝕄)
      ⊢ Pipeline.ownSems0 (Ix := Unit) (Name := ℕ) (U := UU) (Lvl := ℕ) (Val := Elt F) (τ := τ) osem d :=
  Entails.of_eq (xfers_eq d fun g => semVal g 0).symm

theorem phi1_exit (d : Dev nD) :
    (dats m ρ 0 d).Φ (Fin.last cfg0.N) ⊢ iprop(emp ∗ Pipeline.ownSems0 osem d ∗ Pipeline.scopedRest cfg0.spec d) := by
  rw [show (dats m ρ 0 d).Φ (Fin.last cfg0.N) = Φ₁ d from rfl, scopedRest0_eq]
  unfold Φ₁ scratch
  iintro ⟨Hr, Hz⟩
  isplitr; · iempintro
  isplitl [Hz]; · iapply (ownSems0_intro (F := F) d); iexact Hz
  iexact Hr

theorem waits (d : Dev nD) : (levAts L lv : sProp 𝕄) ⊢ Pipeline.cellsWaits cfgs (dats m ρ) () 0 d :=
  Pipeline.cellsWaits_intro cfgs (dats m ρ) () 0 d fun w s t =>
    mayWait_stage d _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

set_option maxRecDepth 4000 in

def bodyPre' (d : Dev nD) : sProp 𝕄 :=
  iprop(Φ₀ m d ∗ (dats m ρ 0 d).owesAt () t₀.castSucc
    ∗ (∃ e, stg d cc0_stg0_0 ((dats m ρ 0 d).before (0 : Fin 4) t₀ e))
    ∗ (∃ e, stg d cc0_stg1_0 ((dats m ρ 0 d).before (1 : Fin 4) t₀ e))
    ∗ (∃ e, stg d cc0_stg2_0 ((dats m ρ 0 d).before (2 : Fin 4) t₀ e))
    ∗ (∃ e, stg d cc0_stg3_0 ((dats m ρ 0 d).before (3 : Fin 4) t₀ e)))

set_option maxRecDepth 32768 in

theorem body_obligation (hbody : SoundBody m ρ) (d : Dev nD) : BodyObligation (dats (F := F) m ρ 0 d) (defs₀ (F := F)) 𝒱₀ () Set.univ := fun t => by
  rw [fin_N t]
  rw [bigSep_W0, bigSep_W0]
  simp only [owns_whole_eq]
  show bodyPre' m ρ d ⊢ wp frame (wpE (defs₀ (F := F)) 𝒱₀ d none) Set.univ (theBody (F := F)) (fun _ => bodyPost m ρ d)
  unfold bodyPre' Φ₀ start
  iintro ⟨⟨⟨⟨%K, Hg⟩, Hcr, Hlev⟩, Hscr⟩, Ho, Hx, Hw1, Hw2, Hout⟩
  iapply (hbody K d fun _ => bodyPost m ρ d)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hw1]; · iexact Hw1
    isplitl [Hw2]; · iexact Hw2
    iexact Hout
  · iintro H; iexact H

end Launch

open Launch

def QC : PUnit × MemSt nD τ sig (Elt F) → Prop := fun r =>
  ∀ d : Dev nD, ∀ w : Fin cfg0.W, r.2.mem ((cfg0.win w).arr.view.loc (d : Thread nD τ)) = (dats m ρ 0 d).arrAt w cfg0.N

set_option maxRecDepth 8000 in

theorem run_main (hbody : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun d s' => by
      iintro ⟨-, -, HSI⟩
      imodintro
      isplitr; · ipureintro; trivial
      iexact HSI)
    (hQ := fun _ h d w => (h d).1 w)

theorem final_out (d : Dev nD) : (dats m ρ 0 d).arrAt (3 : Fin 4) cfg0.N = outAt m d := by
  rw [show cfg0.N = (t₀ : Fin cfg0.N).val + 1 from rfl, (dats m ρ 0 d).arrAt_succ (3 : Fin 4) t₀, flush0_3 t₀, if_pos rfl]
  have hr := View.read_write_univ (Val := Elt F) (v := ((cfg0.win (3 : Fin 4)).blk t₀).view) ((dats m ρ 0 d).arrAt (3 : Fin 4) t₀.val)
    ((dats m ρ 0 d).flushed (3 : Fin 4) t₀)
  have hv (X : Buf (Elt F) ((cfg0.win (3 : Fin 4)).arr.view.loc (d : Thread nD τ))) : ((cfg0.win (3 : Fin 4)).blk t₀).view.read (Elt F) X = X :=
    Memref.read_access_unit_zero (Elt F) main_v1 (funext fun a => Nat.zero_mul _) _ X
  rw [hv] at hr
  exact hr

theorem final_in (d : Dev nD) (w : Fin cfg0.W) (hin : (cfg0.win w).isOut = false) :
    (dats m ρ 0 d).arrAt w cfg0.N = m ((cfg0.win w).arr.view.loc (d : Thread nD τ)) :=
  (dats (F := F) m ρ 0 d).arrAt_in w hin _

theorem run_result (hbody : SoundBody m ρ) :
    θ_run defs (onTc (τ := τ) (main (F := F))) ⟨m, fun _ => 0, ρ⟩ (fun r => ∀ d : Dev nD,
      r.2.mem ((d.tc : Thread nD τ).loc main_v1) = Spec.result (argsOf m) d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) :=
  (θ_run defs _ _).mono (fun _ h d =>
    ⟨(h d (3 : Fin 4)).trans (final_out m ρ d), (h d (0 : Fin 4)).trans (final_in m ρ d (0 : Fin 4) rfl),
      (h d (1 : Fin 4)).trans (final_in m ρ d (1 : Fin 4) rfl), (h d (2 : Fin 4)).trans (final_in m ρ d (2 : Fin 4) rfl)⟩) (run_main m ρ hbody)

end Cert.KernelIdeal.Coll

end
-- ==== Proof.KernelIdeal.States.lean ====
/-
  The assertions between consecutive stretches of the body: which transfers are unissued, in flight, unwaited or
  done, and what each tile, slot and hidden row quarter holds.
-/
import proofs.«900576_g7700000000000577_dist_mlp2_tp_i_m1024_h2048_out1024_v7x_i4_bf16_1_alg».proof.Proof.KernelIdeal.Data

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def Know (K : Dev nD × Fin 25 → ℕ) : sProp 𝕄 := iprop(records m K ∗ levAts L lv)

def Inputs (d : Dev nD) : sProp 𝕄 :=
  iprop((((d : Thread nD τ).loc cc0_stg0_0) ↦{fullShare} xstg m d) ∗ (((d : Thread nD τ).loc cc0_stg1_0) ↦{fullShare} w1stg m d)
    ∗ (((d : Thread nD τ).loc cc0_stg2_0) ↦{fullShare} w2stg m d))

def Unissued (d : Dev nD) (l : List Xf) : sProp 𝕄 :=
  bigSepL l fun x => iprop(dutyTok ER (recvCellX (peerX d x) x) 0 false ∗ dutyTok ER (sendCellX d x) 0 false)

def InFlight (d : Dev nD) (l : List Xf) : sProp 𝕄 := bigSepL l fun x => cred (tallyAt (sendCellX d x) () N)

def Unwaited (d : Dev nD) (l : List Xf) : sProp 𝕄 :=
  bigSepL l fun x => iprop(atPos ER (sendCellX d x) 0 ∅ 0 ∗ atPos ER (recvCellX d x) 0 ∅ 0 ∗ cred (tallyAt (recvCellX d x) () N))

def Done (d : Dev nD) (l : List Xf) : sProp 𝕄 := bigSepL l fun x => iprop(semVal (sendCellX d x) 0 ∗ semVal (recvCellX d x) 0)

def Proto (k j : ℕ) (d : Dev nD) : sProp 𝕄 :=
  iprop((∃ W, owes (d : Thread nD τ) (oweL d (sends.drop k)) W) ∗ Unissued d (sends.drop k) ∗ InFlight d ((sends.take k).drop j)
    ∗ Unwaited d (sends.drop j) ∗ Done d (sends.take j))

abbrev A : Spec.Args F := argsOf m

abbrev Hq (d : Dev nD) (q : Fin 4) : Vec F S256x2048 .bf16 := hid ((A m).w1 d) (rowsQ q ((A m).x d))

-- All four row quarters of the hidden buffer at their final contents.
abbrev Hids (d : Dev nD) : sProp 𝕄 :=
  iprop(hidOwns d (sendQ 0 d) (Hq m d (sendQ 0 d)) ∗ hidOwns d (sendQ 1 d) (Hq m d (sendQ 1 d))
    ∗ hidOwns d (keepQ 0 d) (Hq m d (keepQ 0 d)) ∗ hidOwns d (keepQ 1 d) (Hq m d (keepQ 1 d)))

abbrev w1b (d : Dev nD) : FVec F S1024x2048 .bf16 := k0_pay1 (w1stg m d)
abbrev w2b (d : Dev nD) : FVec F S2048x1024 .bf16 := k0_pay2 (w2stg m d)

abbrev hidAny (d : Dev nD) (q : Fin 4) : sProp 𝕄 := iprop(∃ v, hidOwns (F := F) d q v)
abbrev tileAny (d : Dev nD) (q : Fin 4) (c : Fin 2) : sProp 𝕄 := iprop(∃ v, tileOwns (F := F) d q c v)

abbrev p0 (b : Fin 2) (d : Dev nD) : Dev nD := partner 0 b d
abbrev peerPart (d : Dev nD) (c b : Fin 2) : Vec F S256x512 .bf16 := partial_ (A m) (p0 b d) (keepQ b d) c

def B0 (K : Dev nD × Fin 25 → ℕ) (d : Dev nD) : sProp 𝕄 :=
  iprop(Know m K ∗ Inputs m d
    ∗ (∃ W, owes (d : Thread nD τ) (O₀ d) W) ∗ atPos ER (barCell d) 0 ∅ 0 ∗ cred (tallyAt (barCell d) () 2)
    ∗ dutyTok ER (barCell (pA d)) 0 false ∗ dutyTok ER (barCell (pB d)) 0 true
    ∗ Unissued d sends ∗ Unwaited d sends
    ∗ (hidAny d (sendQ 0 d) ∗ hidAny d (sendQ 1 d) ∗ hidAny d (keepQ 0 d) ∗ hidAny d (keepQ 1 d))
    ∗ (tileAny d (sendQ 0 d) 0 ∗ tileAny d (sendQ 1 d) 0 ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) d 0 0 0 ∗ slotAny (F := F) d 1 0 0 ∗ slotAny (F := F) d 0 1 1 ∗ slotAny (F := F) d 1 1 1)
    ∗ (slotAny (F := F) d 0 0 1 ∗ slotAny (F := F) d 1 0 1 ∗ slotAny (F := F) d 0 1 0 ∗ slotAny (F := F) d 1 1 0))

def B3 (K : Dev nD × Fin 25 → ℕ) (d : Dev nD) : sProp 𝕄 :=
  iprop(Know m K ∗ Inputs m d ∗ Proto 1 0 d
    ∗ (hidOwns d (sendQ 0 d) (Hq m d (sendQ 0 d)) ∗ hidOwns d (sendQ 1 d) (Hq m d (sendQ 1 d)) ∗ hidAny d (keepQ 0 d) ∗ hidAny d (keepQ 1 d))
    ∗ (tileOwns d (sendQ 1 d) 0 (partial_ (A m) d (sendQ 1 d) 0) ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) (partner 0 1 d) 0 0 1 ∗ slotAny (F := F) (partner 0 0 d) 1 0 0 ∗ slotAny (F := F) (partner 0 1 d) 1 0 1
      ∗ slotAny (F := F) (partner 1 0 d) 0 1 0 ∗ slotAny (F := F) (partner 1 1 d) 0 1 1 ∗ slotAny (F := F) (partner 1 0 d) 1 1 0 ∗ slotAny (F := F) (partner 1 1 d) 1 1 1))

def B6 (K : Dev nD × Fin 25 → ℕ) (d : Dev nD) : sProp 𝕄 :=
  iprop(Know m K ∗ Inputs m d ∗ Proto 4 0 d
    ∗ Hids m d
    ∗ (tileOwns d (keepQ 0 d) 0 (partial_ (A m) d (keepQ 0 d) 0) ∗ tileOwns d (keepQ 1 d) 0 (partial_ (A m) d (keepQ 1 d) 0)
      ∗ tileAny d (keepQ 0 d) 1 ∗ tileAny d (keepQ 1 d) 1)
    ∗ (slotAny (F := F) (partner 1 0 d) 0 1 0 ∗ slotAny (F := F) (partner 1 1 d) 0 1 1 ∗ slotAny (F := F) (partner 1 0 d) 1 1 0 ∗ slotAny (F := F) (partner 1 1 d) 1 1 1))

def B9 (K : Dev nD × Fin 25 → ℕ) (d : Dev nD) : sProp 𝕄 :=
  iprop(Know m K ∗ Inputs m d ∗ Proto 6 2 d
    ∗ Hids m d
    ∗ (tileAny d (keepQ 0 d) 1 ∗ tileAny d (keepQ 1 d) 1)
    ∗ (slotOwns d 0 0 0 (peerPart m d 0 0) ∗ slotOwns d 0 0 1 (peerPart m d 0 1))
    ∗ (tileOwns (p0 0 d) (keepQ 0 d) 0 (peerPart m d 0 0) ∗ tileOwns (p0 1 d) (keepQ 1 d) 0 (peerPart m d 0 1))
    ∗ (slotAny (F := F) (partner 1 0 d) 1 1 0 ∗ slotAny (F := F) (partner 1 1 d) 1 1 1))

abbrev ret9 (d : Dev nD) : Vec F S256x512 .bf16 := partial_ (A m) d (keepQ 0 d) 1

def B13 (K : Dev nD × Fin 25 → ℕ) (d : Dev nD) : sProp 𝕄 :=
  iprop(Know m K ∗ Inputs m d ∗ Proto 8 5 d
    ∗ Hids m d
    ∗ tileOwns d (keepQ 0 d) 0 (afterFirst (A m) d 0 0)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0) ∗ tileOwns (p0 1 d) (keepQ 1 d) 1 (peerPart m d 1 1)))

abbrev ret13 (d : Dev nD) : FVec F S256x512 .bf16 := k0_pay19 (afterFirst (A m) d 0 0)

def B16 (K : Dev nD × Fin 25 → ℕ) (d : Dev nD) : sProp 𝕄 :=
  iprop(Know m K ∗ Inputs m d ∗ Proto 10 7 d
    ∗ Hids m d
    ∗ tileOwns d (keepQ 0 d) 1 (afterSecond (A m) d 1 0)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0))
    ∗ (tileOwns (p0 0 d) (keepQ 0 d) 1 (peerPart m d 1 0) ∗ tileOwns (p0 1 d) (keepQ 1 d) 1 (peerPart m d 1 1)))

def B19 (K : Dev nD × Fin 25 → ℕ) (d : Dev nD) : sProp 𝕄 :=
  iprop(Know m K ∗ Inputs m d ∗ Proto 12 10 d
    ∗ Hids m d
    ∗ (tileOwns d (keepQ 0 d) 0 (afterSecond (A m) d 0 0) ∗ tileOwns d (keepQ 1 d) 0 (afterSecond (A m) d 0 1)
      ∗ tileOwns d (sendQ 0 d) 0 (afterSecond (A m) (partner 2 0 d) 0 0) ∗ tileOwns d (sendQ 1 d) 0 (afterSecond (A m) (partner 2 1 d) 0 1))
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

def Bend (K : Dev nD × Fin 25 → ℕ) (d : Dev nD) : sProp 𝕄 :=
  iprop(Know m K ∗ Inputs m d ∗ Proto 12 12 d
    ∗ Hids m d
    ∗ (tileOwns d (keepQ 0 d) 0 (afterSecond (A m) d 0 0) ∗ tileOwns d (keepQ 1 d) 0 (afterSecond (A m) d 0 1)
      ∗ tileOwns d (keepQ 0 d) 1 (afterSecond (A m) d 1 0) ∗ tileOwns d (keepQ 1 d) 1 (afterSecond (A m) d 1 1)
      ∗ tileOwns d (sendQ 0 d) 0 (afterSecond (A m) (partner 2 0 d) 0 0) ∗ tileOwns d (sendQ 1 d) 0 (afterSecond (A m) (partner 2 1 d) 0 1)
      ∗ tileOwns d (sendQ 0 d) 1 (afterSecond (A m) (partner 2 0 d) 1 0) ∗ tileOwns d (sendQ 1 d) 1 (afterSecond (A m) (partner 2 1 d) 1 1))
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

end Cert.KernelIdeal.Coll

end
-- ==== Proof.KernelIdeal.Regions.lean ====
/-
  The result buffer, the receive buffer and the hidden buffer cut into tiles, slots and row quarters: an access at
  a piece's rectangle touches that piece only, and the pieces tile their buffer.
-/
import proofs.«900576_g7700000000000577_dist_mlp2_tp_i_m1024_h2048_out1024_v7x_i4_bf16_1_alg».proof.Proof.KernelIdeal.Data
import Idealize.ShloMosaic.Lib.Pipeline.Value

noncomputable section

namespace Cert.KernelIdeal.Coll

open Cert.KernelIdeal Cert.KernelIdeal.Gen Cert.KernelIdeal.Spec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem owns_of_landed (t : Thread nD τ) {sh : Shape} {e : EltTy} (mr : Memref sig t.2.kind .vmem sh e) (fd : mr.view.ty.Contents (Elt F))
    (w : sh.Idx → Elt F e) :
    (mr.view.loc t ↦[mr.view.set]{fullShare} (mr.view.write (Elt F) fd w Finset.univ) : sProp (MT nD τ sig Unit (Elt F) ℕ UU ℕ)) ⊢ owns t mr fullShare w := by
  unfold owns
  iintro H
  iexists (mr.view.write (Elt F) fd w Finset.univ)
  isplitr
  · ipureintro; exact View.read_write_univ fd w
  · iexact H

theorem wp_load_tile (d : Dev nD) {α : Type} {Q : α → sProp 𝕄}
    (q : Fin 4) (c : Fin 2) (v : Vec F S256x512 .bf16) {off : Fin 2 → Nat}
    {hinb : ∀ a, off a + S256x512.size a ≤ S1024x1024.size a} (hoff : off = ![256 * q.val, 512 * c.val])
    {hl : (outM : Memref sig .tc .vmem S1024x1024 .bf16).view.LoadsAt (Rect.unit (s := S1024x1024) off S256x512.size hinb).toLoadRect}
    {k : Vec F S256x512 .bf16 → Prog (TpuEff nD τ sig (Elt F) Λ₀ .tc) α} :
    (tileOwns d q c v : sProp 𝕄)
      ⊢ iprop((tileOwns d q c v -∗ wp frame (wpE (defs₀ (F := F)) 𝒱₀ (d : Thread nD τ) none) Set.univ (k v) Q)
        -∗ wp frame (wpE (defs₀ (F := F)) 𝒱₀ (d : Thread nD τ) none) Set.univ (.op (.load outM (Rect.unit (s := S1024x1024) off S256x512.size hinb).toLoadRect hl) k) Q) := by
  subst hoff
  unfold tileOwns owns
  iintro ⟨%f, %hf, H⟩ Hk
  subst hf
  iapply (wp_load_rect 𝒱₀ (d : Thread nD τ) none Set.univ (m := outM) (r := tileR q c) (Finset.Subset.refl _)) $$ H
  iintro H
  iapply Hk
  iexists f
  isplitr
  · ipureintro; rfl
  · iexact H

theorem wp_store_tile (d : Dev nD) {α : Type} {Q : α → sProp 𝕄}
    (q : Fin 4) (c : Fin 2) (v w : Vec F S256x512 .bf16) {off : Fin 2 → Nat}
    {hinb : ∀ a, off a + S256x512.size a ≤ S1024x1024.size a} (hoff : off = ![256 * q.val, 512 * c.val])
    {hx : ((outM : Memref sig .tc .vmem S1024x1024 .bf16).access (Rect.unit (s := S1024x1024) off S256x512.size hinb)).Stores Finset.univ}
    {hm : (Finset.univ : Finset (Rect.unit (s := S1024x1024) off S256x512.size hinb).shape.Idx) = Finset.univ ∨ ∀ a, (Rect.unit (s := S1024x1024) off S256x512.size hinb).stride a = 1}
    {k : PUnit → Prog (TpuEff nD τ sig (Elt F) Λ₀ .tc) α} :
    (tileOwns d q c v : sProp 𝕄)
      ⊢ iprop((tileOwns d q c w -∗ wp frame (wpE (defs₀ (F := F)) 𝒱₀ (d : Thread nD τ) none) Set.univ (k ⟨⟩) Q)
        -∗ wp frame (wpE (defs₀ (F := F)) 𝒱₀ (d : Thread nD τ) none) Set.univ (.op (.store outM (Rect.unit (s := S1024x1024) off S256x512.size hinb) w Finset.univ hx hm) k) Q) := by
  subst hoff
  unfold tileOwns owns
  iintro ⟨%f, %hf, H⟩ Hk
  iapply (wp_store 𝒱₀ (d : Thread nD τ) none Set.univ (m := outM) (r := tileR q c) (Mk := Finset.univ) (S := (tileM q c).view.set) (f := f) (Finset.Subset.refl _)) $$ H
  iintro H
  iapply Hk
  iexists ((tileM q c).view.write (Elt F) f w Finset.univ)
  isplitr
  · ipureintro; exact View.read_write_univ f w
  · iexact H

theorem wp_load_hid (d : Dev nD) {α : Type} {Q : α → sProp 𝕄}
    (q : Fin 4) (v : Vec F S256x2048 .bf16) {off : Fin 2 → Nat}
    {hinb : ∀ a, off a + S256x2048.size a ≤ S1024x2048.size a} (hoff : off = ![256 * q.val, 0])
    {hl : (hidM : Memref sig .tc .vmem S1024x2048 .bf16).view.LoadsAt (Rect.unit (s := S1024x2048) off S256x2048.size hinb).toLoadRect}
    {k : Vec F S256x2048 .bf16 → Prog (TpuEff nD τ sig (Elt F) Λ₀ .tc) α} :
    (hidOwns d q v : sProp 𝕄)
      ⊢ iprop((hidOwns d q v -∗ wp frame (wpE (defs₀ (F := F)) 𝒱₀ (d : Thread nD τ) none) Set.univ (k v) Q)
        -∗ wp frame (wpE (defs₀ (F := F)) 𝒱₀ (d : Thread nD τ) none) Set.univ (.op (.load hidM (Rect.unit (s := S1024x2048) off S256x2048.size hinb).toLoadRect hl) k) Q) := by
  subst hoff
  unfold hidOwns owns
  iintro ⟨%f, %hf, H⟩ Hk
  subst hf
  iapply (wp_load_rect 𝒱₀ (d : Thread nD τ) none Set.univ (m := hidM) (r := hidR q) (Finset.Subset.refl _)) $$ H
  iintro H
  iapply Hk
  iexists f
  isplitr
  · ipureintro; rfl
  · iexact H

theorem wp_store_hid (d : Dev nD) {α : Type} {Q : α → sProp 𝕄}
    (q : Fin 4) (v w : Vec F S256x2048 .bf16) {off : Fin 2 → Nat}
    {hinb : ∀ a, off a + S256x2048.size a ≤ S1024x2048.size a} (hoff : off = ![256 * q.val, 0])
    {hx : ((hidM : Memref sig .tc .vmem S1024x2048 .bf16).access (Rect.unit (s := S1024x2048) off S256x2048.size hinb)).Stores Finset.univ}
    {hm : (Finset.univ : Finset (Rect.unit (s := S1024x2048) off S256x2048.size hinb).shape.Idx) = Finset.univ ∨ ∀ a, (Rect.unit (s := S1024x2048) off S256x2048.size hinb).stride a = 1}
    {k : PUnit → Prog (TpuEff nD τ sig (Elt F) Λ₀ .tc) α} :
    (hidOwns d q v : sProp 𝕄)
      ⊢ iprop((hidOwns d q w -∗ wp frame (wpE (defs₀ (F := F)) 𝒱₀ (d : Thread nD τ) none) Set.univ (k ⟨⟩) Q)
        -∗ wp frame (wpE (defs₀ (F := F)) 𝒱₀ (d : Thread nD τ) none) Set.univ (.op (.store hidM (Rect.unit (s := S1024x2048) off S256x2048.size hinb) w Finset.univ hx hm) k) Q) := by
  subst hoff
  unfold hidOwns owns
  iintro ⟨%f, %hf, H⟩ Hk
  iapply (wp_store 𝒱₀ (d : Thread nD τ) none Set.univ (m := hidM) (r := hidR q) (Mk := Finset.univ) (S := (hidQM q).view.set) (f := f) (Finset.Subset.refl _)) $$ H
  iintro H
  iapply Hk
  iexists ((hidQM q).view.write (Elt F) f w Finset.univ)
  isplitr
  · ipureintro; exact View.read_write_univ f w
  · iexact H

theorem reshape_slot_idx (h : S256x512.numel = S1x1x1x256x512.numel) (i : S1x1x1x256x512.Idx) :
    Shape.reshapeEquiv h (ix2 (n0 := 256) (n1 := 512) (i 3) (i 4)) = i := by
  apply Shape.reshapeEquiv_eq_of_rowMajor
  rw [Shape.rowMajor_val_five, Shape.rowMajor_val_two]
  have h0 : (i 0).val < 1 := (i 0).isLt
  have h1 : (i 1).val < 1 := (i 1).isLt
  have h2 : (i 2).val < 1 := (i 2).isLt
  have e0 : (i 0).val = 0 := by omega
  have e1 : (i 1).val = 0 := by omega
  have e2 : (i 2).val = 0 := by omega
  rw [e0, e1, e2]
  show ((((0 * 1 + 0) * 1 + 0) * 256 + (i 3).val) * 512 + (i 4).val) = (i 3).val * 512 + (i 4).val
  omega

theorem read_slot (c s b : Fin 2) (f : (slotM c s b).view.ty.Contents (Elt F)) :
    ((rbM : Memref sig .tc .vmem S2x2x2x256x512 .bf16).access (slotR c s b)).read (Elt F) f = Spec.inSlot ((slotM c s b).view.read (Elt F) f) := by
  funext i
  unfold Spec.inSlot
  show _ = ((rbM : Memref sig .tc .vmem S2x2x2x256x512 .bf16).access (slotR c s b)).read (Elt F) f
      (Shape.reshapeEquiv squeezes_S1x1x1x256x512_S256x512.numel_eq (ix2 (n0 := 256) (n1 := 512) (i 3) (i 4)))
  rw [reshape_slot_idx]

theorem wp_load_slot (d : Dev nD) {α : Type} {Q : α → sProp 𝕄}
    (c s b : Fin 2) (v : Vec F S256x512 .bf16) {off : Fin 5 → Nat}
    {hinb : ∀ a, off a + S1x1x1x256x512.size a ≤ S2x2x2x256x512.size a} (hoff : off = ![c.val, s.val, b.val, 0, 0])
    {hl : (rbM : Memref sig .tc .vmem S2x2x2x256x512 .bf16).view.LoadsAt (Rect.unit (s := S2x2x2x256x512) off S1x1x1x256x512.size hinb).toLoadRect}
    {k : Vec F S1x1x1x256x512 .bf16 → Prog (TpuEff nD τ sig (Elt F) Λ₀ .tc) α} :
    (slotOwns d c s b v : sProp 𝕄)
      ⊢ iprop((slotOwns d c s b v -∗ wp frame (wpE (defs₀ (F := F)) 𝒱₀ (d : Thread nD τ) none) Set.univ (k (Spec.inSlot v)) Q)
        -∗ wp frame (wpE (defs₀ (F := F)) 𝒱₀ (d : Thread nD τ) none) Set.univ (.op (.load rbM (Rect.unit (s := S2x2x2x256x512) off S1x1x1x256x512.size hinb).toLoadRect hl) k) Q) := by
  subst hoff
  unfold slotOwns owns
  iintro ⟨%f, %hf, H⟩ Hk
  subst hf
  have hset : ((rbM : Memref sig .tc .vmem S2x2x2x256x512 .bf16).access (slotR c s b)).set ⊆ (slotM c s b).view.set := by
    exact Finset.subset_of_eq (View.set_reshape ((rbM : Memref sig .tc .vmem S2x2x2x256x512 .bf16).view.slice (slotR c s b)) squeezes_S1x1x1x256x512_S256x512.numel_eq).symm
  iapply (wp_load_rect 𝒱₀ (d : Thread nD τ) none Set.univ (m := rbM) (r := slotR c s b) (S := (slotM c s b).view.set) (f := f) hset) $$ H
  iintro H
  rw [read_slot]
  iapply Hk
  iexists f
  isplitr
  · ipureintro; rfl
  · iexact H

theorem read_xrows (q : Fin 4) (X : Vec F S1024x1024 .f32) {off : Fin 2 → Nat} (hoff : off = ![256 * q.val, 0])
    (hinb : ∀ a, off a + S256x1024.size a ≤ S1024x1024.size a) :
    (Memref.whole cc0_stg0_0 : Memref sig .tc .vmem S1024x1024 .f32).view.readAt (Elt F) (Rect.unit (s := S1024x1024) off S256x1024.size hinb).toLoadRect X
      = Spec.rowsQ q X := by
  subst hoff
  funext i
  unfold Spec.rowsQ
  show X _ = X _
  refine congrArg X (funext fun a => Fin.ext ?_)
  match a with
  | ⟨0, _⟩ => show 256 * q.val + 1 * (i 0).val = 256 * q.val + (i 0).val; omega
  | ⟨1, _⟩ => show 0 + 1 * (i 1).val = (i 1).val; omega

theorem wp_load_xrows (d : Dev nD) {α : Type} {Q : α → sProp 𝕄}
    (q : Fin 4) (X : Vec F S1024x1024 .f32) {qs : PosShare TreeShare} {off : Fin 2 → Nat}
    {hinb : ∀ a, off a + S256x1024.size a ≤ S1024x1024.size a} (hoff : off = ![256 * q.val, 0])
    {hl : (Memref.whole cc0_stg0_0 : Memref sig .tc .vmem S1024x1024 .f32).view.LoadsAt (Rect.unit (s := S1024x1024) off S256x1024.size hinb).toLoadRect}
    {k : Vec F S256x1024 .f32 → Prog (TpuEff nD τ sig (Elt F) Λ₀ .tc) α} :
    ((((d : Thread nD τ).loc cc0_stg0_0) ↦{qs} X) : sProp 𝕄)
      ⊢ iprop(((((d : Thread nD τ).loc cc0_stg0_0) ↦{qs} X) -∗ wp frame (wpE (defs₀ (F := F)) 𝒱₀ (d : Thread nD τ) none) Set.univ (k (Spec.rowsQ q X)) Q)
        -∗ wp frame (wpE (defs₀ (F := F)) 𝒱₀ (d : Thread nD τ) none) Set.univ (.op (.load (Memref.whole cc0_stg0_0) (Rect.unit (s := S1024x1024) off S256x1024.size hinb).toLoadRect hl) k) Q) := by
  have h := wp_load (defs := defs₀ (F := F)) 𝒱₀ (d : Thread nD τ) none (Γ := .empty) Set.univ (Q := Q) (m := (Memref.whole cc0_stg0_0 : Memref sig .tc .vmem S1024x1024 .f32))
    (r := (Rect.unit (s := S1024x1024) off S256x1024.size hinb).toLoadRect) (hl := hl) (k := k) (q := qs) (f := X) (S := Finset.univ) (Finset.subset_univ _)
  rwa [read_xrows q X hoff hinb] at h

theorem zero2 : (![0, 0] : Fin 2 → Nat) = fun _ => 0 := funext fun a => by fin_cases a <;> rfl

theorem wp_load_w1 (d : Dev nD) {α : Type} {Q : α → sProp 𝕄}
    (W : Vec F S1024x2048 .f32) {qs : PosShare TreeShare} {off : Fin 2 → Nat}
    {hinb : ∀ a, off a + S1024x2048.size a ≤ S1024x2048.size a} (hoff : off = ![0, 0])
    {hl : (Memref.whole cc0_stg1_0 : Memref sig .tc .vmem S1024x2048 .f32).view.LoadsAt (Rect.unit (s := S1024x2048) off S1024x2048.size hinb).toLoadRect}
    {k : Vec F S1024x2048 .f32 → Prog (TpuEff nD τ sig (Elt F) Λ₀ .tc) α} :
    ((((d : Thread nD τ).loc cc0_stg1_0) ↦{qs} W) : sProp 𝕄)
      ⊢ iprop(((((d : Thread nD τ).loc cc0_stg1_0) ↦{qs} W) -∗ wp frame (wpE (defs₀ (F := F)) 𝒱₀ (d : Thread nD τ) none) Set.univ (k W) Q)
        -∗ wp frame (wpE (defs₀ (F := F)) 𝒱₀ (d : Thread nD τ) none) Set.univ (.op (.load (Memref.whole cc0_stg1_0) (Rect.unit (s := S1024x2048) off S1024x2048.size hinb).toLoadRect hl) k) Q) := by
  have h := wp_load (defs := defs₀ (F := F)) 𝒱₀ (d : Thread nD τ) none (Γ := .empty) Set.univ (Q := Q) (m := (Memref.whole cc0_stg1_0 : Memref sig .tc .vmem S1024x2048 .f32))
    (r := (Rect.unit (s := S1024x2048) off S1024x2048.size hinb).toLoadRect) (hl := hl) (k := k) (q := qs) (f := W) (S := Finset.univ) (Finset.subset_univ _)
  have e : (Memref.whole cc0_stg1_0 : Memref sig .tc .vmem S1024x2048 .f32).view.readAt (Elt F) (Rect.unit (s := S1024x2048) off S1024x2048.size hinb).toLoadRect W = W :=
    Memref.readAt_unit_zero (Elt F) cc0_stg1_0 (hoff.trans zero2) hinb W
  rwa [e] at h

theorem wp_load_w2 (d : Dev nD) {α : Type} {Q : α → sProp 𝕄}
    (W : Vec F S2048x1024 .f32) {qs : PosShare TreeShare} {off : Fin 2 → Nat}
    {hinb : ∀ a, off a + S2048x1024.size a ≤ S2048x1024.size a} (hoff : off = ![0, 0])
    {hl : (Memref.whole cc0_stg2_0 : Memref sig .tc .vmem S2048x1024 .f32).view.LoadsAt (Rect.unit (s := S2048x1024) off S2048x1024.size hinb).toLoadRect}
    {k : Vec F S2048x1024 .f32 → Prog (TpuEff nD τ sig (Elt F) Λ₀ .tc) α} :
    ((((d : Thread nD τ).loc cc0_stg2_0) ↦{qs} W) : sProp 𝕄)
      ⊢ iprop(((((d : Thread nD τ).loc cc0_stg2_0) ↦{qs} W) -∗ wp frame (wpE (defs₀ (F := F)) 𝒱₀ (d : Thread nD τ) none) Set.univ (k W) Q)
        -∗ wp frame (wpE (defs₀ (F := F)) 𝒱₀ (d : Thread nD τ) none) Set.univ (.op (.load (Memref.whole cc0_stg2_0) (Rect.unit (s := S2048x1024) off S2048x1024.size hinb).toLoadRect hl) k) Q) := by
  have h := wp_load (defs := defs₀ (F := F)) 𝒱₀ (d : Thread nD τ) none (Γ := .empty) Set.univ (Q := Q) (m := (Memref.whole cc0_stg2_0 : Memref sig .tc .vmem S2048x1024 .f32))
    (r := (Rect.unit (s := S2048x1024) off S2048x1024.size hinb).toLoadRect) (hl := hl) (k := k) (q := qs) (f := W) (S := Finset.univ) (Finset.subset_univ _)
  have e : (Memref.whole cc0_stg2_0 : Memref sig .tc .vmem S2048x1024 .f32).view.readAt (Elt F) (Rect.unit (s := S2048x1024) off S2048x1024.size hinb).toLoadRect W = W :=
    Memref.readAt_unit_zero (Elt F) cc0_stg2_0 (hoff.trans zero2) hinb W
  rwa [e] at h

theorem exists_glue {sh : Shape} {β : Type} {T : Type} [Fintype T] (r : T → Rect sh)
    (hd : ∀ t t', t ≠ t' → Disjoint (r t).set (r t').set)
    (hcov : (Finset.univ : Finset T).biUnion (fun t => (r t).set) = Finset.univ)
    (Y : (t : T) → (r t).shape.Idx → β) : ∃ X : sh.Idx → β, ∀ t, (fun j => X ((r t).emb j)) = Y t := by
  classical
  have hex : ∀ i : sh.Idx, ∃ p : (Σ t, (r t).shape.Idx), (r p.1).emb p.2 = i := by
    intro i
    obtain ⟨t, -, hi⟩ := Finset.mem_biUnion.mp (hcov.symm ▸ Finset.mem_univ i)
    obtain ⟨j, hj⟩ := (r t).toLoadRect.exists_idx_of_mem hi
    exact ⟨⟨t, j⟩, hj⟩
  choose p hp using hex
  refine ⟨fun i => Y (p i).1 (p i).2, fun t => funext fun j => ?_⟩
  have hp' := hp ((r t).emb j)
  show Y (p ((r t).emb j)).1 (p ((r t).emb j)).2 = Y t j
  generalize p ((r t).emb j) = u at hp'
  obtain ⟨t', j'⟩ := u
  have ht : t' = t := by
    by_contra hne
    have m1 : (r t).emb j ∈ (r t').set := by rw [← hp']; exact (r t').toLoadRect.idx_mem j'
    have m2 : (r t).emb j ∈ (r t).set := (r t).toLoadRect.idx_mem j
    exact Finset.disjoint_left.mp (hd t' t hne) m1 m2
  subst ht
  have hj : j' = j := (r t').emb.injective hp'
  subst hj
  rfl

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

theorem bigSep_tiles (Φ : Fin 4 × Fin 2 → sProp 𝕄) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [bigSep_univ_prod, bigSep_fin_four]; simp only [bigSep_univ_two, sep_assoc_eq]

theorem bigSep_slots (Φ : Fin 2 × Fin 2 × Fin 2 → sProp 𝕄) :
    bigSep Finset.univ Φ
      = iprop(Φ (0, 0, 0) ∗ Φ (0, 0, 1) ∗ Φ (0, 1, 0) ∗ Φ (0, 1, 1) ∗ Φ (1, 0, 0) ∗ Φ (1, 0, 1) ∗ Φ (1, 1, 0) ∗ Φ (1, 1, 1)) := by
  rw [bigSep_univ_prod, bigSep_univ_two, bigSep_univ_prod, bigSep_univ_prod]; simp only [bigSep_univ_two, sep_assoc_eq]

abbrev tileRP (t : Fin 4 × Fin 2) : Rect S1024x1024 := tileR t.1 t.2

theorem tileR_disjoint (t t' : Fin 4 × Fin 2) (h : t ≠ t') : Disjoint (tileRP t).set (tileRP t').set := by
  obtain ⟨q, c⟩ := t
  obtain ⟨q', c'⟩ := t'
  by_cases hq : q = q'
  · have hc : c.val ≠ c'.val := fun e => h (by rw [hq, Fin.ext e])
    refine Rect.unit_disjoint (1 : Fin 2) ?_
    show 512 * c.val + 512 ≤ 512 * c'.val ∨ 512 * c'.val + 512 ≤ 512 * c.val
    omega
  · have hq' : q.val ≠ q'.val := fun e => hq (Fin.ext e)
    refine Rect.unit_disjoint (0 : Fin 2) ?_
    show 256 * q.val + 256 ≤ 256 * q'.val ∨ 256 * q'.val + 256 ≤ 256 * q.val
    omega

theorem tileR_cover : (Finset.univ : Finset (Fin 4 × Fin 2)).biUnion (fun t => (tileRP t).set) = Finset.univ := by
  ext i
  simp only [Finset.mem_biUnion, Finset.mem_univ, true_and, iff_true]
  have h0 : (i 0).val < 1024 := idx2_lt0 i
  have h1 : (i 1).val < 1024 := idx2_lt1 i
  refine ⟨(⟨(i 0).val / 256, by omega⟩, ⟨(i 1).val / 512, by omega⟩), ?_⟩
  rw [Rect.mem_set_unit]
  intro a
  match a with
  | ⟨0, _⟩ => show 256 * ((i 0).val / 256) ≤ (i 0).val ∧ (i 0).val < 256 * ((i 0).val / 256) + 256; omega
  | ⟨1, _⟩ => show 512 * ((i 1).val / 512) ≤ (i 1).val ∧ (i 1).val < 512 * ((i 1).val / 512) + 512; omega

theorem tiles_split_at (d : Dev nD) (f : Vec F S1024x1024 .bf16) :
    ((((d : Thread nD τ).loc cc0_stg3_0) ↦{fullShare} f) : sProp 𝕄)
      ⊢ bigSep Finset.univ fun t : Fin 4 × Fin 2 => tileOwns d t.1 t.2 (fun j => f ((tileR t.1 t.2).emb j)) :=
  (Entails.of_eq (owns_whole (d : Thread nD τ) cc0_stg3_0 fullShare f).symm).trans
    (owns_rects (d : Thread nD τ) outM fullShare tileRP (fun _ _ => rfl) tileR_disjoint tileR_cover f)

theorem tiles_split (d : Dev nD) (f : Vec F S1024x1024 .bf16) :
    ((((d : Thread nD τ).loc cc0_stg3_0) ↦{fullShare} f) : sProp 𝕄)
      ⊢ iprop((∃ v, tileOwns d 0 0 v) ∗ (∃ v, tileOwns d 0 1 v) ∗ (∃ v, tileOwns d 1 0 v) ∗ (∃ v, tileOwns d 1 1 v)
          ∗ (∃ v, tileOwns d 2 0 v) ∗ (∃ v, tileOwns d 2 1 v) ∗ (∃ v, tileOwns d 3 0 v) ∗ (∃ v, tileOwns d 3 1 v)) := by
  rw [← bigSep_tiles (fun t => iprop(∃ v, tileOwns (F := F) d t.1 t.2 v))]
  have h (t : Fin 4 × Fin 2) : (tileOwns d t.1 t.2 (fun j => f ((tileR t.1 t.2).emb j)) : sProp 𝕄) ⊢ iprop(∃ v, tileOwns d t.1 t.2 v) := by
    iintro H
    iframe # ∗; iexists _; iframe
  exact (tiles_split_at d f).trans (bigSep_mono fun t _ => h t)

theorem tiles_join (d : Dev nD) (T : Fin 4 → Fin 2 → Vec F S256x512 .bf16) :
    (iprop(tileOwns d 0 0 (T 0 0) ∗ tileOwns d 0 1 (T 0 1) ∗ tileOwns d 1 0 (T 1 0) ∗ tileOwns d 1 1 (T 1 1)
        ∗ tileOwns d 2 0 (T 2 0) ∗ tileOwns d 2 1 (T 2 1) ∗ tileOwns d 3 0 (T 3 0) ∗ tileOwns d 3 1 (T 3 1)) : sProp 𝕄)
      ⊢ (((d : Thread nD τ).loc cc0_stg3_0) ↦{fullShare} (fun i : S1024x1024.Idx =>
          T ⟨(i 0).val / 256, by have h0 : (i 0).val < 1024 := idx2_lt0 i; omega⟩ ⟨(i 1).val / 512, by have h1 : (i 1).val < 1024 := idx2_lt1 i; omega⟩
            (ix2 (n0 := 256) (n1 := 512) ⟨(i 0).val % 256, Nat.mod_lt _ (by decide)⟩ ⟨(i 1).val % 512, Nat.mod_lt _ (by decide)⟩))) := by
  rw [← bigSep_tiles (fun t => tileOwns (F := F) d t.1 t.2 (T t.1 t.2))]
  refine BIBase.Entails.trans ?_ ((owns_of_rects (d : Thread nD τ) outM fullShare tileRP (fun _ _ => rfl) tileR_disjoint tileR_cover _).trans
    (Entails.of_eq (owns_whole (d : Thread nD τ) cc0_stg3_0 fullShare _)))
  refine Entails.of_eq (bigSep_congr fun t _ => ?_)
  obtain ⟨q, c⟩ := t
  show tileOwns d q c (T q c) = tileOwns d q c _
  refine congrArg (tileOwns d q c) (funext fun j => ?_)
  have hj0 : (j 0).val < 256 := idx2_lt0 j
  have hj1 : (j 1).val < 512 := idx2_lt1 j
  have e0 : (((tileR q c).emb j) 0).val = 256 * q.val + (j 0).val := by
    show 256 * q.val + 1 * (j 0).val = _; omega
  have e1 : (((tileR q c).emb j) 1).val = 512 * c.val + (j 1).val := by
    show 512 * c.val + 1 * (j 1).val = _; omega
  refine congr (congr (congrArg T (Fin.ext ?_)) (Fin.ext ?_)) (funext fun a => Fin.ext ?_)
  · show q.val = (((tileR q c).emb j) 0).val / 256; rw [e0]; omega
  · show c.val = (((tileR q c).emb j) 1).val / 512; rw [e1]; omega
  · match a with
    | ⟨0, _⟩ => show (j 0).val = (((tileR q c).emb j) 0).val % 256; rw [e0]; omega
    | ⟨1, _⟩ => show (j 1).val = (((tileR q c).emb j) 1).val % 512; rw [e1]; omega

theorem tiles_join_result (A : Spec.Args F) (d : Dev nD) :
    (iprop(tileOwns d 0 0 (Spec.tile A d 0 0) ∗ tileOwns d 0 1 (Spec.tile A d 0 1) ∗ tileOwns d 1 0 (Spec.tile A d 1 0) ∗ tileOwns d 1 1 (Spec.tile A d 1 1)
        ∗ tileOwns d 2 0 (Spec.tile A d 2 0) ∗ tileOwns d 2 1 (Spec.tile A d 2 1) ∗ tileOwns d 3 0 (Spec.tile A d 3 0) ∗ tileOwns d 3 1 (Spec.tile A d 3 1)) : sProp 𝕄)
      ⊢ (((d : Thread nD τ).loc cc0_stg3_0) ↦{fullShare} Spec.result A d) :=
  tiles_join d (Spec.tile A d)

theorem hidR_disjoint (q q' : Fin 4) (h : q ≠ q') : Disjoint (hidR q).set (hidR q').set := by
  have hq : q.val ≠ q'.val := fun e => h (Fin.ext e)
  refine Rect.unit_disjoint (0 : Fin 2) ?_
  show 256 * q.val + 256 ≤ 256 * q'.val ∨ 256 * q'.val + 256 ≤ 256 * q.val
  omega

theorem hidR_cover : (Finset.univ : Finset (Fin 4)).biUnion (fun q => (hidR q).set) = Finset.univ := by
  ext i
  simp only [Finset.mem_biUnion, Finset.mem_univ, true_and, iff_true]
  have h0 : (i 0).val < 1024 := idx2_lt0 i
  have h1 : (i 1).val < 2048 := idx2_lt1 i
  refine ⟨⟨(i 0).val / 256, by omega⟩, ?_⟩
  rw [Rect.mem_set_unit]
  intro a
  match a with
  | ⟨0, _⟩ => show 256 * ((i 0).val / 256) ≤ (i 0).val ∧ (i 0).val < 256 * ((i 0).val / 256) + 256; omega
  | ⟨1, _⟩ => show 0 ≤ (i 1).val ∧ (i 1).val < 0 + 2048; omega

theorem hid_split_at (d : Dev nD) (f : Vec F S1024x2048 .bf16) :
    ((((d : Thread nD τ).loc cc0_scratch0) ↦{fullShare} f) : sProp 𝕄)
      ⊢ bigSep Finset.univ fun q : Fin 4 => hidOwns d q (fun j => f ((hidR q).emb j)) :=
  (Entails.of_eq (owns_whole (d : Thread nD τ) cc0_scratch0 fullShare f).symm).trans
    (owns_rects (d : Thread nD τ) hidM fullShare hidR (fun _ _ => rfl) hidR_disjoint hidR_cover f)

theorem hid_split (d : Dev nD) (f : Vec F S1024x2048 .bf16) :
    ((((d : Thread nD τ).loc cc0_scratch0) ↦{fullShare} f) : sProp 𝕄)
      ⊢ iprop((∃ v, hidOwns d 0 v) ∗ (∃ v, hidOwns d 1 v) ∗ (∃ v, hidOwns d 2 v) ∗ (∃ v, hidOwns d 3 v)) := by
  rw [← bigSep_fin_four (fun q => iprop(∃ v, hidOwns (F := F) d q v))]
  have h (q : Fin 4) : (hidOwns d q (fun j => f ((hidR q).emb j)) : sProp 𝕄) ⊢ iprop(∃ v, hidOwns d q v) := by
    iintro H
    iframe # ∗; iexists _; iframe
  exact (hid_split_at d f).trans (bigSep_mono fun q _ => h q)

theorem whole_of_pieces (d : Dev nD) (b : Ref sig .tc) {T : Type} [Fintype T] [DecidableEq T] (r : T → Rect b.ty.shape)
    (hr : ∀ t a, (r t).stride a = 1) (hd : ∀ t t', t ≠ t' → Disjoint (r t).set (r t').set)
    (hcov : (Finset.univ : Finset T).biUnion (fun t => (r t).set) = Finset.univ) :
    (bigSep Finset.univ (fun t => iprop(∃ Y, owns (d : Thread nD τ) ((Memref.whole b).slice (r t) (hr t)) fullShare Y)) : sProp 𝕄)
      ⊢ iprop(∃ f, ((d : Thread nD τ).loc b) ↦{fullShare} f) := by
  refine (bigSep_exists_pi Finset.univ (fun t Y => owns (d : Thread nD τ) ((Memref.whole b).slice (r t) (hr t)) fullShare Y)).trans ?_
  iintro ⟨%Y, H⟩
  obtain ⟨X, hX⟩ := exists_glue r hd hcov Y
  have hfin : (bigSep Finset.univ (fun t => owns (d : Thread nD τ) ((Memref.whole b).slice (r t) (hr t)) fullShare (Y t)) : sProp 𝕄)
      ⊢ (((d : Thread nD τ).loc b) ↦{fullShare} X) := by
    have e : (fun t => (owns (d : Thread nD τ) ((Memref.whole b).slice (r t) (hr t)) fullShare (Y t) : sProp 𝕄))
        = fun t => owns (d : Thread nD τ) ((Memref.whole b).slice (r t) (hr t)) fullShare (fun j => X ((r t).emb j)) :=
      funext fun t => by rw [hX t]
    rw [e]
    exact (owns_of_rects (d : Thread nD τ) (Memref.whole b) fullShare r hr hd hcov X).trans
      (Entails.of_eq (owns_whole (d : Thread nD τ) b fullShare X))
  iexists X
  iapply hfin
  iexact H

theorem hid_join (d : Dev nD) :
    (iprop((∃ v, hidOwns d 0 v) ∗ (∃ v, hidOwns d 1 v) ∗ (∃ v, hidOwns d 2 v) ∗ (∃ v, hidOwns d 3 v)) : sProp 𝕄)
      ⊢ iprop(∃ f, ((d : Thread nD τ).loc cc0_scratch0) ↦{fullShare} f) := by
  rw [← bigSep_fin_four (fun q => iprop(∃ v, hidOwns (F := F) d q v))]
  exact whole_of_pieces d cc0_scratch0 hidR (fun _ _ => rfl) hidR_disjoint hidR_cover

abbrev slotRP (t : Fin 2 × Fin 2 × Fin 2) : Rect S2x2x2x256x512 := slotR t.1 t.2.1 t.2.2

theorem slotR_disjoint (t t' : Fin 2 × Fin 2 × Fin 2) (h : t ≠ t') : Disjoint (slotRP t).set (slotRP t').set := by
  obtain ⟨c, s, b⟩ := t
  obtain ⟨c', s', b'⟩ := t'
  by_cases hc : c = c'
  · by_cases hs : s = s'
    · have hb : b.val ≠ b'.val := fun e => h (by rw [hc, hs, Fin.ext e])
      refine Rect.unit_disjoint (2 : Fin 5) ?_
      show b.val + 1 ≤ b'.val ∨ b'.val + 1 ≤ b.val
      omega
    · have hs' : s.val ≠ s'.val := fun e => hs (Fin.ext e)
      refine Rect.unit_disjoint (1 : Fin 5) ?_
      show s.val + 1 ≤ s'.val ∨ s'.val + 1 ≤ s.val
      omega
  · have hc' : c.val ≠ c'.val := fun e => hc (Fin.ext e)
    refine Rect.unit_disjoint (0 : Fin 5) ?_
    show c.val + 1 ≤ c'.val ∨ c'.val + 1 ≤ c.val
    omega

theorem slotR_cover : (Finset.univ : Finset (Fin 2 × Fin 2 × Fin 2)).biUnion (fun t => (slotRP t).set) = Finset.univ := by
  ext i
  simp only [Finset.mem_biUnion, Finset.mem_univ, true_and, iff_true]
  have h0 : (i 0).val < 2 := (i 0).isLt
  have h1 : (i 1).val < 2 := (i 1).isLt
  have h2 : (i 2).val < 2 := (i 2).isLt
  have h3 : (i 3).val < 256 := (i 3).isLt
  have h4 : (i 4).val < 512 := (i 4).isLt
  refine ⟨(⟨(i 0).val, h0⟩, ⟨(i 1).val, h1⟩, ⟨(i 2).val, h2⟩), ?_⟩
  rw [Rect.mem_set_unit]
  intro a
  match a with
  | ⟨0, _⟩ => show (i 0).val ≤ (i 0).val ∧ (i 0).val < (i 0).val + 1; omega
  | ⟨1, _⟩ => show (i 1).val ≤ (i 1).val ∧ (i 1).val < (i 1).val + 1; omega
  | ⟨2, _⟩ => show (i 2).val ≤ (i 2).val ∧ (i 2).val < (i 2).val + 1; omega
  | ⟨3, _⟩ => show 0 ≤ (i 3).val ∧ (i 3).val < 0 + 256; omega
  | ⟨4, _⟩ => show 0 ≤ (i 4).val ∧ (i 4).val < 0 + 512; omega

theorem pointsTo_squeeze (t : Thread nD τ) {sh sh' : Shape} {e : EltTy} (mr : Memref sig t.2.kind .vmem sh e) (h : sh.Squeezes sh')
    (q : PosShare TreeShare) (f : mr.view.ty.Contents (Elt F)) :
    ((mr.squeeze sh' h).view.loc t ↦[(mr.squeeze sh' h).view.set]{q} f : sProp 𝕄) = (mr.view.loc t ↦[mr.view.set]{q} f) :=
  congrArg (fun I => (mr.view.loc t ↦[I]{q} f : sProp 𝕄)) (View.set_reshape mr.view h.numel_eq)

theorem slotAny_of_box (d : Dev nD) (c s b : Fin 2) (Y : Vec F S1x1x1x256x512 .bf16) :
    (owns (d : Thread nD τ) ((rbM : Memref sig .tc .vmem S2x2x2x256x512 .bf16).slice (slotR c s b) (fun _ => rfl)) fullShare Y : sProp 𝕄)
      ⊢ slotAny d c s b := by
  unfold slotAny slotOwns owns
  iintro ⟨%f, %hf, H⟩
  iexists ((slotM c s b).view.read (Elt F) f), f
  isplitr
  · ipureintro; rfl
  · iapply (Entails.of_eq (pointsTo_squeeze (d : Thread nD τ) ((rbM : Memref sig .tc .vmem S2x2x2x256x512 .bf16).slice (slotR c s b) (fun _ => rfl))
      squeezes_S1x1x1x256x512_S256x512 fullShare f).symm)
    iexact H

theorem box_of_slotAny (d : Dev nD) (c s b : Fin 2) :
    (slotAny d c s b : sProp 𝕄)
      ⊢ iprop(∃ Y, owns (d : Thread nD τ) ((rbM : Memref sig .tc .vmem S2x2x2x256x512 .bf16).slice (slotR c s b) (fun _ => rfl)) fullShare Y) := by
  unfold slotAny slotOwns owns
  iintro ⟨%v, %f, %hf, H⟩
  iexists (((rbM : Memref sig .tc .vmem S2x2x2x256x512 .bf16).slice (slotR c s b) (fun _ => rfl)).view.read (Elt F) f), f
  isplitr
  · ipureintro; rfl
  · iapply (Entails.of_eq (pointsTo_squeeze (d : Thread nD τ) ((rbM : Memref sig .tc .vmem S2x2x2x256x512 .bf16).slice (slotR c s b) (fun _ => rfl))
      squeezes_S1x1x1x256x512_S256x512 fullShare f))
    iexact H

theorem slots_split (d : Dev nD) (f : Vec F S2x2x2x256x512 .bf16) :
    ((((d : Thread nD τ).loc cc0_scratch1) ↦{fullShare} f) : sProp 𝕄)
      ⊢ iprop(slotAny d 0 0 0 ∗ slotAny d 0 0 1 ∗ slotAny d 0 1 0 ∗ slotAny d 0 1 1
          ∗ slotAny d 1 0 0 ∗ slotAny d 1 0 1 ∗ slotAny d 1 1 0 ∗ slotAny d 1 1 1) := by
  rw [← bigSep_slots (fun t => slotAny (F := F) d t.1 t.2.1 t.2.2)]
  exact ((Entails.of_eq (owns_whole (d : Thread nD τ) cc0_scratch1 fullShare f).symm).trans
    (owns_rects (d : Thread nD τ) rbM fullShare slotRP (fun _ _ => rfl) slotR_disjoint slotR_cover f)).trans
    (bigSep_mono fun t _ => slotAny_of_box d t.1 t.2.1 t.2.2 _)

theorem slots_join (d : Dev nD) :
    (iprop(slotAny d 0 0 0 ∗ slotAny d 0 0 1 ∗ slotAny d 0 1 0 ∗ slotAny d 0 1 1
        ∗ slotAny d 1 0 0 ∗ slotAny d 1 0 1 ∗ slotAny d 1 1 0 ∗ slotAny d 1 1 1) : sProp 𝕄)
      ⊢ iprop(∃ f, ((d : Thread nD τ).loc cc0_scratch1) ↦{fullShare} f) := by
  rw [← bigSep_slots (fun t => slotAny (F := F) d t.1 t.2.1 t.2.2)]
  exact (bigSep_mono fun t _ => box_of_slotAny d t.1 t.2.1 t.2.2).trans
    (whole_of_pieces d cc0_scratch1 slotRP (fun _ _ => rfl) slotR_disjoint slotR_cover)

end Cert.KernelIdeal.Coll

end
-- ==== Proof.KernelIdeal.BodyEnds.lean ====
/-
  The two ends of the body: its precondition cut into the pieces the protocol moves, and the pieces joined again
  into its postcondition, every tile at the sum of the four partials.
-/
import proofs.«900576_g7700000000000577_dist_mlp2_tp_i_m1024_h2048_out1024_v7x_i4_bf16_1_alg».proof.Proof.KernelIdeal.States
import proofs.«900576_g7700000000000577_dist_mlp2_tp_i_m1024_h2048_out1024_v7x_i4_bf16_1_alg».proof.Proof.KernelIdeal.Regions
import proofs.«900576_g7700000000000577_dist_mlp2_tp_i_m1024_h2048_out1024_v7x_i4_bf16_1_alg».proof.Proof.KernelIdeal.Tables

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Ends

theorem bigSep_quad (Φ : Fin 4 → sProp 𝕄) (a b c e : Fin 4) (h : (Finset.univ : Finset (Fin 4)) = {a, b, c, e})
    (h1 : a ∉ ({b, c, e} : Finset (Fin 4))) (h2 : b ∉ ({c, e} : Finset (Fin 4))) (h3 : c ∉ ({e} : Finset (Fin 4))) :
    bigSep Finset.univ Φ = iprop(Φ a ∗ Φ b ∗ Φ c ∗ Φ e) := by
  rw [h, bigSep_insert h1, bigSep_insert h2, bigSep_insert h3, bigSep_singleton]
  rfl

theorem roles (d : Dev nD) (Φ : Fin 4 → sProp 𝕄) :
    iprop(Φ 0 ∗ Φ 1 ∗ Φ 2 ∗ Φ 3) = iprop(Φ (sendQ 0 d) ∗ Φ (sendQ 1 d) ∗ Φ (keepQ 0 d) ∗ Φ (keepQ 1 d)) :=
  (bigSep_quad Φ 0 1 2 3 (by decide) (by decide) (by decide) (by decide)).symm.trans
    (bigSep_quad Φ (sendQ 0 d) (sendQ 1 d) (keepQ 0 d) (keepQ 1 d) (by revert d; decide) (by revert d; decide) (by revert d; decide)
      (by revert d; decide))

theorem tile_keep0 (A : Spec.Args F) (d : Dev nD) (c : Fin 2) : Spec.tile A d (keepQ 0 d) c = afterSecond A d c 0 := by
  unfold Spec.tile; exact if_pos rfl
theorem tile_keep1 (A : Spec.Args F) (d : Dev nD) (c : Fin 2) : Spec.tile A d (keepQ 1 d) c = afterSecond A d c 1 := by
  unfold Spec.tile; rw [if_neg (by revert d; decide)]; exact if_pos rfl
theorem tile_send0 (A : Spec.Args F) (d : Dev nD) (c : Fin 2) : Spec.tile A d (sendQ 0 d) c = afterSecond A (partner 2 0 d) c 0 := by
  unfold Spec.tile; rw [if_neg (by revert d; decide), if_neg (by revert d; decide)]; exact if_pos rfl
theorem tile_send1 (A : Spec.Args F) (d : Dev nD) (c : Fin 2) : Spec.tile A d (sendQ 1 d) c = afterSecond A (partner 2 1 d) c 1 := by
  unfold Spec.tile; rw [if_neg (by revert d; decide), if_neg (by revert d; decide)]; exact if_neg (by revert d; decide)

theorem bigSepL_cons' {I : Type} (i : I) (l : List I) (Φ : I → sProp 𝕄) : bigSepL (i :: l) Φ = iprop(Φ i ∗ bigSepL l Φ) :=
  bigSepL_cons i l Φ

theorem unwaited_intro (d : Dev nD) (l : List Xf) :
    (iprop((bigSepL l fun x => iprop(atPos ER (sendCellX d x) 0 ∅ 0 ∗ atPos ER (recvCellX d x) 0 ∅ 0))
        ∗ bigSepL l fun x => cred (tallyAt (recvCellX d x) () N)) : sProp 𝕄) ⊢ Unwaited d l := by
  unfold Unwaited
  induction l with
  | nil => rw [bigSepL_nil]; iintro -; iempintro
  | cons x l ih =>
    rw [bigSepL_cons', bigSepL_cons', bigSepL_cons']
    iintro ⟨⟨⟨H1, H2⟩, HP⟩, H3, HC⟩
    isplitl [H1 H2 H3]
    · isplitl [H1]; · iexact H1
      isplitl [H2]; · iexact H2
      iexact H3
    · iapply ih
      iframe # ∗

theorem fetch_0 (t : Fin cfg0.N) : (cfg0.win (0 : Fin 4)).fetch t = true := fetch0_0 t
theorem fetch_1 (t : Fin cfg0.N) : (cfg0.win (1 : Fin 4)).fetch t = true := fetch0_1 t
theorem fetch_2 (t : Fin cfg0.N) : (cfg0.win (2 : Fin 4)).fetch t = true := fetch0_2 t

end Ends

open Ends

theorem enter (K : Dev nD × Fin 25 → ℕ) (d : Dev nD) : bodyPre m ρ K d ⊢ B0 m K d := by
  unfold bodyPre ghost positions payToks creds scratch Dat.owesAt Pipeline.owesWithin
  rw [show (dats m ρ 0 d).owed t₀.castSucc = O₀ d from rfl]
  iintro ⟨⟨⟨Hrec, ⟨HatB, Hpos⟩, HtA, HtB, Htok⟩, ⟨HcB, Hcr⟩, Hlev, ⟨%fh, Hhid⟩, ⟨%fr, Hrb⟩⟩, ⟨%W, %hW, HO⟩,
    ⟨%e0, %g0, %hg0, Hx⟩, ⟨%e1, %g1, %hg1, Hw1⟩, ⟨%e2, %g2, %hg2, Hw2⟩, ⟨%e3, %g3, %hg3, Hout⟩⟩
  have hx : g0 = xstg m d := by rw [hg0]; unfold Dat.before; rw [if_pos (fetch_0 t₀)]; rfl
  have hw1 : g1 = w1stg m d := by rw [hg1]; unfold Dat.before; rw [if_pos (fetch_1 t₀)]; rfl
  have hw2 : g2 = w2stg m d := by rw [hg2]; unfold Dat.before; rw [if_pos (fetch_2 t₀)]; rfl
  subst hx hw1 hw2
  ihave Hun := (unwaited_intro d sends) $$ [Hpos Hcr]
  · iframe # ∗
  ihave Hh := (hid_split d fh) $$ Hhid
  ihave Hh := (Entails.of_eq (roles d (fun q => hidAny (F := F) d q))) $$ Hh
  ihave Hs := (slots_split d fr) $$ Hrb
  ihave Ht := (tiles_split d g3) $$ Hout
  icases Ht with ⟨H00, H01, H10, H11, H20, H21, H30, H31⟩
  ihave Ht : iprop((tileAny (F := F) d 0 0 ∗ tileAny (F := F) d 0 1) ∗ (tileAny (F := F) d 1 0 ∗ tileAny (F := F) d 1 1)
      ∗ (tileAny (F := F) d 2 0 ∗ tileAny (F := F) d 2 1) ∗ (tileAny (F := F) d 3 0 ∗ tileAny (F := F) d 3 1))
    $$ [H00 H01 H10 H11 H20 H21 H30 H31]
  · iframe
  ihave Ht := (Entails.of_eq (roles d (fun q => iprop(tileAny (F := F) d q 0 ∗ tileAny (F := F) d q 1)))) $$ Ht
  icases Ht with ⟨⟨Ts00, Ts01⟩, ⟨Ts10, Ts11⟩, ⟨Tk00, Tk01⟩, ⟨Tk10, Tk11⟩⟩
  icases Hh with ⟨Hh0, Hh1, Hh2, Hh3⟩
  icases Hs with ⟨S000, S001, S010, S011, S100, S101, S110, S111⟩
  unfold B0 Know Inputs Unissued
  ihave HO' : iprop(∃ W, owes (d : Thread nD τ) (O₀ d) W) $$ [HO]
  · iexists W; iexact HO
  iframe

theorem leave (K : Dev nD × Fin 25 → ℕ) (d : Dev nD) : Bend m K d ⊢ bodyPost m ρ d := by
  unfold Bend Know Inputs Proto Unissued InFlight Unwaited Done
  rw [show sends.take 12 = sends from rfl, show sends.drop 12 = [] from rfl, oweL_nil]
  iintro ⟨-, ⟨Hx, Hw1, Hw2⟩, ⟨⟨%W, HO⟩, -, -, -, Hdone⟩, ⟨Hh0, Hh1, Hh2, Hh3⟩,
    ⟨Tk00, Tk10, Tk01, Tk11, Ts00, Ts10, Ts01, Ts11⟩, ⟨S000, S001, S100, S101, S010, S011, S110, S111⟩⟩

  ihave Hh : iprop(hidAny (F := F) d (sendQ 0 d) ∗ hidAny (F := F) d (sendQ 1 d) ∗ hidAny (F := F) d (keepQ 0 d) ∗ hidAny (F := F) d (keepQ 1 d))
    $$ [Hh0 Hh1 Hh2 Hh3]
  · isplitl [Hh0]; · iexists _; iexact Hh0
    isplitl [Hh1]; · iexists _; iexact Hh1
    isplitl [Hh2]; · iexists _; iexact Hh2
    iexists _; iexact Hh3
  ihave Hh := (Entails.of_eq (roles d (fun q => hidAny (F := F) d q)).symm) $$ Hh
  ihave Hhid := (hid_join d) $$ Hh

  ihave Hs : iprop(slotAny (F := F) d 0 0 0 ∗ slotAny (F := F) d 0 0 1 ∗ slotAny (F := F) d 0 1 0 ∗ slotAny (F := F) d 0 1 1
      ∗ slotAny (F := F) d 1 0 0 ∗ slotAny (F := F) d 1 0 1 ∗ slotAny (F := F) d 1 1 0 ∗ slotAny (F := F) d 1 1 1)
    $$ [S000 S001 S100 S101 S010 S011 S110 S111]
  · isplitl [S000]; · iexists _; iexact S000
    isplitl [S001]; · iexists _; iexact S001
    isplitl [S010]; · iexists _; iexact S010
    isplitl [S011]; · iexists _; iexact S011
    isplitl [S100]; · iexists _; iexact S100
    isplitl [S101]; · iexists _; iexact S101
    isplitl [S110]; · iexists _; iexact S110
    iexists _; iexact S111
  ihave Hrb := (slots_join d) $$ Hs

  ihave Ht : iprop((tileOwns d (sendQ 0 d) 0 (Spec.tile (A m) d (sendQ 0 d) 0) ∗ tileOwns d (sendQ 0 d) 1 (Spec.tile (A m) d (sendQ 0 d) 1))
      ∗ (tileOwns d (sendQ 1 d) 0 (Spec.tile (A m) d (sendQ 1 d) 0) ∗ tileOwns d (sendQ 1 d) 1 (Spec.tile (A m) d (sendQ 1 d) 1))
      ∗ (tileOwns d (keepQ 0 d) 0 (Spec.tile (A m) d (keepQ 0 d) 0) ∗ tileOwns d (keepQ 0 d) 1 (Spec.tile (A m) d (keepQ 0 d) 1))
      ∗ (tileOwns d (keepQ 1 d) 0 (Spec.tile (A m) d (keepQ 1 d) 0) ∗ tileOwns d (keepQ 1 d) 1 (Spec.tile (A m) d (keepQ 1 d) 1)))
    $$ [Tk00 Tk10 Tk01 Tk11 Ts00 Ts10 Ts01 Ts11]
  · rw [tile_send0, tile_send0, tile_send1, tile_send1, tile_keep0, tile_keep0, tile_keep1, tile_keep1]
    iframe
  ihave Ht := (Entails.of_eq (roles d (fun q => iprop(tileOwns d q 0 (Spec.tile (A m) d q 0) ∗ tileOwns d q 1 (Spec.tile (A m) d q 1)))).symm) $$ Ht
  icases Ht with ⟨⟨H00, H01⟩, ⟨H10, H11⟩, ⟨H20, H21⟩, ⟨H30, H31⟩⟩
  ihave Hres := (tiles_join_result (A m) d) $$ [H00 H01 H10 H11 H20 H21 H30 H31]
  · iframe

  unfold bodyPost Φ₁ scratch Dat.owesAt Pipeline.owesWithin
  rw [show (dats m ρ 0 d).owed t₀.succ = 0 from rfl]
  isplitl [Hhid Hrb Hdone]
  · isplitl [Hhid Hrb]
    · isplitl [Hhid]; · iexact Hhid
      iexact Hrb
    · iexact Hdone
  isplitl [HO]
  · iexists W
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hres

end Cert.KernelIdeal.Coll

end
-- ==== Proof.KernelIdeal.Steps.lean ====
/-
  One rule per protocol step: the two barrier signals and the barrier wait, a transfer of each of the three steps,
  and the waits on a transfer's send and receive cells.
-/
import proofs.«900576_g7700000000000577_dist_mlp2_tp_i_m1024_h2048_out1024_v7x_i4_bf16_1_alg».proof.Proof.KernelIdeal.Tables
import proofs.«900576_g7700000000000577_dist_mlp2_tp_i_m1024_h2048_out1024_v7x_i4_bf16_1_alg».proof.Proof.KernelIdeal.Regions

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barIx : Fin 25 := 0
abbrev sendIx (c : Fin 2) (s : Fin 3) (b : Fin 2) : Fin 25 := ⟨1 + (c.val * 6 + s.val * 2 + b.val), by have := c.isLt; have := s.isLt; have := b.isLt; omega⟩
abbrev recvIx (c : Fin 2) (s : Fin 3) (b : Fin 2) : Fin 25 := ⟨13 + (c.val * 6 + s.val * 2 + b.val), by have := c.isLt; have := s.isLt; have := b.isLt; omega⟩

theorem kcell_send (d : Dev nD) (c : Fin 2) (s : Fin 3) (b : Fin 2) : kcell (d, sendIx c s b) = sendCell d c s b := by
  revert c s b; intro c s b; fin_cases c <;> fin_cases s <;> fin_cases b <;> rfl
theorem kcell_recv (d : Dev nD) (c : Fin 2) (s : Fin 3) (b : Fin 2) : kcell (d, recvIx c s b) = recvCell d c s b := by
  revert c s b; intro c s b; fin_cases c <;> fin_cases s <;> fin_cases b <;> rfl

variable (K : Dev nD × Fin 25 → ℕ)

instance records_persistent : BI.Persistent (records m K) := by unfold records; infer_instance

theorem inv_at (ck : Dev nD × Fin 25) : records m K ⊢ cellInv ER (rd m) (K ck) (kcell ck) := by
  have h : (bigSep Finset.univ fun ck : Dev nD × Fin 25 => (cellInv ER (rd m) (K ck) (kcell ck) : sProp 𝕄)) ⊢ cellInv ER (rd m) (K ck) (kcell ck) :=
    bigSep_elim (Finset.mem_univ ck)
  unfold records; iintro ⟨HI, -⟩; iapply h; iexact HI
theorem reached_at (ck : Dev nD × Fin 25) : records m K ⊢ (reached ER (kcell ck) 0 : sProp 𝕄) := by
  have h : (bigSep Finset.univ fun ck : Dev nD × Fin 25 => (reached ER (kcell ck) 0 : sProp 𝕄)) ⊢ reached ER (kcell ck) 0 :=
    bigSep_elim (Finset.mem_univ ck)
  unfold records; iintro ⟨-, HR⟩; iapply h; iexact HR

theorem inv_bar (d : Dev nD) : records m K ⊢ cellInv ER (rd m) (K (d, barIx)) (barCell d) := inv_at m K (d, barIx)
theorem inv_send (d : Dev nD) (c : Fin 2) (s : Fin 3) (b : Fin 2) : records m K ⊢ cellInv ER (rd m) (K (d, sendIx c s b)) (sendCell d c s b) := by
  rw [← kcell_send]; exact inv_at m K _
theorem inv_recv (d : Dev nD) (c : Fin 2) (s : Fin 3) (b : Fin 2) : records m K ⊢ cellInv ER (rd m) (K (d, recvIx c s b)) (recvCell d c s b) := by
  rw [← kcell_recv]; exact inv_at m K _
theorem rch_bar (d : Dev nD) : records m K ⊢ (reached ER (barCell d) 0 : sProp 𝕄) := reached_at m K (d, barIx)
theorem rch_send (d : Dev nD) (c : Fin 2) (s : Fin 3) (b : Fin 2) : records m K ⊢ (reached ER (sendCell d c s b) 0 : sProp 𝕄) := by
  rw [← kcell_send]; exact reached_at m K _
theorem rch_recv (d : Dev nD) (c : Fin 2) (s : Fin 3) (b : Fin 2) : records m K ⊢ (reached ER (recvCell d c s b) 0 : sProp 𝕄) := by
  rw [← kcell_recv]; exact reached_at m K _

theorem step_signal (d e : Dev nD) (dty : Bool) {O₀' O : CellTallies nD τ sig Unit} (hO : O₀' = O + tallyAt (barCell e) () 1)
    {W : Waits sig Unit} {α : Type} {Q : α → sProp 𝕄} {k : PUnit → Prog (TpuEff nD τ sig (Elt F) Λ₀ .tc) α} :
    iprop(records m K ∗ owes (d : Thread nD τ) O₀' W ∗ dutyTok ER (barCell e) 0 dty ∗ barPay (F := F) e dty)
      ⊢ iprop((owes (d : Thread nD τ) O W -∗ wp frame (wpE (defs₀ (F := F)) 𝒱₀ (d : Thread nD τ) none) Set.univ (k ⟨⟩) Q)
          -∗ wp frame (wpE (defs₀ (F := F)) 𝒱₀ (d : Thread nD τ) none) Set.univ (.op (.semSignal (e : Thread nD τ) barS 1) k) Q) := by
  iintro ⟨#HR, HO, Htok, Hpay⟩
  iapply (Rounds.wp_signal 𝒱₀ ER (rd m) (d : Thread nD τ) none (dst := (e : Thread nD τ)) (κ := K (e, barIx))
      (d := dty) (by rw [duties_bar]; exact Finset.mem_univ _) (amount_bar m e dty) () O hO) $$ [HO Htok Hpay]
  isplitr; · iapply (inv_bar m K e); iexact HR
  isplitl [HO]; · iexact HO
  isplitl [Htok]; · iexact Htok
  isplitl [Hpay]; · rw [payload_bar]; iexact Hpay
  iapply (rch_bar m K e); iexact HR

theorem step_bar_wait (d : Dev nD) {W : Waits sig Unit} {α : Type} {Q : α → sProp 𝕄} {k : PUnit → Prog (TpuEff nD τ sig (Elt F) Λ₀ .tc) α} :
    iprop(records m K ∗ levAts L lv ∗ cred (tallyAt (barCell d) () 2) ∗ owes (d : Thread nD τ) (oweL d sends) W ∗ atPos ER (barCell d) 0 ∅ 0)
      ⊢ iprop(((owes (d : Thread nD τ) (oweL d sends) (insert (SemLoc.reg barS, ()) W) ∗ barPay (F := F) d false ∗ barPay (F := F) d true)
            -∗ wp frame (wpE (defs₀ (F := F)) 𝒱₀ (d : Thread nD τ) none) Set.univ (k ⟨⟩) Q)
          -∗ wp frame (wpE (defs₀ (F := F)) 𝒱₀ (d : Thread nD τ) none) Set.univ (.op (.semWait barS 2) k) Q) := by
  iintro ⟨#HR, #Hlev, Hc, HO, Hat⟩ Hk
  iapply (Rounds.wp_wait_rest_token 𝒱₀ ER (rd m) (d : Thread nD τ) none (κ := K (d, barIx))
      (wpE_semWait_eq 𝒱₀ (d : Thread nD τ) none Set.univ) (Set.mem_univ _) () (O := oweL d sends) (W := W) (R := 0) (m := 0) (T := ∅)
      (by rw [expect_bar])) $$ [Hc HO Hat]
  · isplitr; · iapply (inv_bar m K d); iexact HR
    isplitl [Hc]; · iexact Hc
    isplitl [HO]; · iexact HO
    isplitr; · iapply (mayWait_bar d); iexact Hlev
    iexact Hat
  iintro ⟨HO, -, -, Hpay⟩
  ihave Hp := (Entails.of_eq (rest_bar m d)) $$ Hpay
  icases Hp with ⟨H1, H2⟩
  iapply Hk
  iframe # ∗

theorem step_send0 (d : Dev nD) (c b : Fin 2) (l : List Xf) {dev : Dev nD} (hdev : dev = partner 0 b d)
    {off : Fin 2 → Nat} {hinb : ∀ a, off a + S256x512.size a ≤ S1024x1024.size a} (hoff : off = ![256 * (sendQ b d).val, 512 * c.val])
    {sS sR : DmaSem sig} (hS : sS = sendSem c 0 b) (hR : sR = recvSem c 0 b) {hst} {hsc} {hsrc} {hdst} {hsem}
    {W : Waits sig Unit} {α : Type} {Q : α → sProp 𝕄} {k : PUnit → Prog (TpuEff nD τ sig (Elt F) Λ₀ .tc) α} :
    iprop(records m K ∗ tileOwns d (sendQ b d) c (partial_ (argsOf m) d (sendQ b d) c) ∗ slotAny (F := F) (partner 0 b d) c 0 b
        ∗ owes (d : Thread nD τ) (oweL d ((c, 0, b) :: l)) W
        ∗ dutyTok ER (sendCell d c 0 b) 0 false ∗ dutyTok ER (recvCell (partner 0 b d) c 0 b) 0 false)
      ⊢ iprop(((cred (tallyAt (sendCell d c 0 b) () N) ∗ owes (d : Thread nD τ) (oweL d l) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (outM.slice (Rect.unit (s := S1024x1024) off S256x512.size hinb) hst)
                (.remote (Dev.tc dev : Thread nD τ) (slotM c 0 b) (.dma sS) hsc) (.dma sR) hsrc hdst hsem) k) Q) := by
  subst hdev; subst hoff; subst hS; subst hR
  simp only [slotAny, slotOwns, tileOwns, owns]
  iintro ⟨#HR, ⟨%fs, %hfs, Hsrc⟩, ⟨%v0, %fd, %hfd, Hdst⟩, HO, HtS, HtR⟩
  have hp1 : (iprop(emp) : sProp 𝕄) ⊢ (rd m).payload (sendCell d c 0 b) 0 false := by
    rw [payload_send, sendPay_0]
  have hp2 : iprop(((slotM c 0 b).view.loc (Dev.tc (partner 0 b d) : Thread nD τ) ↦[(slotM c 0 b).view.set]{fullShare}
        ((slotM c 0 b).view.write (Elt F) fd ((tileM (sendQ b d) c).view.read (Elt F) fs) Finset.univ))
        ∗ ((tileM (sendQ b d) c).view.loc (d : Thread nD τ) ↦[(tileM (sendQ b d) c).view.set]{fullShare} fs))
      ⊢ (rd m).payload (recvCell (partner 0 b d) c 0 b) 0 false := by
    rw [payload_recv, recvPay_0, partner_invol, keepQ_partner0]
    refine BI.sep_mono ?_ ?_
    · refine (owns_of_landed (F := F) (Dev.tc (partner 0 b d) : Thread nD τ) (slotM c 0 b) fd _).trans (Entails.of_eq ?_)
      rw [hfs]
    · exact (owns_intro (d : Thread nD τ) (tileM (sendQ b d) c) fullShare fs).trans (Entails.of_eq (by rw [hfs]))
  iapply (Rounds.wp_send_landing_pointsTo 𝒱₀ ER (rd m) (d : Thread nD τ) none (c' := (Dev.tc (partner 0 b d) : Thread nD τ))
      (src := outM.slice (Rect.unit (s := S1024x1024) ![256 * (sendQ b d).val, 512 * c.val] S256x512.size hinb) hst) (dst := slotM c 0 b)
      (sS := .dma (sendSem c 0 b)) (sem := .dma (recvSem c 0 b)) (q := fullShare)
      (κ₁ := K (d, sendIx c 0 b)) (κ₂ := K (partner 0 b d, recvIx c 0 b))
      (r₁ := 0) (r₂ := 0) (d₁ := false) (d₂ := false) (fs := fs) (fd := fd)
      (by rw [duties_send]; exact Finset.mem_singleton_self _) (by rw [duties_recv]; exact Finset.mem_singleton_self _)
      () () N rfl (amount_send m d c 0 b false) (amount_recv m (partner 0 b d) c 0 b false) (O₀ := oweL d ((c, 0, b) :: l)) (oweL d l) (by rw [oweL_cons]; rfl) (W := W)
      hp1 hp2) $$ [Hsrc Hdst HO HtS HtR]
  isplitr; · iapply (inv_send m K d c 0 b); iexact HR
  isplitr; · iapply (inv_recv m K (partner 0 b d) c 0 b); iexact HR
  isplitl [Hsrc]; · iexact Hsrc
  isplitl [Hdst]; · iexact Hdst
  isplitl [HO]; · iexact HO
  isplitl [HtS]; · iexact HtS
  isplitr; · iapply (rch_send m K d c 0 b); iexact HR
  isplitl [HtR]; · iexact HtR
  iapply (rch_recv m K (partner 0 b d) c 0 b); iexact HR

theorem step_send1 (d : Dev nD) (c b : Fin 2) (l : List Xf) {dev : Dev nD} (hdev : dev = partner 1 b d)
    {off : Fin 2 → Nat} {hinb : ∀ a, off a + S256x512.size a ≤ S1024x1024.size a} (hoff : off = ![256 * (keepQ b d).val, 512 * c.val])
    {sS sR : DmaSem sig} (hS : sS = sendSem c 1 b) (hR : sR = recvSem c 1 b) {hst} {hsc} {hsrc} {hdst} {hsem}
    {W : Waits sig Unit} {α : Type} {Q : α → sProp 𝕄} {k : PUnit → Prog (TpuEff nD τ sig (Elt F) Λ₀ .tc) α} :
    iprop(records m K ∗ tileOwns d (keepQ b d) c (afterFirst (argsOf m) d c b) ∗ slotAny (F := F) (partner 1 b d) c 1 b
        ∗ owes (d : Thread nD τ) (oweL d ((c, 1, b) :: l)) W
        ∗ dutyTok ER (sendCell d c 1 b) 0 false ∗ dutyTok ER (recvCell (partner 1 b d) c 1 b) 0 false)
      ⊢ iprop(((cred (tallyAt (sendCell d c 1 b) () N) ∗ owes (d : Thread nD τ) (oweL d l) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (outM.slice (Rect.unit (s := S1024x1024) off S256x512.size hinb) hst)
                (.remote (Dev.tc dev : Thread nD τ) (slotM c 1 b) (.dma sS) hsc) (.dma sR) hsrc hdst hsem) k) Q) := by
  subst hdev; subst hoff; subst hS; subst hR
  simp only [slotAny, slotOwns, tileOwns, owns]
  iintro ⟨#HR, ⟨%fs, %hfs, Hsrc⟩, ⟨%v0, %fd, %hfd, Hdst⟩, HO, HtS, HtR⟩
  have hp1 : ((tileM (keepQ b d) c).view.loc (d : Thread nD τ) ↦[(tileM (keepQ b d) c).view.set]{fullShare} fs : sProp 𝕄)
      ⊢ (rd m).payload (sendCell d c 1 b) 0 false := by
    rw [payload_send, sendPay_1]
    exact (owns_intro (d : Thread nD τ) (tileM (keepQ b d) c) fullShare fs).trans (Entails.of_eq (by rw [hfs]))
  have hp2 : ((slotM c 1 b).view.loc (Dev.tc (partner 1 b d) : Thread nD τ) ↦[(slotM c 1 b).view.set]{fullShare}
        ((slotM c 1 b).view.write (Elt F) fd ((tileM (keepQ b d) c).view.read (Elt F) fs) Finset.univ) : sProp 𝕄)
      ⊢ (rd m).payload (recvCell (partner 1 b d) c 1 b) 0 false := by
    rw [payload_recv, recvPay_1, partner_invol]
    refine (owns_of_landed (F := F) (Dev.tc (partner 1 b d) : Thread nD τ) (slotM c 1 b) fd _).trans (Entails.of_eq ?_)
    rw [hfs]
  iapply (Rounds.wp_send_pointsTo 𝒱₀ ER (rd m) (d : Thread nD τ) none (c' := (Dev.tc (partner 1 b d) : Thread nD τ))
      (src := outM.slice (Rect.unit (s := S1024x1024) ![256 * (keepQ b d).val, 512 * c.val] S256x512.size hinb) hst) (dst := slotM c 1 b)
      (sS := .dma (sendSem c 1 b)) (sem := .dma (recvSem c 1 b)) (q := fullShare)
      (κ₁ := K (d, sendIx c 1 b)) (κ₂ := K (partner 1 b d, recvIx c 1 b))
      (r₁ := 0) (r₂ := 0) (d₁ := false) (d₂ := false) (fs := fs) (fd := fd)
      (by rw [duties_send]; exact Finset.mem_singleton_self _) (by rw [duties_recv]; exact Finset.mem_singleton_self _)
      () () N rfl (amount_send m d c 1 b false) (amount_recv m (partner 1 b d) c 1 b false)
      (O₀ := oweL d ((c, 1, b) :: l)) (oweL d l) (by rw [oweL_cons]; rfl) (W := W)
      hp1 hp2) $$ [Hsrc Hdst HO HtS HtR]
  isplitr; · iapply (inv_send m K d c 1 b); iexact HR
  isplitr; · iapply (inv_recv m K (partner 1 b d) c 1 b); iexact HR
  isplitl [Hsrc]; · iexact Hsrc
  isplitl [Hdst]; · iexact Hdst
  isplitl [HO]; · iexact HO
  isplitl [HtS]; · iexact HtS
  isplitr; · iapply (rch_send m K d c 1 b); iexact HR
  isplitl [HtR]; · iexact HtR
  iapply (rch_recv m K (partner 1 b d) c 1 b); iexact HR

theorem step_send2 (d : Dev nD) (c b : Fin 2) (l : List Xf) (v' : Vec F S256x512 .bf16) {dev : Dev nD} (hdev : dev = partner 2 b d)
    {off : Fin 2 → Nat} {hinb : ∀ a, off a + S256x512.size a ≤ S1024x1024.size a} (hoff : off = ![256 * (keepQ b d).val, 512 * c.val])
    {sS sR : DmaSem sig} (hS : sS = sendSem c 2 b) (hR : sR = recvSem c 2 b) {hst} {hst'} {hsc} {hsrc} {hdst} {hsem}
    {W : Waits sig Unit} {α : Type} {Q : α → sProp 𝕄} {k : PUnit → Prog (TpuEff nD τ sig (Elt F) Λ₀ .tc) α} :
    iprop(records m K ∗ tileOwns d (keepQ b d) c (afterSecond (argsOf m) d c b) ∗ tileOwns (partner 2 b d) (keepQ b d) c v'
        ∗ owes (d : Thread nD τ) (oweL d ((c, 2, b) :: l)) W
        ∗ dutyTok ER (sendCell d c 2 b) 0 false ∗ dutyTok ER (recvCell (partner 2 b d) c 2 b) 0 false)
      ⊢ iprop(((cred (tallyAt (sendCell d c 2 b) () N) ∗ owes (d : Thread nD τ) (oweL d l) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (outM.slice (Rect.unit (s := S1024x1024) off S256x512.size hinb) hst)
                (.remote (Dev.tc dev : Thread nD τ) (outM.slice (Rect.unit (s := S1024x1024) off S256x512.size hinb) hst') (.dma sS) hsc)
                (.dma sR) hsrc hdst hsem) k) Q) := by
  subst hdev; subst hoff; subst hS; subst hR
  simp only [slotAny, slotOwns, tileOwns, owns]
  iintro ⟨#HR, ⟨%fs, %hfs, Hsrc⟩, ⟨%fd, %hfd, Hdst⟩, HO, HtS, HtR⟩
  have hq : sendQ b (partner 2 b d) = keepQ b d := by
    have := keepQ_partner2 b (partner 2 b d); rw [partner_invol] at this; exact this.symm
  have hp1 : ((tileM (keepQ b d) c).view.loc (d : Thread nD τ) ↦[(tileM (keepQ b d) c).view.set]{fullShare} fs : sProp 𝕄)
      ⊢ (rd m).payload (sendCell d c 2 b) 0 false := by
    rw [payload_send, sendPay_2]
    exact (owns_intro (d : Thread nD τ) (tileM (keepQ b d) c) fullShare fs).trans (Entails.of_eq (by rw [hfs]))
  have hp2 : ((tileM (keepQ b d) c).view.loc (Dev.tc (partner 2 b d) : Thread nD τ) ↦[(tileM (keepQ b d) c).view.set]{fullShare}
        ((tileM (keepQ b d) c).view.write (Elt F) fd ((tileM (keepQ b d) c).view.read (Elt F) fs) Finset.univ) : sProp 𝕄)
      ⊢ (rd m).payload (recvCell (partner 2 b d) c 2 b) 0 false := by
    rw [payload_recv, recvPay_2, partner_invol, hq]
    refine (owns_of_landed (F := F) (Dev.tc (partner 2 b d) : Thread nD τ) (tileM (keepQ b d) c) fd _).trans (Entails.of_eq ?_)
    rw [hfs]
  iapply (Rounds.wp_send_pointsTo 𝒱₀ ER (rd m) (d : Thread nD τ) none (c' := (Dev.tc (partner 2 b d) : Thread nD τ))
      (src := outM.slice (Rect.unit (s := S1024x1024) ![256 * (keepQ b d).val, 512 * c.val] S256x512.size hinb) hst)
      (dst := outM.slice (Rect.unit (s := S1024x1024) ![256 * (keepQ b d).val, 512 * c.val] S256x512.size hinb) hst')
      (sS := .dma (sendSem c 2 b)) (sem := .dma (recvSem c 2 b)) (q := fullShare)
      (κ₁ := K (d, sendIx c 2 b)) (κ₂ := K (partner 2 b d, recvIx c 2 b))
      (r₁ := 0) (r₂ := 0) (d₁ := false) (d₂ := false) (fs := fs) (fd := fd)
      (by rw [duties_send]; exact Finset.mem_singleton_self _) (by rw [duties_recv]; exact Finset.mem_singleton_self _)
      () () N rfl (amount_send m d c 2 b false) (amount_recv m (partner 2 b d) c 2 b false)
      (O₀ := oweL d ((c, 2, b) :: l)) (oweL d l) (by rw [oweL_cons]; rfl) (W := W)
      hp1 hp2) $$ [Hsrc Hdst HO HtS HtR]
  isplitr; · iapply (inv_send m K d c 2 b); iexact HR
  isplitr; · iapply (inv_recv m K (partner 2 b d) c 2 b); iexact HR
  isplitl [Hsrc]; · iexact Hsrc
  isplitl [Hdst]; · iexact Hdst
  isplitl [HO]; · iexact HO
  isplitl [HtS]; · iexact HtS
  isplitr; · iapply (rch_send m K d c 2 b); iexact HR
  isplitl [HtR]; · iexact HtR
  iapply (rch_recv m K (partner 2 b d) c 2 b); iexact HR

theorem step_wait_send (d : Dev nD) (c : Fin 2) (s : Fin 3) (b : Fin 2) (l : List Xf) {sS : DmaSem sig} (hS : sS = sendSem c s b)
    {sp sp' : Space} {sh sh' : Shape} {e e' : EltTy} {src : Memref sig .tc sp' sh' e'} {κ' : Kind} {dst : Memref sig κ' sp sh e}
    {hsrc : src.view.WordExact} {hdst : dst.view.WordExact} (hN : dst.view.dmaCredit = N)
    {W : Waits sig Unit} {α : Type} {Q : α → sProp 𝕄} {k : PUnit → Prog (TpuEff nD τ sig (Elt F) Λ₀ .tc) α} :
    iprop(records m K ∗ levAts L lv ∗ cred (tallyAt (sendCell d c s b) () N) ∗ owes (d : Thread nD τ) (oweL d l) W ∗ atPos ER (sendCell d c s b) 0 ∅ 0)
      ⊢ iprop(((owes (d : Thread nD τ) (oweL d l) (insert (SemLoc.dma (sendSem c s b), ()) W) ∗ semVal (sendCell d c s b) 0 ∗ sendPay m d c s b)
            -∗ wp frame (wpE (defs₀ (F := F)) 𝒱₀ (d : Thread nD τ) none) Set.univ (k ⟨⟩) Q)
          -∗ wp frame (wpE (defs₀ (F := F)) 𝒱₀ (d : Thread nD τ) none) Set.univ (.op (.waitDma2 sS src dst hsrc hdst) k) Q) := by
  subst hS
  iintro ⟨#HR, #Hlev, Hc, HO, Hat⟩ Hk
  iapply (Rounds.wp_wait_rest_token 𝒱₀ ER (rd m) (d : Thread nD τ) none (κ := K (d, sendIx c s b))
      (wpE_waitDma2_eq 𝒱₀ (d : Thread nD τ) none Set.univ) (Set.mem_univ _) () (O := oweL d l) (W := W) (R := 0) (m := 0) (T := ∅)
      (by rw [Nat.zero_add, expect_send, hN])) $$ [Hc HO Hat]
  · isplitr; · iapply (inv_send m K d c s b); iexact HR
    isplitl [Hc]; · rw [hN]; iexact Hc
    isplitl [HO]; · iexact HO
    isplitr; · iapply (mayWait_send d c s b l); iexact Hlev
    iexact Hat
  iintro ⟨HO, Hat, -, Hpay⟩
  ihave Hp := (Entails.of_eq (rest_send m d c s b)) $$ Hpay
  imod (Rounds.cell_close ER (rd m) (Set.mem_univ (K (d, sendIx c s b))) (fun h => h) (R := 0 + 1) (duties_later m (sendCell d c s b))) $$ [Hat] with Hz
  · isplitr; · iapply (inv_send m K d c s b); iexact HR
    iexact Hat
  iapply Hk
  iframe # ∗

theorem step_wait_recv (d : Dev nD) (c : Fin 2) (s : Fin 3) (b : Fin 2) (l : List Xf) (hl : ∀ x ∈ l, s.val < x.2.1.val) {sR : DmaSem sig} (hR : sR = recvSem c s b)
    {sp sp' : Space} {sh sh' : Shape} {e e' : EltTy} {src : Memref sig .tc sp' sh' e'} {κ' : Kind} {dst : Memref sig κ' sp sh e}
    {hsrc : src.view.WordExact} {hdst : dst.view.WordExact} (hN : dst.view.dmaCredit = N)
    {W : Waits sig Unit} {α : Type} {Q : α → sProp 𝕄} {k : PUnit → Prog (TpuEff nD τ sig (Elt F) Λ₀ .tc) α} :
    iprop(records m K ∗ levAts L lv ∗ cred (tallyAt (recvCell d c s b) () N) ∗ owes (d : Thread nD τ) (oweL d l) W ∗ atPos ER (recvCell d c s b) 0 ∅ 0)
      ⊢ iprop(((owes (d : Thread nD τ) (oweL d l) (insert (SemLoc.dma (recvSem c s b), ()) W) ∗ semVal (recvCell d c s b) 0 ∗ recvPay m d c s b)
            -∗ wp frame (wpE (defs₀ (F := F)) 𝒱₀ (d : Thread nD τ) none) Set.univ (k ⟨⟩) Q)
          -∗ wp frame (wpE (defs₀ (F := F)) 𝒱₀ (d : Thread nD τ) none) Set.univ (.op (.waitDma2 sR src dst hsrc hdst) k) Q) := by
  subst hR
  iintro ⟨#HR, #Hlev, Hc, HO, Hat⟩ Hk
  iapply (Rounds.wp_wait_rest_token 𝒱₀ ER (rd m) (d : Thread nD τ) none (κ := K (d, recvIx c s b))
      (wpE_waitDma2_eq 𝒱₀ (d : Thread nD τ) none Set.univ) (Set.mem_univ _) () (O := oweL d l) (W := W) (R := 0) (m := 0) (T := ∅)
      (by rw [Nat.zero_add, expect_recv, hN])) $$ [Hc HO Hat]
  · isplitr; · iapply (inv_recv m K d c s b); iexact HR
    isplitl [Hc]; · rw [hN]; iexact Hc
    isplitl [HO]; · iexact HO
    isplitr; · iapply (mayWait_recv d c s b l hl); iexact Hlev
    iexact Hat
  iintro ⟨HO, Hat, -, Hpay⟩
  ihave Hp := (Entails.of_eq (rest_recv m d c s b)) $$ Hpay
  imod (Rounds.cell_close ER (rd m) (Set.mem_univ (K (d, recvIx c s b))) (fun h => h) (R := 0 + 1) (duties_later m (recvCell d c s b))) $$ [Hat] with Hz
  · isplitr; · iapply (inv_recv m K d c s b); iexact HR
    iexact Hat
  iapply Hk
  iframe # ∗

end Cert.KernelIdeal.Coll

end
-- ==== Proof.KernelIdeal.StgEq.lean ====
/-
  Each input the body reads is the argument array itself.
-/
import proofs.«900576_g7700000000000577_dist_mlp2_tp_i_m1024_h2048_out1024_v7x_i4_bf16_1_alg».proof.Proof.KernelIdeal.States

noncomputable section

namespace Cert.KernelIdeal.Coll

open Cert.KernelIdeal Cert.KernelIdeal.Gen Cert.KernelIdeal.Spec
open Idealize.ShloMosaic Idealize.ShloMosaic.TcCoe

variable {F : FTy → Type} [FloatOps F]
variable (m : (ℓ : Loc nD τ sig) → Buf (Elt F) ℓ)

theorem xstg_eq (d : Dev nD) : xstg m d = (A m).x d :=
  Memref.read_access_unit_zero (Elt F) main_arg0 (off := fun _ => 0 * _) (funext fun a => Nat.zero_mul _) _ _
theorem w1stg_eq (d : Dev nD) : w1stg m d = (A m).w1 d :=
  Memref.read_access_unit_zero (Elt F) main_arg1 (off := fun _ => 0 * _) (funext fun a => Nat.zero_mul _) _ _
theorem w2stg_eq (d : Dev nD) : w2stg m d = (A m).w2 d :=
  Memref.read_access_unit_zero (Elt F) main_arg2 (off := fun _ => 0 * _) (funext fun a => Nat.zero_mul _) _ _

end Cert.KernelIdeal.Coll

end
-- ==== Proof.KernelIdeal.Offsets.lean ====
/-
  The body's row and column offsets and partner devices in closed form, decided over the four devices.
-/
import proofs.«900576_g7700000000000577_dist_mlp2_tp_i_m1024_h2048_out1024_v7x_i4_bf16_1_alg».proof.Proof.KernelIdeal.Sched

noncomputable section

namespace Cert.KernelIdeal.Coll

open Cert.KernelIdeal Cert.KernelIdeal.Gen Cert.KernelIdeal.Spec
open Idealize.ShloMosaic

theorem dev1_eq (d : Dev nD) : (⟨k0_dev1 d, k0_dev1_lt d⟩ : Dev nD) = pA d := by revert d; decide +kernel
theorem dev2_eq (d : Dev nD) : (⟨k0_dev2 d, k0_dev2_lt d⟩ : Dev nD) = pB d := by revert d; decide +kernel
theorem dev3_eq (d : Dev nD) : (⟨k0_dev3 d, k0_dev3_lt d⟩ : Dev nD) = partner 0 0 d := by revert d; decide +kernel
theorem dev4_eq (d : Dev nD) : (⟨k0_dev4 d, k0_dev4_lt d⟩ : Dev nD) = partner 0 1 d := by revert d; decide +kernel
theorem dev5_eq (d : Dev nD) : (⟨k0_dev5 d, k0_dev5_lt d⟩ : Dev nD) = partner 0 0 d := by revert d; decide +kernel
theorem dev6_eq (d : Dev nD) : (⟨k0_dev6 d, k0_dev6_lt d⟩ : Dev nD) = partner 0 1 d := by revert d; decide +kernel
theorem dev7_eq (d : Dev nD) : (⟨k0_dev7 d, k0_dev7_lt d⟩ : Dev nD) = partner 1 0 d := by revert d; decide +kernel
theorem dev8_eq (d : Dev nD) : (⟨k0_dev8 d, k0_dev8_lt d⟩ : Dev nD) = partner 1 1 d := by revert d; decide +kernel
theorem dev9_eq (d : Dev nD) : (⟨k0_dev9 d, k0_dev9_lt d⟩ : Dev nD) = partner 1 0 d := by revert d; decide +kernel
theorem dev10_eq (d : Dev nD) : (⟨k0_dev10 d, k0_dev10_lt d⟩ : Dev nD) = partner 1 1 d := by revert d; decide +kernel
theorem dev11_eq (d : Dev nD) : (⟨k0_dev11 d, k0_dev11_lt d⟩ : Dev nD) = partner 2 0 d := by revert d; decide +kernel
theorem dev12_eq (d : Dev nD) : (⟨k0_dev12 d, k0_dev12_lt d⟩ : Dev nD) = partner 2 1 d := by revert d; decide +kernel
theorem dev13_eq (d : Dev nD) : (⟨k0_dev13 d, k0_dev13_lt d⟩ : Dev nD) = partner 2 0 d := by revert d; decide +kernel
theorem dev14_eq (d : Dev nD) : (⟨k0_dev14 d, k0_dev14_lt d⟩ : Dev nD) = partner 2 1 d := by revert d; decide +kernel

theorem pA_eq (d : Dev nD) : pA d = partner 0 0 d := by revert d; decide
theorem pB_eq (d : Dev nD) : pB d = partner 0 1 d := by revert d; decide

theorem off1_eq (d : Dev nD) : k0_off1 d = ![256 * (sendQ 0 d).val, 0] := by revert d; decide +kernel
theorem off5_eq (d : Dev nD) : k0_off5 d = ![256 * (sendQ 1 d).val, 0] := by revert d; decide +kernel
theorem off13_eq (d : Dev nD) : k0_off13 d = ![256 * (keepQ 0 d).val, 0] := by revert d; decide +kernel
theorem off16_eq (d : Dev nD) : k0_off16 d = ![256 * (keepQ 1 d).val, 0] := by revert d; decide +kernel
theorem off2_eq (d : Dev nD) : k0_off2 d = ![256 * (sendQ 0 d).val, 0] := by revert d; decide +kernel
theorem off6_eq (d : Dev nD) : k0_off6 d = ![256 * (sendQ 1 d).val, 0] := by revert d; decide +kernel
theorem off14_eq (d : Dev nD) : k0_off14 d = ![256 * (keepQ 0 d).val, 0] := by revert d; decide +kernel
theorem off17_eq (d : Dev nD) : k0_off17 d = ![256 * (keepQ 1 d).val, 0] := by revert d; decide +kernel

theorem off3_eq (d : Dev nD) : k0_off3 d = ![256 * (sendQ 0 d).val, 512 * (0 : Fin 2).val] := by revert d; decide +kernel
theorem off4_eq (d : Dev nD) : k0_off4 d = ![256 * (sendQ 0 d).val, 512 * (0 : Fin 2).val] := by revert d; decide +kernel
theorem off7_eq (d : Dev nD) : k0_off7 d = ![256 * (sendQ 1 d).val, 512 * (0 : Fin 2).val] := by revert d; decide +kernel
theorem off8_eq (d : Dev nD) : k0_off8 d = ![256 * (sendQ 1 d).val, 512 * (0 : Fin 2).val] := by revert d; decide +kernel
theorem off9_eq (d : Dev nD) : k0_off9 d = ![256 * (sendQ 0 d).val, 512 * (1 : Fin 2).val] := by revert d; decide +kernel
theorem off10_eq (d : Dev nD) : k0_off10 d = ![256 * (sendQ 0 d).val, 512 * (1 : Fin 2).val] := by revert d; decide +kernel
theorem off11_eq (d : Dev nD) : k0_off11 d = ![256 * (sendQ 1 d).val, 512 * (1 : Fin 2).val] := by revert d; decide +kernel
theorem off12_eq (d : Dev nD) : k0_off12 d = ![256 * (sendQ 1 d).val, 512 * (1 : Fin 2).val] := by revert d; decide +kernel
theorem off15_eq (d : Dev nD) : k0_off15 d = ![256 * (keepQ 0 d).val, 512 * (0 : Fin 2).val] := by revert d; decide +kernel
theorem off19_eq (d : Dev nD) : k0_off19 d = ![256 * (keepQ 0 d).val, 512 * (0 : Fin 2).val] := by revert d; decide +kernel
theorem off18_eq (d : Dev nD) : k0_off18 d = ![256 * (keepQ 1 d).val, 512 * (0 : Fin 2).val] := by revert d; decide +kernel
theorem off20_eq (d : Dev nD) : k0_off20 d = ![256 * (keepQ 1 d).val, 512 * (0 : Fin 2).val] := by revert d; decide +kernel
theorem off21_eq (d : Dev nD) : k0_off21 d = ![256 * (keepQ 0 d).val, 512 * (1 : Fin 2).val] := by revert d; decide +kernel
theorem off23_eq (d : Dev nD) : k0_off23 d = ![256 * (keepQ 0 d).val, 512 * (1 : Fin 2).val] := by revert d; decide +kernel
theorem off22_eq (d : Dev nD) : k0_off22 d = ![256 * (keepQ 1 d).val, 512 * (1 : Fin 2).val] := by revert d; decide +kernel
theorem off24_eq (d : Dev nD) : k0_off24 d = ![256 * (keepQ 1 d).val, 512 * (1 : Fin 2).val] := by revert d; decide +kernel

end Cert.KernelIdeal.Coll

end
-- ==== Proof.KernelIdeal.BodyE.lean ====
/-
  From the first statement to the first transfer: the handshake with both neighbours, the hidden rows of the two
  quarters sent away, their column-0 partials, and the first of these sent.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.StgEq
import proofs.«900576_g7700000000000577_dist_mlp2_tp_i_m1024_h2048_out1024_v7x_i4_bf16_1_alg».proof.Proof.KernelIdeal.Offsets

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def E1 (K : Dev nD × Fin 25 → ℕ) (d : Dev nD) : sProp 𝕄 :=
  iprop(Know m K ∗ Inputs m d
    ∗ (∃ W, owes (d : Thread nD τ) (O₁ d) W) ∗ atPos ER (barCell d) 0 ∅ 0 ∗ cred (tallyAt (barCell d) () 2)
    ∗ dutyTok ER (barCell (pB d)) 0 true
    ∗ Unissued d sends ∗ Unwaited d sends
    ∗ (hidAny d (sendQ 0 d) ∗ hidAny d (sendQ 1 d) ∗ hidAny d (keepQ 0 d) ∗ hidAny d (keepQ 1 d))
    ∗ (tileAny d (sendQ 0 d) 0 ∗ tileAny d (sendQ 1 d) 0 ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) d 0 0 1 ∗ slotAny (F := F) d 1 0 1 ∗ slotAny (F := F) d 0 1 0 ∗ slotAny (F := F) d 1 1 0))

def E2 (K : Dev nD × Fin 25 → ℕ) (d : Dev nD) : sProp 𝕄 :=
  iprop(Know m K ∗ Inputs m d
    ∗ (∃ W, owes (d : Thread nD τ) (oweL d sends) W)
    ∗ Unissued d sends ∗ Unwaited d sends
    ∗ (hidOwns d (sendQ 0 d) (Hq m d (sendQ 0 d)) ∗ hidAny d (sendQ 1 d) ∗ hidAny d (keepQ 0 d) ∗ hidAny d (keepQ 1 d))
    ∗ (tileOwns d (sendQ 0 d) 0 (partial_ (A m) d (sendQ 0 d) 0) ∗ tileAny d (sendQ 1 d) 0 ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) (partner 0 0 d) 0 0 0 ∗ slotAny (F := F) (partner 0 1 d) 0 0 1 ∗ slotAny (F := F) (partner 0 0 d) 1 0 0 ∗ slotAny (F := F) (partner 0 1 d) 1 0 1
      ∗ slotAny (F := F) (partner 1 0 d) 0 1 0 ∗ slotAny (F := F) (partner 1 1 d) 0 1 1 ∗ slotAny (F := F) (partner 1 0 d) 1 1 0 ∗ slotAny (F := F) (partner 1 1 d) 1 1 1))

theorem barPay_pA (d : Dev nD) :
    barPay (F := F) (pA d) false
      = iprop(slotAny (F := F) d 0 0 0 ∗ slotAny (F := F) d 1 0 0 ∗ slotAny (F := F) d 0 1 1 ∗ slotAny (F := F) d 1 1 1) := by
  unfold barPay
  rw [show nbr false (pA d) = d from pA_invol d]
  rfl

theorem barPay_pB (d : Dev nD) :
    barPay (F := F) (pB d) true
      = iprop(slotAny (F := F) d 0 0 1 ∗ slotAny (F := F) d 1 0 1 ∗ slotAny (F := F) d 0 1 0 ∗ slotAny (F := F) d 1 1 0) := by
  unfold barPay
  rw [show nbr true (pB d) = d from pB_invol d]
  rfl

theorem pA_eq11 (d : Dev nD) : pA d = partner 1 1 d := by revert d; decide
theorem pB_eq10 (d : Dev nD) : pB d = partner 1 0 d := by revert d; decide

theorem barPay_false (d : Dev nD) :
    barPay (F := F) d false
      = iprop(slotAny (F := F) (partner 0 0 d) 0 0 0 ∗ slotAny (F := F) (partner 0 0 d) 1 0 0
          ∗ slotAny (F := F) (partner 1 1 d) 0 1 1 ∗ slotAny (F := F) (partner 1 1 d) 1 1 1) := by
  rw [← pA_eq d, ← pA_eq11 d]
  rfl

theorem barPay_true (d : Dev nD) :
    barPay (F := F) d true
      = iprop(slotAny (F := F) (partner 0 1 d) 0 0 1 ∗ slotAny (F := F) (partner 0 1 d) 1 0 1
          ∗ slotAny (F := F) (partner 1 0 d) 0 1 0 ∗ slotAny (F := F) (partner 1 0 d) 1 1 0) := by
  rw [← pB_eq d, ← pB_eq10 d]
  rfl

theorem unissued_sends (d : Dev nD) :
    Unissued (F := F) d sends
      = iprop((dutyTok ER (recvCell (partner 0 0 d) 0 0 0) 0 false ∗ dutyTok ER (sendCell d 0 0 0) 0 false) ∗ Unissued (F := F) d (sends.drop 1)) := rfl

theorem part1_spec (K : Dev nD × Fin 25 → ℕ) (d : Dev nD)
    {Q : (Σ' (d0 : Dev nD) (v3 : BitVec 32) (v4 : BitVec 32) (v8 : BitVec 32) (v26 : BitVec 32) (v27 : BitVec 32) (v28 : BitVec 32), Sems sig S_) → sProp 𝕄} :
    iprop(B0 m K d ∗ (∀ (v3 v4 v8 v26 v27 v28 : BitVec 32), E1 m K d -∗ Q ⟨d, v3, v4, v8, v26, v27, v28, SemArray.scalar (sig.barrier 0 rfl)⟩))
      ⊢ wp frame (wpE (defs₀ (F := F)) 𝒱₀ (d : Thread nD τ) none) Set.univ
          (atBufs (k0_part1 (F := F))) Q := by
  simp only [atBufs, k0_part1_eq_skeleton]; unfold k0_part1_skel
  simp only [semSignalWord, Prog.lift, Prog.bind_op, Prog.bind_ret, Prog.pure_eq_ret, Prog.bind_assoc, wp_deviceId]
  simp only [dev1_eq d]
  unfold B0 Know
  iintro ⟨⟨⟨#HR, #Hlev⟩, Hin, ⟨%W, HO⟩, Hat, Hc, HtA, HtB, Hun, Hunw, Hhid, Htile, HsA, HsB⟩, Hk⟩

  iapply (step_signal m K d (pA d) false (O₀' := O₀ d) (O := O₁ d) rfl) $$ [HO HtA HsA]
  · isplitr; · iexact HR
    isplitl [HO]; · iexact HO
    isplitl [HtA]; · iexact HtA
    rw [barPay_pA]; iexact HsA
  iintro HO
  rw [wp_ret]
  imodintro
  iapply Hk
  unfold E1 Know
  isplitr
  · isplitr <;> iassumption
  isplitl [Hin]; · iexact Hin
  isplitl [HO]; · iexists W; iexact HO
  iframe # ∗

theorem hid_staged (d : Dev nD) (q : Fin 4) :
    (k0_pay3 (w1stg m d) (rowsQ q (xstg m d)) : Vec F S256x2048 .bf16) = Hq m d q := by
  rw [xstg_eq, w1stg_eq]; rfl

theorem hid_staged' (d : Dev nD) (q : Fin 4) :
    (k0_pay5 (w1b m d) (rowsQ q (xstg m d)) : Vec F S256x2048 .bf16) = Hq m d q := by
  show (k0_pay5 (k0_pay1 (w1stg m d)) (rowsQ q (xstg m d)) : Vec F S256x2048 .bf16) = _
  rw [xstg_eq, w1stg_eq]; rfl

theorem part0_staged (d : Dev nD) (q : Fin 4) :
    (k0_pay4 (w2stg m d) (Hq m d q) : Vec F S256x512 .bf16) = partial_ (A m) d q 0 := by
  rw [w2stg_eq]; rfl

theorem part0_staged' (d : Dev nD) (q : Fin 4) :
    (k0_pay6 (w2b m d) (Hq m d q) : Vec F S256x512 .bf16) = partial_ (A m) d q 0 := by
  show (k0_pay6 (k0_pay2 (w2stg m d)) (Hq m d q) : Vec F S256x512 .bf16) = _
  rw [w2stg_eq]; rfl

theorem part2_spec (K : Dev nD × Fin 25 → ℕ) (d : Dev nD) (v27 : BitVec 32)
    {Q : (Σ' (v36 : FVec F S1024x2048 .bf16), FVec F S2048x1024 .bf16) → sProp 𝕄} :
    iprop(E1 m K d ∗ (E2 m K d -∗ Q ⟨w1b m d, w2b m d⟩))
      ⊢ wp frame (wpE (defs₀ (F := F)) 𝒱₀ (d : Thread nD τ) none) Set.univ
          (atBufs (k0_part2 (F := F)) d v27 (SemArray.scalar (sig.barrier 0 rfl))) Q := by
  simp only [atBufs, k0_part2_eq_skeleton]; unfold k0_part2_skel
  simp only [semSignalWord, semWaitWord, Prog.lift, Prog.bind_op, Prog.bind_ret, Prog.pure_eq_ret, Prog.bind_assoc]
  simp only [dev2_eq d]
  unfold E1 Know Inputs
  iintro ⟨⟨⟨#HR, #Hlev⟩, ⟨Hx, Hw1, Hw2⟩, ⟨%W, HO⟩, Hat, Hc, HtB, Hun, Hunw, ⟨Hh0, Hh1, Hh2, Hh3⟩, ⟨Ht0, Ht1, Ht2, Ht3, Ht4, Ht5, Ht6, Ht7⟩, HsB⟩, Hk⟩

  iapply (step_signal m K d (pB d) true (O₀' := O₁ d) (O := oweL d sends) rfl) $$ [HO HtB HsB]
  · isplitr; · iexact HR
    isplitl [HO]; · iexact HO
    isplitl [HtB]; · iexact HtB
    rw [barPay_pB]; iexact HsB
  iintro HO

  iapply (step_bar_wait m K d) $$ [HO Hat Hc]
  · iframe # ∗
  iintro ⟨HO, HpF, HpT⟩
  ihave HpF' := (Entails.of_eq (barPay_false (F := F) d)) $$ HpF
  ihave HpT' := (Entails.of_eq (barPay_true (F := F) d)) $$ HpT
  icases HpF' with ⟨Hp1, Hp2, Hp3, Hp4⟩
  icases HpT' with ⟨Hp5, Hp6, Hp7, Hp8⟩

  iapply (wp_load_w1 d (w1stg m d) rfl) $$ Hw1
  iintro Hw1
  iapply (wp_load_w2 d (w2stg m d) rfl) $$ Hw2
  iintro Hw2

  iapply (wp_load_xrows d (sendQ 0 d) (xstg m d) (off1_eq d)) $$ Hx
  iintro Hx
  icases Hh0 with ⟨%h0, Hh0⟩
  iapply (wp_load_hid d (sendQ 0 d) h0 (off2_eq d)) $$ Hh0
  iintro Hh0
  iapply (wp_store_hid d (sendQ 0 d) h0 (k0_pay3 (w1stg m d) (rowsQ (sendQ 0 d) (xstg m d))) (off2_eq d)) $$ Hh0
  iintro Hh0
  rw [hid_staged m d (sendQ 0 d)]
  iapply (wp_load_hid d (sendQ 0 d) (Hq m d (sendQ 0 d)) (off2_eq d)) $$ Hh0
  iintro Hh0

  icases Ht0 with ⟨%t0, Ht0⟩
  iapply (wp_load_tile d (sendQ 0 d) 0 t0 (off3_eq d)) $$ Ht0
  iintro Ht0
  iapply (wp_store_tile d (sendQ 0 d) 0 t0 (k0_pay4 (w2stg m d) (Hq m d (sendQ 0 d))) (off3_eq d)) $$ Ht0
  iintro Ht0
  rw [part0_staged m d (sendQ 0 d)]

  rw [wp_ret]
  imodintro
  iapply Hk
  unfold E2 Know Inputs
  iframe # ∗; iexists _; iframe

theorem proto_1_0 (d : Dev nD) :
    Proto (F := F) 1 0 d
      = iprop((∃ W, owes (d : Thread nD τ) (oweL d (sends.drop 1)) W) ∗ Unissued (F := F) d (sends.drop 1)
          ∗ cred (tallyAt (sendCell d 0 0 0) () N) ∗ Unwaited (F := F) d sends ∗ emp) := rfl

theorem part3_spec (K : Dev nD × Fin 25 → ℕ) (d : Dev nD) (v3 v28 : BitVec 32) {Q : PUnit → sProp 𝕄} :
    iprop(E2 m K d ∗ (B3 m K d -∗ Q ⟨⟩))
      ⊢ wp frame (wpE (defs₀ (F := F)) 𝒱₀ (d : Thread nD τ) none) Set.univ
          (atBufs (k0_part3 (F := F)) d v3 v28 (w1b m d) (w2b m d)) Q := by
  simp only [atBufs, k0_part3_eq_skeleton]; unfold k0_part3_skel
  simp only [Prog.lift, Prog.bind_op, Prog.bind_ret, Prog.pure_eq_ret, Prog.bind_assoc]
  unfold E2 Know Inputs
  iintro ⟨⟨⟨#HR, #Hlev⟩, ⟨Hx, Hw1, Hw2⟩, ⟨%W, HO⟩, Hun, Hunw, ⟨Hh0, Hh1, Hh2, Hh3⟩, ⟨Ht0, Ht1, Ht2, Ht3, Ht4, Ht5, Ht6, Ht7⟩, ⟨Hs0, Hs1, Hs2, Hs3, Hs4, Hs5, Hs6, Hs7⟩⟩, Hk⟩
  ihave Hun' := (Entails.of_eq (unissued_sends (F := F) d)) $$ Hun
  icases Hun' with ⟨⟨HtR, HtS⟩, Hun⟩

  iapply (step_send0 m K d 0 0 (sends.drop 1) (dev3_eq d) (off4_eq d) (sendSem_spell 0 0 0 _) (recvSem_spell 0 0 0 _)) $$ [Ht0 Hs0 HO HtS HtR]
  · iframe # ∗; iexact HO
  iintro ⟨Hcr, HO⟩

  iapply (wp_load_xrows d (sendQ 1 d) (xstg m d) (off5_eq d)) $$ Hx
  iintro Hx
  icases Hh1 with ⟨%h1, Hh1⟩
  iapply (wp_load_hid d (sendQ 1 d) h1 (off6_eq d)) $$ Hh1
  iintro Hh1
  iapply (wp_store_hid d (sendQ 1 d) h1 (k0_pay5 (w1b m d) (rowsQ (sendQ 1 d) (xstg m d))) (off6_eq d)) $$ Hh1
  iintro Hh1
  rw [hid_staged' m d (sendQ 1 d)]
  iapply (wp_load_hid d (sendQ 1 d) (Hq m d (sendQ 1 d)) (off6_eq d)) $$ Hh1
  iintro Hh1

  icases Ht1 with ⟨%t1, Ht1⟩
  iapply (wp_load_tile d (sendQ 1 d) 0 t1 (off7_eq d)) $$ Ht1
  iintro Ht1
  iapply (wp_store_tile d (sendQ 1 d) 0 t1 (k0_pay6 (w2b m d) (Hq m d (sendQ 1 d))) (off7_eq d)) $$ Ht1
  iintro Ht1
  rw [part0_staged' m d (sendQ 1 d)]
  rw [wp_ret]
  imodintro
  iapply Hk
  unfold B3 Know Inputs
  rw [proto_1_0]
  isplitr
  · isplitr <;> iassumption
  isplitl [Hx Hw1 Hw2]
  · isplitl [Hx]; · iexact Hx
    isplitl [Hw1]; · iexact Hw1
    iexact Hw2
  isplitl [HO Hun Hcr Hunw]
  · isplitl [HO]; · iexists _; iexact HO
    isplitl [Hun]; · iexact Hun
    isplitl [Hcr]; · iexact Hcr
    isplitl [Hunw]; · iexact Hunw
    iempintro
  iframe # ∗

end Cert.KernelIdeal.Coll

end
-- ==== Proof.KernelIdeal.BodyF.lean ====
/-
  The other three step-0 transfers are issued, and the hidden rows and column-0 partials of the two kept quarters
  computed.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.Offsets
import proofs.«900576_g7700000000000577_dist_mlp2_tp_i_m1024_h2048_out1024_v7x_i4_bf16_1_alg».proof.Proof.KernelIdeal.StgEq

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem hid_val (d : Dev nD) (q : Fin 4) : k0_pay5 (w1b m d) (rowsQ q (xstg m d)) = Hq m d q := by
  show k0_pay5 (k0_pay1 (w1stg m d)) (rowsQ q (xstg m d)) = k0_pay5 (k0_pay1 ((A m).w1 d)) (rowsQ q ((A m).x d))
  rw [xstg_eq, w1stg_eq]

private theorem part0_val (d : Dev nD) (q : Fin 4) : k0_pay6 (w2b m d) (Hq m d q) = partial_ (A m) d q 0 := by
  show k0_pay6 (k0_pay2 (w2stg m d)) (Hq m d q) = k0_pay6 (k0_pay2 ((A m).w2 d)) (Hq m d q)
  rw [w2stg_eq]

private theorem part1_val (d : Dev nD) (q : Fin 4) : k0_pay7 (w2b m d) (Hq m d q) = partial_ (A m) d q 1 := by
  show k0_pay7 (k0_pay2 (w2stg m d)) (Hq m d q) = k0_pay7 (k0_pay2 ((A m).w2 d)) (Hq m d q)
  rw [w2stg_eq]

def B4 (K : Dev nD × Fin 25 → ℕ) (d : Dev nD) : sProp 𝕄 :=
  iprop(Know m K ∗ Inputs m d ∗ Proto 3 0 d
    ∗ (hidOwns d (sendQ 0 d) (Hq m d (sendQ 0 d)) ∗ hidOwns d (sendQ 1 d) (Hq m d (sendQ 1 d)) ∗ hidAny d (keepQ 0 d) ∗ hidAny d (keepQ 1 d))
    ∗ (tileAny d (sendQ 1 d) 1 ∗ tileAny d (keepQ 0 d) 0 ∗ tileAny d (keepQ 1 d) 0 ∗ tileAny d (keepQ 0 d) 1 ∗ tileAny d (keepQ 1 d) 1)
    ∗ (slotAny (F := F) (partner 0 1 d) 1 0 1 ∗ slotAny (F := F) (partner 1 0 d) 0 1 0 ∗ slotAny (F := F) (partner 1 1 d) 0 1 1 ∗ slotAny (F := F) (partner 1 0 d) 1 1 0 ∗ slotAny (F := F) (partner 1 1 d) 1 1 1))

def B5 (K : Dev nD × Fin 25 → ℕ) (d : Dev nD) : sProp 𝕄 :=
  iprop(Know m K ∗ Inputs m d ∗ Proto 4 0 d
    ∗ (hidOwns d (sendQ 0 d) (Hq m d (sendQ 0 d)) ∗ hidOwns d (sendQ 1 d) (Hq m d (sendQ 1 d)) ∗ hidAny d (keepQ 0 d) ∗ hidAny d (keepQ 1 d))
    ∗ (tileAny d (keepQ 0 d) 0 ∗ tileAny d (keepQ 1 d) 0 ∗ tileAny d (keepQ 0 d) 1 ∗ tileAny d (keepQ 1 d) 1)
    ∗ (slotAny (F := F) (partner 1 0 d) 0 1 0 ∗ slotAny (F := F) (partner 1 1 d) 0 1 1 ∗ slotAny (F := F) (partner 1 0 d) 1 1 0 ∗ slotAny (F := F) (partner 1 1 d) 1 1 1))

private theorem unissued_cons (d : Dev nD) (x : Xf) (l : List Xf) :
    Unissued (F := F) d (x :: l)
      = iprop((dutyTok ER (recvCellX (peerX d x) x) 0 false ∗ dutyTok ER (sendCellX d x) 0 false) ∗ Unissued (F := F) d l) :=
  bigSepL_cons _ _ _

private theorem inFlight_cons (d : Dev nD) (x : Xf) (l : List Xf) :
    InFlight (F := F) d (x :: l) = iprop(cred (tallyAt (sendCellX d x) () N) ∗ InFlight (F := F) d l) :=
  bigSepL_cons _ _ _

theorem part4_spec (K : Dev nD × Fin 25 → ℕ) (d : Dev nD) (v3 v4 v27 : BitVec 32) {Q : BitVec 32 → sProp 𝕄} :
    iprop(B3 m K d ∗ (B4 m K d -∗ Q 256#32))
      ⊢ wp frame (wpE (defs₀ (F := F)) 𝒱₀ (d : Thread nD τ) none) Set.univ
          (atBufs k0_part4 d v3 v4 v27 (w2b m d)) Q := by
  simp only [atBufs, k0_part4_eq_skeleton]; unfold k0_part4_skel
  simp only [Prog.lift, Prog.bind_op, Prog.bind_ret, Prog.pure_eq_ret, Prog.bind_assoc]
  simp only [B3, B4, Know, Inputs, Proto, sends, List.drop, List.take, unissued_cons, inFlight_cons, sendCellX, recvCellX, peerX]
  iintro ⟨⟨⟨#HR, #Hlev⟩, Hin, ⟨⟨%W, HO⟩, ⟨⟨HtR1, HtS1⟩, ⟨HtR2, HtS2⟩, HU⟩, ⟨Hc0, HF⟩, HUw, HD⟩, ⟨Hh0, Hh1, Hhk⟩,
      ⟨Ht10, Ht01, Htk⟩, ⟨Hs001, Hs100, Hsr⟩⟩, Hk⟩

  iapply (step_send0 m K d 0 1 [(1,0,0),(1,0,1),(0,1,0),(0,1,1),(1,1,0),(1,1,1),(0,2,0),(0,2,1),(1,2,0),(1,2,1)] (dev4_eq d) (off8_eq d) (sendSem_spell 0 0 1 _) (recvSem_spell 0 0 1 _)) $$ [Ht10 Hs001 HO HtS1 HtR1]
  · iframe # ∗
  iintro ⟨Hc1, HO⟩

  iapply (wp_load_hid d (sendQ 0 d) (Hq m d (sendQ 0 d)) (off2_eq d)) $$ Hh0
  iintro Hh0

  icases Ht01 with ⟨%t01, Ht01⟩
  iapply (wp_load_tile d (sendQ 0 d) 1 t01 (off9_eq d)) $$ Ht01
  iintro Ht01
  iapply (wp_store_tile d (sendQ 0 d) 1 t01 (k0_pay7 (w2b m d) (Hq m d (sendQ 0 d))) (off9_eq d)) $$ Ht01
  iintro Ht01
  rw [part1_val]

  iapply (step_send0 m K d 1 0 [(1,0,1),(0,1,0),(0,1,1),(1,1,0),(1,1,1),(0,2,0),(0,2,1),(1,2,0),(1,2,1)] (dev5_eq d) (off10_eq d) (sendSem_spell 1 0 0 _) (recvSem_spell 1 0 0 _)) $$ [Ht01 Hs100 HO HtS2 HtR2]
  · iframe # ∗
  iintro ⟨Hc2, HO⟩
  rw [wp_ret]; imodintro; iapply Hk
  iframe ∗ #
  iexists W; iexact HO

theorem part5_spec (K : Dev nD × Fin 25 → ℕ) (d : Dev nD) (v4 v8 v28 c256 : BitVec 32) {Q : FVec F S256x2048 .bf16 → sProp 𝕄} :
    iprop(B4 m K d ∗ (B5 m K d -∗ Q (Hq m d (keepQ 0 d))))
      ⊢ wp frame (wpE (defs₀ (F := F)) 𝒱₀ (d : Thread nD τ) none) Set.univ
          (atBufs k0_part5 d v4 v8 v28 (w1b m d) (w2b m d) c256) Q := by
  simp only [atBufs, k0_part5_eq_skeleton]; unfold k0_part5_skel
  simp only [Prog.lift, Prog.bind_op, Prog.bind_ret, Prog.pure_eq_ret, Prog.bind_assoc]
  simp only [B4, B5, Know, Inputs, Proto, sends, List.drop, List.take, unissued_cons, inFlight_cons, sendCellX, recvCellX, peerX]
  iintro ⟨⟨⟨#HR, #Hlev⟩, ⟨Hx, Hw⟩, ⟨⟨%W, HO⟩, ⟨⟨HtR, HtS⟩, HU⟩, ⟨Hc0, Hc1, Hc2, HF⟩, HUw, HD⟩, ⟨Hh0, Hh1, Hh2, Hh3⟩,
      ⟨Ht11, Htk⟩, ⟨Hs101, Hsr⟩⟩, Hk⟩

  iapply (wp_load_hid d (sendQ 1 d) (Hq m d (sendQ 1 d)) (off6_eq d)) $$ Hh1
  iintro Hh1

  icases Ht11 with ⟨%t11, Ht11⟩
  iapply (wp_load_tile d (sendQ 1 d) 1 t11 (off11_eq d)) $$ Ht11
  iintro Ht11
  iapply (wp_store_tile d (sendQ 1 d) 1 t11 (k0_pay8 (w2b m d) (Hq m d (sendQ 1 d))) (off11_eq d)) $$ Ht11
  iintro Ht11
  rw [show k0_pay8 (w2b m d) (Hq m d (sendQ 1 d)) = partial_ (A m) d (sendQ 1 d) 1 from part1_val m d _]

  iapply (step_send0 m K d 1 1 [(0,1,0),(0,1,1),(1,1,0),(1,1,1),(0,2,0),(0,2,1),(1,2,0),(1,2,1)] (dev6_eq d) (off12_eq d) (sendSem_spell 1 0 1 _) (recvSem_spell 1 0 1 _)) $$ [Ht11 Hs101 HO HtS HtR]
  · iframe # ∗
  iintro ⟨Hc3, HO⟩

  iapply (wp_load_xrows d (keepQ 0 d) (xstg m d) (off13_eq d)) $$ Hx
  iintro Hx
  icases Hh2 with ⟨%h2, Hh2⟩
  iapply (wp_load_hid d (keepQ 0 d) h2 (off14_eq d)) $$ Hh2
  iintro Hh2
  ihave Hh2' : (hidAny (F := F) d (keepQ 0 d)) $$ [Hh2]
  · iexists h2; iexact Hh2
  rw [wp_ret]; imodintro
  rw [show k0_pay9 (w1b m d) (rowsQ (keepQ 0 d) (xstg m d)) = Hq m d (keepQ 0 d) from hid_val m d _]
  iapply Hk
  iframe ∗ #
  iexists W; iexact HO

theorem part6_spec (K : Dev nD × Fin 25 → ℕ) (d : Dev nD) (v8 v26 : BitVec 32) {Q : PUnit → sProp 𝕄} :
    iprop(B5 m K d ∗ (B6 m K d -∗ Q ⟨⟩))
      ⊢ wp frame (wpE (defs₀ (F := F)) 𝒱₀ (d : Thread nD τ) none) Set.univ
          (atBufs k0_part6 d v8 v26 (w1b m d) (w2b m d) (Hq m d (keepQ 0 d))) Q := by
  simp only [atBufs, k0_part6_eq_skeleton]; unfold k0_part6_skel
  simp only [Prog.lift, Prog.bind_op, Prog.bind_ret, Prog.pure_eq_ret, Prog.bind_assoc]
  simp only [B5, B6, Know, Inputs, Hids]
  iintro ⟨⟨⟨#HR, #Hlev⟩, ⟨Hx, Hw⟩, HP, ⟨Hh0, Hh1, Hh2, Hh3⟩, ⟨Ht00, Ht10, Htk⟩, Hsr⟩, Hk⟩

  icases Hh2 with ⟨%h2, Hh2⟩
  iapply (wp_store_hid d (keepQ 0 d) h2 (Hq m d (keepQ 0 d)) (off14_eq d)) $$ Hh2
  iintro Hh2
  iapply (wp_load_hid d (keepQ 0 d) (Hq m d (keepQ 0 d)) (off14_eq d)) $$ Hh2
  iintro Hh2

  icases Ht00 with ⟨%t00, Ht00⟩
  iapply (wp_load_tile d (keepQ 0 d) 0 t00 (off15_eq d)) $$ Ht00
  iintro Ht00
  iapply (wp_store_tile d (keepQ 0 d) 0 t00 (k0_pay10 (w2b m d) (Hq m d (keepQ 0 d))) (off15_eq d)) $$ Ht00
  iintro Ht00
  rw [show k0_pay10 (w2b m d) (Hq m d (keepQ 0 d)) = partial_ (A m) d (keepQ 0 d) 0 from part0_val m d _]

  iapply (wp_load_xrows d (keepQ 1 d) (xstg m d) (off16_eq d)) $$ Hx
  iintro Hx
  icases Hh3 with ⟨%h3, Hh3⟩
  iapply (wp_load_hid d (keepQ 1 d) h3 (off17_eq d)) $$ Hh3
  iintro Hh3
  iapply (wp_store_hid d (keepQ 1 d) h3 (k0_pay11 (w1b m d) (rowsQ (keepQ 1 d) (xstg m d))) (off17_eq d)) $$ Hh3
  iintro Hh3
  rw [show k0_pay11 (w1b m d) (rowsQ (keepQ 1 d) (xstg m d)) = Hq m d (keepQ 1 d) from hid_val m d _]
  iapply (wp_load_hid d (keepQ 1 d) (Hq m d (keepQ 1 d)) (off17_eq d)) $$ Hh3
  iintro Hh3

  icases Ht10 with ⟨%t10, Ht10⟩
  iapply (wp_load_tile d (keepQ 1 d) 0 t10 (off18_eq d)) $$ Ht10
  iintro Ht10
  iapply (wp_store_tile d (keepQ 1 d) 0 t10 (k0_pay12 (w2b m d) (Hq m d (keepQ 1 d))) (off18_eq d)) $$ Ht10
  iintro Ht10
  rw [show k0_pay12 (w2b m d) (Hq m d (keepQ 1 d)) = partial_ (A m) d (keepQ 1 d) 0 from part0_val m d _]
  rw [wp_ret]; imodintro; iapply Hk
  iframe ∗ #

end Cert.KernelIdeal.Coll

end
-- ==== Proof.KernelIdeal.BodyA.lean ====
/-
  Column half 0, first reduction: each lane's step-0 landing is waited for and added to the kept tile, and the sum
  sent on to the step-1 partner.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.Offsets
import proofs.«900576_g7700000000000577_dist_mlp2_tp_i_m1024_h2048_out1024_v7x_i4_bf16_1_alg».proof.Proof.KernelIdeal.StgEq

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem tile_credit (off : Fin 2 → Nat) (hinb : ∀ a, off a + S256x512.size a ≤ S1024x1024.size a) :
    (outM.slice (Rect.unit (s := S1024x1024) off S256x512.size hinb) (fun _ => rfl)).view.dmaCredit = N := rfl

private theorem slot_credit (c s b : Fin 2) : (slotM c s b).view.dmaCredit = N := by
  revert c s b; decide

private theorem proto_4_0 (d : Dev nD) : Proto (F := F) 4 0 d
    = iprop((∃ W, owes (d : Thread nD τ) (oweL d (sends.drop 4)) W) ∗ Unissued d (sends.drop 4)
        ∗ (cred (tallyAt (sendCell d 0 0 0) () N) ∗ InFlight d ((sends.take 4).drop 1))
        ∗ ((atPos ER (sendCell d 0 0 0) 0 ∅ 0 ∗ atPos ER (recvCell d 0 0 0) 0 ∅ 0 ∗ cred (tallyAt (recvCell d 0 0 0) () N)) ∗ Unwaited d (sends.drop 1))
        ∗ emp) := rfl

private theorem proto_4_1 (d : Dev nD) : Proto (F := F) 4 1 d
    = iprop((∃ W, owes (d : Thread nD τ) (oweL d (sends.drop 4)) W) ∗ Unissued d (sends.drop 4)
        ∗ InFlight d ((sends.take 4).drop 1) ∗ Unwaited d (sends.drop 1)
        ∗ (semVal (sendCell d 0 0 0) 0 ∗ semVal (recvCell d 0 0 0) 0)) := rfl

private theorem proto_4_1_open (d : Dev nD) : Proto (F := F) 4 1 d
    = iprop((∃ W, owes (d : Thread nD τ) (oweL d (((0, 1, 0) : Xf) :: sends.drop 5)) W)
        ∗ ((dutyTok ER (recvCell (partner 1 0 d) 0 1 0) 0 false ∗ dutyTok ER (sendCell d 0 1 0) 0 false) ∗ Unissued d (sends.drop 5))
        ∗ (cred (tallyAt (sendCell d 0 0 1) () N) ∗ cred (tallyAt (sendCell d 1 0 0) () N) ∗ cred (tallyAt (sendCell d 1 0 1) () N))
        ∗ ((atPos ER (sendCell d 0 0 1) 0 ∅ 0 ∗ atPos ER (recvCell d 0 0 1) 0 ∅ 0 ∗ cred (tallyAt (recvCell d 0 0 1) () N)) ∗ Unwaited d (sends.drop 2))
        ∗ (semVal (sendCell d 0 0 0) 0 ∗ semVal (recvCell d 0 0 0) 0)) := rfl

private theorem proto_5_2 (d : Dev nD) : Proto (F := F) 5 2 d
    = iprop((∃ W, owes (d : Thread nD τ) (oweL d (sends.drop 5)) W) ∗ Unissued d (sends.drop 5)
        ∗ (cred (tallyAt (sendCell d 1 0 0) () N) ∗ cred (tallyAt (sendCell d 1 0 1) () N) ∗ cred (tallyAt (sendCell d 0 1 0) () N))
        ∗ Unwaited d (sends.drop 2)
        ∗ ((semVal (sendCell d 0 0 0) 0 ∗ semVal (recvCell d 0 0 0) 0) ∗ (semVal (sendCell d 0 0 1) 0 ∗ semVal (recvCell d 0 0 1) 0))) := rfl

private theorem proto_5_2_open (d : Dev nD) : Proto (F := F) 5 2 d
    = iprop((∃ W, owes (d : Thread nD τ) (oweL d (((0, 1, 1) : Xf) :: sends.drop 6)) W)
        ∗ ((dutyTok ER (recvCell (partner 1 1 d) 0 1 1) 0 false ∗ dutyTok ER (sendCell d 0 1 1) 0 false) ∗ Unissued d (sends.drop 6))
        ∗ (cred (tallyAt (sendCell d 1 0 0) () N) ∗ cred (tallyAt (sendCell d 1 0 1) () N) ∗ cred (tallyAt (sendCell d 0 1 0) () N))
        ∗ Unwaited d (sends.drop 2) ∗ Done d (sends.take 2)) := rfl

private theorem proto_6_2 (d : Dev nD) : Proto (F := F) 6 2 d
    = iprop((∃ W, owes (d : Thread nD τ) (oweL d (sends.drop 6)) W) ∗ Unissued d (sends.drop 6)
        ∗ (cred (tallyAt (sendCell d 1 0 0) () N) ∗ cred (tallyAt (sendCell d 1 0 1) () N) ∗ cred (tallyAt (sendCell d 0 1 0) () N)
          ∗ cred (tallyAt (sendCell d 0 1 1) () N))
        ∗ Unwaited d (sends.drop 2) ∗ Done d (sends.take 2)) := rfl

def B7 (K : Dev nD × Fin 25 → ℕ) (d : Dev nD) : sProp 𝕄 :=
  iprop(Know m K ∗ Inputs m d ∗ Proto 4 1 d
    ∗ Hids m d
    ∗ (tileOwns d (keepQ 0 d) 0 (afterFirst (A m) d 0 0) ∗ tileOwns d (keepQ 1 d) 0 (partial_ (A m) d (keepQ 1 d) 0)
      ∗ tileAny d (keepQ 0 d) 1 ∗ tileAny d (keepQ 1 d) 1)
    ∗ (slotOwns d 0 0 0 (peerPart m d 0 0) ∗ tileOwns (p0 0 d) (keepQ 0 d) 0 (peerPart m d 0 0))
    ∗ (slotAny (F := F) (partner 1 0 d) 0 1 0 ∗ slotAny (F := F) (partner 1 1 d) 0 1 1 ∗ slotAny (F := F) (partner 1 0 d) 1 1 0 ∗ slotAny (F := F) (partner 1 1 d) 1 1 1))

def B8 (K : Dev nD × Fin 25 → ℕ) (d : Dev nD) : sProp 𝕄 :=
  iprop(Know m K ∗ Inputs m d ∗ Proto 5 2 d
    ∗ Hids m d
    ∗ (tileOwns d (keepQ 1 d) 0 (partial_ (A m) d (keepQ 1 d) 0) ∗ tileAny d (keepQ 0 d) 1 ∗ tileAny d (keepQ 1 d) 1)
    ∗ (slotOwns d 0 0 0 (peerPart m d 0 0) ∗ slotOwns d 0 0 1 (peerPart m d 0 1))
    ∗ (tileOwns (p0 0 d) (keepQ 0 d) 0 (peerPart m d 0 0) ∗ tileOwns (p0 1 d) (keepQ 1 d) 0 (peerPart m d 0 1))
    ∗ (slotAny (F := F) (partner 1 1 d) 0 1 1 ∗ slotAny (F := F) (partner 1 0 d) 1 1 0 ∗ slotAny (F := F) (partner 1 1 d) 1 1 1))

private theorem ret9_eq (d : Dev nD) : k0_pay15 (w2b m d) (Hq m d (keepQ 0 d)) = ret9 m d := by
  show k0_pay15 (k0_pay2 (w2stg m d)) (Hq m d (keepQ 0 d)) = part 1 ((A m).w2 d) (Hq m d (keepQ 0 d))
  rw [w2stg_eq]
  unfold part
  rw [if_neg (by decide)]
  rfl

theorem part7_spec (K : Dev nD × Fin 25 → ℕ) (d : Dev nD) (v3 v8 : BitVec 32) {Q : PUnit → sProp 𝕄} :
    iprop(B6 m K d ∗ (B7 m K d -∗ Q ⟨⟩))
      ⊢ wp frame (wpE (defs₀ (F := F)) 𝒱₀ (d : Thread nD τ) none) Set.univ
          (atBufs k0_part7 d v3 v8) Q := by
  simp only [atBufs, k0_part7_eq_skeleton]; unfold k0_part7_skel
  simp only [Prog.lift, Prog.bind_op, Prog.bind_ret, Prog.pure_eq_ret, Prog.bind_assoc]
  unfold B6 B7 Know
  rw [proto_4_0, proto_4_1]
  iintro ⟨⟨⟨#HR, #Hlev⟩, Hin, ⟨⟨%W, HO⟩, Hun, ⟨Hc0, Hfl⟩, ⟨⟨HatS, HatR, HcR⟩, Huw⟩, -⟩, Hhid, ⟨Ht0, Ht1, Ht01, Ht11⟩, Hsl⟩, Hk⟩

  iapply (step_wait_send m K d 0 0 0 (sends.drop 4) (sendSem_spell 0 0 0 _) (tile_credit _ _)) $$ [Hc0 HO HatS]
  · iframe # ∗
  iintro ⟨HO, HzS, -⟩

  iapply (step_wait_recv m K d 0 0 0 (sends.drop 4) (by decide) (recvSem_spell 0 0 0 _) (slot_credit 0 0 0)) $$ [HcR HO HatR]
  · iframe # ∗
  iintro ⟨HO, HzR, HpR⟩
  ihave Hp := (Entails.of_eq (recvPay_0 m d 0 0)) $$ HpR
  icases Hp with ⟨Hs0, Hpt0⟩

  iapply (wp_load_tile d (keepQ 0 d) 0 (partial_ (A m) d (keepQ 0 d) 0) (off15_eq d)) $$ Ht0
  iintro Ht0
  iapply (wp_load_slot d 0 0 0 (peerPart m d 0 0) rfl) $$ Hs0
  iintro Hs0
  iapply (wp_load_tile d (keepQ 0 d) 0 (partial_ (A m) d (keepQ 0 d) 0) (off15_eq d)) $$ Ht0
  iintro Ht0
  iapply (wp_store_tile d (keepQ 0 d) 0 (partial_ (A m) d (keepQ 0 d) 0) (afterFirst (A m) d 0 0) (off15_eq d)) $$ Ht0
  iintro Ht0
  rw [wp_ret]
  imodintro
  iapply Hk
  iframe # ∗; iexists _; iframe

theorem part8_spec (K : Dev nD × Fin 25 → ℕ) (d : Dev nD) (v4 : BitVec 32) {Q : PUnit → sProp 𝕄} :
    iprop(B7 m K d ∗ (B8 m K d -∗ Q ⟨⟩))
      ⊢ wp frame (wpE (defs₀ (F := F)) 𝒱₀ (d : Thread nD τ) none) Set.univ
          (atBufs k0_part8 d v4) Q := by
  simp only [atBufs, k0_part8_eq_skeleton]; unfold k0_part8_skel
  simp only [Prog.lift, Prog.bind_op, Prog.bind_ret, Prog.pure_eq_ret, Prog.bind_assoc]
  unfold B7 B8 Know
  rw [proto_4_1_open, proto_5_2]
  iintro ⟨⟨⟨#HR, #Hlev⟩, Hin, ⟨⟨%W, HO⟩, ⟨⟨HtR, HtS⟩, Hun⟩, ⟨Hc1, Hc2, Hc3⟩, ⟨⟨HatS, HatR, HcR⟩, Huw⟩, Hdone⟩, Hhid, ⟨Ht0, Ht1, Ht01, Ht11⟩,
    ⟨Hs0, Hpt0⟩, ⟨Hsl0, Hsl1, Hsl2, Hsl3⟩⟩, Hk⟩

  iapply (step_send1 m K d 0 0 (sends.drop 5) (dev7_eq d) (off19_eq d) (sendSem_spell 0 1 0 _) (recvSem_spell 0 1 0 _)) $$ [Ht0 Hsl0 HO HtS HtR]
  · iframe # ∗
  iintro ⟨Hc4, HO⟩

  iapply (step_wait_send m K d 0 0 1 (sends.drop 5) (sendSem_spell 0 0 1 _) (tile_credit _ _)) $$ [Hc1 HO HatS]
  · iframe # ∗
  iintro ⟨HO, HzS, -⟩

  iapply (step_wait_recv m K d 0 0 1 (sends.drop 5) (by decide) (recvSem_spell 0 0 1 _) (slot_credit 0 0 1)) $$ [HcR HO HatR]
  · iframe # ∗
  iintro ⟨HO, HzR, HpR⟩
  ihave Hp := (Entails.of_eq (recvPay_0 m d 0 1)) $$ HpR
  icases Hp with ⟨Hs1, Hpt1⟩
  rw [wp_ret]
  imodintro
  iapply Hk
  iframe # ∗; iexists _; iframe

theorem part9_spec (K : Dev nD × Fin 25 → ℕ) (d : Dev nD) (v3 v8 v26 : BitVec 32) {Q : FVec F S256x512 .bf16 → sProp 𝕄} :
    iprop(B8 m K d ∗ (B9 m K d -∗ Q (ret9 m d)))
      ⊢ wp frame (wpE (defs₀ (F := F)) 𝒱₀ (d : Thread nD τ) none) Set.univ
          (atBufs k0_part9 d v3 v8 v26 (w2b m d)) Q := by
  simp only [atBufs, k0_part9_eq_skeleton]; unfold k0_part9_skel
  simp only [Prog.lift, Prog.bind_op, Prog.bind_ret, Prog.pure_eq_ret, Prog.bind_assoc]
  unfold B8 B9 Know
  rw [proto_5_2_open, proto_6_2, ← ret9_eq]
  iintro ⟨⟨⟨#HR, #Hlev⟩, Hin, ⟨⟨%W, HO⟩, ⟨⟨HtR, HtS⟩, Hun⟩, ⟨Hc2, Hc3, Hc4⟩, Huw, Hdone⟩, ⟨Hh0, Hh1, Hh2, Hh3⟩, ⟨Ht1, Ht01, Ht11⟩,
    ⟨Hs0, Hs1⟩, ⟨Hpt0, Hpt1⟩, ⟨Hsl1, Hsl2, Hsl3⟩⟩, Hk⟩

  iapply (wp_load_tile d (keepQ 1 d) 0 (partial_ (A m) d (keepQ 1 d) 0) (off18_eq d)) $$ Ht1
  iintro Ht1
  iapply (wp_load_slot d 0 0 1 (peerPart m d 0 1) rfl) $$ Hs1
  iintro Hs1
  iapply (wp_load_tile d (keepQ 1 d) 0 (partial_ (A m) d (keepQ 1 d) 0) (off18_eq d)) $$ Ht1
  iintro Ht1
  iapply (wp_store_tile d (keepQ 1 d) 0 (partial_ (A m) d (keepQ 1 d) 0) (afterFirst (A m) d 0 1) (off18_eq d)) $$ Ht1
  iintro Ht1

  iapply (step_send1 m K d 0 1 (sends.drop 6) (dev8_eq d) (off20_eq d) (sendSem_spell 0 1 1 _) (recvSem_spell 0 1 1 _)) $$ [Ht1 Hsl1 HO HtS HtR]
  · iframe # ∗
  iintro ⟨Hc5, HO⟩

  iapply (wp_load_hid d (keepQ 0 d) (Hq m d (keepQ 0 d)) (off14_eq d)) $$ Hh2
  iintro Hh2
  icases Ht01 with ⟨%v01, Ht01⟩
  iapply (wp_load_tile d (keepQ 0 d) 1 v01 (off21_eq d)) $$ Ht01
  iintro Ht01
  rw [wp_ret]
  imodintro
  iapply Hk
  isplitr
  · isplitr
    · iexact HR
    · iexact Hlev
  isplitl [Hin]; · iexact Hin
  isplitl [HO Hun Hc2 Hc3 Hc4 Hc5 Huw Hdone]
  · isplitl [HO]; · iexists _; iexact HO
    isplitl [Hun]; · iexact Hun
    isplitl [Hc2 Hc3 Hc4 Hc5]
    · isplitl [Hc2]; · iexact Hc2
      isplitl [Hc3]; · iexact Hc3
      isplitl [Hc4]; · iexact Hc4
      iexact Hc5
    isplitl [Huw]; · iexact Huw
    iexact Hdone
  isplitl [Hh0 Hh1 Hh2 Hh3]
  · isplitl [Hh0]; · iexact Hh0
    isplitl [Hh1]; · iexact Hh1
    isplitl [Hh2]; · iexact Hh2
    iexact Hh3
  isplitl [Ht01 Ht11]
  · isplitl [Ht01]; · iexists _; iexact Ht01
    iexact Ht11
  isplitl [Hs0 Hs1]
  · isplitl [Hs0]; · iexact Hs0
    iexact Hs1
  isplitl [Hpt0 Hpt1]
  · isplitl [Hpt0]; · iexact Hpt0
    iexact Hpt1
  isplitl [Hsl2]; · iexact Hsl2
  iexact Hsl3

end Cert.KernelIdeal.Coll

end
-- ==== Proof.KernelIdeal.BodyG.lean ====
/-
  Column half 1, first reduction: the kept quarters' partials are stored, each lane's step-0 landing is added in
  and the sum sent on; the first step-1 landing of column half 0 is waited for.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.StgEq
import proofs.«900576_g7700000000000577_dist_mlp2_tp_i_m1024_h2048_out1024_v7x_i4_bf16_1_alg».proof.Proof.KernelIdeal.Offsets

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem part1_eq (d : Dev nD) (q : Fin 4) : k0_pay16 (w2b m d) (Hq m d q) = partial_ (A m) d q 1 := by
  show k0_pay16 (k0_pay2 (w2stg m d)) (Hq m d q) = _
  rw [w2stg_eq]; rfl

private theorem credit_tile (off : Fin 2 → Nat) (hinb : ∀ a, off a + S256x512.size a ≤ S1024x1024.size a) (hst) :
    ((outM : Memref sig .tc .vmem S1024x1024 .bf16).slice (Rect.unit (s := S1024x1024) off S256x512.size hinb) hst).view.dmaCredit = N := rfl

private theorem credit_slot (c s b : Fin 2) : (slotM c s b).view.dmaCredit = N := rfl

def G10 (K : Dev nD × Fin 25 → ℕ) (d : Dev nD) : sProp 𝕄 :=
  iprop(Know m K ∗ Inputs m d ∗ Proto 6 3 d
    ∗ Hids m d
    ∗ (tileOwns d (keepQ 0 d) 1 (partial_ (A m) d (keepQ 0 d) 1) ∗ tileOwns d (keepQ 1 d) 1 (partial_ (A m) d (keepQ 1 d) 1))
    ∗ (slotOwns d 0 0 0 (peerPart m d 0 0) ∗ slotOwns d 0 0 1 (peerPart m d 0 1) ∗ slotOwns d 1 0 0 (peerPart m d 1 0))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0))
    ∗ (slotAny (F := F) (partner 1 0 d) 1 1 0 ∗ slotAny (F := F) (partner 1 1 d) 1 1 1))

def G11 (K : Dev nD × Fin 25 → ℕ) (d : Dev nD) : sProp 𝕄 :=
  iprop(Know m K ∗ Inputs m d ∗ Proto 7 3 d
    ∗ Hids m d
    ∗ tileOwns d (keepQ 1 d) 1 (partial_ (A m) d (keepQ 1 d) 1)
    ∗ (slotOwns d 0 0 0 (peerPart m d 0 0) ∗ slotOwns d 0 0 1 (peerPart m d 0 1) ∗ slotOwns d 1 0 0 (peerPart m d 1 0))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0))
    ∗ slotAny (F := F) (partner 1 1 d) 1 1 1)

def G12 (K : Dev nD × Fin 25 → ℕ) (d : Dev nD) : sProp 𝕄 :=
  iprop(Know m K ∗ Inputs m d ∗ Proto 7 4 d
    ∗ Hids m d
    ∗ tileOwns d (keepQ 1 d) 1 (afterFirst (A m) d 1 1)
    ∗ (slotOwns d 0 0 0 (peerPart m d 0 0) ∗ slotOwns d 0 0 1 (peerPart m d 0 1) ∗ slotOwns d 1 0 0 (peerPart m d 1 0) ∗ slotOwns d 1 0 1 (peerPart m d 1 1))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0) ∗ tileOwns (p0 1 d) (keepQ 1 d) 1 (peerPart m d 1 1))
    ∗ slotAny (F := F) (partner 1 1 d) 1 1 1)

theorem part10_spec (K : Dev nD × Fin 25 → ℕ) (d : Dev nD) (v3 v8 v26 : BitVec 32) {Q : PUnit → sProp 𝕄} :
    iprop(B9 m K d ∗ (G10 m K d -∗ Q ⟨⟩))
      ⊢ wp frame (wpE (defs₀ (F := F)) 𝒱₀ (d : Thread nD τ) none) Set.univ
          (atBufs k0_part10 d v3 v8 v26 (w2b m d) (ret9 m d)) Q := by
  simp only [atBufs, k0_part10_eq_skeleton]; unfold k0_part10_skel
  simp only [Prog.lift, Prog.bind_op, Prog.bind_ret, Prog.pure_eq_ret, Prog.bind_assoc]
  unfold B9 G10 Know Hids
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, Hun, ⟨F100, Hfl⟩, ⟨⟨WS100, WR100, WC100⟩, Huw⟩, ⟨D000, D001⟩⟩, ⟨Hh0, Hh1, Hh2, Hh3⟩, ⟨⟨%t0, Ht0⟩, ⟨%t1, Ht1⟩⟩, ⟨Hs000, Hs001⟩, ⟨Hp000, Hp001⟩, Hps⟩, Hk⟩

  iapply (wp_store_tile d (keepQ 0 d) 1 t0 (ret9 m d) (off21_eq d)) $$ Ht0
  iintro Ht0

  iapply (wp_load_hid d (keepQ 1 d) (Hq m d (keepQ 1 d)) (off17_eq d)) $$ Hh3
  iintro Hh3

  iapply (wp_load_tile d (keepQ 1 d) 1 t1 (off22_eq d)) $$ Ht1
  iintro Ht1
  iapply (wp_store_tile d (keepQ 1 d) 1 t1 (k0_pay16 (w2b m d) (Hq m d (keepQ 1 d))) (off22_eq d)) $$ Ht1
  rw [part1_eq m d (keepQ 1 d)]
  iintro Ht1

  iapply (step_wait_send m K d 1 0 0 [(1, 1, 0), (1, 1, 1), (0, 2, 0), (0, 2, 1), (1, 2, 0), (1, 2, 1)] (sendSem_spell 1 0 0 _) (dst := outM.slice (Rect.unit (s := S1024x1024) (k0_off10 d) S256x512.size (k0_off10_inb d)) (fun _ => rfl)) (credit_tile _ _ _)) $$ [F100 HO WS100]
  · iframe # ∗
  iintro ⟨HO, ZS100, -⟩

  iapply (step_wait_recv m K d 1 0 0 [(1, 1, 0), (1, 1, 1), (0, 2, 0), (0, 2, 1), (1, 2, 0), (1, 2, 1)] (by decide) (recvSem_spell 1 0 0 _) (dst := slotM 1 0 0) (credit_slot 1 0 0)) $$ [WC100 HO WR100]
  · iframe # ∗
  iintro ⟨HO, ZR100, Hpay⟩
  ihave Hp := (Entails.of_eq (recvPay_0 m d 1 0)) $$ Hpay
  icases Hp with ⟨Hs100, Hp100⟩
  rw [wp_ret]; imodintro
  iapply Hk
  iframe # ∗; iexists _; iframe

theorem part11_spec (K : Dev nD × Fin 25 → ℕ) (d : Dev nD) (v4 v8 : BitVec 32) {Q : PUnit → sProp 𝕄} :
    iprop(G10 m K d ∗ (G11 m K d -∗ Q ⟨⟩))
      ⊢ wp frame (wpE (defs₀ (F := F)) 𝒱₀ (d : Thread nD τ) none) Set.univ
          (atBufs k0_part11 d v4 v8) Q := by
  simp only [atBufs, k0_part11_eq_skeleton]; unfold k0_part11_skel
  simp only [Prog.lift, Prog.bind_op, Prog.bind_ret, Prog.pure_eq_ret, Prog.bind_assoc]
  unfold G10 G11 Know
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, ⟨⟨UR110, US110⟩, Hun⟩, ⟨F101, F010, F011⟩, Huw, Hdn⟩, Hhid, ⟨Ht0, Ht1⟩, ⟨Hs000, Hs001, Hs100⟩, Hpt, ⟨Hps110, Hps111⟩⟩, Hk⟩

  iapply (wp_load_tile d (keepQ 0 d) 1 (partial_ (A m) d (keepQ 0 d) 1) (off21_eq d)) $$ Ht0
  iintro Ht0
  iapply (wp_load_slot d 1 0 0 (peerPart m d 1 0) (show (![1, 0, 0, 0, 0] : Fin 5 → Nat) = ![(1 : Fin 2).val, (0 : Fin 2).val, (0 : Fin 2).val, 0, 0] from rfl)) $$ Hs100
  iintro Hs100

  iapply (wp_load_tile d (keepQ 0 d) 1 (partial_ (A m) d (keepQ 0 d) 1) (off21_eq d)) $$ Ht0
  iintro Ht0
  iapply (wp_store_tile d (keepQ 0 d) 1 (partial_ (A m) d (keepQ 0 d) 1) (afterFirst (A m) d 1 0) (off21_eq d)) $$ Ht0
  iintro Ht0

  iapply (step_send1 m K d 1 0 [(1, 1, 1), (0, 2, 0), (0, 2, 1), (1, 2, 0), (1, 2, 1)] (dev9_eq d) (off23_eq d) (sendSem_spell 1 1 0 _) (recvSem_spell 1 1 0 _)) $$ [Ht0 Hps110 HO US110 UR110]
  · iframe # ∗
  iintro ⟨F110, HO⟩
  rw [wp_ret]; imodintro
  iapply Hk
  iframe # ∗; iexists _; iframe

theorem part12_spec (K : Dev nD × Fin 25 → ℕ) (d : Dev nD) (v3 v4 v26 : BitVec 32) {Q : PUnit → sProp 𝕄} :
    iprop(G11 m K d ∗ (G12 m K d -∗ Q ⟨⟩))
      ⊢ wp frame (wpE (defs₀ (F := F)) 𝒱₀ (d : Thread nD τ) none) Set.univ
          (atBufs k0_part12 d v3 v4 v26) Q := by
  simp only [atBufs, k0_part12_eq_skeleton]; unfold k0_part12_skel
  simp only [Prog.lift, Prog.bind_op, Prog.bind_ret, Prog.pure_eq_ret, Prog.bind_assoc]
  unfold G11 G12 Know
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, Hun, ⟨F101, Hfl⟩, ⟨⟨WS101, WR101, WC101⟩, Huw⟩, ⟨D000, D001, D100⟩⟩, Hhid, Ht1, ⟨Hs000, Hs001, Hs100⟩, ⟨Hp000, Hp001, Hp100⟩, Hps111⟩, Hk⟩

  iapply (step_wait_send m K d 1 0 1 [(1, 1, 1), (0, 2, 0), (0, 2, 1), (1, 2, 0), (1, 2, 1)] (sendSem_spell 1 0 1 _) (dst := outM.slice (Rect.unit (s := S1024x1024) (k0_off12 d) S256x512.size (k0_off12_inb d)) (fun _ => rfl)) (credit_tile _ _ _)) $$ [F101 HO WS101]
  · iframe # ∗
  iintro ⟨HO, ZS101, -⟩

  iapply (step_wait_recv m K d 1 0 1 [(1, 1, 1), (0, 2, 0), (0, 2, 1), (1, 2, 0), (1, 2, 1)] (by decide) (recvSem_spell 1 0 1 _) (dst := slotM 1 0 1) (credit_slot 1 0 1)) $$ [WC101 HO WR101]
  · iframe # ∗
  iintro ⟨HO, ZR101, Hpay⟩
  ihave Hp := (Entails.of_eq (recvPay_0 m d 1 1)) $$ Hpay
  icases Hp with ⟨Hs101, Hp101⟩

  iapply (wp_load_tile d (keepQ 1 d) 1 (partial_ (A m) d (keepQ 1 d) 1) (off22_eq d)) $$ Ht1
  iintro Ht1
  iapply (wp_load_slot d 1 0 1 (peerPart m d 1 1) (show (![1, 0, 1, 0, 0] : Fin 5 → Nat) = ![(1 : Fin 2).val, (0 : Fin 2).val, (1 : Fin 2).val, 0, 0] from rfl)) $$ Hs101
  iintro Hs101

  iapply (wp_load_tile d (keepQ 1 d) 1 (partial_ (A m) d (keepQ 1 d) 1) (off22_eq d)) $$ Ht1
  iintro Ht1
  iapply (wp_store_tile d (keepQ 1 d) 1 (partial_ (A m) d (keepQ 1 d) 1) (afterFirst (A m) d 1 1) (off22_eq d)) $$ Ht1
  iintro Ht1
  rw [wp_ret]; imodintro
  iapply Hk
  iframe # ∗; iexists _; iframe

theorem part13_spec (K : Dev nD × Fin 25 → ℕ) (d : Dev nD) (v4 v8 : BitVec 32) {Q : FVec F S256x512 .bf16 → sProp 𝕄} :
    iprop(G12 m K d ∗ (B13 m K d -∗ Q (ret13 m d)))
      ⊢ wp frame (wpE (defs₀ (F := F)) 𝒱₀ (d : Thread nD τ) none) Set.univ
          (atBufs k0_part13 d v4 v8) Q := by
  simp only [atBufs, k0_part13_eq_skeleton]; unfold k0_part13_skel
  simp only [Prog.lift, Prog.bind_op, Prog.bind_ret, Prog.pure_eq_ret, Prog.bind_assoc]
  unfold G12 B13 Know
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, ⟨⟨UR111, US111⟩, Hun⟩, ⟨F010, F011, F110⟩, ⟨⟨WS010, WR010, WC010⟩, Huw⟩, ⟨D000, D001, D100, D101⟩⟩, Hhid, Ht1, Hsl, Hpt, Hps111⟩, Hk⟩

  iapply (step_send1 m K d 1 1 [(0, 2, 0), (0, 2, 1), (1, 2, 0), (1, 2, 1)] (dev10_eq d) (off24_eq d) (sendSem_spell 1 1 1 _) (recvSem_spell 1 1 1 _)) $$ [Ht1 Hps111 HO US111 UR111]
  · iframe # ∗
  iintro ⟨F111, HO⟩

  iapply (step_wait_send m K d 0 1 0 [(0, 2, 0), (0, 2, 1), (1, 2, 0), (1, 2, 1)] (sendSem_spell 0 1 0 _) (dst := outM.slice (Rect.unit (s := S1024x1024) (k0_off19 d) S256x512.size (k0_off19_inb d)) (fun _ => rfl)) (credit_tile _ _ _)) $$ [F010 HO WS010]
  · iframe # ∗
  iintro ⟨HO, ZS010, Hpay⟩
  ihave Ht00 := (Entails.of_eq (sendPay_1 m d 0 0)) $$ Hpay

  iapply (step_wait_recv m K d 0 1 0 [(0, 2, 0), (0, 2, 1), (1, 2, 0), (1, 2, 1)] (by decide) (recvSem_spell 0 1 0 _) (dst := slotM 0 1 0) (credit_slot 0 1 0)) $$ [WC010 HO WR010]
  · iframe # ∗
  iintro ⟨HO, ZR010, Hpay⟩
  ihave Hs010 := (Entails.of_eq (recvPay_1 m d 0 0)) $$ Hpay

  iapply (wp_load_tile d (keepQ 0 d) 0 (afterFirst (A m) d 0 0) (off15_eq d)) $$ Ht00
  iintro Ht00
  rw [wp_ret]; imodintro
  iapply Hk
  icases Hsl with ⟨Hs000, Hs001, Hs100, Hs101⟩
  iframe # ∗; iexists _; iframe

end Cert.KernelIdeal.Coll

end
-- ==== Proof.KernelIdeal.BodyH.lean ====
/-
  Column half 0, second reduction: each lane's step-1 landing is added to the tile held and the finished sum sent
  to the step-2 partner, into the tile that partner gave up at step 0; column half 1 likewise in lane 0.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.States
import proofs.«900576_g7700000000000577_dist_mlp2_tp_i_m1024_h2048_out1024_v7x_i4_bf16_1_alg».proof.Proof.KernelIdeal.Offsets

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def H14 (K : Dev nD × Fin 25 → ℕ) (d : Dev nD) : sProp 𝕄 :=
  iprop(Know m K ∗ Inputs m d
    ∗ ((∃ W, owes (d : Thread nD τ) (oweL d (sends.drop 9)) W) ∗ Unissued d (sends.drop 9) ∗ InFlight d ((sends.take 9).drop 6)
      ∗ (atPos ER (recvCell d 0 1 1) 0 ∅ 0 ∗ cred (tallyAt (recvCell d 0 1 1) () N)) ∗ Unwaited d (sends.drop 6)
      ∗ semVal (sendCell d 0 1 1) 0 ∗ Done d (sends.take 5))
    ∗ Hids m d
    ∗ tileOwns d (keepQ 1 d) 0 (afterFirst (A m) d 0 1)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0))
    ∗ (tileOwns (p0 1 d) (keepQ 1 d) 0 (peerPart m d 0 1)
      ∗ tileOwns (p0 0 d) (keepQ 0 d) 1 (peerPart m d 1 0) ∗ tileOwns (p0 1 d) (keepQ 1 d) 1 (peerPart m d 1 1)))

def H15 (K : Dev nD × Fin 25 → ℕ) (d : Dev nD) : sProp 𝕄 :=
  iprop(Know m K ∗ Inputs m d ∗ Proto 10 6 d
    ∗ Hids m d
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1))
    ∗ (tileOwns (p0 0 d) (keepQ 0 d) 1 (peerPart m d 1 0) ∗ tileOwns (p0 1 d) (keepQ 1 d) 1 (peerPart m d 1 1)))

private theorem partner2_eq_p0 (b : Fin 2) (d : Dev nD) : partner 2 b d = p0 b d := by revert b d; decide

theorem part14_spec (K : Dev nD × Fin 25 → ℕ) (d : Dev nD) (v3 v8 : BitVec 32) {Q : PUnit → sProp 𝕄} :
    iprop(B13 m K d ∗ (H14 m K d -∗ Q ⟨⟩))
      ⊢ wp frame (wpE (defs₀ (F := F)) 𝒱₀ (d : Thread nD τ) none) Set.univ
          (atBufs k0_part14 d v3 v8 (ret13 m d)) Q := by
  simp only [atBufs, k0_part14_eq_skeleton]; unfold k0_part14_skel
  simp only [Prog.lift, Prog.bind_op, Prog.bind_ret, Prog.pure_eq_ret, Prog.bind_assoc]
  unfold B13 Know
  simp only [Proto, sends, List.drop, List.take, Unissued, InFlight, Unwaited, Done, bigSepL_cons_cons, bigSepL_singleton, bigSepL_nil, sep_fold]
  iintro ⟨⟨⟨#HR, #Hlev⟩, HIn, ⟨⟨%W, HO⟩, ⟨⟨HtR020, HtS020⟩, Hun⟩, ⟨Hc011, Hfl⟩, ⟨⟨Hat011s, Hat011r, Hc011r⟩, Huw⟩, Hdone⟩, Hhid, Ht,
    ⟨Hs000, Hs001, Hs100, Hs101, Hs010⟩, ⟨Hp00, Hp01, Hp10, Hp11⟩⟩, Hk⟩

  iapply (wp_load_slot d 0 1 0 (afterFirst (A m) (partner 1 0 d) 0 0) (off := ![0, 1, 0, 0, 0]) rfl) $$ Hs010
  iintro Hs010

  iapply (wp_load_tile d (keepQ 0 d) 0 (afterFirst (A m) d 0 0) (off := k0_off15 d) (off15_eq d)) $$ Ht
  iintro Ht
  iapply (wp_store_tile d (keepQ 0 d) 0 (afterFirst (A m) d 0 0) (afterSecond (A m) d 0 0) (off := k0_off15 d) (off15_eq d)) $$ Ht
  iintro Ht

  iapply (step_send2 m K d 0 0 [(0, 2, 1), (1, 2, 0), (1, 2, 1)] (peerPart m d 0 0) (dev11_eq d) (off19_eq d) (sendSem_spell 0 2 0 _) (recvSem_spell 0 2 0 _))
    $$ [HO Ht Hp00 HtS020 HtR020]
  · isplitr; · iexact HR
    isplitl [Ht]; · iexact Ht
    isplitl [Hp00]; · rw [partner2_eq_p0]; iexact Hp00
    iframe # ∗
  iintro ⟨Hc020, HO⟩

  have hN20 : (outM.slice (Rect.unit (s := S1024x1024) (k0_off20 d) S256x512.size (k0_off20_inb d)) (fun _ => rfl)).view.dmaCredit = N := rfl
  iapply (step_wait_send m K d 0 1 1 [(0, 2, 1), (1, 2, 0), (1, 2, 1)] (sendSem_spell 0 1 1 _) (src := slotM 0 1 1)
      (dst := outM.slice (Rect.unit (s := S1024x1024) (k0_off20 d) S256x512.size (k0_off20_inb d)) (fun _ => rfl)) hN20) $$ [Hc011 HO Hat011s]
  · iframe # ∗
  iintro ⟨HO, Hz011s, Hpay⟩
  ihave Hpay := (Entails.of_eq (sendPay_1 m d 0 1)) $$ Hpay
  rw [wp_ret]
  imodintro
  iapply Hk
  unfold H14 Know
  simp only [sends, List.drop, List.take, Unissued, InFlight, Unwaited, Done, bigSepL_cons_cons, bigSepL_singleton, bigSepL_nil, sep_fold]
  isplitr; · isplitr; · iexact HR
             iexact Hlev
  isplitl [HIn]; · iexact HIn
  isplitl [HO Hun Hfl Hc020 Hat011r Hc011r Huw Hz011s Hdone]
  · isplitl [HO]; · iexists _; iexact HO
    isplitl [Hun]; · iexact Hun
    isplitl [Hfl Hc020]
    · icases Hfl with ⟨Hc110, Hc111⟩
      isplitl [Hc110]; · iexact Hc110
      isplitl [Hc111]; · iexact Hc111
      iexact Hc020
    isplitl [Hat011r Hc011r]
    · iframe # ∗
    isplitl [Huw]; · iexact Huw
    isplitl [Hz011s]; · iexact Hz011s
    iexact Hdone
  iframe # ∗

theorem part15_spec (K : Dev nD × Fin 25 → ℕ) (d : Dev nD) (v3 v4 v26 : BitVec 32) {Q : PUnit → sProp 𝕄} :
    iprop(H14 m K d ∗ (H15 m K d -∗ Q ⟨⟩))
      ⊢ wp frame (wpE (defs₀ (F := F)) 𝒱₀ (d : Thread nD τ) none) Set.univ
          (atBufs k0_part15 d v3 v4 v26) Q := by
  simp only [atBufs, k0_part15_eq_skeleton]; unfold k0_part15_skel
  simp only [Prog.lift, Prog.bind_op, Prog.bind_ret, Prog.pure_eq_ret, Prog.bind_assoc]
  unfold H14 Know
  simp only [sends, List.drop, List.take, Unissued, InFlight, Unwaited, Done, bigSepL_cons_cons, bigSepL_singleton, bigSepL_nil, sep_fold]
  iintro ⟨⟨⟨#HR, #Hlev⟩, HIn, ⟨⟨%W, HO⟩, ⟨⟨HtR021, HtS021⟩, Hun⟩, ⟨Hc110, Hc111, Hc020⟩, ⟨Hat011r, Hc011r⟩, Huw, Hz011s, ⟨Hd1, Hd2, Hd3, Hd4, Hd5⟩⟩, Hhid, Ht,
    ⟨Hs000, Hs001, Hs100, Hs101, Hs010⟩, ⟨Hp01, Hp10, Hp11⟩⟩, Hk⟩

  have hNs : (slotM 0 1 1).view.dmaCredit = N := rfl
  iapply (step_wait_recv m K d 0 1 1 [(0, 2, 1), (1, 2, 0), (1, 2, 1)] (by decide) (recvSem_spell 0 1 1 _)
      (src := outM.slice (Rect.unit (s := S1024x1024) (k0_off20 d) S256x512.size (k0_off20_inb d)) (fun _ => rfl))
      (dst := slotM 0 1 1) hNs) $$ [Hc011r HO Hat011r]
  · iframe # ∗
  iintro ⟨HO, Hz011r, Hpay⟩
  ihave Hs011 := (Entails.of_eq (recvPay_1 m d 0 1)) $$ Hpay

  iapply (wp_load_tile d (keepQ 1 d) 0 (afterFirst (A m) d 0 1) (off := k0_off18 d) (off18_eq d)) $$ Ht
  iintro Ht
  iapply (wp_load_slot d 0 1 1 (afterFirst (A m) (partner 1 1 d) 0 1) (off := ![0, 1, 1, 0, 0]) rfl) $$ Hs011
  iintro Hs011
  iapply (wp_load_tile d (keepQ 1 d) 0 (afterFirst (A m) d 0 1) (off := k0_off18 d) (off18_eq d)) $$ Ht
  iintro Ht
  iapply (wp_store_tile d (keepQ 1 d) 0 (afterFirst (A m) d 0 1) (afterSecond (A m) d 0 1) (off := k0_off18 d) (off18_eq d)) $$ Ht
  iintro Ht

  iapply (step_send2 m K d 0 1 [(1, 2, 0), (1, 2, 1)] (peerPart m d 0 1) (dev12_eq d) (off20_eq d) (sendSem_spell 0 2 1 _) (recvSem_spell 0 2 1 _))
    $$ [HO Ht Hp01 HtS021 HtR021]
  · isplitr; · iexact HR
    isplitl [Ht]; · iexact Ht
    isplitl [Hp01]; · rw [partner2_eq_p0]; iexact Hp01
    iframe # ∗
  iintro ⟨Hc021, HO⟩
  rw [wp_ret]
  imodintro
  iapply Hk
  unfold H15 Know
  simp only [Proto, sends, List.drop, List.take, Unissued, InFlight, Unwaited, Done, bigSepL_cons_cons, bigSepL_singleton, bigSepL_nil, sep_fold]
  iframe # ∗; iexists _; iframe

theorem part16_spec (K : Dev nD × Fin 25 → ℕ) (d : Dev nD) (v4 v8 : BitVec 32) {Q : BitVec 32 → sProp 𝕄} :
    iprop(H15 m K d ∗ (B16 m K d -∗ Q 256#32))
      ⊢ wp frame (wpE (defs₀ (F := F)) 𝒱₀ (d : Thread nD τ) none) Set.univ
          (atBufs k0_part16 d v4 v8) Q := by
  simp only [atBufs, k0_part16_eq_skeleton]; unfold k0_part16_skel
  simp only [Prog.lift, Prog.bind_op, Prog.bind_ret, Prog.pure_eq_ret, Prog.bind_assoc]
  unfold H15 Know
  simp only [Proto, sends, List.drop, List.take, Unissued, InFlight, Unwaited, Done, bigSepL_cons_cons, bigSepL_singleton, bigSepL_nil, sep_fold]
  iintro ⟨⟨⟨#HR, #Hlev⟩, HIn, ⟨⟨%W, HO⟩, Hun, ⟨Hc110, Hfl⟩, ⟨⟨Hat110s, Hat110r, Hc110r⟩, Huw⟩, ⟨Hd1, Hd2, Hd3, Hd4, Hd5, Hd6⟩⟩, Hhid,
    ⟨Hs000, Hs001, Hs100, Hs101, Hs010, Hs011⟩, ⟨Hp10, Hp11⟩⟩, Hk⟩

  have hN23 : (outM.slice (Rect.unit (s := S1024x1024) (k0_off23 d) S256x512.size (k0_off23_inb d)) (fun _ => rfl)).view.dmaCredit = N := rfl
  iapply (step_wait_send m K d 1 1 0 [(1, 2, 0), (1, 2, 1)] (sendSem_spell 1 1 0 _) (src := slotM 1 1 0)
      (dst := outM.slice (Rect.unit (s := S1024x1024) (k0_off23 d) S256x512.size (k0_off23_inb d)) (fun _ => rfl)) hN23) $$ [Hc110 HO Hat110s]
  · iframe # ∗
  iintro ⟨HO, Hz110s, Hpay⟩
  ihave Ht := (Entails.of_eq (sendPay_1 m d 1 0)) $$ Hpay

  have hNs : (slotM 1 1 0).view.dmaCredit = N := rfl
  iapply (step_wait_recv m K d 1 1 0 [(1, 2, 0), (1, 2, 1)] (by decide) (recvSem_spell 1 1 0 _)
      (src := outM.slice (Rect.unit (s := S1024x1024) (k0_off23 d) S256x512.size (k0_off23_inb d)) (fun _ => rfl))
      (dst := slotM 1 1 0) hNs) $$ [Hc110r HO Hat110r]
  · iframe # ∗
  iintro ⟨HO, Hz110r, Hpay⟩
  ihave Hs110 := (Entails.of_eq (recvPay_1 m d 1 0)) $$ Hpay

  iapply (wp_load_tile d (keepQ 0 d) 1 (afterFirst (A m) d 1 0) (off := k0_off21 d) (off21_eq d)) $$ Ht
  iintro Ht
  iapply (wp_load_slot d 1 1 0 (afterFirst (A m) (partner 1 0 d) 1 0) (off := ![1, 1, 0, 0, 0]) rfl) $$ Hs110
  iintro Hs110
  iapply (wp_load_tile d (keepQ 0 d) 1 (afterFirst (A m) d 1 0) (off := k0_off21 d) (off21_eq d)) $$ Ht
  iintro Ht
  iapply (wp_store_tile d (keepQ 0 d) 1 (afterFirst (A m) d 1 0) (afterSecond (A m) d 1 0) (off := k0_off21 d) (off21_eq d)) $$ Ht
  iintro Ht
  rw [wp_ret]
  imodintro
  iapply Hk
  unfold B16 Know
  simp only [Proto, sends, List.drop, List.take, Unissued, InFlight, Unwaited, Done, bigSepL_cons_cons, bigSepL_singleton, bigSepL_nil, sep_fold]
  iframe # ∗; iexists _; iframe

end Cert.KernelIdeal.Coll

end
-- ==== Proof.KernelIdeal.BodyI.lean ====
/-
  Column half 1 is finished in both lanes and sent to the step-2 partners; the two step-2 landings of column half
  0 are waited for.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.States
import proofs.«900576_g7700000000000577_dist_mlp2_tp_i_m1024_h2048_out1024_v7x_i4_bf16_1_alg».proof.Proof.KernelIdeal.Offsets

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def HalfWaitedI (d : Dev nD) (x : Xf) : sProp 𝕄 :=
  iprop(semVal (sendCellX d x) 0 ∗ atPos ER (recvCellX d x) 0 ∅ 0 ∗ cred (tallyAt (recvCellX d x) () N))

def ProtoHalfI (k j : ℕ) (x : Xf) (d : Dev nD) : sProp 𝕄 :=
  iprop((∃ W, owes (d : Thread nD τ) (oweL d (sends.drop k)) W) ∗ Unissued d (sends.drop k) ∗ InFlight d ((sends.take k).drop (j + 1))
    ∗ HalfWaitedI d x ∗ Unwaited d (sends.drop (j + 1)) ∗ Done d (sends.take j))

def B17 (K : Dev nD × Fin 25 → ℕ) (d : Dev nD) : sProp 𝕄 :=
  iprop(Know m K ∗ Inputs m d ∗ ProtoHalfI 11 7 (1, 1, 1) d
    ∗ Hids m d
    ∗ tileOwns d (keepQ 1 d) 1 (afterFirst (A m) d 1 1)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0))
    ∗ tileOwns (p0 1 d) (keepQ 1 d) 1 (peerPart m d 1 1))

def B18 (K : Dev nD × Fin 25 → ℕ) (d : Dev nD) : sProp 𝕄 :=
  iprop(Know m K ∗ Inputs m d ∗ ProtoHalfI 12 8 (0, 2, 0) d
    ∗ Hids m d
    ∗ tileOwns d (keepQ 0 d) 0 (afterSecond (A m) d 0 0)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

theorem empI_eq : (BI.emp : sProp 𝕄) = iprop(emp) := rfl

theorem dropI10 : sends.drop 10 = [(1, 2, 0), (1, 2, 1)] := rfl
theorem dropI11 : sends.drop 11 = [(1, 2, 1)] := rfl
theorem dropI12 : sends.drop 12 = [] := rfl
theorem flyI10_7 : (sends.take 10).drop 7 = [(1, 1, 1), (0, 2, 0), (0, 2, 1)] := rfl
theorem flyI11_8 : (sends.take 11).drop (7 + 1) = [(0, 2, 0), (0, 2, 1), (1, 2, 0)] := rfl
theorem flyI12_9 : (sends.take 12).drop (8 + 1) = [(0, 2, 1), (1, 2, 0), (1, 2, 1)] := rfl
theorem flyI12_10 : (sends.take 12).drop 10 = [(1, 2, 0), (1, 2, 1)] := rfl
theorem dropI7 : sends.drop 7 = [(1, 1, 1), (0, 2, 0), (0, 2, 1), (1, 2, 0), (1, 2, 1)] := rfl
theorem dropI8 : sends.drop (7 + 1) = [(0, 2, 0), (0, 2, 1), (1, 2, 0), (1, 2, 1)] := rfl
theorem dropI9 : sends.drop (8 + 1) = [(0, 2, 1), (1, 2, 0), (1, 2, 1)] := rfl
theorem takeI7 : sends.take 7 = [(0, 0, 0), (0, 0, 1), (1, 0, 0), (1, 0, 1), (0, 1, 0), (0, 1, 1), (1, 1, 0)] := rfl
theorem takeI8 : sends.take 8 = [(0, 0, 0), (0, 0, 1), (1, 0, 0), (1, 0, 1), (0, 1, 0), (0, 1, 1), (1, 1, 0), (1, 1, 1)] := rfl
theorem takeI10 : sends.take 10 = [(0, 0, 0), (0, 0, 1), (1, 0, 0), (1, 0, 1), (0, 1, 0), (0, 1, 1), (1, 1, 0), (1, 1, 1), (0, 2, 0), (0, 2, 1)] := rfl

theorem partner2I (b : Fin 2) (d : Dev nD) : partner 2 b d = partner 0 b d := by revert b d; decide

abbrev tileViewI (off : Fin 2 → Nat) (hinb : ∀ a, off a + S256x512.size a ≤ S1024x1024.size a) : Memref sig .tc .vmem S256x512 .bf16 :=
  outM.slice (Rect.unit (s := S1024x1024) off S256x512.size hinb) (fun _ => rfl)

theorem part17_spec (K : Dev nD × Fin 25 → ℕ) (d : Dev nD) (v3 v8 c256 : BitVec 32) {Q : PUnit → sProp 𝕄} :
    iprop(B16 m K d ∗ (B17 m K d -∗ Q ⟨⟩))
      ⊢ wp frame (wpE (defs₀ (F := F)) 𝒱₀ (d : Thread nD τ) none) Set.univ
          (atBufs k0_part17 d v3 v8 c256) Q := by
  simp only [atBufs, k0_part17_eq_skeleton]; unfold k0_part17_skel
  simp only [Prog.lift, Prog.bind_op, Prog.bind_ret, Prog.pure_eq_ret, Prog.bind_assoc]
  unfold B16 Know Proto
  simp only [dropI10, flyI10_7, dropI7, takeI7, Unissued, InFlight, Unwaited, Done, bigSepL_cons_cons, bigSepL_singleton, bigSepL_nil, sep_fold]
  iintro ⟨⟨⟨#HR, #Hlev⟩, Hin, ⟨⟨%W, HO⟩, ⟨⟨HtR120, HtS120⟩, Htok121⟩, ⟨Hc111, Hc020, Hc021⟩, ⟨⟨HaS111, Hhalf⟩, Hunw⟩, Hdone⟩, Hh, Ht, Hsl, ⟨Hp0, Hp1⟩⟩, Hk⟩

  iapply (step_send2 m K d 1 0 [(1, 2, 1)] (peerPart m d 1 0) (dev13_eq d) (off23_eq d) (sendSem_spell 1 2 0 _) (recvSem_spell 1 2 0 _)) $$ [Ht Hp0 HO HtS120 HtR120]
  · isplitr; · iexact HR
    isplitl [Ht]; · iexact Ht
    isplitl [Hp0]; · rw [partner2I]; iexact Hp0
    isplitl [HO]; · iexact HO
    isplitl [HtS120]; · iexact HtS120
    rw [partner2I]; iexact HtR120
  iintro ⟨Hc120, HO⟩

  iapply (step_wait_send m K d 1 1 1 [(1, 2, 1)] (sendSem_spell 1 1 1 _) (dst := tileViewI (k0_off24 d) (k0_off24_inb d)) rfl) $$ [Hc111 HO HaS111]
  · iframe # ∗
  iintro ⟨HO, Hz111, Hpay⟩
  rw [wp_ret]; imodintro
  iapply Hk
  unfold B17 ProtoHalfI HalfWaitedI Know
  simp only [dropI11, flyI11_8, dropI8, takeI7, Unissued, InFlight, Unwaited, Done, bigSepL_cons_cons, bigSepL_singleton, bigSepL_nil, sep_fold, sendPay_1]
  iframe
  iframe # ∗; iexists _; iframe

theorem part18_spec (K : Dev nD × Fin 25 → ℕ) (d : Dev nD) (v4 v26 : BitVec 32) {Q : PUnit → sProp 𝕄} :
    iprop(B17 m K d ∗ (B18 m K d -∗ Q ⟨⟩))
      ⊢ wp frame (wpE (defs₀ (F := F)) 𝒱₀ (d : Thread nD τ) none) Set.univ
          (atBufs k0_part18 d v4 v26) Q := by
  simp only [atBufs, k0_part18_eq_skeleton]; unfold k0_part18_skel
  simp only [Prog.lift, Prog.bind_op, Prog.bind_ret, Prog.pure_eq_ret, Prog.bind_assoc]
  unfold B17 ProtoHalfI HalfWaitedI Know
  simp only [dropI11, flyI11_8, dropI8, takeI7, Unissued, InFlight, Unwaited, Done, bigSepL_cons_cons, bigSepL_singleton, bigSepL_nil, sep_fold, empI_eq]
  iintro ⟨⟨⟨#HR, #Hlev⟩, Hin, ⟨⟨%W, HO⟩, ⟨HtR121, HtS121⟩, ⟨Hc020, Hc021, Hc120⟩, ⟨Hz111, HaR111, HcR111⟩, ⟨⟨HaS020, Hhalf020⟩, Hunw⟩, ⟨Hd0, Hd1, Hd2, Hd3, Hd4, Hd5, Hd6⟩⟩, Hh, Ht, ⟨Hs000, Hs001, Hs100, Hs101, Hs010, Hs011, Hs110⟩, Hp1⟩, Hk⟩

  iapply (step_wait_recv m K d 1 1 1 [(1, 2, 1)] (by decide) (recvSem_spell 1 1 1 _) (dst := slotM 1 1 1) rfl) $$ [HcR111 HO HaR111]
  · iframe # ∗
  iintro ⟨HO, Hzr111, Hs111⟩
  simp only [recvPay_1]

  iapply (wp_load_tile d (keepQ 1 d) 1 (afterFirst (A m) d 1 1) (off22_eq d)) $$ Ht
  iintro Ht
  iapply (wp_load_slot d 1 1 1 (afterFirst (A m) (partner 1 1 d) 1 1) (off := ![1, 1, 1, 0, 0]) rfl) $$ Hs111
  iintro Hs111
  iapply (wp_load_tile d (keepQ 1 d) 1 (afterFirst (A m) d 1 1) (off22_eq d)) $$ Ht
  iintro Ht
  iapply (wp_store_tile d (keepQ 1 d) 1 (afterFirst (A m) d 1 1) (afterSecond (A m) d 1 1) (off22_eq d)) $$ Ht
  iintro Ht

  iapply (step_send2 m K d 1 1 [] (peerPart m d 1 1) (dev14_eq d) (off24_eq d) (sendSem_spell 1 2 1 _) (recvSem_spell 1 2 1 _)) $$ [Ht Hp1 HO HtS121 HtR121]
  · isplitr; · iexact HR
    isplitl [Ht]; · iexact Ht
    isplitl [Hp1]; · rw [partner2I]; iexact Hp1
    isplitl [HO]; · iexact HO
    isplitl [HtS121]; · iexact HtS121
    rw [partner2I]; iexact HtR121
  iintro ⟨Hc121, HO⟩

  iapply (step_wait_send m K d 0 2 0 [] (sendSem_spell 0 2 0 _) (dst := tileViewI (k0_off19 d) (k0_off19_inb d)) rfl) $$ [Hc020 HO HaS020]
  · iframe # ∗
  iintro ⟨HO, Hz020, Ht020⟩
  rw [wp_ret]; imodintro
  iapply Hk
  unfold B18 ProtoHalfI HalfWaitedI Know
  simp only [dropI12, flyI12_9, dropI9, takeI8, Unissued, InFlight, Unwaited, Done, bigSepL_cons_cons, bigSepL_singleton, bigSepL_nil, sep_fold, empI_eq, sendPay_2]
  iframe
  iframe # ∗; iexists _; iframe

theorem part19_spec (K : Dev nD × Fin 25 → ℕ) (d : Dev nD) (v3 v4 : BitVec 32) {Q : PUnit → sProp 𝕄} :
    iprop(B18 m K d ∗ (B19 m K d -∗ Q ⟨⟩))
      ⊢ wp frame (wpE (defs₀ (F := F)) 𝒱₀ (d : Thread nD τ) none) Set.univ
          (atBufs k0_part19 d v3 v4) Q := by
  simp only [atBufs, k0_part19_eq_skeleton]; unfold k0_part19_skel
  simp only [Prog.lift, Prog.bind_op, Prog.bind_ret, Prog.pure_eq_ret, Prog.bind_assoc]
  unfold B18 ProtoHalfI HalfWaitedI Know
  simp only [dropI12, flyI12_9, dropI9, takeI8, Unissued, InFlight, Unwaited, Done, bigSepL_cons_cons, bigSepL_singleton, bigSepL_nil, sep_fold, empI_eq]
  iintro ⟨⟨⟨#HR, #Hlev⟩, Hin, ⟨⟨%W, HO⟩, Hemp, ⟨Hc021, Hc120, Hc121⟩, ⟨Hz020, HaR020, HcR020⟩, ⟨⟨HaS021, HaR021, HcR021⟩, Hunw⟩, ⟨Hd0, Hd1, Hd2, Hd3, Hd4, Hd5, Hd6, Hd7⟩⟩, Hh, Ht020, Hsl⟩, Hk⟩

  iapply (step_wait_recv m K d 0 2 0 [] (by simp) (recvSem_spell 0 2 0 _) (dst := tileViewI (k0_off19 d) (k0_off19_inb d)) rfl) $$ [HcR020 HO HaR020]
  · iframe # ∗
  iintro ⟨HO, Hzr020, Htr020⟩

  iapply (step_wait_send m K d 0 2 1 [] (sendSem_spell 0 2 1 _) (dst := tileViewI (k0_off20 d) (k0_off20_inb d)) rfl) $$ [Hc021 HO HaS021]
  · iframe # ∗
  iintro ⟨HO, Hz021, Ht021⟩

  iapply (step_wait_recv m K d 0 2 1 [] (by simp) (recvSem_spell 0 2 1 _) (dst := tileViewI (k0_off20 d) (k0_off20_inb d)) rfl) $$ [HcR021 HO HaR021]
  · iframe # ∗
  iintro ⟨HO, Hzr021, Htr021⟩
  rw [wp_ret]; imodintro
  iapply Hk
  unfold B19 Proto Know
  simp only [dropI12, flyI12_10, dropI10, takeI10, Unissued, InFlight, Unwaited, Done, bigSepL_cons_cons, bigSepL_singleton, bigSepL_nil, sep_fold, empI_eq, sendPay_2, recvPay_2]
  iframe
  iframe # ∗; iexists _; iframe

end Cert.KernelIdeal.Coll

end
-- ==== Proof.KernelIdeal.BodyTail.lean ====
/-
  The last waits: the two step-2 landings of column half 1. After them every transfer is waited for and every tile
  holds its final sum.
-/
import proofs.«900576_g7700000000000577_dist_mlp2_tp_i_m1024_h2048_out1024_v7x_i4_bf16_1_alg».proof.Proof.KernelIdeal.Steps
import proofs.«900576_g7700000000000577_dist_mlp2_tp_i_m1024_h2048_out1024_v7x_i4_bf16_1_alg».proof.Proof.KernelIdeal.States
import proofs.«900576_g7700000000000577_dist_mlp2_tp_i_m1024_h2048_out1024_v7x_i4_bf16_1_alg».proof.Proof.KernelIdeal.Offsets

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def tail20Prog (arg3 : Memref sig .tc .vmem S1024x1024 .bf16) (harg3 : arg3.IsWhole) (arg6 : DmaSems sig S2x3x2) (arg7 : DmaSems sig S2x3x2)
    (d0 : Dev nD) (v4 : BitVec 32) : Prog (TpuEff nD τ sig (Elt F) Λ₀ .tc) (Σ' (d0 : Dev nD), BitVec 32) := do
  let v487 : Memref sig .tc .vmem S256x512 .bf16 := arg3.slice (Rect.unit (s := S1024x1024) (k0_off23 d0) S256x512.size (k0_off23_inb d0)) (fun _ => rfl)
  let v484 : DmaSems sig S1x1x1 := arg6.slice (Rect.unit (s := S2x3x2) ![1, 2, 0] S1x1x1.size inb_S2x3x2_S1x1x1_1_2_0)
  let v485 : DmaSems sig S_ := v484.squeeze S_ squeezes_S1x1x1_S_
  let v486 : Memref sig .tc .vmem S256x512 .bf16 := arg3.slice (Rect.unit (s := S1024x1024) (k0_off23 d0) S256x512.size (k0_off23_inb d0)) (fun _ => rfl)
  Prog.lift (.waitDma2 v485.sem v487 v486 (harg3.wordExact_slice rfl _ (k0_off23_wordsbf16 d0)) (harg3.wordExact_slice rfl _ (k0_off23_wordsbf16 d0)))
  let v490 : DmaSems sig S1x1x1 := arg7.slice (Rect.unit (s := S2x3x2) ![1, 2, 0] S1x1x1.size inb_S2x3x2_S1x1x1_1_2_0)
  let v491 : DmaSems sig S_ := v490.squeeze S_ squeezes_S1x1x1_S_
  let v492 : Memref sig .tc .vmem S256x512 .bf16 := arg3.slice (Rect.unit (s := S1024x1024) (k0_off23 d0) S256x512.size (k0_off23_inb d0)) (fun _ => rfl)
  let v493 : Memref sig .tc .vmem S256x512 .bf16 := arg3.slice (Rect.unit (s := S1024x1024) (k0_off23 d0) S256x512.size (k0_off23_inb d0)) (fun _ => rfl)
  Prog.lift (.waitDma2 v491.sem v493 v492 (harg3.wordExact_slice rfl _ (k0_off23_wordsbf16 d0)) (harg3.wordExact_slice rfl _ (k0_off23_wordsbf16 d0)))
  let v494 : DmaSems sig S1x1x1 := arg6.slice (Rect.unit (s := S2x3x2) ![1, 2, 1] S1x1x1.size inb_S2x3x2_S1x1x1_1_2_1)
  let v495 : DmaSems sig S_ := v494.squeeze S_ squeezes_S1x1x1_S_
  let v496 : Memref sig .tc .vmem S256x512 .bf16 := arg3.slice (Rect.unit (s := S1024x1024) (k0_off24 d0) S256x512.size (k0_off24_inb d0)) (fun _ => rfl)
  let v497 : Memref sig .tc .vmem S256x512 .bf16 := arg3.slice (Rect.unit (s := S1024x1024) (k0_off24 d0) S256x512.size (k0_off24_inb d0)) (fun _ => rfl)
  Prog.lift (.waitDma2 v495.sem v497 v496 (harg3.wordExact_slice rfl _ (k0_off24_wordsbf16 d0)) (harg3.wordExact_slice rfl _ (k0_off24_wordsbf16 d0)))
  let v498 : BitVec 32 := Scalar.muli v4 1#32
  pure ⟨d0, v498⟩

theorem part20_split (arg0 : Memref sig .tc .vmem S1024x1024 .f32) (harg0 : arg0.IsWhole) (arg1 : Memref sig .tc .vmem S1024x2048 .f32) (harg1 : arg1.IsWhole) (arg2 : Memref sig .tc .vmem S2048x1024 .f32) (harg2 : arg2.IsWhole) (arg3 : Memref sig .tc .vmem S1024x1024 .bf16) (harg3 : arg3.IsWhole) (arg4 : Memref sig .tc .vmem S1024x2048 .bf16) (harg4 : arg4.IsWhole) (arg5 : Memref sig .tc .vmem S2x2x2x256x512 .bf16) (harg5 : arg5.IsWhole) (arg6 : DmaSems sig S2x3x2) (arg7 : DmaSems sig S2x3x2) :
    k0_part20_skel (F := F) arg0 harg0 arg1 harg1 arg2 harg2 arg3 harg3 arg4 harg4 arg5 harg5 arg6 arg7 = (do
      let ⟨d0, v3, v4, v8, v26, v27, v28, v29⟩ : Σ' (d0 : Dev nD) (v3 : BitVec 32) (v4 : BitVec 32) (v8 : BitVec 32) (v26 : BitVec 32) (v27 : BitVec 32) (v28 : BitVec 32), Sems sig S_ ← k0_part1 arg0 harg0 arg1 harg1 arg2 harg2 arg3 harg3 arg4 harg4 arg5 harg5 arg6 arg7
      let ⟨v36, v39⟩ : Σ' (v36 : FVec F S1024x2048 .bf16), FVec F S2048x1024 .bf16 ← k0_part2 arg0 harg0 arg1 harg1 arg2 harg2 arg3 harg3 arg4 harg4 arg5 harg5 arg6 arg7 d0 v27 v29
      k0_part3 arg0 harg0 arg1 harg1 arg2 harg2 arg3 harg3 arg4 harg4 arg5 harg5 arg6 arg7 d0 v3 v28 v36 v39
      let c256_i32_91 : BitVec 32 ← k0_part4 arg0 harg0 arg1 harg1 arg2 harg2 arg3 harg3 arg4 harg4 arg5 harg5 arg6 arg7 d0 v3 v4 v27 v39
      let v157 : FVec F S256x2048 .bf16 ← k0_part5 arg0 harg0 arg1 harg1 arg2 harg2 arg3 harg3 arg4 harg4 arg5 harg5 arg6 arg7 d0 v4 v8 v28 v36 v39 c256_i32_91
      k0_part6 arg0 harg0 arg1 harg1 arg2 harg2 arg3 harg3 arg4 harg4 arg5 harg5 arg6 arg7 d0 v8 v26 v36 v39 v157
      k0_part7 arg0 harg0 arg1 harg1 arg2 harg2 arg3 harg3 arg4 harg4 arg5 harg5 arg6 arg7 d0 v3 v8
      k0_part8 arg0 harg0 arg1 harg1 arg2 harg2 arg3 harg3 arg4 harg4 arg5 harg5 arg6 arg7 d0 v4
      let v259 : FVec F S256x512 .bf16 ← k0_part9 arg0 harg0 arg1 harg1 arg2 harg2 arg3 harg3 arg4 harg4 arg5 harg5 arg6 arg7 d0 v3 v8 v26 v39
      k0_part10 arg0 harg0 arg1 harg1 arg2 harg2 arg3 harg3 arg4 harg4 arg5 harg5 arg6 arg7 d0 v3 v8 v26 v39 v259
      k0_part11 arg0 harg0 arg1 harg1 arg2 harg2 arg3 harg3 arg4 harg4 arg5 harg5 arg6 arg7 d0 v4 v8
      k0_part12 arg0 harg0 arg1 harg1 arg2 harg2 arg3 harg3 arg4 harg4 arg5 harg5 arg6 arg7 d0 v3 v4 v26
      let v351 : FVec F S256x512 .bf16 ← k0_part13 arg0 harg0 arg1 harg1 arg2 harg2 arg3 harg3 arg4 harg4 arg5 harg5 arg6 arg7 d0 v4 v8
      k0_part14 arg0 harg0 arg1 harg1 arg2 harg2 arg3 harg3 arg4 harg4 arg5 harg5 arg6 arg7 d0 v3 v8 v351
      k0_part15 arg0 harg0 arg1 harg1 arg2 harg2 arg3 harg3 arg4 harg4 arg5 harg5 arg6 arg7 d0 v3 v4 v26
      let c256_i32_478 : BitVec 32 ← k0_part16 arg0 harg0 arg1 harg1 arg2 harg2 arg3 harg3 arg4 harg4 arg5 harg5 arg6 arg7 d0 v4 v8
      k0_part17 arg0 harg0 arg1 harg1 arg2 harg2 arg3 harg3 arg4 harg4 arg5 harg5 arg6 arg7 d0 v3 v8 c256_i32_478
      k0_part18 arg0 harg0 arg1 harg1 arg2 harg2 arg3 harg3 arg4 harg4 arg5 harg5 arg6 arg7 d0 v4 v26
      k0_part19 arg0 harg0 arg1 harg1 arg2 harg2 arg3 harg3 arg4 harg4 arg5 harg5 arg6 arg7 d0 v3 v4
      tail20Prog arg3 harg3 arg6 arg7 d0 v4) := rfl

def tailBodyProg (arg3 : Memref sig .tc .vmem S1024x1024 .bf16) (harg3 : arg3.IsWhole) (arg7 : DmaSems sig S2x3x2)
    (r : Σ' (d0 : Dev nD), BitVec 32) : Prog (TpuEff nD τ sig (Elt F) Λ₀ .tc) PUnit :=
  match r with
  | ⟨d0, v498⟩ => do
    let v500 : DmaSems sig S1x1x1 := arg7.slice (Rect.unit (s := S2x3x2) ![1, 2, 1] S1x1x1.size inb_S2x3x2_S1x1x1_1_2_1)
    let v501 : DmaSems sig S_ := v500.squeeze S_ squeezes_S1x1x1_S_
    let v502 : Memref sig .tc .vmem S256x512 .bf16 := arg3.slice (Rect.unit (s := S1024x1024) (k0_off24 d0) S256x512.size (k0_off24_inb d0)) (fun _ => rfl)
    let v503 : Memref sig .tc .vmem S256x512 .bf16 := arg3.slice (Rect.unit (s := S1024x1024) (k0_off24 d0) S256x512.size (k0_off24_inb d0)) (fun _ => rfl)
    Prog.lift (.waitDma2 v501.sem v503 v502 (harg3.wordExact_slice rfl _ (k0_off24_wordsbf16 d0)) (harg3.wordExact_slice rfl _ (k0_off24_wordsbf16 d0)))
    pure ⟨⟩

theorem body_split (arg0 : Memref sig .tc .vmem S1024x1024 .f32) (harg0 : arg0.IsWhole) (arg1 : Memref sig .tc .vmem S1024x2048 .f32) (harg1 : arg1.IsWhole) (arg2 : Memref sig .tc .vmem S2048x1024 .f32) (harg2 : arg2.IsWhole) (arg3 : Memref sig .tc .vmem S1024x1024 .bf16) (harg3 : arg3.IsWhole) (arg4 : Memref sig .tc .vmem S1024x2048 .bf16) (harg4 : arg4.IsWhole) (arg5 : Memref sig .tc .vmem S2x2x2x256x512 .bf16) (harg5 : arg5.IsWhole) (arg6 : DmaSems sig S2x3x2) (arg7 : DmaSems sig S2x3x2) :
    cc0_body_skel (F := F) arg0 harg0 arg1 harg1 arg2 harg2 arg3 harg3 arg4 harg4 arg5 harg5 arg6 arg7 = (do
      let r ← k0_part20 arg0 harg0 arg1 harg1 arg2 harg2 arg3 harg3 arg4 harg4 arg5 harg5 arg6 arg7
      tailBodyProg arg3 harg3 arg7 r) := rfl

namespace Tail

theorem bigSepL_snoc {I : Type} (l : List I) (x : I) (Φ : I → sProp 𝕄) :
    bigSepL (l ++ [x]) Φ = iprop(bigSepL l Φ ∗ Φ x) := by
  induction l with
  | nil =>
    show Φ x = iprop(emp ∗ Φ x)
    exact (BI.equiv_iff.mp emp_sep).symm
  | cons i l ih =>
    rw [List.cons_append, bigSepL_cons, ih, bigSepL_cons]
    exact BI.equiv_iff.mp ⟨BI.sep_assoc', BI.sep_assoc⟩

theorem done_snoc (d : Dev nD) (l : List Xf) (x : Xf) :
    (Done d (l ++ [x]) : sProp 𝕄) = iprop(Done d l ∗ (semVal (sendCellX d x) 0 ∗ semVal (recvCellX d x) 0)) := by
  unfold Done; exact bigSepL_snoc l x _

theorem done_11 (d : Dev nD) :
    (Done d (sends.take 11) : sProp 𝕄) = iprop(Done d (sends.take 10) ∗ (semVal (sendCell d 1 2 0) 0 ∗ semVal (recvCell d 1 2 0) 0)) :=
  done_snoc d (sends.take 10) (1, 2, 0)

theorem done_12 (d : Dev nD) :
    (Done d (sends.take 12) : sProp 𝕄) = iprop(Done d (sends.take 11) ∗ (semVal (sendCell d 1 2 1) 0 ∗ semVal (recvCell d 1 2 1) 0)) :=
  done_snoc d (sends.take 11) (1, 2, 1)

theorem proto_12_10 (d : Dev nD) :
    (Proto 12 10 d : sProp 𝕄)
      = iprop((∃ W, owes (d : Thread nD τ) (oweL d (sends.drop 12)) W) ∗ Unissued d (sends.drop 12)
          ∗ (cred (tallyAt (sendCell d 1 2 0) () N) ∗ cred (tallyAt (sendCell d 1 2 1) () N))
          ∗ ((atPos ER (sendCell d 1 2 0) 0 ∅ 0 ∗ atPos ER (recvCell d 1 2 0) 0 ∅ 0 ∗ cred (tallyAt (recvCell d 1 2 0) () N))
            ∗ (atPos ER (sendCell d 1 2 1) 0 ∅ 0 ∗ atPos ER (recvCell d 1 2 1) 0 ∅ 0 ∗ cred (tallyAt (recvCell d 1 2 1) () N)))
          ∗ Done d (sends.take 10)) := rfl

theorem proto_12_12 (d : Dev nD) :
    (Proto 12 12 d : sProp 𝕄)
      = iprop((∃ W, owes (d : Thread nD τ) (oweL d (sends.drop 12)) W) ∗ Unissued d (sends.drop 12)
          ∗ emp ∗ emp ∗ Done d (sends.take 12)) := rfl

theorem tile_credit {off : Fin 2 → Nat} (hinb : ∀ a, off a + S256x512.size a ≤ S1024x1024.size a) :
    ((outM : Memref sig .tc .vmem S1024x1024 .bf16).slice (Rect.unit (s := S1024x1024) off S256x512.size hinb) (fun _ => rfl)).view.dmaCredit = N := rfl

end Tail

open Tail

variable (m : (ℓ : Loc nD τ sig) → Buf (Elt F) ℓ)

def S20 (K : Dev nD × Fin 25 → ℕ) (d : Dev nD) : sProp 𝕄 :=
  iprop(Know m K ∗ Inputs m d
    ∗ ((∃ W, owes (d : Thread nD τ) (oweL d (sends.drop 12)) W) ∗ Unissued d (sends.drop 12)
      ∗ (atPos ER (recvCell d 1 2 1) 0 ∅ 0 ∗ cred (tallyAt (recvCell d 1 2 1) () N))
      ∗ semVal (sendCell d 1 2 1) 0 ∗ Done d (sends.take 11))
    ∗ Hids m d
    ∗ (tileOwns d (keepQ 0 d) 0 (afterSecond (A m) d 0 0) ∗ tileOwns d (keepQ 1 d) 0 (afterSecond (A m) d 0 1)
      ∗ tileOwns d (keepQ 0 d) 1 (afterSecond (A m) d 1 0) ∗ tileOwns d (keepQ 1 d) 1 (afterSecond (A m) d 1 1)
      ∗ tileOwns d (sendQ 0 d) 0 (afterSecond (A m) (partner 2 0 d) 0 0) ∗ tileOwns d (sendQ 1 d) 0 (afterSecond (A m) (partner 2 1 d) 0 1)
      ∗ tileOwns d (sendQ 0 d) 1 (afterSecond (A m) (partner 2 0 d) 1 0))
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

abbrev ret20 (d : Dev nD) (v4 : BitVec 32) : Σ' (d0 : Dev nD), BitVec 32 := ⟨d, Scalar.muli v4 1#32⟩

theorem tail20_spec (K : Dev nD × Fin 25 → ℕ) (d : Dev nD) (v4 : BitVec 32) {Q : (Σ' (d0 : Dev nD), BitVec 32) → sProp 𝕄} :
    iprop(B19 m K d ∗ (S20 m K d -∗ Q (ret20 d v4)))
      ⊢ wp frame (wpE (defs₀ (F := F)) 𝒱₀ (d : Thread nD τ) none) Set.univ
          (tail20Prog (F := F) (Memref.whole cc0_stg3_0) (Memref.isWhole_whole _) cc0_scratch2 cc0_scratch3 d v4) Q := by
  unfold tail20Prog
  simp only [Prog.lift, Prog.bind_op, Prog.bind_ret, Prog.pure_eq_ret, Prog.bind_assoc]
  unfold B19 S20 Know
  rw [proto_12_10, done_11]
  iintro ⟨⟨⟨#HR, #Hlev⟩, Hin, ⟨⟨%W, HO⟩, Hun, ⟨Hc0, Hc1⟩, ⟨⟨HaS0, HaR0, HcR0⟩, HaS1, HaR1, HcR1⟩, HD⟩, Hhid, ⟨Tk00, Tk10, Ts00, Ts10⟩, Hslots⟩, Hk⟩

  iapply (step_wait_send m K d 1 2 0 (sends.drop 12) (sendSem_spell 1 2 0 _) (tile_credit (k0_off23_inb d))) $$ [Hc0 HO HaS0]
  · iframe # ∗
  iintro ⟨HO, Hz0, Hp⟩
  ihave Tk01 := (Entails.of_eq (sendPay_2 m d 1 0)) $$ Hp

  iapply (step_wait_recv m K d 1 2 0 (sends.drop 12) (by decide) (recvSem_spell 1 2 0 _) (tile_credit (k0_off23_inb d))) $$ [HcR0 HO HaR0]
  · iframe # ∗
  iintro ⟨HO, Hz0r, Hp⟩
  ihave Ts01 := (Entails.of_eq (recvPay_2 m d 1 0)) $$ Hp

  iapply (step_wait_send m K d 1 2 1 (sends.drop 12) (sendSem_spell 1 2 1 _) (tile_credit (k0_off24_inb d))) $$ [Hc1 HO HaS1]
  · iframe # ∗
  iintro ⟨HO, Hz1, Hp⟩
  ihave Tk11 := (Entails.of_eq (sendPay_2 m d 1 1)) $$ Hp
  rw [wp_ret]; imodintro
  iapply Hk
  iframe # ∗; iexists _; iframe

theorem tail_body_spec (K : Dev nD × Fin 25 → ℕ) (d : Dev nD) (w : BitVec 32) {Q : PUnit → sProp 𝕄} :
    iprop(S20 m K d ∗ (Bend m K d -∗ Q ⟨⟩))
      ⊢ wp frame (wpE (defs₀ (F := F)) 𝒱₀ (d : Thread nD τ) none) Set.univ
          (tailBodyProg (F := F) (Memref.whole cc0_stg3_0) (Memref.isWhole_whole _) cc0_scratch3 ⟨d, w⟩) Q := by
  unfold tailBodyProg
  simp only [Prog.lift, Prog.bind_op, Prog.bind_ret, Prog.pure_eq_ret, Prog.bind_assoc]
  unfold S20 Bend Know
  rw [proto_12_12, done_12]
  iintro ⟨⟨⟨#HR, #Hlev⟩, Hin, ⟨⟨%W, HO⟩, Hun, ⟨HaR1, HcR1⟩, Hz1, HD⟩, Hhid, ⟨Tk00, Tk10, Tk01, Tk11, Ts00, Ts10, Ts01⟩, Hslots⟩, Hk⟩

  iapply (step_wait_recv m K d 1 2 1 (sends.drop 12) (by decide) (recvSem_spell 1 2 1 _) (tile_credit (k0_off24_inb d))) $$ [HcR1 HO HaR1]
  · iframe # ∗
  iintro ⟨HO, Hz1r, Hp⟩
  ihave Ts11 := (Entails.of_eq (recvPay_2 m d 1 1)) $$ Hp
  rw [wp_ret]; imodintro
  iapply Hk
  isplitr
  · iframe # ∗
  isplitl [Hin]; · iexact Hin
  isplitl [HO Hun Hz1 HD Hz1r]
  · isplitl [HO]; · iexists _; iexact HO
    isplitl [Hun]; · iexact Hun
    isplitr; · iempintro
    isplitr; · iempintro
    isplitl [HD]; · iexact HD
    isplitl [Hz1]; · iexact Hz1
    iexact Hz1r
  iframe # ∗

end Cert.KernelIdeal.Coll

end
-- ==== Proof.KernelIdeal.Body.lean ====
/-
  The stretches chained: one device's body from its precondition to its postcondition.
-/
import proofs.«900576_g7700000000000577_dist_mlp2_tp_i_m1024_h2048_out1024_v7x_i4_bf16_1_alg».proof.Proof.KernelIdeal.BodyEnds
import proofs.«900576_g7700000000000577_dist_mlp2_tp_i_m1024_h2048_out1024_v7x_i4_bf16_1_alg».proof.Proof.KernelIdeal.BodyE
import proofs.«900576_g7700000000000577_dist_mlp2_tp_i_m1024_h2048_out1024_v7x_i4_bf16_1_alg».proof.Proof.KernelIdeal.BodyF
import proofs.«900576_g7700000000000577_dist_mlp2_tp_i_m1024_h2048_out1024_v7x_i4_bf16_1_alg».proof.Proof.KernelIdeal.BodyA
import proofs.«900576_g7700000000000577_dist_mlp2_tp_i_m1024_h2048_out1024_v7x_i4_bf16_1_alg».proof.Proof.KernelIdeal.BodyG
import proofs.«900576_g7700000000000577_dist_mlp2_tp_i_m1024_h2048_out1024_v7x_i4_bf16_1_alg».proof.Proof.KernelIdeal.BodyH
import proofs.«900576_g7700000000000577_dist_mlp2_tp_i_m1024_h2048_out1024_v7x_i4_bf16_1_alg».proof.Proof.KernelIdeal.BodyI
import proofs.«900576_g7700000000000577_dist_mlp2_tp_i_m1024_h2048_out1024_v7x_i4_bf16_1_alg».proof.Proof.KernelIdeal.BodyTail

noncomputable section

namespace Cert.KernelIdeal.Coll

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sound_body : SoundBody m ρ := by
  intro K d Kt
  unfold theBody
  simp only [atBufs, cc0_body_eq_skeleton]
  rw [body_split, wp_bind]
  simp only [atBufs, k0_part20_eq_skeleton]
  rw [part20_split]
  iintro ⟨Hpre, Hk⟩
  ihave H := (enter m ρ K d) $$ Hpre

  rw [wp_bind]
  iapply (part1_spec m K d)
  isplitl [H]; · iexact H
  iintro %v3 %v4 %v8 %v26 %v27 %v28 H
  try dsimp only

  rw [wp_bind]
  iapply (part2_spec m K d _)
  isplitl [H]; · iexact H
  iintro H
  try dsimp only

  rw [wp_bind]
  iapply (part3_spec m K d _ _)
  isplitl [H]; · iexact H
  iintro H
  try dsimp only
  rw [wp_bind]
  iapply (part4_spec m K d _ _ _)
  isplitl [H]; · iexact H
  iintro H
  try dsimp only
  rw [wp_bind]
  iapply (part5_spec m K d _ _ _ _)
  isplitl [H]; · iexact H
  iintro H
  try dsimp only
  rw [wp_bind]
  iapply (part6_spec m K d _ _)
  isplitl [H]; · iexact H
  iintro H
  try dsimp only

  rw [wp_bind]
  iapply (part7_spec m K d _ _)
  isplitl [H]; · iexact H
  iintro H
  try dsimp only
  rw [wp_bind]
  iapply (part8_spec m K d _)
  isplitl [H]; · iexact H
  iintro H
  try dsimp only
  rw [wp_bind]
  iapply (part9_spec m K d _ _ _)
  isplitl [H]; · iexact H
  iintro H
  try dsimp only

  rw [wp_bind]
  iapply (part10_spec m K d _ _ _)
  isplitl [H]; · iexact H
  iintro H
  try dsimp only
  rw [wp_bind]
  iapply (part11_spec m K d _ _)
  isplitl [H]; · iexact H
  iintro H
  try dsimp only
  rw [wp_bind]
  iapply (part12_spec m K d _ _ _)
  isplitl [H]; · iexact H
  iintro H
  try dsimp only
  rw [wp_bind]
  iapply (part13_spec m K d _ _)
  isplitl [H]; · iexact H
  iintro H
  try dsimp only

  rw [wp_bind]
  iapply (part14_spec m K d _ _)
  isplitl [H]; · iexact H
  iintro H
  try dsimp only
  rw [wp_bind]
  iapply (part15_spec m K d _ _ _)
  isplitl [H]; · iexact H
  iintro H
  try dsimp only
  rw [wp_bind]
  iapply (part16_spec m K d _ _)
  isplitl [H]; · iexact H
  iintro H
  try dsimp only

  rw [wp_bind]
  iapply (part17_spec m K d _ _ _)
  isplitl [H]; · iexact H
  iintro H
  try dsimp only
  rw [wp_bind]
  iapply (part18_spec m K d _ _)
  isplitl [H]; · iexact H
  iintro H
  try dsimp only
  rw [wp_bind]
  iapply (part19_spec m K d _ _)
  isplitl [H]; · iexact H
  iintro H
  try dsimp only

  iapply (tail20_spec m K d v4)
  isplitl [H]; · iexact H
  iintro H
  iapply (tail_body_spec m K d _)
  isplitl [H]; · iexact H
  iintro H

  iapply Hk
  iapply (leave m ρ K d)
  iexact H

end Cert.KernelIdeal.Coll

end
-- ==== Proof.KernelIdeal.Run.lean ====
/-
  The run closed: every fair execution of the four devices terminates with each result array at the sum of the
  four partials, tile by tile, and the arguments unchanged.
-/
import proofs.«900576_g7700000000000577_dist_mlp2_tp_i_m1024_h2048_out1024_v7x_i4_bf16_1_alg».proof.Proof.KernelIdeal.Launch
import proofs.«900576_g7700000000000577_dist_mlp2_tp_i_m1024_h2048_out1024_v7x_i4_bf16_1_alg».proof.Proof.KernelIdeal.Body

noncomputable section

namespace Cert.KernelIdeal.Coll

open Cert.KernelIdeal Cert.KernelIdeal.Gen Cert.KernelIdeal.Spec

open Idealize.ShloMosaic
open Idealize.ShloMosaic.TcCoe
open Idealize.SL.Sem

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ (fun r => ∀ d : Dev nD,
      r.2.mem ((d.tc : Thread nD τ).loc main_v1) = Spec.result (argsOf m) d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) :=
  run_result m ρ (sound_body m ρ)

end Cert.KernelIdeal.Coll

end
-- ==== Proof.Kernel.Spec.lean ====
/-
  The values, as functions of the arguments: device e's partial product of row quarter q and column half c, the
  first and second butterfly sums, and the tile a device ends holding.
-/
import proofs.«900576_g7700000000000577_dist_mlp2_tp_i_m1024_h2048_out1024_v7x_i4_bf16_1_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

def pA (d : Dev nD) : Dev nD := ⟨d.val ^^^ 1, by revert d; decide⟩

def pB (d : Dev nD) : Dev nD := ⟨3 - d.val, by revert d; decide⟩

def partner (s : Fin 3) (b : Fin 2) (d : Dev nD) : Dev nD := if (s = 1) = (b = 0) then pB d else pA d

def keepQ (b : Fin 2) (d : Dev nD) : Fin 4 :=
  if b = 0 then (if d.val = 1 ∨ d.val = 2 then 1 else 0) else ⟨2 + d.val / 2, by revert d; decide⟩

def sendQ (b : Fin 2) (d : Dev nD) : Fin 4 :=
  if b = 0 then (if d.val = 1 ∨ d.val = 2 then 0 else 1) else ⟨3 - d.val / 2, by revert d; decide⟩

theorem partner_invol (s : Fin 3) (b : Fin 2) (d : Dev nD) : partner s b (partner s b d) = d := by
  revert s b d; decide
theorem keepQ_partner0 (b : Fin 2) (d : Dev nD) : keepQ b (partner 0 b d) = sendQ b d := by revert b d; decide
theorem keepQ_partner1 (b : Fin 2) (d : Dev nD) : keepQ b (partner 1 b d) = keepQ b d := by revert b d; decide
theorem keepQ_partner2 (b : Fin 2) (d : Dev nD) : keepQ b (partner 2 b d) = sendQ b d := by revert b d; decide

def rowsQ (q : Fin 4) (x : Vec F S1024x1024 .f32) : Vec F S256x1024 .f32 :=
  fun i => x (ix2 (n0 := 1024) (n1 := 1024) ⟨256 * q.val + (i 0).val, by have h0 : (i 0).val < 256 := idx2_lt0 i; have := q.isLt; omega⟩ (i 1))

def hid (w1 : Vec F S1024x2048 .f32) (xq : Vec F S256x1024 .f32) : Vec F S256x2048 .bf16 := k0_pay5 (k0_pay1 w1) xq

def part (c : Fin 2) (w2 : Vec F S2048x1024 .f32) (h : Vec F S256x2048 .bf16) : Vec F S256x512 .bf16 :=
  if c = 0 then k0_pay6 (k0_pay2 w2) h else k0_pay7 (k0_pay2 w2) h

def inSlot (v : Vec F S256x512 .bf16) : Vec F S1x1x1x256x512 .bf16 := fun i => v (ix2 (n0 := 256) (n1 := 512) (i 3) (i 4))

def plus (a r : Vec F S256x512 .bf16) : Vec F S256x512 .bf16 := k0_pay13 a (inSlot r)

structure Args (F : FTy → Type) where
  x : Dev nD → Vec F S1024x1024 .f32
  w1 : Dev nD → Vec F S1024x2048 .f32
  w2 : Dev nD → Vec F S2048x1024 .f32

variable (A : Args F)

def partial_ (e : Dev nD) (q : Fin 4) (c : Fin 2) : Vec F S256x512 .bf16 := part c (A.w2 e) (hid (A.w1 e) (rowsQ q (A.x e)))

def afterFirst (d : Dev nD) (c b : Fin 2) : Vec F S256x512 .bf16 :=
  plus (partial_ A d (keepQ b d) c) (partial_ A (partner 0 b d) (keepQ b d) c)

def afterSecond (d : Dev nD) (c b : Fin 2) : Vec F S256x512 .bf16 :=
  plus (afterFirst A d c b) (afterFirst A (partner 1 b d) c b)

def tile (d : Dev nD) (q : Fin 4) (c : Fin 2) : Vec F S256x512 .bf16 :=
  if q = keepQ 0 d then afterSecond A d c 0
  else if q = keepQ 1 d then afterSecond A d c 1
  else if q = sendQ 0 d then afterSecond A (partner 2 0 d) c 0
  else afterSecond A (partner 2 1 d) c 1

def result (d : Dev nD) : Vec F S1024x1024 .bf16 := fun i =>
  tile A d ⟨(i 0).val / 256, by have h0 : (i 0).val < 1024 := idx2_lt0 i; omega⟩ ⟨(i 1).val / 512, by have h1 : (i 1).val < 1024 := idx2_lt1 i; omega⟩
    (ix2 (n0 := 256) (n1 := 512) ⟨(i 0).val % 256, Nat.mod_lt _ (by decide)⟩ ⟨(i 1).val % 512, Nat.mod_lt _ (by decide)⟩)

end Cert.Kernel.Spec

end
-- ==== Proof.Kernel.Sched.lean ====
/-
  The exchange as a schedule of one round. A device's barrier cell is paid one unit by each of its two neighbours;
  every transfer (column half, step, lane) has a send and a receive cell, each paid one tile's credit. A payment's
  payload says which tile or slot changes hands and what it holds.
-/
import proofs.«900576_g7700000000000577_dist_mlp2_tp_i_m1024_h2048_out1024_v7x_i4_bf16_1_alg».proof.Proof.Kernel.Spec
import proofs.«900576_g7700000000000577_dist_mlp2_tp_i_m1024_h2048_out1024_v7x_i4_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

-- The two spellings of the separating conjunction are one.
theorem sep_fold (P Q : sProp 𝕄) : BI.sep P Q = iprop(P ∗ Q) := rfl
-- Re-association as an equation, so that conjunctions can be flattened by rewriting.
theorem sep_assoc_eq (P Q R : sProp 𝕄) : iprop((P ∗ Q) ∗ R) = iprop(P ∗ Q ∗ R) := BI.equiv_iff.mp ⟨BI.sep_assoc, BI.sep_assoc'⟩

variable (m : (ℓ : Loc nD τ sig) → Buf (Elt F) ℓ) (ρ : Dev nD → PrngReg)

abbrev sendSem (c : Fin 2) (s : Fin 3) (b : Fin 2) : DmaSem sig := ⟨4 + (c.val * 6 + s.val * 2 + b.val), by have := c.isLt; have := s.isLt; have := b.isLt; show _ < 28; omega⟩

abbrev recvSem (c : Fin 2) (s : Fin 3) (b : Fin 2) : DmaSem sig := ⟨16 + (c.val * 6 + s.val * 2 + b.val), by have := c.isLt; have := s.isLt; have := b.isLt; show _ < 28; omega⟩

abbrev barS : Sem sig := (SemArray.scalar (sig.barrier 0 rfl) : Sems sig S_).sem

abbrev barCell (d : Dev nD) : GSem nD τ sig := ((d : Thread nD τ), .reg barS)
abbrev sendCell (d : Dev nD) (c : Fin 2) (s : Fin 3) (b : Fin 2) : GSem nD τ sig := ((d : Thread nD τ), .dma (sendSem c s b))
abbrev recvCell (d : Dev nD) (c : Fin 2) (s : Fin 3) (b : Fin 2) : GSem nD τ sig := ((d : Thread nD τ), .dma (recvSem c s b))

abbrev outM : Memref sig .tc .vmem S1024x1024 .bf16 := Memref.whole cc0_stg3_0
abbrev hidM : Memref sig .tc .vmem S1024x2048 .bf16 := Memref.whole cc0_scratch0
abbrev rbM : Memref sig .tc .vmem S2x2x2x256x512 .bf16 := Memref.whole cc0_scratch1

theorem tile_inb (q : Fin 4) (c : Fin 2) : ∀ a, (![256 * q.val, 512 * c.val] : Fin 2 → Nat) a + S256x512.size a ≤ S1024x1024.size a := by
  revert q c; decide
theorem slot_inb (c s b : Fin 2) : ∀ a, (![c.val, s.val, b.val, 0, 0] : Fin 5 → Nat) a + S1x1x1x256x512.size a ≤ S2x2x2x256x512.size a := by
  revert c s b; decide

abbrev tileR (q : Fin 4) (c : Fin 2) : Rect S1024x1024 := Rect.unit (s := S1024x1024) ![256 * q.val, 512 * c.val] S256x512.size (tile_inb q c)

abbrev tileM (q : Fin 4) (c : Fin 2) : Memref sig .tc .vmem S256x512 .bf16 := outM.slice (tileR q c) (fun _ => rfl)

abbrev slotR (c s b : Fin 2) : Rect S2x2x2x256x512 := Rect.unit (s := S2x2x2x256x512) ![c.val, s.val, b.val, 0, 0] S1x1x1x256x512.size (slot_inb c s b)

abbrev slotM (c s b : Fin 2) : Memref sig .tc .vmem S256x512 .bf16 :=
  (rbM.slice (slotR c s b) (fun _ => rfl)).squeeze S256x512 squeezes_S1x1x1x256x512_S256x512

theorem hidq_inb (q : Fin 4) : ∀ a, (![256 * q.val, 0] : Fin 2 → Nat) a + S256x2048.size a ≤ S1024x2048.size a := by
  revert q; decide

abbrev hidR (q : Fin 4) : Rect S1024x2048 := Rect.unit (s := S1024x2048) ![256 * q.val, 0] S256x2048.size (hidq_inb q)
abbrev hidQM (q : Fin 4) : Memref sig .tc .vmem S256x2048 .bf16 := hidM.slice (hidR q) (fun _ => rfl)

abbrev N : ℕ := (tileM 0 0).view.dmaCredit

def argsOf : Spec.Args F :=
  ⟨fun e => m ((e : Thread nD τ).loc main_arg0), fun e => m ((e : Thread nD τ).loc main_arg1), fun e => m ((e : Thread nD τ).loc main_arg2)⟩

abbrev tileOwns (d : Dev nD) (q : Fin 4) (c : Fin 2) (v : Vec F S256x512 .bf16) : sProp 𝕄 :=
  owns (d : Thread nD τ) (tileM q c) fullShare v

abbrev slotOwns (d : Dev nD) (c s b : Fin 2) (v : Vec F S256x512 .bf16) : sProp 𝕄 :=
  owns (d : Thread nD τ) (slotM c s b) fullShare v

abbrev hidOwns (d : Dev nD) (q : Fin 4) (v : Vec F S256x2048 .bf16) : sProp 𝕄 :=
  owns (d : Thread nD τ) (hidQM q) fullShare v

abbrev slotAny (d : Dev nD) (c s b : Fin 2) : sProp 𝕄 := iprop(∃ v, slotOwns (F := F) d c s b v)

def laneOf (dty : Bool) : Fin 2 := if dty then 1 else 0
def nbr (dty : Bool) (d : Dev nD) : Dev nD := if dty then pB d else pA d

def barPay (d : Dev nD) (dty : Bool) : sProp 𝕄 :=
  iprop(slotAny (F := F) (nbr dty d) 0 0 (laneOf dty) ∗ slotAny (F := F) (nbr dty d) 1 0 (laneOf dty)
    ∗ slotAny (F := F) (nbr dty d) 0 1 (laneOf (!dty)) ∗ slotAny (F := F) (nbr dty d) 1 1 (laneOf (!dty)))

def sendPay (d : Dev nD) (c : Fin 2) (s : Fin 3) (b : Fin 2) : sProp 𝕄 :=
  if s = 0 then iprop(emp)
  else if s = 1 then tileOwns d (keepQ b d) c (afterFirst (argsOf m) d c b)
  else tileOwns d (keepQ b d) c (afterSecond (argsOf m) d c b)

def recvPay (d : Dev nD) (c : Fin 2) (s : Fin 3) (b : Fin 2) : sProp 𝕄 :=
  if s = 0 then
    iprop(slotOwns d c 0 b (partial_ (argsOf m) (partner 0 b d) (keepQ b d) c)
      ∗ tileOwns (partner 0 b d) (keepQ b d) c (partial_ (argsOf m) (partner 0 b d) (keepQ b d) c))
  else if s = 1 then slotOwns d c 1 b (afterFirst (argsOf m) (partner 1 b d) c b)
  else tileOwns d (sendQ b d) c (afterSecond (argsOf m) (partner 2 b d) c b)

def decC (n : ℕ) : Fin 2 := ⟨((n - 4) % 12) / 6, by omega⟩
def decS (n : ℕ) : Fin 3 := ⟨(((n - 4) % 12) % 6) / 2, by omega⟩
def decB (n : ℕ) : Fin 2 := ⟨((n - 4) % 12) % 2, by omega⟩

def dmaPay (d : Dev nD) (n : ℕ) : sProp 𝕄 :=
  if n < 4 then iprop(emp) else if n < 16 then sendPay m d (decC n) (decS n) (decB n) else recvPay m d (decC n) (decS n) (decB n)

abbrev IsBar (g : GSem nD τ sig) : Prop := g.1.2 = .tc ∧ g.2 = .reg barS
def isXfer (g : GSem nD τ sig) : Prop := g.1.2 = .tc ∧ ∃ q : DmaSem sig, g.2 = .dma q ∧ 4 ≤ q.val
instance (g : GSem nD τ sig) : Decidable (isXfer g) := by unfold isXfer; infer_instance

def cellPay (g : GSem nD τ sig) (dty : Bool) : sProp 𝕄 :=
  match g.2 with
  | .reg _ => barPay g.1.1 dty
  | .dma q => dmaPay m g.1.1 q.val

theorem N_pos : 0 < N := View.dmaCredit_pos _ (by decide)

def rd : Rounds.Schedule (GSem nD τ sig) Bool 𝕄 where
  duties g r := if r = 0 ∧ IsBar g then Finset.univ else if r = 0 ∧ isXfer g then {false} else ∅
  unitless _ := False
  amount g _ _ := if g.2 = .reg barS then 1 else N
  payload g _ d := cellPay m g d
  amount_pos g _ _ _ := by
    by_cases h : g.2 = .reg barS
    · rw [if_pos h]; exact Nat.one_pos
    · rw [if_neg h]; exact N_pos

end Cert.Kernel.Coll

end
-- ==== Proof.Kernel.Data.lean ====
/-
  What a device owes its partners at launch, the levels that order the waits, and the body's pre- and
  postcondition.
-/
import proofs.«900576_g7700000000000577_dist_mlp2_tp_i_m1024_h2048_out1024_v7x_i4_bf16_1_alg».proof.Proof.Kernel.Sched

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev Xf : Type := Fin 2 × Fin 3 × Fin 2

def sends : List Xf := [(0,0,0),(0,0,1),(1,0,0),(1,0,1),(0,1,0),(0,1,1),(1,1,0),(1,1,1),(0,2,0),(0,2,1),(1,2,0),(1,2,1)]

abbrev sendCellX (d : Dev nD) (x : Xf) : GSem nD τ sig := sendCell d x.1 x.2.1 x.2.2
abbrev recvCellX (d : Dev nD) (x : Xf) : GSem nD τ sig := recvCell d x.1 x.2.1 x.2.2

abbrev peerX (d : Dev nD) (x : Xf) : Dev nD := partner x.2.1 x.2.2 d

def oweT (d : Dev nD) (x : Xf) : CellTallies nD τ sig Unit := tallyAt (recvCellX (peerX d x) x) () N
def oweL (d : Dev nD) (l : List Xf) : CellTallies nD τ sig Unit := (l.map (oweT d)).sum

def O₁ (d : Dev nD) : CellTallies nD τ sig Unit := oweL d sends + tallyAt (barCell (pB d)) () 1
def O₀ (d : Dev nD) : CellTallies nD τ sig Unit := O₁ d + tallyAt (barCell (pA d)) () 1

def L (g : GSem nD τ sig) : Finset Unit := if g.1.2 = .tc then {()} else ∅

def lv (g : GSem nD τ sig) (_ : Unit) : ℕ :=
  match g.2 with
  | .reg _ => 1
  | .dma q => if 16 ≤ q.val then 2 + (decS q.val).val else 0

abbrev csem (k : Fin 25) : SemLoc sig := if k.val = 0 then .reg barS else .dma ⟨k.val + 3, by have := k.isLt; show _ < 28; omega⟩
abbrev kcell (ck : Dev nD × Fin 25) : GSem nD τ sig := ((ck.1 : Thread nD τ), csem ck.2)

def records (K : Dev nD × Fin 25 → ℕ) : sProp 𝕄 :=
  iprop((bigSep Finset.univ fun ck : Dev nD × Fin 25 => cellInv ER (rd m) (K ck) (kcell ck))
    ∗ bigSep Finset.univ fun ck : Dev nD × Fin 25 => reached ER (kcell ck) 0)

def payToks (d : Dev nD) : sProp 𝕄 :=
  iprop(dutyTok ER (barCell (pA d)) 0 false ∗ dutyTok ER (barCell (pB d)) 0 true
    ∗ bigSepL sends fun x => iprop(dutyTok ER (recvCellX (peerX d x) x) 0 false ∗ dutyTok ER (sendCellX d x) 0 false))

def positions (d : Dev nD) : sProp 𝕄 :=
  iprop(atPos ER (barCell d) 0 ∅ 0 ∗ bigSepL sends fun x => iprop(atPos ER (sendCellX d x) 0 ∅ 0 ∗ atPos ER (recvCellX d x) 0 ∅ 0))

def ghost (K : Dev nD × Fin 25 → ℕ) (d : Dev nD) : sProp 𝕄 := iprop(records m K ∗ positions d ∗ payToks d)

def creds (d : Dev nD) : sProp 𝕄 :=
  iprop(cred (tallyAt (barCell d) () 2) ∗ bigSepL sends fun x => cred (tallyAt (recvCellX d x) () N))

def start (d : Dev nD) : sProp 𝕄 := iprop((∃ K, ghost m K d) ∗ creds d ∗ levAts L lv)

def scratch (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f))

def Φ₀ (d : Dev nD) : sProp 𝕄 := iprop(start m d ∗ scratch d)

def Φ₁ (d : Dev nD) : sProp 𝕄 :=
  iprop(scratch d ∗ bigSepL sends fun x => iprop(semVal (sendCellX d x) 0 ∗ semVal (recvCellX d x) 0))

def xstg (d : Dev nD) : (cc0_stg0_0 : Ref sig .tc).ty.Contents (Elt F) :=
  (win0_0.blk (0 : Fin 1)).view.read (Elt F) (m ((d : Thread nD τ).loc main_arg0))
def w1stg (d : Dev nD) : (cc0_stg1_0 : Ref sig .tc).ty.Contents (Elt F) :=
  (win0_1.blk (0 : Fin 1)).view.read (Elt F) (m ((d : Thread nD τ).loc main_arg1))
def w2stg (d : Dev nD) : (cc0_stg2_0 : Ref sig .tc).ty.Contents (Elt F) :=
  (win0_2.blk (0 : Fin 1)).view.read (Elt F) (m ((d : Thread nD τ).loc main_arg2))

def outAt (d : Dev nD) : (cc0_stg3_0 : Ref sig .tc).ty.Contents (Elt F) := Spec.result (argsOf m) d

def dats (_ : Fin 1) (d : Dev nD) : Dat τ (Elt F) Unit ℕ UU ℕ cfg0 d where
  A w := (s₀ m ρ).mem ((cfg0.win w).arr.view.loc (d : Thread nD τ))
  after w _ := match w with
    | ⟨0, _⟩ => xstg m d
    | ⟨1, _⟩ => w1stg m d
    | ⟨2, _⟩ => w2stg m d
    | ⟨3, _⟩ => outAt m d
  Φ t := match t with
    | ⟨0, _⟩ => Φ₀ m d
    | ⟨_ + 1, _⟩ => Φ₁ d
  q _ := fullShare
  owed t := match t with
    | ⟨0, _⟩ => O₀ d
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (d : Dev nD) (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

def bodyPre (K : Dev nD × Fin 25 → ℕ) (d : Dev nD) : sProp 𝕄 :=
  iprop((ghost m K d ∗ creds d ∗ levAts L lv ∗ scratch d)
    ∗ (dats m ρ 0 d).owesAt () t₀.castSucc
    ∗ (∃ e, stg d cc0_stg0_0 ((dats m ρ 0 d).before (0 : Fin 4) t₀ e))
    ∗ (∃ e, stg d cc0_stg1_0 ((dats m ρ 0 d).before (1 : Fin 4) t₀ e))
    ∗ (∃ e, stg d cc0_stg2_0 ((dats m ρ 0 d).before (2 : Fin 4) t₀ e))
    ∗ (∃ e, stg d cc0_stg3_0 ((dats m ρ 0 d).before (3 : Fin 4) t₀ e)))

def bodyPost (d : Dev nD) : sProp 𝕄 :=
  iprop(Φ₁ d ∗ (dats m ρ 0 d).owesAt () t₀.succ ∗ stg d cc0_stg0_0 (xstg m d) ∗ stg d cc0_stg1_0 (w1stg m d)
    ∗ stg d cc0_stg2_0 (w2stg m d) ∗ stg d cc0_stg3_0 (outAt m d))

-- A function of the body's six buffers and two semaphore arrays, at the buffers the body is run on.
abbrev atBufs {β : Sort _} (f : (a0 : Memref sig .tc .vmem S1024x1024 .f32) → a0.IsWhole → (a1 : Memref sig .tc .vmem S1024x2048 .f32) → a1.IsWhole
    → (a2 : Memref sig .tc .vmem S2048x1024 .f32) → a2.IsWhole → (a3 : Memref sig .tc .vmem S1024x1024 .bf16) → a3.IsWhole
    → (a4 : Memref sig .tc .vmem S1024x2048 .bf16) → a4.IsWhole → (a5 : Memref sig .tc .vmem S2x2x2x256x512 .bf16) → a5.IsWhole
    → DmaSems sig S2x3x2 → DmaSems sig S2x3x2 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) cc0_scratch2 cc0_scratch3

abbrev theBody : Prog (TpuEff nD τ sig (Elt F) Λ₀ .tc) PUnit := atBufs cc0_body

def SoundBody : Prop :=
  ∀ (K : Dev nD × Fin 25 → ℕ) (d : Dev nD) (Kt : PUnit → sProp 𝕄),
    iprop(bodyPre m ρ K d ∗ (bodyPost m ρ d -∗ Kt ⟨⟩))
      ⊢ wp frame (wpE (defs₀ (F := F)) 𝒱₀ d none) Set.univ (theBody (F := F)) Kt

end Cert.Kernel.Coll

end
-- ==== Proof.Kernel.Tables.lean ====
/-
  The schedule read cell by cell, the body's names for its semaphores, and the level argument: every wait is on a
  cell below everything still owed.
-/
import proofs.«900576_g7700000000000577_dist_mlp2_tp_i_m1024_h2048_out1024_v7x_i4_bf16_1_alg».proof.Proof.Kernel.Data

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (d : Dev nD) (c : Fin 2) (s : Fin 3) (b : Fin 2)

theorem dma_ne_bar (q : DmaSem sig) : (SemLoc.dma q : SemLoc sig) ≠ .reg barS := fun h => by cases h
theorem not_bar_dma (q : DmaSem sig) : ¬ IsBar (((d : Thread nD τ), SemLoc.dma q) : GSem nD τ sig) := fun h => dma_ne_bar q h.2
theorem isXfer_send : isXfer (sendCell d c s b) := ⟨rfl, sendSem c s b, rfl, Nat.le_add_right _ _⟩
theorem isXfer_recv : isXfer (recvCell d c s b) := ⟨rfl, recvSem c s b, rfl, by show 4 ≤ 16 + _; omega⟩

theorem dec_send : decC (4 + (c.val * 6 + s.val * 2 + b.val)) = c ∧ decS (4 + (c.val * 6 + s.val * 2 + b.val)) = s
    ∧ decB (4 + (c.val * 6 + s.val * 2 + b.val)) = b := by revert c s b; decide

theorem dec_recv : decC (16 + (c.val * 6 + s.val * 2 + b.val)) = c ∧ decS (16 + (c.val * 6 + s.val * 2 + b.val)) = s
    ∧ decB (16 + (c.val * 6 + s.val * 2 + b.val)) = b := by revert c s b; decide

theorem duties_bar : (rd (F := F) m).duties (barCell d) 0 = Finset.univ := by dsimp only [rd]; exact if_pos ⟨rfl, rfl, rfl⟩
theorem duties_send : (rd (F := F) m).duties (sendCell d c s b) 0 = {false} := by
  dsimp only [rd]; rw [if_neg (fun h => not_bar_dma d _ h.2)]; exact if_pos ⟨rfl, isXfer_send d c s b⟩
theorem duties_recv : (rd (F := F) m).duties (recvCell d c s b) 0 = {false} := by
  dsimp only [rd]; rw [if_neg (fun h => not_bar_dma d _ h.2)]; exact if_pos ⟨rfl, isXfer_recv d c s b⟩
theorem duties_later (g : GSem nD τ sig) : ∀ r, 1 ≤ r → (rd (F := F) m).duties g r = ∅ :=
  fun r hr => by dsimp only [rd]; rw [if_neg fun h => by omega, if_neg fun h => by omega]

theorem amount_bar (dty : Bool) : (rd (F := F) m).amount (barCell d) 0 dty = 1 := by dsimp only [rd]; exact if_pos rfl
theorem amount_send (dty : Bool) : (rd (F := F) m).amount (sendCell d c s b) 0 dty = N := by dsimp only [rd]; exact if_neg (dma_ne_bar _)
theorem amount_recv (dty : Bool) : (rd (F := F) m).amount (recvCell d c s b) 0 dty = N := by dsimp only [rd]; exact if_neg (dma_ne_bar _)

theorem expect_bar : (rd (F := F) m).expect (barCell d) 0 = 2 := by
  unfold Schedule.expect Schedule.amountOf
  rw [duties_bar, Finset.sum_congr rfl fun dty _ => amount_bar m d dty, Finset.sum_const, Finset.card_univ, Fintype.card_bool, smul_eq_mul]
theorem expect_send : (rd (F := F) m).expect (sendCell d c s b) 0 = N := by
  unfold Schedule.expect Schedule.amountOf; rw [duties_send, Finset.sum_singleton, amount_send]
theorem expect_recv : (rd (F := F) m).expect (recvCell d c s b) 0 = N := by
  unfold Schedule.expect Schedule.amountOf; rw [duties_recv, Finset.sum_singleton, amount_recv]

theorem payload_bar (dty : Bool) : (rd (F := F) m).payload (barCell d) 0 dty = barPay d dty := rfl
theorem payload_send (dty : Bool) : (rd (F := F) m).payload (sendCell d c s b) 0 dty = sendPay m d c s b := by
  show dmaPay m d (4 + (c.val * 6 + s.val * 2 + b.val)) = _
  unfold dmaPay
  have := c.isLt; have := s.isLt; have := b.isLt
  rw [if_neg (by omega), if_pos (by omega), (dec_send c s b).1, (dec_send c s b).2.1, (dec_send c s b).2.2]
theorem payload_recv (dty : Bool) : (rd (F := F) m).payload (recvCell d c s b) 0 dty = recvPay m d c s b := by
  show dmaPay m d (16 + (c.val * 6 + s.val * 2 + b.val)) = _
  unfold dmaPay
  rw [if_neg (by omega), if_neg (by omega), (dec_recv c s b).1, (dec_recv c s b).2.1, (dec_recv c s b).2.2]

theorem sendPay_0 : sendPay m d c 0 b = iprop(emp) := by unfold sendPay; exact if_pos rfl
theorem sendPay_1 : sendPay m d c 1 b = tileOwns d (keepQ b d) c (afterFirst (argsOf m) d c b) := by
  unfold sendPay; rw [if_neg (by decide)]; exact if_pos rfl
theorem sendPay_2 : sendPay m d c 2 b = tileOwns d (keepQ b d) c (afterSecond (argsOf m) d c b) := by
  unfold sendPay; rw [if_neg (by decide)]; exact if_neg (by decide)

theorem recvPay_0 : recvPay m d c 0 b
    = iprop(slotOwns d c 0 b (partial_ (argsOf m) (partner 0 b d) (keepQ b d) c)
        ∗ tileOwns (partner 0 b d) (keepQ b d) c (partial_ (argsOf m) (partner 0 b d) (keepQ b d) c)) := by
  unfold recvPay; exact if_pos rfl
theorem recvPay_1 : recvPay m d c 1 b = slotOwns d c 1 b (afterFirst (argsOf m) (partner 1 b d) c b) := by
  unfold recvPay; rw [if_neg (by decide)]; exact if_pos rfl
theorem recvPay_2 : recvPay m d c 2 b = tileOwns d (sendQ b d) c (afterSecond (argsOf m) (partner 2 b d) c b) := by
  unfold recvPay; rw [if_neg (by decide)]; exact if_neg (by decide)

theorem rest_bar : bigSep ((rd (F := F) m).duties (barCell d) 0 \ ∅) (fun dty => (rd (F := F) m).payload (barCell d) 0 dty)
    = iprop(barPay (F := F) d false ∗ barPay (F := F) d true) := by
  rw [Finset.sdiff_empty, duties_bar, bigSep_univ_eq_bigSepL [false, true] (by decide) (by decide), bigSepL_cons_cons, bigSepL_singleton]
  rfl

theorem rest_send : bigSep ((rd (F := F) m).duties (sendCell d c s b) 0 \ ∅) (fun dty => (rd (F := F) m).payload (sendCell d c s b) 0 dty)
    = sendPay m d c s b := by
  rw [Finset.sdiff_empty, duties_send, bigSep_singleton, payload_send]
theorem rest_recv : bigSep ((rd (F := F) m).duties (recvCell d c s b) 0 \ ∅) (fun dty => (rd (F := F) m).payload (recvCell d c s b) 0 dty)
    = recvPay m d c s b := by
  rw [Finset.sdiff_empty, duties_recv, bigSep_singleton, payload_recv]

end Sched

instance rd_payload_storable (g : GSem nD τ sig) (r : ℕ) (dty : Bool) :
    BI.Storable (upEmb : UEmb _ 𝕄) ((rd (F := F) m).payload g r dty) := by
  show BI.Storable upEmb (cellPay m g dty)
  unfold cellPay
  split
  · unfold barPay; infer_instance
  · unfold dmaPay sendPay recvPay
    (repeat' split) <;> infer_instance

theorem rowMajor_entry (c : Fin 2) (s : Fin 3) (b : Fin 2)
    (h : ∀ a, (![c.val, s.val, b.val] : Fin 3 → Nat) a + S1x1x1.size a ≤ S2x3x2.size a)
    (j : (Rect.unit (s := S2x3x2) ![c.val, s.val, b.val] S1x1x1.size h).shape.Idx) :
    (S2x3x2.rowMajor ((Rect.unit (s := S2x3x2) ![c.val, s.val, b.val] S1x1x1.size h).emb j)).val = c.val * 6 + s.val * 2 + b.val := by
  have h0 : (j 0).val < 1 := (j 0).isLt
  have h1 : (j 1).val < 1 := (j 1).isLt
  have h2 : (j 2).val < 1 := (j 2).isLt
  rw [Shape.rowMajor_val_three]
  show ((c.val + 1 * (j 0).val) * 3 + (s.val + 1 * (j 1).val)) * 2 + (b.val + 1 * (j 2).val) = _
  omega

theorem sendSem_spell (c : Fin 2) (s : Fin 3) (b : Fin 2)
    (h : ∀ a, (![c.val, s.val, b.val] : Fin 3 → Nat) a + S1x1x1.size a ≤ S2x3x2.size a) :
    ((cc0_scratch2.slice (Rect.unit (s := S2x3x2) ![c.val, s.val, b.val] S1x1x1.size h)).squeeze S_ squeezes_S1x1x1_S_).sem
      = sendSem c s b :=
  Fin.ext (congrArg (4 + ·) (rowMajor_entry c s b h _))

theorem recvSem_spell (c : Fin 2) (s : Fin 3) (b : Fin 2)
    (h : ∀ a, (![c.val, s.val, b.val] : Fin 3 → Nat) a + S1x1x1.size a ≤ S2x3x2.size a) :
    ((cc0_scratch3.slice (Rect.unit (s := S2x3x2) ![c.val, s.val, b.val] S1x1x1.size h)).squeeze S_ squeezes_S1x1x1_S_).sem
      = recvSem c s b :=
  Fin.ext (congrArg (16 + ·) (rowMajor_entry c s b h _))

theorem L_tc (d : Dev nD) (sm : SemLoc sig) : L ((d : Thread nD τ), sm) = {()} := if_pos rfl

theorem lv_bar (d : Dev nD) (u : Unit) : lv (barCell d) u = 1 := rfl
theorem lv_send (d : Dev nD) (c : Fin 2) (s : Fin 3) (b : Fin 2) (u : Unit) : lv (sendCell d c s b) u = 0 := by
  show (if 16 ≤ 4 + (c.val * 6 + s.val * 2 + b.val) then 2 + (decS (4 + (c.val * 6 + s.val * 2 + b.val))).val else 0) = 0
  have := c.isLt; have := s.isLt; have := b.isLt
  rw [if_neg (by omega)]
theorem lv_recv (d : Dev nD) (c : Fin 2) (s : Fin 3) (b : Fin 2) (u : Unit) : lv (recvCell d c s b) u = 2 + s.val := by
  show (if 16 ≤ 16 + (c.val * 6 + s.val * 2 + b.val) then 2 + (decS (16 + (c.val * 6 + s.val * 2 + b.val))).val else 0) = _
  rw [if_pos (by omega), (dec_recv c s b).2.1]
theorem lv_stage (d : Dev nD) (q : DmaSem sig) (hq : q.val < 4) (u : Unit) : lv ((d : Thread nD τ), SemLoc.dma q) u = 0 := by
  show (if 16 ≤ q.val then 2 + (decS q.val).val else 0) = 0
  rw [if_neg (by omega)]

theorem oweL_nil (d : Dev nD) : oweL d [] = 0 := rfl
theorem oweL_cons (d : Dev nD) (x : Xf) (l : List Xf) : oweL d (x :: l) = oweL d l + oweT d x := by
  unfold oweL; rw [List.map_cons, List.sum_cons, add_comm]

theorem oweL_pos {d : Dev nD} {l : List Xf} {g : GSem nD τ sig} {u : Unit} (h : 0 < oweL d l g u) :
    ∃ x ∈ l, g = recvCellX (peerX d x) x := by
  induction l with
  | nil => rw [oweL_nil] at h; exact absurd h (Nat.lt_irrefl 0)
  | cons x l ih =>
    rw [oweL_cons, Pi.add_apply, Finsupp.add_apply] at h
    rcases Nat.add_pos_iff_pos_or_pos.mp h with h | h
    · obtain ⟨y, hy, e⟩ := ih h; exact ⟨y, List.mem_cons_of_mem _ hy, e⟩
    · unfold oweT at h; rw [tallyAt_apply] at h
      by_cases hg : g = recvCellX (peerX d x) x ∧ u = ()
      · exact ⟨x, List.mem_cons_self, hg.1⟩
      · rw [if_neg hg] at h; exact absurd h (Nat.lt_irrefl 0)

theorem O₀_pos {d : Dev nD} {g : GSem nD τ sig} {u : Unit} (h : 0 < O₀ d g u) :
    g = barCell (pA d) ∨ g = barCell (pB d) ∨ ∃ x ∈ sends, g = recvCellX (peerX d x) x := by
  unfold O₀ O₁ at h
  rw [Pi.add_apply, Finsupp.add_apply, Pi.add_apply, Finsupp.add_apply, tallyAt_apply, tallyAt_apply] at h
  by_cases hA : g = barCell (pA d)
  · exact .inl hA
  by_cases hB : g = barCell (pB d)
  · exact .inr (.inl hB)
  rw [if_neg (fun h' => hB h'.1), if_neg (fun h' => hA h'.1)] at h
  exact .inr (.inr (oweL_pos (by omega)))

theorem mayWait_oweL (d : Dev nD) (sm : SemLoc sig) (l : List Xf) (k : ℕ) (hk : lv ((d : Thread nD τ), sm) () ≤ k)
    (h : ∀ x ∈ l, k < 2 + x.2.1.val) :
    (levAts L lv : sProp 𝕄) ⊢ MayWait (d : Thread nD τ) sm () (oweL d l) :=
  MayOwe.of_cut (L := L) (lev := lv) k (fun p hp => by rw [Finset.mem_singleton.mp hp, L_tc]; exact Finset.mem_singleton_self _)
    (fun g u hg => by obtain ⟨x, hx, rfl⟩ := oweL_pos hg; rw [L_tc]; exact Finset.mem_singleton_self _)
    (fun p hp => by rw [Finset.mem_singleton.mp hp]; exact hk)
    (fun g u hg => by obtain ⟨x, hx, rfl⟩ := oweL_pos hg; rw [lv_recv]; exact h x hx)

theorem mayWait_stage (d : Dev nD) (q : DmaSem sig) (hq : q.val < 4) (O : CellTallies nD τ sig Unit) (hO : O = O₀ d ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with rfl | rfl | ⟨x, hx, rfl⟩ <;> (rw [L_tc]; exact Finset.mem_singleton_self _))
      (fun p hp => by rw [Finset.mem_singleton.mp hp, lv_stage d q hq])
      (fun g u hg => by
        rcases O₀_pos hg with rfl | rfl | ⟨x, hx, rfl⟩
        · rw [lv_bar]; exact Nat.one_pos
        · rw [lv_bar]; exact Nat.one_pos
        · rw [lv_recv]; omega)
  · rw [MayWait_zero]; iintro -; iempintro

theorem mayWait_bar (d : Dev nD) : (levAts L lv : sProp 𝕄) ⊢ MayWait (d : Thread nD τ) (.reg barS) () (oweL d sends) :=
  mayWait_oweL d (.reg barS) sends 1 (Nat.le_of_eq (lv_bar d ())) (fun x _ => by omega)

theorem mayWait_send (d : Dev nD) (c : Fin 2) (s : Fin 3) (b : Fin 2) (l : List Xf) :
    (levAts L lv : sProp 𝕄) ⊢ MayWait (d : Thread nD τ) (.dma (sendSem c s b)) () (oweL d l) :=
  mayWait_oweL d (.dma (sendSem c s b)) l 0 (Nat.le_of_eq (lv_send d c s b ())) (fun x _ => by omega)

theorem mayWait_recv (d : Dev nD) (c : Fin 2) (s : Fin 3) (b : Fin 2) (l : List Xf) (h : ∀ x ∈ l, s.val < x.2.1.val) :
    (levAts L lv : sProp 𝕄) ⊢ MayWait (d : Thread nD τ) (.dma (recvSem c s b)) () (oweL d l) :=
  mayWait_oweL d (.dma (recvSem c s b)) l (2 + s.val) (Nat.le_of_eq (lv_recv d c s b ())) (fun x hx => by have := h x hx; omega)

theorem pA_invol (d : Dev nD) : pA (pA d) = d := by revert d; decide
theorem pB_invol (d : Dev nD) : pB (pB d) = d := by revert d; decide

end Cert.Kernel.Coll

end
-- ==== Proof.Kernel.Launch.lean ====
/-
  The launch: every cell's invariant allocated and its tokens dealt to the devices that pay it, the credit a
  device's partners owe it, and the run of the four devices with each result array named.
-/
import proofs.«900576_g7700000000000577_dist_mlp2_tp_i_m1024_h2048_out1024_v7x_i4_bf16_1_alg».proof.Proof.Kernel.Tables

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev osem : Fin 24 → SemLoc sig := fun k => csem k.succ

theorem ownSemFacts : Pipeline.OwnSemFacts cfg0.spec osem := by decide

theorem share_eq (d : Dev nD) (w : Fin cfg0.W) : (dats m ρ 0 d).share w = fullShare := by unfold Dat.share; split <;> rfl

theorem csem_injective : Function.Injective csem := by decide

theorem kcell_injective : Function.Injective (kcell : Dev nD × Fin 25 → GSem nD τ sig) := by
  rintro ⟨d, k⟩ ⟨d', k'⟩ h
  have h1 : d = d' := by have := congrArg (fun g : GSem nD τ sig => g.1.1) h; exact this
  subst h1
  have h2 : csem k = csem k' := congrArg Prod.snd h
  rw [csem_injective h2]

def allCells : Finset (GSem nD τ sig) := Finset.univ.map ⟨kcell, kcell_injective⟩

def tokF : Dev nD × Fin 25 ↪ GSem nD τ sig × ℕ × Bool :=
  ⟨fun ck => (kcell ck, 0, false), fun a b h => kcell_injective (congrArg (fun x : GSem nD τ sig × ℕ × Bool => x.1) h)⟩

def tokT : Dev nD ↪ GSem nD τ sig × ℕ × Bool :=
  ⟨fun d => (barCell d, 0, true), fun a b h => by
    have := congrArg (fun x : GSem nD τ sig × ℕ × Bool => x.1.1.1) h; exact this⟩

theorem tok_disjoint : Disjoint (Finset.univ.map tokF) (Finset.univ.map tokT) := by
  rw [Finset.disjoint_left]
  intro x hx hx'
  obtain ⟨ck, -, rfl⟩ := Finset.mem_map.mp hx
  obtain ⟨d, -, hd⟩ := Finset.mem_map.mp hx'
  have := congrArg (fun x : GSem nD τ sig × ℕ × Bool => x.2.2) hd
  exact Bool.noConfusion this

def allToks : Finset (GSem nD τ sig × ℕ × Bool) := Finset.univ.map tokF ∪ Finset.univ.map tokT

def u₀ : UU :=
  (initOf (Pipeline.cells cfgs cellOf_inj) (Pipeline.launchToks cfgs cellOf_inj), initOf allCells allToks)

def toks (d : Dev nD) : sProp 𝕄 :=
  iprop((bigSep Finset.univ fun k : Fin 25 => dutyTok ER (kcell (d, k)) 0 false) ∗ dutyTok ER (barCell d) 0 true)

def G (d : Dev nD) : sProp 𝕄 :=
  iprop((bigSep Finset.univ fun k : Fin 25 => roundState ER (rd m) (kcell (d, k)) 0)
    ∗ (bigSep Finset.univ fun k : Fin 25 => iprop(atPos ER (kcell (d, k)) 0 ∅ 0 ∗ reached ER (kcell (d, k)) 0)) ∗ toks d)

def G' (d : Dev nD) : sProp 𝕄 := iprop(∃ K, ghost m K d)

theorem fund_cells : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun k : Fin 25 => Φ (kcell (d, k)) := by
    unfold allCells; rw [bigSep_map, bigSep_univ_prod]; rfl
  have hT : bigSep allToks (fun x => (dutyTok ER x.1 x.2.1 x.2.2 : sProp 𝕄)) = bigSep Finset.univ fun d : Dev nD => toks d := by
    unfold allToks toks
    rw [bigSep_union tok_disjoint, bigSep_map, bigSep_map, bigSep_univ_prod, bigSep_sep']
    rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe # ∗

theorem unscopedSems0_eq (d : Dev nD) : (unscopedSems0 d : sProp 𝕄) = semVal (barCell d) 0 := by
  unfold unscopedSems0; rw [bigSep_eq_bigSepL_of_eq [SemLoc.reg barS] (by decide) (by decide)]; rfl

theorem bigSep_fin25 (Φ : Fin 25 → sProp 𝕄) : bigSep Finset.univ Φ = iprop(Φ 0 ∗ bigSep Finset.univ fun k : Fin 24 => Φ k.succ) := by
  rw [bigSep_univ_at Φ (0 : Fin 25), show (Finset.univ.erase (0 : Fin 25)) = Finset.univ.map (Fin.succEmb 24) from by decide, bigSep_map]; rfl

theorem sems0_eq (d : Dev nD) :
    iprop(Pipeline.ownSems0 (Ix := Unit) (Name := ℕ) (U := UU) (Lvl := ℕ) (Val := Elt F) (τ := τ) osem d ∗ unscopedSems0 d)
      ⊢ (bigSep Finset.univ fun k : Fin 25 => semVal (kcell (d, k)) 0 : sProp 𝕄) := by
  rw [unscopedSems0_eq, bigSep_fin25]
  unfold Pipeline.ownSems0
  iintro ⟨HS, HB⟩
  iframe # ∗; iexact HB

theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : Fin 25 => iprop(∃ κ : ℕ, cellInv ER (rd m) κ (kcell (d, k))))
          ∗ (bigSep Finset.univ fun k : Fin 25 => iprop(atPos ER (kcell (d, k)) 0 ∅ 0 ∗ reached ER (kcell (d, k)) 0)) ∗ toks d) := by
  unfold G
  iintro ⟨Hos, Hus, Hst, Hat, Htok⟩
  ihave Hv := (sems0_eq (F := F) d) $$ [Hos Hus]
  · iframe # ∗
  imod (show iprop((bigSep Finset.univ fun k : Fin 25 => semVal (kcell (d, k)) 0) ∗ bigSep Finset.univ fun k : Fin 25 => roundState ER (rd m) (kcell (d, k)) 0)
      ⊢ (|={Set.univ}=> bigSep Finset.univ fun k : Fin 25 => iprop(∃ κ : ℕ, cellInv ER (rd m) κ (kcell (d, k))) : sProp 𝕄) from by
        rw [← bigSep_sep']
        exact (bigSep_mono fun k _ => (Rounds.body_intro ER (rd m) (kcell (d, k))).trans inv_alloc).trans (bigSep_fupd _ _)) $$ [Hv Hst] with Hinv
  · iframe # ∗
  imodintro
  iframe # ∗

instance records_persistent (K : Dev nD × Fin 25 → ℕ) : BI.Persistent (records m K) := by unfold records; infer_instance

-- A device's 24 transfer cells, listed transfer by transfer: the send cell then the receive cell.
theorem xfers_eq (d : Dev nD) (Φ : GSem nD τ sig → sProp 𝕄) :
    (bigSep Finset.univ fun k : Fin 24 => Φ (kcell (d, k.succ)))
      = bigSepL sends fun x => iprop(Φ (sendCellX d x) ∗ Φ (recvCellX d x)) := by
  rw [bigSep_univ_eq_bigSepL [0, 12, 1, 13, 6, 18, 7, 19, 2, 14, 3, 15, 8, 20, 9, 21, 4, 16, 5, 17, 10, 22, 11, 23] (by decide) (by decide)]
  simp only [sends, bigSepL_cons, bigSepL_nil, sep_fold, sep_assoc_eq]
  rfl

theorem cells_by_transfer (d : Dev nD) (Φ : GSem nD τ sig → sProp 𝕄) :
    (bigSep Finset.univ fun k : Fin 25 => Φ (kcell (d, k)))
      ⊢ iprop(Φ (barCell d) ∗ bigSepL sends fun x => iprop(Φ (sendCellX d x) ∗ Φ (recvCellX d x))) :=
  (Entails.of_eq (bigSep_fin25 _)).trans (sep_mono_right (Entails.of_eq (xfers_eq d Φ)))

theorem bigSepL_mono {J : Type} (l : List J) {Φ Ψ : J → sProp 𝕄} (h : ∀ j, Φ j ⊢ Ψ j) : bigSepL l Φ ⊢ bigSepL l Ψ := by
  induction l with
  | nil => exact .rfl
  | cons j l ih => rw [bigSepL_cons, bigSepL_cons]; exact BI.sep_mono (h j) ih

theorem cells_by_transfer' (d : Dev nD) (Φ : GSem nD τ sig → sProp 𝕄) :
    (bigSep Finset.univ fun k : Fin 25 => Φ (kcell (d, k)))
      ⊢ iprop(Φ (barCell d) ∗ bigSepL sends fun x => iprop(Φ (recvCellX d x) ∗ Φ (sendCellX d x))) :=
  (cells_by_transfer d Φ).trans (sep_mono_right (bigSepL_mono sends fun _ => Laws.sep_comm.1))

def peerEquiv (x : Xf) : Dev nD ≃ Dev nD :=
  ⟨fun d => peerX d x, fun d => peerX d x, fun d => partner_invol x.2.1 x.2.2 d, fun d => partner_invol x.2.1 x.2.2 d⟩
def pAEquiv : Dev nD ≃ Dev nD := ⟨pA, pA, pA_invol, pA_invol⟩
def pBEquiv : Dev nD ≃ Dev nD := ⟨pB, pB, pB_invol, pB_invol⟩

theorem bigSep_bigSepL {I J : Type} (S : Finset I) (l : List J) (Φ : I → J → sProp 𝕄) :
    bigSep S (fun i => bigSepL l (fun j => Φ i j)) = bigSepL l (fun j => bigSep S (fun i => Φ i j)) := by
  induction l with
  | nil => simp only [bigSepL_nil]; exact bigSep_emp_const S
  | cons j l ih =>
    simp only [bigSepL_cons]
    rw [← ih]
    exact bigSep_sep S (fun i => Φ i j) (fun i => bigSepL l fun j => Φ i j)

def toksX (d : Dev nD) : sProp 𝕄 :=
  iprop(dutyTok ER (barCell d) 0 false ∗ dutyTok ER (barCell d) 0 true
    ∗ bigSepL sends fun x => iprop(dutyTok ER (recvCellX d x) 0 false ∗ dutyTok ER (sendCellX d x) 0 false))

theorem toks_by_transfer (d : Dev nD) : (toks d : sProp 𝕄) ⊢ toksX d := by
  unfold toks toksX
  iintro ⟨HF, HT⟩
  ihave H := (cells_by_transfer' (F := F) d fun g => dutyTok ER g 0 false) $$ HF
  icases H with ⟨HB, HL⟩
  iframe # ∗

theorem recv_around (x : Xf) :
    (bigSep Finset.univ fun d : Dev nD => iprop(dutyTok ER (recvCellX d x) 0 false ∗ dutyTok ER (sendCellX d x) 0 false) : sProp 𝕄)
      = bigSep Finset.univ fun d : Dev nD => iprop(dutyTok ER (recvCellX (peerX d x) x) 0 false ∗ dutyTok ER (sendCellX d x) 0 false) := by
  rw [bigSep_sep', bigSep_sep', bigSep_univ_equiv (peerEquiv x) (fun e : Dev nD => (dutyTok ER (recvCellX e x) 0 false : sProp 𝕄))]
  rfl

theorem toks_around : (bigSep Finset.univ fun d : Dev nD => (toks d : sProp 𝕄)) ⊢ bigSep Finset.univ fun d : Dev nD => payToks d := by
  have hL : (bigSep Finset.univ fun d : Dev nD => (toksX d : sProp 𝕄))
      = iprop((bigSep Finset.univ fun d : Dev nD => dutyTok ER (barCell d) 0 false) ∗ (bigSep Finset.univ fun d : Dev nD => dutyTok ER (barCell d) 0 true)
        ∗ bigSepL sends fun x => bigSep Finset.univ fun d : Dev nD => iprop(dutyTok ER (recvCellX d x) 0 false ∗ dutyTok ER (sendCellX d x) 0 false)) := by
    unfold toksX; rw [bigSep_sep', bigSep_sep', bigSep_bigSepL]
  have hR : (bigSep Finset.univ fun d : Dev nD => (payToks d : sProp 𝕄))
      = iprop((bigSep Finset.univ fun d : Dev nD => dutyTok ER (barCell (pA d)) 0 false) ∗ (bigSep Finset.univ fun d : Dev nD => dutyTok ER (barCell (pB d)) 0 true)
        ∗ bigSepL sends fun x => bigSep Finset.univ fun d : Dev nD => iprop(dutyTok ER (recvCellX (peerX d x) x) 0 false ∗ dutyTok ER (sendCellX d x) 0 false)) := by
    unfold payToks; rw [bigSep_sep', bigSep_sep', bigSep_bigSepL]
  have hE : (bigSep Finset.univ fun d : Dev nD => (toksX d : sProp 𝕄)) = bigSep Finset.univ fun d : Dev nD => (payToks d : sProp 𝕄) := by
    rw [hL, hR, bigSep_univ_equiv pAEquiv (fun e : Dev nD => (dutyTok ER (barCell e) 0 false : sProp 𝕄)),
      bigSep_univ_equiv pBEquiv (fun e : Dev nD => (dutyTok ER (barCell e) 0 true : sProp 𝕄)),
      show (fun x : Xf => (bigSep Finset.univ fun d : Dev nD => iprop(dutyTok ER (recvCellX d x) 0 false ∗ dutyTok ER (sendCellX d x) 0 false) : sProp 𝕄))
        = fun x : Xf => bigSep Finset.univ fun d : Dev nD => iprop(dutyTok ER (recvCellX (peerX d x) x) 0 false ∗ dutyTok ER (sendCellX d x) 0 false)
        from funext recv_around]
    rfl
  iintro H
  ihave H' := (show (bigSep Finset.univ fun d : Dev nD => (toks d : sProp 𝕄)) ⊢ bigSep Finset.univ fun d : Dev nD => (toksX d : sProp 𝕄) from
    bigSep_mono fun d _ => toks_by_transfer d) $$ H
  ihave H'' := (Entails.of_eq hE) $$ H'
  iexact H''

theorem positions_intro (d : Dev nD) : (bigSep Finset.univ fun k : Fin 25 => (atPos ER (kcell (d, k)) 0 ∅ 0 : sProp 𝕄)) ⊢ positions d := by
  unfold positions; exact cells_by_transfer d fun g => atPos ER g 0 ∅ 0

theorem ghost_intro (K : Dev nD × Fin 25 → ℕ) (d : Dev nD) : iprop(records m K ∗ positions d ∗ payToks d) ⊢ G' m d := by
  unfold G' ghost
  iintro H; iexists K; iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep Finset.univ fun k : Fin 25 => iprop(∃ κ : ℕ, cellInv ER (rd m) κ (kcell (d, k))))
          ∗ (bigSep Finset.univ fun k : Fin 25 => iprop(atPos ER (kcell (d, k)) 0 ∅ 0 ∗ reached ER (kcell (d, k)) 0)) ∗ toks d) : sProp 𝕄)
      ⊢ bigSep Finset.univ (G' m) := by
  rw [bigSep_sep', bigSep_sep', ← bigSep_univ_prod (fun ck : Dev nD × Fin 25 => iprop(∃ κ : ℕ, cellInv ER (rd m) κ (kcell ck))),
    bigSep_congr (s := Finset.univ) (fun (d : Dev nD) _ => bigSep_sep' Finset.univ (fun k : Fin 25 => (atPos ER (kcell (d, k)) 0 ∅ 0 : sProp 𝕄)) (fun k => reached ER (kcell (d, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (rd m) κ (kcell ck) : sProp 𝕄))) $$ HI
  icases HK with ⟨%K, #HI⟩
  ihave Htk := (toks_around (F := F)) $$ Htok
  iapply (bigSep_with_persistent (R := records m K) fun d _ => ghost_intro m K d)
  isplitr
  · unfold records; isplitl; · iexact HI
    iexact HR
  · iapply ((Entails.of_eq (bigSep_sep' Finset.univ (fun d : Dev nD => bigSep Finset.univ fun k : Fin 25 => (atPos ER (kcell (d, k)) 0 ∅ 0 : sProp 𝕄)) payToks).symm).trans
      (bigSep_mono fun d _ => sep_mono_left (positions_intro d)))
    iframe # ∗

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

theorem launchCred_oweL (l : List Xf) (d : Dev nD) :
    (Pipeline.launchCred (fun e => oweL e l) d : sProp 𝕄) ⊢ bigSepL l fun x => cred (tallyAt (recvCellX d x) () N) := by
  induction l with
  | nil =>
    rw [show (fun e : Dev nD => oweL e []) = fun _ => (0 : CellTallies nD τ sig Unit) from rfl, Pipeline.launchCred_zero]
    exact BI.Entails.refl _
  | cons x l ih =>
    rw [show (fun e : Dev nD => oweL e (x :: l)) = fun e => oweT e x + oweL e l from funext fun e => by unfold oweL; rw [List.map_cons, List.sum_cons],
      Pipeline.launchCred_add, bigSepL_cons]
    exact BI.sep_mono (Pipeline.launchCred_tallyAt (SemLoc.dma (recvSem x.1 x.2.1 x.2.2)) (fun e => peerX e x) (fun e => peerX e x)
      (fun e => partner_invol x.2.1 x.2.2 e) (fun e => partner_invol x.2.1 x.2.2 e) () N d) ih

theorem launch_creds (d : Dev nD) : (Pipeline.launchCred O₀ d : sProp 𝕄) ⊢ creds d := by
  rw [show (O₀ : Dev nD → CellTallies nD τ sig Unit) = fun e => (oweL e sends + tallyAt (barCell (pB e)) () 1) + tallyAt (barCell (pA e)) () 1 from rfl,
    Pipeline.launchCred_add, Pipeline.launchCred_add]
  have h2 : (tallyAt (barCell d) () 2 : CellTallies nD τ sig Unit) = tallyAt (barCell d) () 1 + tallyAt (barCell d) () 1 := (tallyAt_add (barCell d) () 1 1).symm
  unfold creds
  rw [h2]
  iintro ⟨⟨HL, HB⟩, HA⟩
  ihave HA' := (Pipeline.launchCred_tallyAt (SemLoc.reg barS) pA pA pA_invol pA_invol () 1 d) $$ HA
  ihave HB' := (Pipeline.launchCred_tallyAt (SemLoc.reg barS) pB pB pB_invol pB_invol () 1 d) $$ HB
  ihave HL' := (launchCred_oweL (F := F) sends d) $$ HL
  isplitl [HA' HB']
  · iapply (cred_add _ _).2
    isplitl [HA'] <;> iassumption
  iexact HL'

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  iintro ⟨-, Hlev, Hcr, -, HG⟩
  ihave Hc := (launch_creds (F := F) d) $$ Hcr
  imodintro
  unfold start G'
  isplitl
  · isplitl [HG]; · iexact HG
    isplitl [Hc]; · iexact Hc
    iexact Hlev
  · iempintro

theorem phi0_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, scopedRest0_eq]
  unfold Φ₀ scratch
  iintro ⟨Hs, -, Hr⟩
  iframe # ∗

theorem ownSems0_intro (d : Dev nD) :
    (bigSepL sends fun x => iprop(semVal (sendCellX d x) 0 ∗ semVal (recvCellX d x) 0) : sProp 𝕄)
      ⊢ Pipeline.ownSems0 (Ix := Unit) (Name := ℕ) (U := UU) (Lvl := ℕ) (Val := Elt F) (τ := τ) osem d :=
  Entails.of_eq (xfers_eq d fun g => semVal g 0).symm

theorem phi1_exit (d : Dev nD) :
    (dats m ρ 0 d).Φ (Fin.last cfg0.N) ⊢ iprop(emp ∗ Pipeline.ownSems0 osem d ∗ Pipeline.scopedRest cfg0.spec d) := by
  rw [show (dats m ρ 0 d).Φ (Fin.last cfg0.N) = Φ₁ d from rfl, scopedRest0_eq]
  unfold Φ₁ scratch
  iintro ⟨Hr, Hz⟩
  isplitr; · iempintro
  isplitl [Hz]; · iapply (ownSems0_intro (F := F) d); iexact Hz
  iexact Hr

theorem waits (d : Dev nD) : (levAts L lv : sProp 𝕄) ⊢ Pipeline.cellsWaits cfgs (dats m ρ) () 0 d :=
  Pipeline.cellsWaits_intro cfgs (dats m ρ) () 0 d fun w s t =>
    mayWait_stage d _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

set_option maxRecDepth 4000 in

def bodyPre' (d : Dev nD) : sProp 𝕄 :=
  iprop(Φ₀ m d ∗ (dats m ρ 0 d).owesAt () t₀.castSucc
    ∗ (∃ e, stg d cc0_stg0_0 ((dats m ρ 0 d).before (0 : Fin 4) t₀ e))
    ∗ (∃ e, stg d cc0_stg1_0 ((dats m ρ 0 d).before (1 : Fin 4) t₀ e))
    ∗ (∃ e, stg d cc0_stg2_0 ((dats m ρ 0 d).before (2 : Fin 4) t₀ e))
    ∗ (∃ e, stg d cc0_stg3_0 ((dats m ρ 0 d).before (3 : Fin 4) t₀ e)))

set_option maxRecDepth 32768 in

theorem body_obligation (hbody : SoundBody m ρ) (d : Dev nD) : BodyObligation (dats (F := F) m ρ 0 d) (defs₀ (F := F)) 𝒱₀ () Set.univ := fun t => by
  rw [fin_N t]
  rw [bigSep_W0, bigSep_W0]
  simp only [owns_whole_eq]
  show bodyPre' m ρ d ⊢ wp frame (wpE (defs₀ (F := F)) 𝒱₀ d none) Set.univ (theBody (F := F)) (fun _ => bodyPost m ρ d)
  unfold bodyPre' Φ₀ start
  iintro ⟨⟨⟨⟨%K, Hg⟩, Hcr, Hlev⟩, Hscr⟩, Ho, Hx, Hw1, Hw2, Hout⟩
  iapply (hbody K d fun _ => bodyPost m ρ d)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hw1]; · iexact Hw1
    isplitl [Hw2]; · iexact Hw2
    iexact Hout
  · iintro H; iexact H

end Launch

open Launch

def QC : PUnit × MemSt nD τ sig (Elt F) → Prop := fun r =>
  ∀ d : Dev nD, ∀ w : Fin cfg0.W, r.2.mem ((cfg0.win w).arr.view.loc (d : Thread nD τ)) = (dats m ρ 0 d).arrAt w cfg0.N

set_option maxRecDepth 8000 in

theorem run_main (hbody : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun d s' => by
      iintro ⟨-, -, HSI⟩
      imodintro
      isplitr; · ipureintro; trivial
      iexact HSI)
    (hQ := fun _ h d w => (h d).1 w)

theorem final_out (d : Dev nD) : (dats m ρ 0 d).arrAt (3 : Fin 4) cfg0.N = outAt m d := by
  rw [show cfg0.N = (t₀ : Fin cfg0.N).val + 1 from rfl, (dats m ρ 0 d).arrAt_succ (3 : Fin 4) t₀, flush0_3 t₀, if_pos rfl]
  have hr := View.read_write_univ (Val := Elt F) (v := ((cfg0.win (3 : Fin 4)).blk t₀).view) ((dats m ρ 0 d).arrAt (3 : Fin 4) t₀.val)
    ((dats m ρ 0 d).flushed (3 : Fin 4) t₀)
  have hv (X : Buf (Elt F) ((cfg0.win (3 : Fin 4)).arr.view.loc (d : Thread nD τ))) : ((cfg0.win (3 : Fin 4)).blk t₀).view.read (Elt F) X = X :=
    Memref.read_access_unit_zero (Elt F) main_v1 (funext fun a => Nat.zero_mul _) _ X
  rw [hv] at hr
  exact hr

theorem final_in (d : Dev nD) (w : Fin cfg0.W) (hin : (cfg0.win w).isOut = false) :
    (dats m ρ 0 d).arrAt w cfg0.N = m ((cfg0.win w).arr.view.loc (d : Thread nD τ)) :=
  (dats (F := F) m ρ 0 d).arrAt_in w hin _

theorem run_result (hbody : SoundBody m ρ) :
    θ_run defs (onTc (τ := τ) (main (F := F))) ⟨m, fun _ => 0, ρ⟩ (fun r => ∀ d : Dev nD,
      r.2.mem ((d.tc : Thread nD τ).loc main_v1) = Spec.result (argsOf m) d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) :=
  (θ_run defs _ _).mono (fun _ h d =>
    ⟨(h d (3 : Fin 4)).trans (final_out m ρ d), (h d (0 : Fin 4)).trans (final_in m ρ d (0 : Fin 4) rfl),
      (h d (1 : Fin 4)).trans (final_in m ρ d (1 : Fin 4) rfl), (h d (2 : Fin 4)).trans (final_in m ρ d (2 : Fin 4) rfl)⟩) (run_main m ρ hbody)

end Cert.Kernel.Coll

end
-- ==== Proof.Kernel.States.lean ====
/-
  The assertions between consecutive stretches of the body: which transfers are unissued, in flight, unwaited or
  done, and what each tile, slot and hidden row quarter holds.
-/
import proofs.«900576_g7700000000000577_dist_mlp2_tp_i_m1024_h2048_out1024_v7x_i4_bf16_1_alg».proof.Proof.Kernel.Data

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def Know (K : Dev nD × Fin 25 → ℕ) : sProp 𝕄 := iprop(records m K ∗ levAts L lv)

def Inputs (d : Dev nD) : sProp 𝕄 :=
  iprop((((d : Thread nD τ).loc cc0_stg0_0) ↦{fullShare} xstg m d) ∗ (((d : Thread nD τ).loc cc0_stg1_0) ↦{fullShare} w1stg m d)
    ∗ (((d : Thread nD τ).loc cc0_stg2_0) ↦{fullShare} w2stg m d))

def Unissued (d : Dev nD) (l : List Xf) : sProp 𝕄 :=
  bigSepL l fun x => iprop(dutyTok ER (recvCellX (peerX d x) x) 0 false ∗ dutyTok ER (sendCellX d x) 0 false)

def InFlight (d : Dev nD) (l : List Xf) : sProp 𝕄 := bigSepL l fun x => cred (tallyAt (sendCellX d x) () N)

def Unwaited (d : Dev nD) (l : List Xf) : sProp 𝕄 :=
  bigSepL l fun x => iprop(atPos ER (sendCellX d x) 0 ∅ 0 ∗ atPos ER (recvCellX d x) 0 ∅ 0 ∗ cred (tallyAt (recvCellX d x) () N))

def Done (d : Dev nD) (l : List Xf) : sProp 𝕄 := bigSepL l fun x => iprop(semVal (sendCellX d x) 0 ∗ semVal (recvCellX d x) 0)

def Proto (k j : ℕ) (d : Dev nD) : sProp 𝕄 :=
  iprop((∃ W, owes (d : Thread nD τ) (oweL d (sends.drop k)) W) ∗ Unissued d (sends.drop k) ∗ InFlight d ((sends.take k).drop j)
    ∗ Unwaited d (sends.drop j) ∗ Done d (sends.take j))

abbrev A : Spec.Args F := argsOf m

abbrev Hq (d : Dev nD) (q : Fin 4) : Vec F S256x2048 .bf16 := hid ((A m).w1 d) (rowsQ q ((A m).x d))

-- All four row quarters of the hidden buffer at their final contents.
abbrev Hids (d : Dev nD) : sProp 𝕄 :=
  iprop(hidOwns d (sendQ 0 d) (Hq m d (sendQ 0 d)) ∗ hidOwns d (sendQ 1 d) (Hq m d (sendQ 1 d))
    ∗ hidOwns d (keepQ 0 d) (Hq m d (keepQ 0 d)) ∗ hidOwns d (keepQ 1 d) (Hq m d (keepQ 1 d)))

abbrev w1b (d : Dev nD) : FVec F S1024x2048 .bf16 := k0_pay1 (w1stg m d)
abbrev w2b (d : Dev nD) : FVec F S2048x1024 .bf16 := k0_pay2 (w2stg m d)

abbrev hidAny (d : Dev nD) (q : Fin 4) : sProp 𝕄 := iprop(∃ v, hidOwns (F := F) d q v)
abbrev tileAny (d : Dev nD) (q : Fin 4) (c : Fin 2) : sProp 𝕄 := iprop(∃ v, tileOwns (F := F) d q c v)

abbrev p0 (b : Fin 2) (d : Dev nD) : Dev nD := partner 0 b d
abbrev peerPart (d : Dev nD) (c b : Fin 2) : Vec F S256x512 .bf16 := partial_ (A m) (p0 b d) (keepQ b d) c

def B0 (K : Dev nD × Fin 25 → ℕ) (d : Dev nD) : sProp 𝕄 :=
  iprop(Know m K ∗ Inputs m d
    ∗ (∃ W, owes (d : Thread nD τ) (O₀ d) W) ∗ atPos ER (barCell d) 0 ∅ 0 ∗ cred (tallyAt (barCell d) () 2)
    ∗ dutyTok ER (barCell (pA d)) 0 false ∗ dutyTok ER (barCell (pB d)) 0 true
    ∗ Unissued d sends ∗ Unwaited d sends
    ∗ (hidAny d (sendQ 0 d) ∗ hidAny d (sendQ 1 d) ∗ hidAny d (keepQ 0 d) ∗ hidAny d (keepQ 1 d))
    ∗ (tileAny d (sendQ 0 d) 0 ∗ tileAny d (sendQ 1 d) 0 ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) d 0 0 0 ∗ slotAny (F := F) d 1 0 0 ∗ slotAny (F := F) d 0 1 1 ∗ slotAny (F := F) d 1 1 1)
    ∗ (slotAny (F := F) d 0 0 1 ∗ slotAny (F := F) d 1 0 1 ∗ slotAny (F := F) d 0 1 0 ∗ slotAny (F := F) d 1 1 0))

def B3 (K : Dev nD × Fin 25 → ℕ) (d : Dev nD) : sProp 𝕄 :=
  iprop(Know m K ∗ Inputs m d ∗ Proto 1 0 d
    ∗ (hidOwns d (sendQ 0 d) (Hq m d (sendQ 0 d)) ∗ hidOwns d (sendQ 1 d) (Hq m d (sendQ 1 d)) ∗ hidAny d (keepQ 0 d) ∗ hidAny d (keepQ 1 d))
    ∗ (tileOwns d (sendQ 1 d) 0 (partial_ (A m) d (sendQ 1 d) 0) ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) (partner 0 1 d) 0 0 1 ∗ slotAny (F := F) (partner 0 0 d) 1 0 0 ∗ slotAny (F := F) (partner 0 1 d) 1 0 1
      ∗ slotAny (F := F) (partner 1 0 d) 0 1 0 ∗ slotAny (F := F) (partner 1 1 d) 0 1 1 ∗ slotAny (F := F) (partner 1 0 d) 1 1 0 ∗ slotAny (F := F) (partner 1 1 d) 1 1 1))

def B6 (K : Dev nD × Fin 25 → ℕ) (d : Dev nD) : sProp 𝕄 :=
  iprop(Know m K ∗ Inputs m d ∗ Proto 4 0 d
    ∗ Hids m d
    ∗ (tileOwns d (keepQ 0 d) 0 (partial_ (A m) d (keepQ 0 d) 0) ∗ tileOwns d (keepQ 1 d) 0 (partial_ (A m) d (keepQ 1 d) 0)
      ∗ tileAny d (keepQ 0 d) 1 ∗ tileAny d (keepQ 1 d) 1)
    ∗ (slotAny (F := F) (partner 1 0 d) 0 1 0 ∗ slotAny (F := F) (partner 1 1 d) 0 1 1 ∗ slotAny (F := F) (partner 1 0 d) 1 1 0 ∗ slotAny (F := F) (partner 1 1 d) 1 1 1))

def B9 (K : Dev nD × Fin 25 → ℕ) (d : Dev nD) : sProp 𝕄 :=
  iprop(Know m K ∗ Inputs m d ∗ Proto 6 2 d
    ∗ Hids m d
    ∗ (tileAny d (keepQ 0 d) 1 ∗ tileAny d (keepQ 1 d) 1)
    ∗ (slotOwns d 0 0 0 (peerPart m d 0 0) ∗ slotOwns d 0 0 1 (peerPart m d 0 1))
    ∗ (tileOwns (p0 0 d) (keepQ 0 d) 0 (peerPart m d 0 0) ∗ tileOwns (p0 1 d) (keepQ 1 d) 0 (peerPart m d 0 1))
    ∗ (slotAny (F := F) (partner 1 0 d) 1 1 0 ∗ slotAny (F := F) (partner 1 1 d) 1 1 1))

abbrev ret9 (d : Dev nD) : Vec F S256x512 .bf16 := partial_ (A m) d (keepQ 0 d) 1

def B13 (K : Dev nD × Fin 25 → ℕ) (d : Dev nD) : sProp 𝕄 :=
  iprop(Know m K ∗ Inputs m d ∗ Proto 8 5 d
    ∗ Hids m d
    ∗ tileOwns d (keepQ 0 d) 0 (afterFirst (A m) d 0 0)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0) ∗ tileOwns (p0 1 d) (keepQ 1 d) 1 (peerPart m d 1 1)))

abbrev ret13 (d : Dev nD) : FVec F S256x512 .bf16 := k0_pay19 (afterFirst (A m) d 0 0)

def B16 (K : Dev nD × Fin 25 → ℕ) (d : Dev nD) : sProp 𝕄 :=
  iprop(Know m K ∗ Inputs m d ∗ Proto 10 7 d
    ∗ Hids m d
    ∗ tileOwns d (keepQ 0 d) 1 (afterSecond (A m) d 1 0)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0))
    ∗ (tileOwns (p0 0 d) (keepQ 0 d) 1 (peerPart m d 1 0) ∗ tileOwns (p0 1 d) (keepQ 1 d) 1 (peerPart m d 1 1)))

def B19 (K : Dev nD × Fin 25 → ℕ) (d : Dev nD) : sProp 𝕄 :=
  iprop(Know m K ∗ Inputs m d ∗ Proto 12 10 d
    ∗ Hids m d
    ∗ (tileOwns d (keepQ 0 d) 0 (afterSecond (A m) d 0 0) ∗ tileOwns d (keepQ 1 d) 0 (afterSecond (A m) d 0 1)
      ∗ tileOwns d (sendQ 0 d) 0 (afterSecond (A m) (partner 2 0 d) 0 0) ∗ tileOwns d (sendQ 1 d) 0 (afterSecond (A m) (partner 2 1 d) 0 1))
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

def Bend (K : Dev nD × Fin 25 → ℕ) (d : Dev nD) : sProp 𝕄 :=
  iprop(Know m K ∗ Inputs m d ∗ Proto 12 12 d
    ∗ Hids m d
    ∗ (tileOwns d (keepQ 0 d) 0 (afterSecond (A m) d 0 0) ∗ tileOwns d (keepQ 1 d) 0 (afterSecond (A m) d 0 1)
      ∗ tileOwns d (keepQ 0 d) 1 (afterSecond (A m) d 1 0) ∗ tileOwns d (keepQ 1 d) 1 (afterSecond (A m) d 1 1)
      ∗ tileOwns d (sendQ 0 d) 0 (afterSecond (A m) (partner 2 0 d) 0 0) ∗ tileOwns d (sendQ 1 d) 0 (afterSecond (A m) (partner 2 1 d) 0 1)
      ∗ tileOwns d (sendQ 0 d) 1 (afterSecond (A m) (partner 2 0 d) 1 0) ∗ tileOwns d (sendQ 1 d) 1 (afterSecond (A m) (partner 2 1 d) 1 1))
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

end Cert.Kernel.Coll

end
-- ==== Proof.Kernel.Regions.lean ====
/-
  The result buffer, the receive buffer and the hidden buffer cut into tiles, slots and row quarters: an access at
  a piece's rectangle touches that piece only, and the pieces tile their buffer.
-/
import proofs.«900576_g7700000000000577_dist_mlp2_tp_i_m1024_h2048_out1024_v7x_i4_bf16_1_alg».proof.Proof.Kernel.Data
import Idealize.ShloMosaic.Lib.Pipeline.Value

noncomputable section

namespace Cert.Kernel.Coll

open Cert.Kernel Cert.Kernel.Gen Cert.Kernel.Spec

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem owns_of_landed (t : Thread nD τ) {sh : Shape} {e : EltTy} (mr : Memref sig t.2.kind .vmem sh e) (fd : mr.view.ty.Contents (Elt F))
    (w : sh.Idx → Elt F e) :
    (mr.view.loc t ↦[mr.view.set]{fullShare} (mr.view.write (Elt F) fd w Finset.univ) : sProp (MT nD τ sig Unit (Elt F) ℕ UU ℕ)) ⊢ owns t mr fullShare w := by
  unfold owns
  iintro H
  iexists (mr.view.write (Elt F) fd w Finset.univ)
  isplitr
  · ipureintro; exact View.read_write_univ fd w
  · iexact H

theorem wp_load_tile (d : Dev nD) {α : Type} {Q : α → sProp 𝕄}
    (q : Fin 4) (c : Fin 2) (v : Vec F S256x512 .bf16) {off : Fin 2 → Nat}
    {hinb : ∀ a, off a + S256x512.size a ≤ S1024x1024.size a} (hoff : off = ![256 * q.val, 512 * c.val])
    {hl : (outM : Memref sig .tc .vmem S1024x1024 .bf16).view.LoadsAt (Rect.unit (s := S1024x1024) off S256x512.size hinb).toLoadRect}
    {k : Vec F S256x512 .bf16 → Prog (TpuEff nD τ sig (Elt F) Λ₀ .tc) α} :
    (tileOwns d q c v : sProp 𝕄)
      ⊢ iprop((tileOwns d q c v -∗ wp frame (wpE (defs₀ (F := F)) 𝒱₀ (d : Thread nD τ) none) Set.univ (k v) Q)
        -∗ wp frame (wpE (defs₀ (F := F)) 𝒱₀ (d : Thread nD τ) none) Set.univ (.op (.load outM (Rect.unit (s := S1024x1024) off S256x512.size hinb).toLoadRect hl) k) Q) := by
  subst hoff
  unfold tileOwns owns
  iintro ⟨%f, %hf, H⟩ Hk
  subst hf
  iapply (wp_load_rect 𝒱₀ (d : Thread nD τ) none Set.univ (m := outM) (r := tileR q c) (Finset.Subset.refl _)) $$ H
  iintro H
  iapply Hk
  iexists f
  isplitr
  · ipureintro; rfl
  · iexact H

theorem wp_store_tile (d : Dev nD) {α : Type} {Q : α → sProp 𝕄}
    (q : Fin 4) (c : Fin 2) (v w : Vec F S256x512 .bf16) {off : Fin 2 → Nat}
    {hinb : ∀ a, off a + S256x512.size a ≤ S1024x1024.size a} (hoff : off = ![256 * q.val, 512 * c.val])
    {hx : ((outM : Memref sig .tc .vmem S1024x1024 .bf16).access (Rect.unit (s := S1024x1024) off S256x512.size hinb)).Stores Finset.univ}
    {hm : (Finset.univ : Finset (Rect.unit (s := S1024x1024) off S256x512.size hinb).shape.Idx) = Finset.univ ∨ ∀ a, (Rect.unit (s := S1024x1024) off S256x512.size hinb).stride a = 1}
    {k : PUnit → Prog (TpuEff nD τ sig (Elt F) Λ₀ .tc) α} :
    (tileOwns d q c v : sProp 𝕄)
      ⊢ iprop((tileOwns d q c w -∗ wp frame (wpE (defs₀ (F := F)) 𝒱₀ (d : Thread nD τ) none) Set.univ (k ⟨⟩) Q)
        -∗ wp frame (wpE (defs₀ (F := F)) 𝒱₀ (d : Thread nD τ) none) Set.univ (.op (.store outM (Rect.unit (s := S1024x1024) off S256x512.size hinb) w Finset.univ hx hm) k) Q) := by
  subst hoff
  unfold tileOwns owns
  iintro ⟨%f, %hf, H⟩ Hk
  iapply (wp_store 𝒱₀ (d : Thread nD τ) none Set.univ (m := outM) (r := tileR q c) (Mk := Finset.univ) (S := (tileM q c).view.set) (f := f) (Finset.Subset.refl _)) $$ H
  iintro H
  iapply Hk
  iexists ((tileM q c).view.write (Elt F) f w Finset.univ)
  isplitr
  · ipureintro; exact View.read_write_univ f w
  · iexact H

theorem wp_load_hid (d : Dev nD) {α : Type} {Q : α → sProp 𝕄}
    (q : Fin 4) (v : Vec F S256x2048 .bf16) {off : Fin 2 → Nat}
    {hinb : ∀ a, off a + S256x2048.size a ≤ S1024x2048.size a} (hoff : off = ![256 * q.val, 0])
    {hl : (hidM : Memref sig .tc .vmem S1024x2048 .bf16).view.LoadsAt (Rect.unit (s := S1024x2048) off S256x2048.size hinb).toLoadRect}
    {k : Vec F S256x2048 .bf16 → Prog (TpuEff nD τ sig (Elt F) Λ₀ .tc) α} :
    (hidOwns d q v : sProp 𝕄)
      ⊢ iprop((hidOwns d q v -∗ wp frame (wpE (defs₀ (F := F)) 𝒱₀ (d : Thread nD τ) none) Set.univ (k v) Q)
        -∗ wp frame (wpE (defs₀ (F := F)) 𝒱₀ (d : Thread nD τ) none) Set.univ (.op (.load hidM (Rect.unit (s := S1024x2048) off S256x2048.size hinb).toLoadRect hl) k) Q) := by
  subst hoff
  unfold hidOwns owns
  iintro ⟨%f, %hf, H⟩ Hk
  subst hf
  iapply (wp_load_rect 𝒱₀ (d : Thread nD τ) none Set.univ (m := hidM) (r := hidR q) (Finset.Subset.refl _)) $$ H
  iintro H
  iapply Hk
  iexists f
  isplitr
  · ipureintro; rfl
  · iexact H

theorem wp_store_hid (d : Dev nD) {α : Type} {Q : α → sProp 𝕄}
    (q : Fin 4) (v w : Vec F S256x2048 .bf16) {off : Fin 2 → Nat}
    {hinb : ∀ a, off a + S256x2048.size a ≤ S1024x2048.size a} (hoff : off = ![256 * q.val, 0])
    {hx : ((hidM : Memref sig .tc .vmem S1024x2048 .bf16).access (Rect.unit (s := S1024x2048) off S256x2048.size hinb)).Stores Finset.univ}
    {hm : (Finset.univ : Finset (Rect.unit (s := S1024x2048) off S256x2048.size hinb).shape.Idx) = Finset.univ ∨ ∀ a, (Rect.unit (s := S1024x2048) off S256x2048.size hinb).stride a = 1}
    {k : PUnit → Prog (TpuEff nD τ sig (Elt F) Λ₀ .tc) α} :
    (hidOwns d q v : sProp 𝕄)
      ⊢ iprop((hidOwns d q w -∗ wp frame (wpE (defs₀ (F := F)) 𝒱₀ (d : Thread nD τ) none) Set.univ (k ⟨⟩) Q)
        -∗ wp frame (wpE (defs₀ (F := F)) 𝒱₀ (d : Thread nD τ) none) Set.univ (.op (.store hidM (Rect.unit (s := S1024x2048) off S256x2048.size hinb) w Finset.univ hx hm) k) Q) := by
  subst hoff
  unfold hidOwns owns
  iintro ⟨%f, %hf, H⟩ Hk
  iapply (wp_store 𝒱₀ (d : Thread nD τ) none Set.univ (m := hidM) (r := hidR q) (Mk := Finset.univ) (S := (hidQM q).view.set) (f := f) (Finset.Subset.refl _)) $$ H
  iintro H
  iapply Hk
  iexists ((hidQM q).view.write (Elt F) f w Finset.univ)
  isplitr
  · ipureintro; exact View.read_write_univ f w
  · iexact H

theorem reshape_slot_idx (h : S256x512.numel = S1x1x1x256x512.numel) (i : S1x1x1x256x512.Idx) :
    Shape.reshapeEquiv h (ix2 (n0 := 256) (n1 := 512) (i 3) (i 4)) = i := by
  apply Shape.reshapeEquiv_eq_of_rowMajor
  rw [Shape.rowMajor_val_five, Shape.rowMajor_val_two]
  have h0 : (i 0).val < 1 := (i 0).isLt
  have h1 : (i 1).val < 1 := (i 1).isLt
  have h2 : (i 2).val < 1 := (i 2).isLt
  have e0 : (i 0).val = 0 := by omega
  have e1 : (i 1).val = 0 := by omega
  have e2 : (i 2).val = 0 := by omega
  rw [e0, e1, e2]
  show ((((0 * 1 + 0) * 1 + 0) * 256 + (i 3).val) * 512 + (i 4).val) = (i 3).val * 512 + (i 4).val
  omega

theorem read_slot (c s b : Fin 2) (f : (slotM c s b).view.ty.Contents (Elt F)) :
    ((rbM : Memref sig .tc .vmem S2x2x2x256x512 .bf16).access (slotR c s b)).read (Elt F) f = Spec.inSlot ((slotM c s b).view.read (Elt F) f) := by
  funext i
  unfold Spec.inSlot
  show _ = ((rbM : Memref sig .tc .vmem S2x2x2x256x512 .bf16).access (slotR c s b)).read (Elt F) f
      (Shape.reshapeEquiv squeezes_S1x1x1x256x512_S256x512.numel_eq (ix2 (n0 := 256) (n1 := 512) (i 3) (i 4)))
  rw [reshape_slot_idx]

theorem wp_load_slot (d : Dev nD) {α : Type} {Q : α → sProp 𝕄}
    (c s b : Fin 2) (v : Vec F S256x512 .bf16) {off : Fin 5 → Nat}
    {hinb : ∀ a, off a + S1x1x1x256x512.size a ≤ S2x2x2x256x512.size a} (hoff : off = ![c.val, s.val, b.val, 0, 0])
    {hl : (rbM : Memref sig .tc .vmem S2x2x2x256x512 .bf16).view.LoadsAt (Rect.unit (s := S2x2x2x256x512) off S1x1x1x256x512.size hinb).toLoadRect}
    {k : Vec F S1x1x1x256x512 .bf16 → Prog (TpuEff nD τ sig (Elt F) Λ₀ .tc) α} :
    (slotOwns d c s b v : sProp 𝕄)
      ⊢ iprop((slotOwns d c s b v -∗ wp frame (wpE (defs₀ (F := F)) 𝒱₀ (d : Thread nD τ) none) Set.univ (k (Spec.inSlot v)) Q)
        -∗ wp frame (wpE (defs₀ (F := F)) 𝒱₀ (d : Thread nD τ) none) Set.univ (.op (.load rbM (Rect.unit (s := S2x2x2x256x512) off S1x1x1x256x512.size hinb).toLoadRect hl) k) Q) := by
  subst hoff
  unfold slotOwns owns
  iintro ⟨%f, %hf, H⟩ Hk
  subst hf
  have hset : ((rbM : Memref sig .tc .vmem S2x2x2x256x512 .bf16).access (slotR c s b)).set ⊆ (slotM c s b).view.set := by
    exact Finset.subset_of_eq (View.set_reshape ((rbM : Memref sig .tc .vmem S2x2x2x256x512 .bf16).view.slice (slotR c s b)) squeezes_S1x1x1x256x512_S256x512.numel_eq).symm
  iapply (wp_load_rect 𝒱₀ (d : Thread nD τ) none Set.univ (m := rbM) (r := slotR c s b) (S := (slotM c s b).view.set) (f := f) hset) $$ H
  iintro H
  rw [read_slot]
  iapply Hk
  iexists f
  isplitr
  · ipureintro; rfl
  · iexact H

theorem read_xrows (q : Fin 4) (X : Vec F S1024x1024 .f32) {off : Fin 2 → Nat} (hoff : off = ![256 * q.val, 0])
    (hinb : ∀ a, off a + S256x1024.size a ≤ S1024x1024.size a) :
    (Memref.whole cc0_stg0_0 : Memref sig .tc .vmem S1024x1024 .f32).view.readAt (Elt F) (Rect.unit (s := S1024x1024) off S256x1024.size hinb).toLoadRect X
      = Spec.rowsQ q X := by
  subst hoff
  funext i
  unfold Spec.rowsQ
  show X _ = X _
  refine congrArg X (funext fun a => Fin.ext ?_)
  match a with
  | ⟨0, _⟩ => show 256 * q.val + 1 * (i 0).val = 256 * q.val + (i 0).val; omega
  | ⟨1, _⟩ => show 0 + 1 * (i 1).val = (i 1).val; omega

theorem wp_load_xrows (d : Dev nD) {α : Type} {Q : α → sProp 𝕄}
    (q : Fin 4) (X : Vec F S1024x1024 .f32) {qs : PosShare TreeShare} {off : Fin 2 → Nat}
    {hinb : ∀ a, off a + S256x1024.size a ≤ S1024x1024.size a} (hoff : off = ![256 * q.val, 0])
    {hl : (Memref.whole cc0_stg0_0 : Memref sig .tc .vmem S1024x1024 .f32).view.LoadsAt (Rect.unit (s := S1024x1024) off S256x1024.size hinb).toLoadRect}
    {k : Vec F S256x1024 .f32 → Prog (TpuEff nD τ sig (Elt F) Λ₀ .tc) α} :
    ((((d : Thread nD τ).loc cc0_stg0_0) ↦{qs} X) : sProp 𝕄)
      ⊢ iprop(((((d : Thread nD τ).loc cc0_stg0_0) ↦{qs} X) -∗ wp frame (wpE (defs₀ (F := F)) 𝒱₀ (d : Thread nD τ) none) Set.univ (k (Spec.rowsQ q X)) Q)
        -∗ wp frame (wpE (defs₀ (F := F)) 𝒱₀ (d : Thread nD τ) none) Set.univ (.op (.load (Memref.whole cc0_stg0_0) (Rect.unit (s := S1024x1024) off S256x1024.size hinb).toLoadRect hl) k) Q) := by
  have h := wp_load (defs := defs₀ (F := F)) 𝒱₀ (d : Thread nD τ) none (Γ := .empty) Set.univ (Q := Q) (m := (Memref.whole cc0_stg0_0 : Memref sig .tc .vmem S1024x1024 .f32))
    (r := (Rect.unit (s := S1024x1024) off S256x1024.size hinb).toLoadRect) (hl := hl) (k := k) (q := qs) (f := X) (S := Finset.univ) (Finset.subset_univ _)
  rwa [read_xrows q X hoff hinb] at h

theorem zero2 : (![0, 0] : Fin 2 → Nat) = fun _ => 0 := funext fun a => by fin_cases a <;> rfl

theorem wp_load_w1 (d : Dev nD) {α : Type} {Q : α → sProp 𝕄}
    (W : Vec F S1024x2048 .f32) {qs : PosShare TreeShare} {off : Fin 2 → Nat}
    {hinb : ∀ a, off a + S1024x2048.size a ≤ S1024x2048.size a} (hoff : off = ![0, 0])
    {hl : (Memref.whole cc0_stg1_0 : Memref sig .tc .vmem S1024x2048 .f32).view.LoadsAt (Rect.unit (s := S1024x2048) off S1024x2048.size hinb).toLoadRect}
    {k : Vec F S1024x2048 .f32 → Prog (TpuEff nD τ sig (Elt F) Λ₀ .tc) α} :
    ((((d : Thread nD τ).loc cc0_stg1_0) ↦{qs} W) : sProp 𝕄)
      ⊢ iprop(((((d : Thread nD τ).loc cc0_stg1_0) ↦{qs} W) -∗ wp frame (wpE (defs₀ (F := F)) 𝒱₀ (d : Thread nD τ) none) Set.univ (k W) Q)
        -∗ wp frame (wpE (defs₀ (F := F)) 𝒱₀ (d : Thread nD τ) none) Set.univ (.op (.load (Memref.whole cc0_stg1_0) (Rect.unit (s := S1024x2048) off S1024x2048.size hinb).toLoadRect hl) k) Q) := by
  have h := wp_load (defs := defs₀ (F := F)) 𝒱₀ (d : Thread nD τ) none (Γ := .empty) Set.univ (Q := Q) (m := (Memref.whole cc0_stg1_0 : Memref sig .tc .vmem S1024x2048 .f32))
    (r := (Rect.unit (s := S1024x2048) off S1024x2048.size hinb).toLoadRect) (hl := hl) (k := k) (q := qs) (f := W) (S := Finset.univ) (Finset.subset_univ _)
  have e : (Memref.whole cc0_stg1_0 : Memref sig .tc .vmem S1024x2048 .f32).view.readAt (Elt F) (Rect.unit (s := S1024x2048) off S1024x2048.size hinb).toLoadRect W = W :=
    Memref.readAt_unit_zero (Elt F) cc0_stg1_0 (hoff.trans zero2) hinb W
  rwa [e] at h

theorem wp_load_w2 (d : Dev nD) {α : Type} {Q : α → sProp 𝕄}
    (W : Vec F S2048x1024 .f32) {qs : PosShare TreeShare} {off : Fin 2 → Nat}
    {hinb : ∀ a, off a + S2048x1024.size a ≤ S2048x1024.size a} (hoff : off = ![0, 0])
    {hl : (Memref.whole cc0_stg2_0 : Memref sig .tc .vmem S2048x1024 .f32).view.LoadsAt (Rect.unit (s := S2048x1024) off S2048x1024.size hinb).toLoadRect}
    {k : Vec F S2048x1024 .f32 → Prog (TpuEff nD τ sig (Elt F) Λ₀ .tc) α} :
    ((((d : Thread nD τ).loc cc0_stg2_0) ↦{qs} W) : sProp 𝕄)
      ⊢ iprop(((((d : Thread nD τ).loc cc0_stg2_0) ↦{qs} W) -∗ wp frame (wpE (defs₀ (F := F)) 𝒱₀ (d : Thread nD τ) none) Set.univ (k W) Q)
        -∗ wp frame (wpE (defs₀ (F := F)) 𝒱₀ (d : Thread nD τ) none) Set.univ (.op (.load (Memref.whole cc0_stg2_0) (Rect.unit (s := S2048x1024) off S2048x1024.size hinb).toLoadRect hl) k) Q) := by
  have h := wp_load (defs := defs₀ (F := F)) 𝒱₀ (d : Thread nD τ) none (Γ := .empty) Set.univ (Q := Q) (m := (Memref.whole cc0_stg2_0 : Memref sig .tc .vmem S2048x1024 .f32))
    (r := (Rect.unit (s := S2048x1024) off S2048x1024.size hinb).toLoadRect) (hl := hl) (k := k) (q := qs) (f := W) (S := Finset.univ) (Finset.subset_univ _)
  have e : (Memref.whole cc0_stg2_0 : Memref sig .tc .vmem S2048x1024 .f32).view.readAt (Elt F) (Rect.unit (s := S2048x1024) off S2048x1024.size hinb).toLoadRect W = W :=
    Memref.readAt_unit_zero (Elt F) cc0_stg2_0 (hoff.trans zero2) hinb W
  rwa [e] at h

theorem exists_glue {sh : Shape} {β : Type} {T : Type} [Fintype T] (r : T → Rect sh)
    (hd : ∀ t t', t ≠ t' → Disjoint (r t).set (r t').set)
    (hcov : (Finset.univ : Finset T).biUnion (fun t => (r t).set) = Finset.univ)
    (Y : (t : T) → (r t).shape.Idx → β) : ∃ X : sh.Idx → β, ∀ t, (fun j => X ((r t).emb j)) = Y t := by
  classical
  have hex : ∀ i : sh.Idx, ∃ p : (Σ t, (r t).shape.Idx), (r p.1).emb p.2 = i := by
    intro i
    obtain ⟨t, -, hi⟩ := Finset.mem_biUnion.mp (hcov.symm ▸ Finset.mem_univ i)
    obtain ⟨j, hj⟩ := (r t).toLoadRect.exists_idx_of_mem hi
    exact ⟨⟨t, j⟩, hj⟩
  choose p hp using hex
  refine ⟨fun i => Y (p i).1 (p i).2, fun t => funext fun j => ?_⟩
  have hp' := hp ((r t).emb j)
  show Y (p ((r t).emb j)).1 (p ((r t).emb j)).2 = Y t j
  generalize p ((r t).emb j) = u at hp'
  obtain ⟨t', j'⟩ := u
  have ht : t' = t := by
    by_contra hne
    have m1 : (r t).emb j ∈ (r t').set := by rw [← hp']; exact (r t').toLoadRect.idx_mem j'
    have m2 : (r t).emb j ∈ (r t).set := (r t).toLoadRect.idx_mem j
    exact Finset.disjoint_left.mp (hd t' t hne) m1 m2
  subst ht
  have hj : j' = j := (r t').emb.injective hp'
  subst hj
  rfl

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

theorem bigSep_tiles (Φ : Fin 4 × Fin 2 → sProp 𝕄) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [bigSep_univ_prod, bigSep_fin_four]; simp only [bigSep_univ_two, sep_assoc_eq]

theorem bigSep_slots (Φ : Fin 2 × Fin 2 × Fin 2 → sProp 𝕄) :
    bigSep Finset.univ Φ
      = iprop(Φ (0, 0, 0) ∗ Φ (0, 0, 1) ∗ Φ (0, 1, 0) ∗ Φ (0, 1, 1) ∗ Φ (1, 0, 0) ∗ Φ (1, 0, 1) ∗ Φ (1, 1, 0) ∗ Φ (1, 1, 1)) := by
  rw [bigSep_univ_prod, bigSep_univ_two, bigSep_univ_prod, bigSep_univ_prod]; simp only [bigSep_univ_two, sep_assoc_eq]

abbrev tileRP (t : Fin 4 × Fin 2) : Rect S1024x1024 := tileR t.1 t.2

theorem tileR_disjoint (t t' : Fin 4 × Fin 2) (h : t ≠ t') : Disjoint (tileRP t).set (tileRP t').set := by
  obtain ⟨q, c⟩ := t
  obtain ⟨q', c'⟩ := t'
  by_cases hq : q = q'
  · have hc : c.val ≠ c'.val := fun e => h (by rw [hq, Fin.ext e])
    refine Rect.unit_disjoint (1 : Fin 2) ?_
    show 512 * c.val + 512 ≤ 512 * c'.val ∨ 512 * c'.val + 512 ≤ 512 * c.val
    omega
  · have hq' : q.val ≠ q'.val := fun e => hq (Fin.ext e)
    refine Rect.unit_disjoint (0 : Fin 2) ?_
    show 256 * q.val + 256 ≤ 256 * q'.val ∨ 256 * q'.val + 256 ≤ 256 * q.val
    omega

theorem tileR_cover : (Finset.univ : Finset (Fin 4 × Fin 2)).biUnion (fun t => (tileRP t).set) = Finset.univ := by
  ext i
  simp only [Finset.mem_biUnion, Finset.mem_univ, true_and, iff_true]
  have h0 : (i 0).val < 1024 := idx2_lt0 i
  have h1 : (i 1).val < 1024 := idx2_lt1 i
  refine ⟨(⟨(i 0).val / 256, by omega⟩, ⟨(i 1).val / 512, by omega⟩), ?_⟩
  rw [Rect.mem_set_unit]
  intro a
  match a with
  | ⟨0, _⟩ => show 256 * ((i 0).val / 256) ≤ (i 0).val ∧ (i 0).val < 256 * ((i 0).val / 256) + 256; omega
  | ⟨1, _⟩ => show 512 * ((i 1).val / 512) ≤ (i 1).val ∧ (i 1).val < 512 * ((i 1).val / 512) + 512; omega

theorem tiles_split_at (d : Dev nD) (f : Vec F S1024x1024 .bf16) :
    ((((d : Thread nD τ).loc cc0_stg3_0) ↦{fullShare} f) : sProp 𝕄)
      ⊢ bigSep Finset.univ fun t : Fin 4 × Fin 2 => tileOwns d t.1 t.2 (fun j => f ((tileR t.1 t.2).emb j)) :=
  (Entails.of_eq (owns_whole (d : Thread nD τ) cc0_stg3_0 fullShare f).symm).trans
    (owns_rects (d : Thread nD τ) outM fullShare tileRP (fun _ _ => rfl) tileR_disjoint tileR_cover f)

theorem tiles_split (d : Dev nD) (f : Vec F S1024x1024 .bf16) :
    ((((d : Thread nD τ).loc cc0_stg3_0) ↦{fullShare} f) : sProp 𝕄)
      ⊢ iprop((∃ v, tileOwns d 0 0 v) ∗ (∃ v, tileOwns d 0 1 v) ∗ (∃ v, tileOwns d 1 0 v) ∗ (∃ v, tileOwns d 1 1 v)
          ∗ (∃ v, tileOwns d 2 0 v) ∗ (∃ v, tileOwns d 2 1 v) ∗ (∃ v, tileOwns d 3 0 v) ∗ (∃ v, tileOwns d 3 1 v)) := by
  rw [← bigSep_tiles (fun t => iprop(∃ v, tileOwns (F := F) d t.1 t.2 v))]
  have h (t : Fin 4 × Fin 2) : (tileOwns d t.1 t.2 (fun j => f ((tileR t.1 t.2).emb j)) : sProp 𝕄) ⊢ iprop(∃ v, tileOwns d t.1 t.2 v) := by
    iintro H
    iframe # ∗; iexists _; iframe
  exact (tiles_split_at d f).trans (bigSep_mono fun t _ => h t)

theorem tiles_join (d : Dev nD) (T : Fin 4 → Fin 2 → Vec F S256x512 .bf16) :
    (iprop(tileOwns d 0 0 (T 0 0) ∗ tileOwns d 0 1 (T 0 1) ∗ tileOwns d 1 0 (T 1 0) ∗ tileOwns d 1 1 (T 1 1)
        ∗ tileOwns d 2 0 (T 2 0) ∗ tileOwns d 2 1 (T 2 1) ∗ tileOwns d 3 0 (T 3 0) ∗ tileOwns d 3 1 (T 3 1)) : sProp 𝕄)
      ⊢ (((d : Thread nD τ).loc cc0_stg3_0) ↦{fullShare} (fun i : S1024x1024.Idx =>
          T ⟨(i 0).val / 256, by have h0 : (i 0).val < 1024 := idx2_lt0 i; omega⟩ ⟨(i 1).val / 512, by have h1 : (i 1).val < 1024 := idx2_lt1 i; omega⟩
            (ix2 (n0 := 256) (n1 := 512) ⟨(i 0).val % 256, Nat.mod_lt _ (by decide)⟩ ⟨(i 1).val % 512, Nat.mod_lt _ (by decide)⟩))) := by
  rw [← bigSep_tiles (fun t => tileOwns (F := F) d t.1 t.2 (T t.1 t.2))]
  refine BIBase.Entails.trans ?_ ((owns_of_rects (d : Thread nD τ) outM fullShare tileRP (fun _ _ => rfl) tileR_disjoint tileR_cover _).trans
    (Entails.of_eq (owns_whole (d : Thread nD τ) cc0_stg3_0 fullShare _)))
  refine Entails.of_eq (bigSep_congr fun t _ => ?_)
  obtain ⟨q, c⟩ := t
  show tileOwns d q c (T q c) = tileOwns d q c _
  refine congrArg (tileOwns d q c) (funext fun j => ?_)
  have hj0 : (j 0).val < 256 := idx2_lt0 j
  have hj1 : (j 1).val < 512 := idx2_lt1 j
  have e0 : (((tileR q c).emb j) 0).val = 256 * q.val + (j 0).val := by
    show 256 * q.val + 1 * (j 0).val = _; omega
  have e1 : (((tileR q c).emb j) 1).val = 512 * c.val + (j 1).val := by
    show 512 * c.val + 1 * (j 1).val = _; omega
  refine congr (congr (congrArg T (Fin.ext ?_)) (Fin.ext ?_)) (funext fun a => Fin.ext ?_)
  · show q.val = (((tileR q c).emb j) 0).val / 256; rw [e0]; omega
  · show c.val = (((tileR q c).emb j) 1).val / 512; rw [e1]; omega
  · match a with
    | ⟨0, _⟩ => show (j 0).val = (((tileR q c).emb j) 0).val % 256; rw [e0]; omega
    | ⟨1, _⟩ => show (j 1).val = (((tileR q c).emb j) 1).val % 512; rw [e1]; omega

theorem tiles_join_result (A : Spec.Args F) (d : Dev nD) :
    (iprop(tileOwns d 0 0 (Spec.tile A d 0 0) ∗ tileOwns d 0 1 (Spec.tile A d 0 1) ∗ tileOwns d 1 0 (Spec.tile A d 1 0) ∗ tileOwns d 1 1 (Spec.tile A d 1 1)
        ∗ tileOwns d 2 0 (Spec.tile A d 2 0) ∗ tileOwns d 2 1 (Spec.tile A d 2 1) ∗ tileOwns d 3 0 (Spec.tile A d 3 0) ∗ tileOwns d 3 1 (Spec.tile A d 3 1)) : sProp 𝕄)
      ⊢ (((d : Thread nD τ).loc cc0_stg3_0) ↦{fullShare} Spec.result A d) :=
  tiles_join d (Spec.tile A d)

theorem hidR_disjoint (q q' : Fin 4) (h : q ≠ q') : Disjoint (hidR q).set (hidR q').set := by
  have hq : q.val ≠ q'.val := fun e => h (Fin.ext e)
  refine Rect.unit_disjoint (0 : Fin 2) ?_
  show 256 * q.val + 256 ≤ 256 * q'.val ∨ 256 * q'.val + 256 ≤ 256 * q.val
  omega

theorem hidR_cover : (Finset.univ : Finset (Fin 4)).biUnion (fun q => (hidR q).set) = Finset.univ := by
  ext i
  simp only [Finset.mem_biUnion, Finset.mem_univ, true_and, iff_true]
  have h0 : (i 0).val < 1024 := idx2_lt0 i
  have h1 : (i 1).val < 2048 := idx2_lt1 i
  refine ⟨⟨(i 0).val / 256, by omega⟩, ?_⟩
  rw [Rect.mem_set_unit]
  intro a
  match a with
  | ⟨0, _⟩ => show 256 * ((i 0).val / 256) ≤ (i 0).val ∧ (i 0).val < 256 * ((i 0).val / 256) + 256; omega
  | ⟨1, _⟩ => show 0 ≤ (i 1).val ∧ (i 1).val < 0 + 2048; omega

theorem hid_split_at (d : Dev nD) (f : Vec F S1024x2048 .bf16) :
    ((((d : Thread nD τ).loc cc0_scratch0) ↦{fullShare} f) : sProp 𝕄)
      ⊢ bigSep Finset.univ fun q : Fin 4 => hidOwns d q (fun j => f ((hidR q).emb j)) :=
  (Entails.of_eq (owns_whole (d : Thread nD τ) cc0_scratch0 fullShare f).symm).trans
    (owns_rects (d : Thread nD τ) hidM fullShare hidR (fun _ _ => rfl) hidR_disjoint hidR_cover f)

theorem hid_split (d : Dev nD) (f : Vec F S1024x2048 .bf16) :
    ((((d : Thread nD τ).loc cc0_scratch0) ↦{fullShare} f) : sProp 𝕄)
      ⊢ iprop((∃ v, hidOwns d 0 v) ∗ (∃ v, hidOwns d 1 v) ∗ (∃ v, hidOwns d 2 v) ∗ (∃ v, hidOwns d 3 v)) := by
  rw [← bigSep_fin_four (fun q => iprop(∃ v, hidOwns (F := F) d q v))]
  have h (q : Fin 4) : (hidOwns d q (fun j => f ((hidR q).emb j)) : sProp 𝕄) ⊢ iprop(∃ v, hidOwns d q v) := by
    iintro H
    iframe # ∗; iexists _; iframe
  exact (hid_split_at d f).trans (bigSep_mono fun q _ => h q)

theorem whole_of_pieces (d : Dev nD) (b : Ref sig .tc) {T : Type} [Fintype T] [DecidableEq T] (r : T → Rect b.ty.shape)
    (hr : ∀ t a, (r t).stride a = 1) (hd : ∀ t t', t ≠ t' → Disjoint (r t).set (r t').set)
    (hcov : (Finset.univ : Finset T).biUnion (fun t => (r t).set) = Finset.univ) :
    (bigSep Finset.univ (fun t => iprop(∃ Y, owns (d : Thread nD τ) ((Memref.whole b).slice (r t) (hr t)) fullShare Y)) : sProp 𝕄)
      ⊢ iprop(∃ f, ((d : Thread nD τ).loc b) ↦{fullShare} f) := by
  refine (bigSep_exists_pi Finset.univ (fun t Y => owns (d : Thread nD τ) ((Memref.whole b).slice (r t) (hr t)) fullShare Y)).trans ?_
  iintro ⟨%Y, H⟩
  obtain ⟨X, hX⟩ := exists_glue r hd hcov Y
  have hfin : (bigSep Finset.univ (fun t => owns (d : Thread nD τ) ((Memref.whole b).slice (r t) (hr t)) fullShare (Y t)) : sProp 𝕄)
      ⊢ (((d : Thread nD τ).loc b) ↦{fullShare} X) := by
    have e : (fun t => (owns (d : Thread nD τ) ((Memref.whole b).slice (r t) (hr t)) fullShare (Y t) : sProp 𝕄))
        = fun t => owns (d : Thread nD τ) ((Memref.whole b).slice (r t) (hr t)) fullShare (fun j => X ((r t).emb j)) :=
      funext fun t => by rw [hX t]
    rw [e]
    exact (owns_of_rects (d : Thread nD τ) (Memref.whole b) fullShare r hr hd hcov X).trans
      (Entails.of_eq (owns_whole (d : Thread nD τ) b fullShare X))
  iexists X
  iapply hfin
  iexact H

theorem hid_join (d : Dev nD) :
    (iprop((∃ v, hidOwns d 0 v) ∗ (∃ v, hidOwns d 1 v) ∗ (∃ v, hidOwns d 2 v) ∗ (∃ v, hidOwns d 3 v)) : sProp 𝕄)
      ⊢ iprop(∃ f, ((d : Thread nD τ).loc cc0_scratch0) ↦{fullShare} f) := by
  rw [← bigSep_fin_four (fun q => iprop(∃ v, hidOwns (F := F) d q v))]
  exact whole_of_pieces d cc0_scratch0 hidR (fun _ _ => rfl) hidR_disjoint hidR_cover

abbrev slotRP (t : Fin 2 × Fin 2 × Fin 2) : Rect S2x2x2x256x512 := slotR t.1 t.2.1 t.2.2

theorem slotR_disjoint (t t' : Fin 2 × Fin 2 × Fin 2) (h : t ≠ t') : Disjoint (slotRP t).set (slotRP t').set := by
  obtain ⟨c, s, b⟩ := t
  obtain ⟨c', s', b'⟩ := t'
  by_cases hc : c = c'
  · by_cases hs : s = s'
    · have hb : b.val ≠ b'.val := fun e => h (by rw [hc, hs, Fin.ext e])
      refine Rect.unit_disjoint (2 : Fin 5) ?_
      show b.val + 1 ≤ b'.val ∨ b'.val + 1 ≤ b.val
      omega
    · have hs' : s.val ≠ s'.val := fun e => hs (Fin.ext e)
      refine Rect.unit_disjoint (1 : Fin 5) ?_
      show s.val + 1 ≤ s'.val ∨ s'.val + 1 ≤ s.val
      omega
  · have hc' : c.val ≠ c'.val := fun e => hc (Fin.ext e)
    refine Rect.unit_disjoint (0 : Fin 5) ?_
    show c.val + 1 ≤ c'.val ∨ c'.val + 1 ≤ c.val
    omega

theorem slotR_cover : (Finset.univ : Finset (Fin 2 × Fin 2 × Fin 2)).biUnion (fun t => (slotRP t).set) = Finset.univ := by
  ext i
  simp only [Finset.mem_biUnion, Finset.mem_univ, true_and, iff_true]
  have h0 : (i 0).val < 2 := (i 0).isLt
  have h1 : (i 1).val < 2 := (i 1).isLt
  have h2 : (i 2).val < 2 := (i 2).isLt
  have h3 : (i 3).val < 256 := (i 3).isLt
  have h4 : (i 4).val < 512 := (i 4).isLt
  refine ⟨(⟨(i 0).val, h0⟩, ⟨(i 1).val, h1⟩, ⟨(i 2).val, h2⟩), ?_⟩
  rw [Rect.mem_set_unit]
  intro a
  match a with
  | ⟨0, _⟩ => show (i 0).val ≤ (i 0).val ∧ (i 0).val < (i 0).val + 1; omega
  | ⟨1, _⟩ => show (i 1).val ≤ (i 1).val ∧ (i 1).val < (i 1).val + 1; omega
  | ⟨2, _⟩ => show (i 2).val ≤ (i 2).val ∧ (i 2).val < (i 2).val + 1; omega
  | ⟨3, _⟩ => show 0 ≤ (i 3).val ∧ (i 3).val < 0 + 256; omega
  | ⟨4, _⟩ => show 0 ≤ (i 4).val ∧ (i 4).val < 0 + 512; omega

theorem pointsTo_squeeze (t : Thread nD τ) {sh sh' : Shape} {e : EltTy} (mr : Memref sig t.2.kind .vmem sh e) (h : sh.Squeezes sh')
    (q : PosShare TreeShare) (f : mr.view.ty.Contents (Elt F)) :
    ((mr.squeeze sh' h).view.loc t ↦[(mr.squeeze sh' h).view.set]{q} f : sProp 𝕄) = (mr.view.loc t ↦[mr.view.set]{q} f) :=
  congrArg (fun I => (mr.view.loc t ↦[I]{q} f : sProp 𝕄)) (View.set_reshape mr.view h.numel_eq)

theorem slotAny_of_box (d : Dev nD) (c s b : Fin 2) (Y : Vec F S1x1x1x256x512 .bf16) :
    (owns (d : Thread nD τ) ((rbM : Memref sig .tc .vmem S2x2x2x256x512 .bf16).slice (slotR c s b) (fun _ => rfl)) fullShare Y : sProp 𝕄)
      ⊢ slotAny d c s b := by
  unfold slotAny slotOwns owns
  iintro ⟨%f, %hf, H⟩
  iexists ((slotM c s b).view.read (Elt F) f), f
  isplitr
  · ipureintro; rfl
  · iapply (Entails.of_eq (pointsTo_squeeze (d : Thread nD τ) ((rbM : Memref sig .tc .vmem S2x2x2x256x512 .bf16).slice (slotR c s b) (fun _ => rfl))
      squeezes_S1x1x1x256x512_S256x512 fullShare f).symm)
    iexact H

theorem box_of_slotAny (d : Dev nD) (c s b : Fin 2) :
    (slotAny d c s b : sProp 𝕄)
      ⊢ iprop(∃ Y, owns (d : Thread nD τ) ((rbM : Memref sig .tc .vmem S2x2x2x256x512 .bf16).slice (slotR c s b) (fun _ => rfl)) fullShare Y) := by
  unfold slotAny slotOwns owns
  iintro ⟨%v, %f, %hf, H⟩
  iexists (((rbM : Memref sig .tc .vmem S2x2x2x256x512 .bf16).slice (slotR c s b) (fun _ => rfl)).view.read (Elt F) f), f
  isplitr
  · ipureintro; rfl
  · iapply (Entails.of_eq (pointsTo_squeeze (d : Thread nD τ) ((rbM : Memref sig .tc .vmem S2x2x2x256x512 .bf16).slice (slotR c s b) (fun _ => rfl))
      squeezes_S1x1x1x256x512_S256x512 fullShare f))
    iexact H

theorem slots_split (d : Dev nD) (f : Vec F S2x2x2x256x512 .bf16) :
    ((((d : Thread nD τ).loc cc0_scratch1) ↦{fullShare} f) : sProp 𝕄)
      ⊢ iprop(slotAny d 0 0 0 ∗ slotAny d 0 0 1 ∗ slotAny d 0 1 0 ∗ slotAny d 0 1 1
          ∗ slotAny d 1 0 0 ∗ slotAny d 1 0 1 ∗ slotAny d 1 1 0 ∗ slotAny d 1 1 1) := by
  rw [← bigSep_slots (fun t => slotAny (F := F) d t.1 t.2.1 t.2.2)]
  exact ((Entails.of_eq (owns_whole (d : Thread nD τ) cc0_scratch1 fullShare f).symm).trans
    (owns_rects (d : Thread nD τ) rbM fullShare slotRP (fun _ _ => rfl) slotR_disjoint slotR_cover f)).trans
    (bigSep_mono fun t _ => slotAny_of_box d t.1 t.2.1 t.2.2 _)

theorem slots_join (d : Dev nD) :
    (iprop(slotAny d 0 0 0 ∗ slotAny d 0 0 1 ∗ slotAny d 0 1 0 ∗ slotAny d 0 1 1
        ∗ slotAny d 1 0 0 ∗ slotAny d 1 0 1 ∗ slotAny d 1 1 0 ∗ slotAny d 1 1 1) : sProp 𝕄)
      ⊢ iprop(∃ f, ((d : Thread nD τ).loc cc0_scratch1) ↦{fullShare} f) := by
  rw [← bigSep_slots (fun t => slotAny (F := F) d t.1 t.2.1 t.2.2)]
  exact (bigSep_mono fun t _ => box_of_slotAny d t.1 t.2.1 t.2.2).trans
    (whole_of_pieces d cc0_scratch1 slotRP (fun _ _ => rfl) slotR_disjoint slotR_cover)

end Cert.Kernel.Coll

end
-- ==== Proof.Kernel.BodyEnds.lean ====
/-
  The two ends of the body: its precondition cut into the pieces the protocol moves, and the pieces joined again
  into its postcondition, every tile at the sum of the four partials.
-/
import proofs.«900576_g7700000000000577_dist_mlp2_tp_i_m1024_h2048_out1024_v7x_i4_bf16_1_alg».proof.Proof.Kernel.States
import proofs.«900576_g7700000000000577_dist_mlp2_tp_i_m1024_h2048_out1024_v7x_i4_bf16_1_alg».proof.Proof.Kernel.Regions
import proofs.«900576_g7700000000000577_dist_mlp2_tp_i_m1024_h2048_out1024_v7x_i4_bf16_1_alg».proof.Proof.Kernel.Tables

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Ends

theorem bigSep_quad (Φ : Fin 4 → sProp 𝕄) (a b c e : Fin 4) (h : (Finset.univ : Finset (Fin 4)) = {a, b, c, e})
    (h1 : a ∉ ({b, c, e} : Finset (Fin 4))) (h2 : b ∉ ({c, e} : Finset (Fin 4))) (h3 : c ∉ ({e} : Finset (Fin 4))) :
    bigSep Finset.univ Φ = iprop(Φ a ∗ Φ b ∗ Φ c ∗ Φ e) := by
  rw [h, bigSep_insert h1, bigSep_insert h2, bigSep_insert h3, bigSep_singleton]
  rfl

theorem roles (d : Dev nD) (Φ : Fin 4 → sProp 𝕄) :
    iprop(Φ 0 ∗ Φ 1 ∗ Φ 2 ∗ Φ 3) = iprop(Φ (sendQ 0 d) ∗ Φ (sendQ 1 d) ∗ Φ (keepQ 0 d) ∗ Φ (keepQ 1 d)) :=
  (bigSep_quad Φ 0 1 2 3 (by decide) (by decide) (by decide) (by decide)).symm.trans
    (bigSep_quad Φ (sendQ 0 d) (sendQ 1 d) (keepQ 0 d) (keepQ 1 d) (by revert d; decide) (by revert d; decide) (by revert d; decide)
      (by revert d; decide))

theorem tile_keep0 (A : Spec.Args F) (d : Dev nD) (c : Fin 2) : Spec.tile A d (keepQ 0 d) c = afterSecond A d c 0 := by
  unfold Spec.tile; exact if_pos rfl
theorem tile_keep1 (A : Spec.Args F) (d : Dev nD) (c : Fin 2) : Spec.tile A d (keepQ 1 d) c = afterSecond A d c 1 := by
  unfold Spec.tile; rw [if_neg (by revert d; decide)]; exact if_pos rfl
theorem tile_send0 (A : Spec.Args F) (d : Dev nD) (c : Fin 2) : Spec.tile A d (sendQ 0 d) c = afterSecond A (partner 2 0 d) c 0 := by
  unfold Spec.tile; rw [if_neg (by revert d; decide), if_neg (by revert d; decide)]; exact if_pos rfl
theorem tile_send1 (A : Spec.Args F) (d : Dev nD) (c : Fin 2) : Spec.tile A d (sendQ 1 d) c = afterSecond A (partner 2 1 d) c 1 := by
  unfold Spec.tile; rw [if_neg (by revert d; decide), if_neg (by revert d; decide)]; exact if_neg (by revert d; decide)

theorem bigSepL_cons' {I : Type} (i : I) (l : List I) (Φ : I → sProp 𝕄) : bigSepL (i :: l) Φ = iprop(Φ i ∗ bigSepL l Φ) :=
  bigSepL_cons i l Φ

theorem unwaited_intro (d : Dev nD) (l : List Xf) :
    (iprop((bigSepL l fun x => iprop(atPos ER (sendCellX d x) 0 ∅ 0 ∗ atPos ER (recvCellX d x) 0 ∅ 0))
        ∗ bigSepL l fun x => cred (tallyAt (recvCellX d x) () N)) : sProp 𝕄) ⊢ Unwaited d l := by
  unfold Unwaited
  induction l with
  | nil => rw [bigSepL_nil]; iintro -; iempintro
  | cons x l ih =>
    rw [bigSepL_cons', bigSepL_cons', bigSepL_cons']
    iintro ⟨⟨⟨H1, H2⟩, HP⟩, H3, HC⟩
    isplitl [H1 H2 H3]
    · isplitl [H1]; · iexact H1
      isplitl [H2]; · iexact H2
      iexact H3
    · iapply ih
      iframe # ∗

theorem fetch_0 (t : Fin cfg0.N) : (cfg0.win (0 : Fin 4)).fetch t = true := fetch0_0 t
theorem fetch_1 (t : Fin cfg0.N) : (cfg0.win (1 : Fin 4)).fetch t = true := fetch0_1 t
theorem fetch_2 (t : Fin cfg0.N) : (cfg0.win (2 : Fin 4)).fetch t = true := fetch0_2 t

end Ends

open Ends

theorem enter (K : Dev nD × Fin 25 → ℕ) (d : Dev nD) : bodyPre m ρ K d ⊢ B0 m K d := by
  unfold bodyPre ghost positions payToks creds scratch Dat.owesAt Pipeline.owesWithin
  rw [show (dats m ρ 0 d).owed t₀.castSucc = O₀ d from rfl]
  iintro ⟨⟨⟨Hrec, ⟨HatB, Hpos⟩, HtA, HtB, Htok⟩, ⟨HcB, Hcr⟩, Hlev, ⟨%fh, Hhid⟩, ⟨%fr, Hrb⟩⟩, ⟨%W, %hW, HO⟩,
    ⟨%e0, %g0, %hg0, Hx⟩, ⟨%e1, %g1, %hg1, Hw1⟩, ⟨%e2, %g2, %hg2, Hw2⟩, ⟨%e3, %g3, %hg3, Hout⟩⟩
  have hx : g0 = xstg m d := by rw [hg0]; unfold Dat.before; rw [if_pos (fetch_0 t₀)]; rfl
  have hw1 : g1 = w1stg m d := by rw [hg1]; unfold Dat.before; rw [if_pos (fetch_1 t₀)]; rfl
  have hw2 : g2 = w2stg m d := by rw [hg2]; unfold Dat.before; rw [if_pos (fetch_2 t₀)]; rfl
  subst hx hw1 hw2
  ihave Hun := (unwaited_intro d sends) $$ [Hpos Hcr]
  · iframe # ∗
  ihave Hh := (hid_split d fh) $$ Hhid
  ihave Hh := (Entails.of_eq (roles d (fun q => hidAny (F := F) d q))) $$ Hh
  ihave Hs := (slots_split d fr) $$ Hrb
  ihave Ht := (tiles_split d g3) $$ Hout
  icases Ht with ⟨H00, H01, H10, H11, H20, H21, H30, H31⟩
  ihave Ht : iprop((tileAny (F := F) d 0 0 ∗ tileAny (F := F) d 0 1) ∗ (tileAny (F := F) d 1 0 ∗ tileAny (F := F) d 1 1)
      ∗ (tileAny (F := F) d 2 0 ∗ tileAny (F := F) d 2 1) ∗ (tileAny (F := F) d 3 0 ∗ tileAny (F := F) d 3 1))
    $$ [H00 H01 H10 H11 H20 H21 H30 H31]
  · iframe
  ihave Ht := (Entails.of_eq (roles d (fun q => iprop(tileAny (F := F) d q 0 ∗ tileAny (F := F) d q 1)))) $$ Ht
  icases Ht with ⟨⟨Ts00, Ts01⟩, ⟨Ts10, Ts11⟩, ⟨Tk00, Tk01⟩, ⟨Tk10, Tk11⟩⟩
  icases Hh with ⟨Hh0, Hh1, Hh2, Hh3⟩
  icases Hs with ⟨S000, S001, S010, S011, S100, S101, S110, S111⟩
  unfold B0 Know Inputs Unissued
  ihave HO' : iprop(∃ W, owes (d : Thread nD τ) (O₀ d) W) $$ [HO]
  · iexists W; iexact HO
  iframe

theorem leave (K : Dev nD × Fin 25 → ℕ) (d : Dev nD) : Bend m K d ⊢ bodyPost m ρ d := by
  unfold Bend Know Inputs Proto Unissued InFlight Unwaited Done
  rw [show sends.take 12 = sends from rfl, show sends.drop 12 = [] from rfl, oweL_nil]
  iintro ⟨-, ⟨Hx, Hw1, Hw2⟩, ⟨⟨%W, HO⟩, -, -, -, Hdone⟩, ⟨Hh0, Hh1, Hh2, Hh3⟩,
    ⟨Tk00, Tk10, Tk01, Tk11, Ts00, Ts10, Ts01, Ts11⟩, ⟨S000, S001, S100, S101, S010, S011, S110, S111⟩⟩

  ihave Hh : iprop(hidAny (F := F) d (sendQ 0 d) ∗ hidAny (F := F) d (sendQ 1 d) ∗ hidAny (F := F) d (keepQ 0 d) ∗ hidAny (F := F) d (keepQ 1 d))
    $$ [Hh0 Hh1 Hh2 Hh3]
  · isplitl [Hh0]; · iexists _; iexact Hh0
    isplitl [Hh1]; · iexists _; iexact Hh1
    isplitl [Hh2]; · iexists _; iexact Hh2
    iexists _; iexact Hh3
  ihave Hh := (Entails.of_eq (roles d (fun q => hidAny (F := F) d q)).symm) $$ Hh
  ihave Hhid := (hid_join d) $$ Hh

  ihave Hs : iprop(slotAny (F := F) d 0 0 0 ∗ slotAny (F := F) d 0 0 1 ∗ slotAny (F := F) d 0 1 0 ∗ slotAny (F := F) d 0 1 1
      ∗ slotAny (F := F) d 1 0 0 ∗ slotAny (F := F) d 1 0 1 ∗ slotAny (F := F) d 1 1 0 ∗ slotAny (F := F) d 1 1 1)
    $$ [S000 S001 S100 S101 S010 S011 S110 S111]
  · isplitl [S000]; · iexists _; iexact S000
    isplitl [S001]; · iexists _; iexact S001
    isplitl [S010]; · iexists _; iexact S010
    isplitl [S011]; · iexists _; iexact S011
    isplitl [S100]; · iexists _; iexact S100
    isplitl [S101]; · iexists _; iexact S101
    isplitl [S110]; · iexists _; iexact S110
    iexists _; iexact S111
  ihave Hrb := (slots_join d) $$ Hs

  ihave Ht : iprop((tileOwns d (sendQ 0 d) 0 (Spec.tile (A m) d (sendQ 0 d) 0) ∗ tileOwns d (sendQ 0 d) 1 (Spec.tile (A m) d (sendQ 0 d) 1))
      ∗ (tileOwns d (sendQ 1 d) 0 (Spec.tile (A m) d (sendQ 1 d) 0) ∗ tileOwns d (sendQ 1 d) 1 (Spec.tile (A m) d (sendQ 1 d) 1))
      ∗ (tileOwns d (keepQ 0 d) 0 (Spec.tile (A m) d (keepQ 0 d) 0) ∗ tileOwns d (keepQ 0 d) 1 (Spec.tile (A m) d (keepQ 0 d) 1))
      ∗ (tileOwns d (keepQ 1 d) 0 (Spec.tile (A m) d (keepQ 1 d) 0) ∗ tileOwns d (keepQ 1 d) 1 (Spec.tile (A m) d (keepQ 1 d) 1)))
    $$ [Tk00 Tk10 Tk01 Tk11 Ts00 Ts10 Ts01 Ts11]
  · rw [tile_send0, tile_send0, tile_send1, tile_send1, tile_keep0, tile_keep0, tile_keep1, tile_keep1]
    iframe
  ihave Ht := (Entails.of_eq (roles d (fun q => iprop(tileOwns d q 0 (Spec.tile (A m) d q 0) ∗ tileOwns d q 1 (Spec.tile (A m) d q 1)))).symm) $$ Ht
  icases Ht with ⟨⟨H00, H01⟩, ⟨H10, H11⟩, ⟨H20, H21⟩, ⟨H30, H31⟩⟩
  ihave Hres := (tiles_join_result (A m) d) $$ [H00 H01 H10 H11 H20 H21 H30 H31]
  · iframe

  unfold bodyPost Φ₁ scratch Dat.owesAt Pipeline.owesWithin
  rw [show (dats m ρ 0 d).owed t₀.succ = 0 from rfl]
  isplitl [Hhid Hrb Hdone]
  · isplitl [Hhid Hrb]
    · isplitl [Hhid]; · iexact Hhid
      iexact Hrb
    · iexact Hdone
  isplitl [HO]
  · iexists W
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hres

end Cert.Kernel.Coll

end
-- ==== Proof.Kernel.Steps.lean ====
/-
  One rule per protocol step: the two barrier signals and the barrier wait, a transfer of each of the three steps,
  and the waits on a transfer's send and receive cells.
-/
import proofs.«900576_g7700000000000577_dist_mlp2_tp_i_m1024_h2048_out1024_v7x_i4_bf16_1_alg».proof.Proof.Kernel.Tables
import proofs.«900576_g7700000000000577_dist_mlp2_tp_i_m1024_h2048_out1024_v7x_i4_bf16_1_alg».proof.Proof.Kernel.Regions

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barIx : Fin 25 := 0
abbrev sendIx (c : Fin 2) (s : Fin 3) (b : Fin 2) : Fin 25 := ⟨1 + (c.val * 6 + s.val * 2 + b.val), by have := c.isLt; have := s.isLt; have := b.isLt; omega⟩
abbrev recvIx (c : Fin 2) (s : Fin 3) (b : Fin 2) : Fin 25 := ⟨13 + (c.val * 6 + s.val * 2 + b.val), by have := c.isLt; have := s.isLt; have := b.isLt; omega⟩

theorem kcell_send (d : Dev nD) (c : Fin 2) (s : Fin 3) (b : Fin 2) : kcell (d, sendIx c s b) = sendCell d c s b := by
  revert c s b; intro c s b; fin_cases c <;> fin_cases s <;> fin_cases b <;> rfl
theorem kcell_recv (d : Dev nD) (c : Fin 2) (s : Fin 3) (b : Fin 2) : kcell (d, recvIx c s b) = recvCell d c s b := by
  revert c s b; intro c s b; fin_cases c <;> fin_cases s <;> fin_cases b <;> rfl

variable (K : Dev nD × Fin 25 → ℕ)

instance records_persistent : BI.Persistent (records m K) := by unfold records; infer_instance

theorem inv_at (ck : Dev nD × Fin 25) : records m K ⊢ cellInv ER (rd m) (K ck) (kcell ck) := by
  have h : (bigSep Finset.univ fun ck : Dev nD × Fin 25 => (cellInv ER (rd m) (K ck) (kcell ck) : sProp 𝕄)) ⊢ cellInv ER (rd m) (K ck) (kcell ck) :=
    bigSep_elim (Finset.mem_univ ck)
  unfold records; iintro ⟨HI, -⟩; iapply h; iexact HI
theorem reached_at (ck : Dev nD × Fin 25) : records m K ⊢ (reached ER (kcell ck) 0 : sProp 𝕄) := by
  have h : (bigSep Finset.univ fun ck : Dev nD × Fin 25 => (reached ER (kcell ck) 0 : sProp 𝕄)) ⊢ reached ER (kcell ck) 0 :=
    bigSep_elim (Finset.mem_univ ck)
  unfold records; iintro ⟨-, HR⟩; iapply h; iexact HR

theorem inv_bar (d : Dev nD) : records m K ⊢ cellInv ER (rd m) (K (d, barIx)) (barCell d) := inv_at m K (d, barIx)
theorem inv_send (d : Dev nD) (c : Fin 2) (s : Fin 3) (b : Fin 2) : records m K ⊢ cellInv ER (rd m) (K (d, sendIx c s b)) (sendCell d c s b) := by
  rw [← kcell_send]; exact inv_at m K _
theorem inv_recv (d : Dev nD) (c : Fin 2) (s : Fin 3) (b : Fin 2) : records m K ⊢ cellInv ER (rd m) (K (d, recvIx c s b)) (recvCell d c s b) := by
  rw [← kcell_recv]; exact inv_at m K _
theorem rch_bar (d : Dev nD) : records m K ⊢ (reached ER (barCell d) 0 : sProp 𝕄) := reached_at m K (d, barIx)
theorem rch_send (d : Dev nD) (c : Fin 2) (s : Fin 3) (b : Fin 2) : records m K ⊢ (reached ER (sendCell d c s b) 0 : sProp 𝕄) := by
  rw [← kcell_send]; exact reached_at m K _
theorem rch_recv (d : Dev nD) (c : Fin 2) (s : Fin 3) (b : Fin 2) : records m K ⊢ (reached ER (recvCell d c s b) 0 : sProp 𝕄) := by
  rw [← kcell_recv]; exact reached_at m K _

theorem step_signal (d e : Dev nD) (dty : Bool) {O₀' O : CellTallies nD τ sig Unit} (hO : O₀' = O + tallyAt (barCell e) () 1)
    {W : Waits sig Unit} {α : Type} {Q : α → sProp 𝕄} {k : PUnit → Prog (TpuEff nD τ sig (Elt F) Λ₀ .tc) α} :
    iprop(records m K ∗ owes (d : Thread nD τ) O₀' W ∗ dutyTok ER (barCell e) 0 dty ∗ barPay (F := F) e dty)
      ⊢ iprop((owes (d : Thread nD τ) O W -∗ wp frame (wpE (defs₀ (F := F)) 𝒱₀ (d : Thread nD τ) none) Set.univ (k ⟨⟩) Q)
          -∗ wp frame (wpE (defs₀ (F := F)) 𝒱₀ (d : Thread nD τ) none) Set.univ (.op (.semSignal (e : Thread nD τ) barS 1) k) Q) := by
  iintro ⟨#HR, HO, Htok, Hpay⟩
  iapply (Rounds.wp_signal 𝒱₀ ER (rd m) (d : Thread nD τ) none (dst := (e : Thread nD τ)) (κ := K (e, barIx))
      (d := dty) (by rw [duties_bar]; exact Finset.mem_univ _) (amount_bar m e dty) () O hO) $$ [HO Htok Hpay]
  isplitr; · iapply (inv_bar m K e); iexact HR
  isplitl [HO]; · iexact HO
  isplitl [Htok]; · iexact Htok
  isplitl [Hpay]; · rw [payload_bar]; iexact Hpay
  iapply (rch_bar m K e); iexact HR

theorem step_bar_wait (d : Dev nD) {W : Waits sig Unit} {α : Type} {Q : α → sProp 𝕄} {k : PUnit → Prog (TpuEff nD τ sig (Elt F) Λ₀ .tc) α} :
    iprop(records m K ∗ levAts L lv ∗ cred (tallyAt (barCell d) () 2) ∗ owes (d : Thread nD τ) (oweL d sends) W ∗ atPos ER (barCell d) 0 ∅ 0)
      ⊢ iprop(((owes (d : Thread nD τ) (oweL d sends) (insert (SemLoc.reg barS, ()) W) ∗ barPay (F := F) d false ∗ barPay (F := F) d true)
            -∗ wp frame (wpE (defs₀ (F := F)) 𝒱₀ (d : Thread nD τ) none) Set.univ (k ⟨⟩) Q)
          -∗ wp frame (wpE (defs₀ (F := F)) 𝒱₀ (d : Thread nD τ) none) Set.univ (.op (.semWait barS 2) k) Q) := by
  iintro ⟨#HR, #Hlev, Hc, HO, Hat⟩ Hk
  iapply (Rounds.wp_wait_rest_token 𝒱₀ ER (rd m) (d : Thread nD τ) none (κ := K (d, barIx))
      (wpE_semWait_eq 𝒱₀ (d : Thread nD τ) none Set.univ) (Set.mem_univ _) () (O := oweL d sends) (W := W) (R := 0) (m := 0) (T := ∅)
      (by rw [expect_bar])) $$ [Hc HO Hat]
  · isplitr; · iapply (inv_bar m K d); iexact HR
    isplitl [Hc]; · iexact Hc
    isplitl [HO]; · iexact HO
    isplitr; · iapply (mayWait_bar d); iexact Hlev
    iexact Hat
  iintro ⟨HO, -, -, Hpay⟩
  ihave Hp := (Entails.of_eq (rest_bar m d)) $$ Hpay
  icases Hp with ⟨H1, H2⟩
  iapply Hk
  iframe # ∗

theorem step_send0 (d : Dev nD) (c b : Fin 2) (l : List Xf) {dev : Dev nD} (hdev : dev = partner 0 b d)
    {off : Fin 2 → Nat} {hinb : ∀ a, off a + S256x512.size a ≤ S1024x1024.size a} (hoff : off = ![256 * (sendQ b d).val, 512 * c.val])
    {sS sR : DmaSem sig} (hS : sS = sendSem c 0 b) (hR : sR = recvSem c 0 b) {hst} {hsc} {hsrc} {hdst} {hsem}
    {W : Waits sig Unit} {α : Type} {Q : α → sProp 𝕄} {k : PUnit → Prog (TpuEff nD τ sig (Elt F) Λ₀ .tc) α} :
    iprop(records m K ∗ tileOwns d (sendQ b d) c (partial_ (argsOf m) d (sendQ b d) c) ∗ slotAny (F := F) (partner 0 b d) c 0 b
        ∗ owes (d : Thread nD τ) (oweL d ((c, 0, b) :: l)) W
        ∗ dutyTok ER (sendCell d c 0 b) 0 false ∗ dutyTok ER (recvCell (partner 0 b d) c 0 b) 0 false)
      ⊢ iprop(((cred (tallyAt (sendCell d c 0 b) () N) ∗ owes (d : Thread nD τ) (oweL d l) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (outM.slice (Rect.unit (s := S1024x1024) off S256x512.size hinb) hst)
                (.remote (Dev.tc dev : Thread nD τ) (slotM c 0 b) (.dma sS) hsc) (.dma sR) hsrc hdst hsem) k) Q) := by
  subst hdev; subst hoff; subst hS; subst hR
  simp only [slotAny, slotOwns, tileOwns, owns]
  iintro ⟨#HR, ⟨%fs, %hfs, Hsrc⟩, ⟨%v0, %fd, %hfd, Hdst⟩, HO, HtS, HtR⟩
  have hp1 : (iprop(emp) : sProp 𝕄) ⊢ (rd m).payload (sendCell d c 0 b) 0 false := by
    rw [payload_send, sendPay_0]
  have hp2 : iprop(((slotM c 0 b).view.loc (Dev.tc (partner 0 b d) : Thread nD τ) ↦[(slotM c 0 b).view.set]{fullShare}
        ((slotM c 0 b).view.write (Elt F) fd ((tileM (sendQ b d) c).view.read (Elt F) fs) Finset.univ))
        ∗ ((tileM (sendQ b d) c).view.loc (d : Thread nD τ) ↦[(tileM (sendQ b d) c).view.set]{fullShare} fs))
      ⊢ (rd m).payload (recvCell (partner 0 b d) c 0 b) 0 false := by
    rw [payload_recv, recvPay_0, partner_invol, keepQ_partner0]
    refine BI.sep_mono ?_ ?_
    · refine (owns_of_landed (F := F) (Dev.tc (partner 0 b d) : Thread nD τ) (slotM c 0 b) fd _).trans (Entails.of_eq ?_)
      rw [hfs]
    · exact (owns_intro (d : Thread nD τ) (tileM (sendQ b d) c) fullShare fs).trans (Entails.of_eq (by rw [hfs]))
  iapply (Rounds.wp_send_landing_pointsTo 𝒱₀ ER (rd m) (d : Thread nD τ) none (c' := (Dev.tc (partner 0 b d) : Thread nD τ))
      (src := outM.slice (Rect.unit (s := S1024x1024) ![256 * (sendQ b d).val, 512 * c.val] S256x512.size hinb) hst) (dst := slotM c 0 b)
      (sS := .dma (sendSem c 0 b)) (sem := .dma (recvSem c 0 b)) (q := fullShare)
      (κ₁ := K (d, sendIx c 0 b)) (κ₂ := K (partner 0 b d, recvIx c 0 b))
      (r₁ := 0) (r₂ := 0) (d₁ := false) (d₂ := false) (fs := fs) (fd := fd)
      (by rw [duties_send]; exact Finset.mem_singleton_self _) (by rw [duties_recv]; exact Finset.mem_singleton_self _)
      () () N rfl (amount_send m d c 0 b false) (amount_recv m (partner 0 b d) c 0 b false) (O₀ := oweL d ((c, 0, b) :: l)) (oweL d l) (by rw [oweL_cons]; rfl) (W := W)
      hp1 hp2) $$ [Hsrc Hdst HO HtS HtR]
  isplitr; · iapply (inv_send m K d c 0 b); iexact HR
  isplitr; · iapply (inv_recv m K (partner 0 b d) c 0 b); iexact HR
  isplitl [Hsrc]; · iexact Hsrc
  isplitl [Hdst]; · iexact Hdst
  isplitl [HO]; · iexact HO
  isplitl [HtS]; · iexact HtS
  isplitr; · iapply (rch_send m K d c 0 b); iexact HR
  isplitl [HtR]; · iexact HtR
  iapply (rch_recv m K (partner 0 b d) c 0 b); iexact HR

theorem step_send1 (d : Dev nD) (c b : Fin 2) (l : List Xf) {dev : Dev nD} (hdev : dev = partner 1 b d)
    {off : Fin 2 → Nat} {hinb : ∀ a, off a + S256x512.size a ≤ S1024x1024.size a} (hoff : off = ![256 * (keepQ b d).val, 512 * c.val])
    {sS sR : DmaSem sig} (hS : sS = sendSem c 1 b) (hR : sR = recvSem c 1 b) {hst} {hsc} {hsrc} {hdst} {hsem}
    {W : Waits sig Unit} {α : Type} {Q : α → sProp 𝕄} {k : PUnit → Prog (TpuEff nD τ sig (Elt F) Λ₀ .tc) α} :
    iprop(records m K ∗ tileOwns d (keepQ b d) c (afterFirst (argsOf m) d c b) ∗ slotAny (F := F) (partner 1 b d) c 1 b
        ∗ owes (d : Thread nD τ) (oweL d ((c, 1, b) :: l)) W
        ∗ dutyTok ER (sendCell d c 1 b) 0 false ∗ dutyTok ER (recvCell (partner 1 b d) c 1 b) 0 false)
      ⊢ iprop(((cred (tallyAt (sendCell d c 1 b) () N) ∗ owes (d : Thread nD τ) (oweL d l) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (outM.slice (Rect.unit (s := S1024x1024) off S256x512.size hinb) hst)
                (.remote (Dev.tc dev : Thread nD τ) (slotM c 1 b) (.dma sS) hsc) (.dma sR) hsrc hdst hsem) k) Q) := by
  subst hdev; subst hoff; subst hS; subst hR
  simp only [slotAny, slotOwns, tileOwns, owns]
  iintro ⟨#HR, ⟨%fs, %hfs, Hsrc⟩, ⟨%v0, %fd, %hfd, Hdst⟩, HO, HtS, HtR⟩
  have hp1 : ((tileM (keepQ b d) c).view.loc (d : Thread nD τ) ↦[(tileM (keepQ b d) c).view.set]{fullShare} fs : sProp 𝕄)
      ⊢ (rd m).payload (sendCell d c 1 b) 0 false := by
    rw [payload_send, sendPay_1]
    exact (owns_intro (d : Thread nD τ) (tileM (keepQ b d) c) fullShare fs).trans (Entails.of_eq (by rw [hfs]))
  have hp2 : ((slotM c 1 b).view.loc (Dev.tc (partner 1 b d) : Thread nD τ) ↦[(slotM c 1 b).view.set]{fullShare}
        ((slotM c 1 b).view.write (Elt F) fd ((tileM (keepQ b d) c).view.read (Elt F) fs) Finset.univ) : sProp 𝕄)
      ⊢ (rd m).payload (recvCell (partner 1 b d) c 1 b) 0 false := by
    rw [payload_recv, recvPay_1, partner_invol]
    refine (owns_of_landed (F := F) (Dev.tc (partner 1 b d) : Thread nD τ) (slotM c 1 b) fd _).trans (Entails.of_eq ?_)
    rw [hfs]
  iapply (Rounds.wp_send_pointsTo 𝒱₀ ER (rd m) (d : Thread nD τ) none (c' := (Dev.tc (partner 1 b d) : Thread nD τ))
      (src := outM.slice (Rect.unit (s := S1024x1024) ![256 * (keepQ b d).val, 512 * c.val] S256x512.size hinb) hst) (dst := slotM c 1 b)
      (sS := .dma (sendSem c 1 b)) (sem := .dma (recvSem c 1 b)) (q := fullShare)
      (κ₁ := K (d, sendIx c 1 b)) (κ₂ := K (partner 1 b d, recvIx c 1 b))
      (r₁ := 0) (r₂ := 0) (d₁ := false) (d₂ := false) (fs := fs) (fd := fd)
      (by rw [duties_send]; exact Finset.mem_singleton_self _) (by rw [duties_recv]; exact Finset.mem_singleton_self _)
      () () N rfl (amount_send m d c 1 b false) (amount_recv m (partner 1 b d) c 1 b false)
      (O₀ := oweL d ((c, 1, b) :: l)) (oweL d l) (by rw [oweL_cons]; rfl) (W := W)
      hp1 hp2) $$ [Hsrc Hdst HO HtS HtR]
  isplitr; · iapply (inv_send m K d c 1 b); iexact HR
  isplitr; · iapply (inv_recv m K (partner 1 b d) c 1 b); iexact HR
  isplitl [Hsrc]; · iexact Hsrc
  isplitl [Hdst]; · iexact Hdst
  isplitl [HO]; · iexact HO
  isplitl [HtS]; · iexact HtS
  isplitr; · iapply (rch_send m K d c 1 b); iexact HR
  isplitl [HtR]; · iexact HtR
  iapply (rch_recv m K (partner 1 b d) c 1 b); iexact HR

theorem step_send2 (d : Dev nD) (c b : Fin 2) (l : List Xf) (v' : Vec F S256x512 .bf16) {dev : Dev nD} (hdev : dev = partner 2 b d)
    {off : Fin 2 → Nat} {hinb : ∀ a, off a + S256x512.size a ≤ S1024x1024.size a} (hoff : off = ![256 * (keepQ b d).val, 512 * c.val])
    {sS sR : DmaSem sig} (hS : sS = sendSem c 2 b) (hR : sR = recvSem c 2 b) {hst} {hst'} {hsc} {hsrc} {hdst} {hsem}
    {W : Waits sig Unit} {α : Type} {Q : α → sProp 𝕄} {k : PUnit → Prog (TpuEff nD τ sig (Elt F) Λ₀ .tc) α} :
    iprop(records m K ∗ tileOwns d (keepQ b d) c (afterSecond (argsOf m) d c b) ∗ tileOwns (partner 2 b d) (keepQ b d) c v'
        ∗ owes (d : Thread nD τ) (oweL d ((c, 2, b) :: l)) W
        ∗ dutyTok ER (sendCell d c 2 b) 0 false ∗ dutyTok ER (recvCell (partner 2 b d) c 2 b) 0 false)
      ⊢ iprop(((cred (tallyAt (sendCell d c 2 b) () N) ∗ owes (d : Thread nD τ) (oweL d l) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (outM.slice (Rect.unit (s := S1024x1024) off S256x512.size hinb) hst)
                (.remote (Dev.tc dev : Thread nD τ) (outM.slice (Rect.unit (s := S1024x1024) off S256x512.size hinb) hst') (.dma sS) hsc)
                (.dma sR) hsrc hdst hsem) k) Q) := by
  subst hdev; subst hoff; subst hS; subst hR
  simp only [slotAny, slotOwns, tileOwns, owns]
  iintro ⟨#HR, ⟨%fs, %hfs, Hsrc⟩, ⟨%fd, %hfd, Hdst⟩, HO, HtS, HtR⟩
  have hq : sendQ b (partner 2 b d) = keepQ b d := by
    have := keepQ_partner2 b (partner 2 b d); rw [partner_invol] at this; exact this.symm
  have hp1 : ((tileM (keepQ b d) c).view.loc (d : Thread nD τ) ↦[(tileM (keepQ b d) c).view.set]{fullShare} fs : sProp 𝕄)
      ⊢ (rd m).payload (sendCell d c 2 b) 0 false := by
    rw [payload_send, sendPay_2]
    exact (owns_intro (d : Thread nD τ) (tileM (keepQ b d) c) fullShare fs).trans (Entails.of_eq (by rw [hfs]))
  have hp2 : ((tileM (keepQ b d) c).view.loc (Dev.tc (partner 2 b d) : Thread nD τ) ↦[(tileM (keepQ b d) c).view.set]{fullShare}
        ((tileM (keepQ b d) c).view.write (Elt F) fd ((tileM (keepQ b d) c).view.read (Elt F) fs) Finset.univ) : sProp 𝕄)
      ⊢ (rd m).payload (recvCell (partner 2 b d) c 2 b) 0 false := by
    rw [payload_recv, recvPay_2, partner_invol, hq]
    refine (owns_of_landed (F := F) (Dev.tc (partner 2 b d) : Thread nD τ) (tileM (keepQ b d) c) fd _).trans (Entails.of_eq ?_)
    rw [hfs]
  iapply (Rounds.wp_send_pointsTo 𝒱₀ ER (rd m) (d : Thread nD τ) none (c' := (Dev.tc (partner 2 b d) : Thread nD τ))
      (src := outM.slice (Rect.unit (s := S1024x1024) ![256 * (keepQ b d).val, 512 * c.val] S256x512.size hinb) hst)
      (dst := outM.slice (Rect.unit (s := S1024x1024) ![256 * (keepQ b d).val, 512 * c.val] S256x512.size hinb) hst')
      (sS := .dma (sendSem c 2 b)) (sem := .dma (recvSem c 2 b)) (q := fullShare)
      (κ₁ := K (d, sendIx c 2 b)) (κ₂ := K (partner 2 b d, recvIx c 2 b))
      (r₁ := 0) (r₂ := 0) (d₁ := false) (d₂ := false) (fs := fs) (fd := fd)
      (by rw [duties_send]; exact Finset.mem_singleton_self _) (by rw [duties_recv]; exact Finset.mem_singleton_self _)
      () () N rfl (amount_send m d c 2 b false) (amount_recv m (partner 2 b d) c 2 b false)
      (O₀ := oweL d ((c, 2, b) :: l)) (oweL d l) (by rw [oweL_cons]; rfl) (W := W)
      hp1 hp2) $$ [Hsrc Hdst HO HtS HtR]
  isplitr; · iapply (inv_send m K d c 2 b); iexact HR
  isplitr; · iapply (inv_recv m K (partner 2 b d) c 2 b); iexact HR
  isplitl [Hsrc]; · iexact Hsrc
  isplitl [Hdst]; · iexact Hdst
  isplitl [HO]; · iexact HO
  isplitl [HtS]; · iexact HtS
  isplitr; · iapply (rch_send m K d c 2 b); iexact HR
  isplitl [HtR]; · iexact HtR
  iapply (rch_recv m K (partner 2 b d) c 2 b); iexact HR

theorem step_wait_send (d : Dev nD) (c : Fin 2) (s : Fin 3) (b : Fin 2) (l : List Xf) {sS : DmaSem sig} (hS : sS = sendSem c s b)
    {sp sp' : Space} {sh sh' : Shape} {e e' : EltTy} {src : Memref sig .tc sp' sh' e'} {κ' : Kind} {dst : Memref sig κ' sp sh e}
    {hsrc : src.view.WordExact} {hdst : dst.view.WordExact} (hN : dst.view.dmaCredit = N)
    {W : Waits sig Unit} {α : Type} {Q : α → sProp 𝕄} {k : PUnit → Prog (TpuEff nD τ sig (Elt F) Λ₀ .tc) α} :
    iprop(records m K ∗ levAts L lv ∗ cred (tallyAt (sendCell d c s b) () N) ∗ owes (d : Thread nD τ) (oweL d l) W ∗ atPos ER (sendCell d c s b) 0 ∅ 0)
      ⊢ iprop(((owes (d : Thread nD τ) (oweL d l) (insert (SemLoc.dma (sendSem c s b), ()) W) ∗ semVal (sendCell d c s b) 0 ∗ sendPay m d c s b)
            -∗ wp frame (wpE (defs₀ (F := F)) 𝒱₀ (d : Thread nD τ) none) Set.univ (k ⟨⟩) Q)
          -∗ wp frame (wpE (defs₀ (F := F)) 𝒱₀ (d : Thread nD τ) none) Set.univ (.op (.waitDma2 sS src dst hsrc hdst) k) Q) := by
  subst hS
  iintro ⟨#HR, #Hlev, Hc, HO, Hat⟩ Hk
  iapply (Rounds.wp_wait_rest_token 𝒱₀ ER (rd m) (d : Thread nD τ) none (κ := K (d, sendIx c s b))
      (wpE_waitDma2_eq 𝒱₀ (d : Thread nD τ) none Set.univ) (Set.mem_univ _) () (O := oweL d l) (W := W) (R := 0) (m := 0) (T := ∅)
      (by rw [Nat.zero_add, expect_send, hN])) $$ [Hc HO Hat]
  · isplitr; · iapply (inv_send m K d c s b); iexact HR
    isplitl [Hc]; · rw [hN]; iexact Hc
    isplitl [HO]; · iexact HO
    isplitr; · iapply (mayWait_send d c s b l); iexact Hlev
    iexact Hat
  iintro ⟨HO, Hat, -, Hpay⟩
  ihave Hp := (Entails.of_eq (rest_send m d c s b)) $$ Hpay
  imod (Rounds.cell_close ER (rd m) (Set.mem_univ (K (d, sendIx c s b))) (fun h => h) (R := 0 + 1) (duties_later m (sendCell d c s b))) $$ [Hat] with Hz
  · isplitr; · iapply (inv_send m K d c s b); iexact HR
    iexact Hat
  iapply Hk
  iframe # ∗

theorem step_wait_recv (d : Dev nD) (c : Fin 2) (s : Fin 3) (b : Fin 2) (l : List Xf) (hl : ∀ x ∈ l, s.val < x.2.1.val) {sR : DmaSem sig} (hR : sR = recvSem c s b)
    {sp sp' : Space} {sh sh' : Shape} {e e' : EltTy} {src : Memref sig .tc sp' sh' e'} {κ' : Kind} {dst : Memref sig κ' sp sh e}
    {hsrc : src.view.WordExact} {hdst : dst.view.WordExact} (hN : dst.view.dmaCredit = N)
    {W : Waits sig Unit} {α : Type} {Q : α → sProp 𝕄} {k : PUnit → Prog (TpuEff nD τ sig (Elt F) Λ₀ .tc) α} :
    iprop(records m K ∗ levAts L lv ∗ cred (tallyAt (recvCell d c s b) () N) ∗ owes (d : Thread nD τ) (oweL d l) W ∗ atPos ER (recvCell d c s b) 0 ∅ 0)
      ⊢ iprop(((owes (d : Thread nD τ) (oweL d l) (insert (SemLoc.dma (recvSem c s b), ()) W) ∗ semVal (recvCell d c s b) 0 ∗ recvPay m d c s b)
            -∗ wp frame (wpE (defs₀ (F := F)) 𝒱₀ (d : Thread nD τ) none) Set.univ (k ⟨⟩) Q)
          -∗ wp frame (wpE (defs₀ (F := F)) 𝒱₀ (d : Thread nD τ) none) Set.univ (.op (.waitDma2 sR src dst hsrc hdst) k) Q) := by
  subst hR
  iintro ⟨#HR, #Hlev, Hc, HO, Hat⟩ Hk
  iapply (Rounds.wp_wait_rest_token 𝒱₀ ER (rd m) (d : Thread nD τ) none (κ := K (d, recvIx c s b))
      (wpE_waitDma2_eq 𝒱₀ (d : Thread nD τ) none Set.univ) (Set.mem_univ _) () (O := oweL d l) (W := W) (R := 0) (m := 0) (T := ∅)
      (by rw [Nat.zero_add, expect_recv, hN])) $$ [Hc HO Hat]
  · isplitr; · iapply (inv_recv m K d c s b); iexact HR
    isplitl [Hc]; · rw [hN]; iexact Hc
    isplitl [HO]; · iexact HO
    isplitr; · iapply (mayWait_recv d c s b l hl); iexact Hlev
    iexact Hat
  iintro ⟨HO, Hat, -, Hpay⟩
  ihave Hp := (Entails.of_eq (rest_recv m d c s b)) $$ Hpay
  imod (Rounds.cell_close ER (rd m) (Set.mem_univ (K (d, recvIx c s b))) (fun h => h) (R := 0 + 1) (duties_later m (recvCell d c s b))) $$ [Hat] with Hz
  · isplitr; · iapply (inv_recv m K d c s b); iexact HR
    iexact Hat
  iapply Hk
  iframe # ∗

end Cert.Kernel.Coll

end
-- ==== Proof.Kernel.StgEq.lean ====
/-
  Each input the body reads is the argument array itself.
-/
import proofs.«900576_g7700000000000577_dist_mlp2_tp_i_m1024_h2048_out1024_v7x_i4_bf16_1_alg».proof.Proof.Kernel.States

noncomputable section

namespace Cert.Kernel.Coll

open Cert.Kernel Cert.Kernel.Gen Cert.Kernel.Spec
open Idealize.ShloMosaic Idealize.ShloMosaic.TcCoe

variable {F : FTy → Type} [FloatOps F]
variable (m : (ℓ : Loc nD τ sig) → Buf (Elt F) ℓ)

theorem xstg_eq (d : Dev nD) : xstg m d = (A m).x d :=
  Memref.read_access_unit_zero (Elt F) main_arg0 (off := fun _ => 0 * _) (funext fun a => Nat.zero_mul _) _ _
theorem w1stg_eq (d : Dev nD) : w1stg m d = (A m).w1 d :=
  Memref.read_access_unit_zero (Elt F) main_arg1 (off := fun _ => 0 * _) (funext fun a => Nat.zero_mul _) _ _
theorem w2stg_eq (d : Dev nD) : w2stg m d = (A m).w2 d :=
  Memref.read_access_unit_zero (Elt F) main_arg2 (off := fun _ => 0 * _) (funext fun a => Nat.zero_mul _) _ _

end Cert.Kernel.Coll

end
-- ==== Proof.Kernel.Offsets.lean ====
/-
  The body's row and column offsets and partner devices in closed form, decided over the four devices.
-/
import proofs.«900576_g7700000000000577_dist_mlp2_tp_i_m1024_h2048_out1024_v7x_i4_bf16_1_alg».proof.Proof.Kernel.Sched

noncomputable section

namespace Cert.Kernel.Coll

open Cert.Kernel Cert.Kernel.Gen Cert.Kernel.Spec
open Idealize.ShloMosaic

theorem dev1_eq (d : Dev nD) : (⟨k0_dev1 d, k0_dev1_lt d⟩ : Dev nD) = pA d := by revert d; decide +kernel
theorem dev2_eq (d : Dev nD) : (⟨k0_dev2 d, k0_dev2_lt d⟩ : Dev nD) = pB d := by revert d; decide +kernel
theorem dev3_eq (d : Dev nD) : (⟨k0_dev3 d, k0_dev3_lt d⟩ : Dev nD) = partner 0 0 d := by revert d; decide +kernel
theorem dev4_eq (d : Dev nD) : (⟨k0_dev4 d, k0_dev4_lt d⟩ : Dev nD) = partner 0 1 d := by revert d; decide +kernel
theorem dev5_eq (d : Dev nD) : (⟨k0_dev5 d, k0_dev5_lt d⟩ : Dev nD) = partner 0 0 d := by revert d; decide +kernel
theorem dev6_eq (d : Dev nD) : (⟨k0_dev6 d, k0_dev6_lt d⟩ : Dev nD) = partner 0 1 d := by revert d; decide +kernel
theorem dev7_eq (d : Dev nD) : (⟨k0_dev7 d, k0_dev7_lt d⟩ : Dev nD) = partner 1 0 d := by revert d; decide +kernel
theorem dev8_eq (d : Dev nD) : (⟨k0_dev8 d, k0_dev8_lt d⟩ : Dev nD) = partner 1 1 d := by revert d; decide +kernel
theorem dev9_eq (d : Dev nD) : (⟨k0_dev9 d, k0_dev9_lt d⟩ : Dev nD) = partner 1 0 d := by revert d; decide +kernel
theorem dev10_eq (d : Dev nD) : (⟨k0_dev10 d, k0_dev10_lt d⟩ : Dev nD) = partner 1 1 d := by revert d; decide +kernel
theorem dev11_eq (d : Dev nD) : (⟨k0_dev11 d, k0_dev11_lt d⟩ : Dev nD) = partner 2 0 d := by revert d; decide +kernel
theorem dev12_eq (d : Dev nD) : (⟨k0_dev12 d, k0_dev12_lt d⟩ : Dev nD) = partner 2 1 d := by revert d; decide +kernel
theorem dev13_eq (d : Dev nD) : (⟨k0_dev13 d, k0_dev13_lt d⟩ : Dev nD) = partner 2 0 d := by revert d; decide +kernel
theorem dev14_eq (d : Dev nD) : (⟨k0_dev14 d, k0_dev14_lt d⟩ : Dev nD) = partner 2 1 d := by revert d; decide +kernel

theorem pA_eq (d : Dev nD) : pA d = partner 0 0 d := by revert d; decide
theorem pB_eq (d : Dev nD) : pB d = partner 0 1 d := by revert d; decide

theorem off1_eq (d : Dev nD) : k0_off1 d = ![256 * (sendQ 0 d).val, 0] := by revert d; decide +kernel
theorem off5_eq (d : Dev nD) : k0_off5 d = ![256 * (sendQ 1 d).val, 0] := by revert d; decide +kernel
theorem off13_eq (d : Dev nD) : k0_off13 d = ![256 * (keepQ 0 d).val, 0] := by revert d; decide +kernel
theorem off16_eq (d : Dev nD) : k0_off16 d = ![256 * (keepQ 1 d).val, 0] := by revert d; decide +kernel
theorem off2_eq (d : Dev nD) : k0_off2 d = ![256 * (sendQ 0 d).val, 0] := by revert d; decide +kernel
theorem off6_eq (d : Dev nD) : k0_off6 d = ![256 * (sendQ 1 d).val, 0] := by revert d; decide +kernel
theorem off14_eq (d : Dev nD) : k0_off14 d = ![256 * (keepQ 0 d).val, 0] := by revert d; decide +kernel
theorem off17_eq (d : Dev nD) : k0_off17 d = ![256 * (keepQ 1 d).val, 0] := by revert d; decide +kernel

theorem off3_eq (d : Dev nD) : k0_off3 d = ![256 * (sendQ 0 d).val, 512 * (0 : Fin 2).val] := by revert d; decide +kernel
theorem off4_eq (d : Dev nD) : k0_off4 d = ![256 * (sendQ 0 d).val, 512 * (0 : Fin 2).val] := by revert d; decide +kernel
theorem off7_eq (d : Dev nD) : k0_off7 d = ![256 * (sendQ 1 d).val, 512 * (0 : Fin 2).val] := by revert d; decide +kernel
theorem off8_eq (d : Dev nD) : k0_off8 d = ![256 * (sendQ 1 d).val, 512 * (0 : Fin 2).val] := by revert d; decide +kernel
theorem off9_eq (d : Dev nD) : k0_off9 d = ![256 * (sendQ 0 d).val, 512 * (1 : Fin 2).val] := by revert d; decide +kernel
theorem off10_eq (d : Dev nD) : k0_off10 d = ![256 * (sendQ 0 d).val, 512 * (1 : Fin 2).val] := by revert d; decide +kernel
theorem off11_eq (d : Dev nD) : k0_off11 d = ![256 * (sendQ 1 d).val, 512 * (1 : Fin 2).val] := by revert d; decide +kernel
theorem off12_eq (d : Dev nD) : k0_off12 d = ![256 * (sendQ 1 d).val, 512 * (1 : Fin 2).val] := by revert d; decide +kernel
theorem off15_eq (d : Dev nD) : k0_off15 d = ![256 * (keepQ 0 d).val, 512 * (0 : Fin 2).val] := by revert d; decide +kernel
theorem off19_eq (d : Dev nD) : k0_off19 d = ![256 * (keepQ 0 d).val, 512 * (0 : Fin 2).val] := by revert d; decide +kernel
theorem off18_eq (d : Dev nD) : k0_off18 d = ![256 * (keepQ 1 d).val, 512 * (0 : Fin 2).val] := by revert d; decide +kernel
theorem off20_eq (d : Dev nD) : k0_off20 d = ![256 * (keepQ 1 d).val, 512 * (0 : Fin 2).val] := by revert d; decide +kernel
theorem off21_eq (d : Dev nD) : k0_off21 d = ![256 * (keepQ 0 d).val, 512 * (1 : Fin 2).val] := by revert d; decide +kernel
theorem off23_eq (d : Dev nD) : k0_off23 d = ![256 * (keepQ 0 d).val, 512 * (1 : Fin 2).val] := by revert d; decide +kernel
theorem off22_eq (d : Dev nD) : k0_off22 d = ![256 * (keepQ 1 d).val, 512 * (1 : Fin 2).val] := by revert d; decide +kernel
theorem off24_eq (d : Dev nD) : k0_off24 d = ![256 * (keepQ 1 d).val, 512 * (1 : Fin 2).val] := by revert d; decide +kernel

end Cert.Kernel.Coll

end
-- ==== Proof.Kernel.BodyE.lean ====
/-
  From the first statement to the first transfer: the handshake with both neighbours, the hidden rows of the two
  quarters sent away, their column-0 partials, and the first of these sent.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.StgEq
import proofs.«900576_g7700000000000577_dist_mlp2_tp_i_m1024_h2048_out1024_v7x_i4_bf16_1_alg».proof.Proof.Kernel.Offsets

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def E1 (K : Dev nD × Fin 25 → ℕ) (d : Dev nD) : sProp 𝕄 :=
  iprop(Know m K ∗ Inputs m d
    ∗ (∃ W, owes (d : Thread nD τ) (O₁ d) W) ∗ atPos ER (barCell d) 0 ∅ 0 ∗ cred (tallyAt (barCell d) () 2)
    ∗ dutyTok ER (barCell (pB d)) 0 true
    ∗ Unissued d sends ∗ Unwaited d sends
    ∗ (hidAny d (sendQ 0 d) ∗ hidAny d (sendQ 1 d) ∗ hidAny d (keepQ 0 d) ∗ hidAny d (keepQ 1 d))
    ∗ (tileAny d (sendQ 0 d) 0 ∗ tileAny d (sendQ 1 d) 0 ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) d 0 0 1 ∗ slotAny (F := F) d 1 0 1 ∗ slotAny (F := F) d 0 1 0 ∗ slotAny (F := F) d 1 1 0))

def E2 (K : Dev nD × Fin 25 → ℕ) (d : Dev nD) : sProp 𝕄 :=
  iprop(Know m K ∗ Inputs m d
    ∗ (∃ W, owes (d : Thread nD τ) (oweL d sends) W)
    ∗ Unissued d sends ∗ Unwaited d sends
    ∗ (hidOwns d (sendQ 0 d) (Hq m d (sendQ 0 d)) ∗ hidAny d (sendQ 1 d) ∗ hidAny d (keepQ 0 d) ∗ hidAny d (keepQ 1 d))
    ∗ (tileOwns d (sendQ 0 d) 0 (partial_ (A m) d (sendQ 0 d) 0) ∗ tileAny d (sendQ 1 d) 0 ∗ tileAny d (sendQ 0 d) 1 ∗ tileAny d (sendQ 1 d) 1
      ∗ tileAny d (keepQ 0 d) 0 ∗ tileAny d (keepQ 1 d) 0 ∗ tileAny d (keepQ 0 d) 1 ∗ tileAny d (keepQ 1 d) 1)
    ∗ (slotAny (F := F) (partner 0 0 d) 0 0 0 ∗ slotAny (F := F) (partner 0 1 d) 0 0 1 ∗ slotAny (F := F) (partner 0 0 d) 1 0 0 ∗ slotAny (F := F) (partner 0 1 d) 1 0 1
      ∗ slotAny (F := F) (partner 1 0 d) 0 1 0 ∗ slotAny (F := F) (partner 1 1 d) 0 1 1 ∗ slotAny (F := F) (partner 1 0 d) 1 1 0 ∗ slotAny (F := F) (partner 1 1 d) 1 1 1))

theorem barPay_pA (d : Dev nD) :
    barPay (F := F) (pA d) false
      = iprop(slotAny (F := F) d 0 0 0 ∗ slotAny (F := F) d 1 0 0 ∗ slotAny (F := F) d 0 1 1 ∗ slotAny (F := F) d 1 1 1) := by
  unfold barPay
  rw [show nbr false (pA d) = d from pA_invol d]
  rfl

theorem barPay_pB (d : Dev nD) :
    barPay (F := F) (pB d) true
      = iprop(slotAny (F := F) d 0 0 1 ∗ slotAny (F := F) d 1 0 1 ∗ slotAny (F := F) d 0 1 0 ∗ slotAny (F := F) d 1 1 0) := by
  unfold barPay
  rw [show nbr true (pB d) = d from pB_invol d]
  rfl

theorem pA_eq11 (d : Dev nD) : pA d = partner 1 1 d := by revert d; decide
theorem pB_eq10 (d : Dev nD) : pB d = partner 1 0 d := by revert d; decide

theorem barPay_false (d : Dev nD) :
    barPay (F := F) d false
      = iprop(slotAny (F := F) (partner 0 0 d) 0 0 0 ∗ slotAny (F := F) (partner 0 0 d) 1 0 0
          ∗ slotAny (F := F) (partner 1 1 d) 0 1 1 ∗ slotAny (F := F) (partner 1 1 d) 1 1 1) := by
  rw [← pA_eq d, ← pA_eq11 d]
  rfl

theorem barPay_true (d : Dev nD) :
    barPay (F := F) d true
      = iprop(slotAny (F := F) (partner 0 1 d) 0 0 1 ∗ slotAny (F := F) (partner 0 1 d) 1 0 1
          ∗ slotAny (F := F) (partner 1 0 d) 0 1 0 ∗ slotAny (F := F) (partner 1 0 d) 1 1 0) := by
  rw [← pB_eq d, ← pB_eq10 d]
  rfl

theorem unissued_sends (d : Dev nD) :
    Unissued (F := F) d sends
      = iprop((dutyTok ER (recvCell (partner 0 0 d) 0 0 0) 0 false ∗ dutyTok ER (sendCell d 0 0 0) 0 false) ∗ Unissued (F := F) d (sends.drop 1)) := rfl

theorem part1_spec (K : Dev nD × Fin 25 → ℕ) (d : Dev nD)
    {Q : (Σ' (d0 : Dev nD) (v3 : BitVec 32) (v4 : BitVec 32) (v8 : BitVec 32) (v26 : BitVec 32) (v27 : BitVec 32) (v28 : BitVec 32), Sems sig S_) → sProp 𝕄} :
    iprop(B0 m K d ∗ (∀ (v3 v4 v8 v26 v27 v28 : BitVec 32), E1 m K d -∗ Q ⟨d, v3, v4, v8, v26, v27, v28, SemArray.scalar (sig.barrier 0 rfl)⟩))
      ⊢ wp frame (wpE (defs₀ (F := F)) 𝒱₀ (d : Thread nD τ) none) Set.univ
          (atBufs (k0_part1 (F := F))) Q := by
  simp only [atBufs, k0_part1_eq_skeleton]; unfold k0_part1_skel
  simp only [semSignalWord, Prog.lift, Prog.bind_op, Prog.bind_ret, Prog.pure_eq_ret, Prog.bind_assoc, wp_deviceId]
  simp only [dev1_eq d]
  unfold B0 Know
  iintro ⟨⟨⟨#HR, #Hlev⟩, Hin, ⟨%W, HO⟩, Hat, Hc, HtA, HtB, Hun, Hunw, Hhid, Htile, HsA, HsB⟩, Hk⟩

  iapply (step_signal m K d (pA d) false (O₀' := O₀ d) (O := O₁ d) rfl) $$ [HO HtA HsA]
  · isplitr; · iexact HR
    isplitl [HO]; · iexact HO
    isplitl [HtA]; · iexact HtA
    rw [barPay_pA]; iexact HsA
  iintro HO
  rw [wp_ret]
  imodintro
  iapply Hk
  unfold E1 Know
  isplitr
  · isplitr <;> iassumption
  isplitl [Hin]; · iexact Hin
  isplitl [HO]; · iexists W; iexact HO
  iframe # ∗

theorem hid_staged (d : Dev nD) (q : Fin 4) :
    (k0_pay3 (w1stg m d) (rowsQ q (xstg m d)) : Vec F S256x2048 .bf16) = Hq m d q := by
  rw [xstg_eq, w1stg_eq]; rfl

theorem hid_staged' (d : Dev nD) (q : Fin 4) :
    (k0_pay5 (w1b m d) (rowsQ q (xstg m d)) : Vec F S256x2048 .bf16) = Hq m d q := by
  show (k0_pay5 (k0_pay1 (w1stg m d)) (rowsQ q (xstg m d)) : Vec F S256x2048 .bf16) = _
  rw [xstg_eq, w1stg_eq]; rfl

theorem part0_staged (d : Dev nD) (q : Fin 4) :
    (k0_pay4 (w2stg m d) (Hq m d q) : Vec F S256x512 .bf16) = partial_ (A m) d q 0 := by
  rw [w2stg_eq]; rfl

theorem part0_staged' (d : Dev nD) (q : Fin 4) :
    (k0_pay6 (w2b m d) (Hq m d q) : Vec F S256x512 .bf16) = partial_ (A m) d q 0 := by
  show (k0_pay6 (k0_pay2 (w2stg m d)) (Hq m d q) : Vec F S256x512 .bf16) = _
  rw [w2stg_eq]; rfl

theorem part2_spec (K : Dev nD × Fin 25 → ℕ) (d : Dev nD) (v27 : BitVec 32)
    {Q : (Σ' (v36 : FVec F S1024x2048 .bf16), FVec F S2048x1024 .bf16) → sProp 𝕄} :
    iprop(E1 m K d ∗ (E2 m K d -∗ Q ⟨w1b m d, w2b m d⟩))
      ⊢ wp frame (wpE (defs₀ (F := F)) 𝒱₀ (d : Thread nD τ) none) Set.univ
          (atBufs (k0_part2 (F := F)) d v27 (SemArray.scalar (sig.barrier 0 rfl))) Q := by
  simp only [atBufs, k0_part2_eq_skeleton]; unfold k0_part2_skel
  simp only [semSignalWord, semWaitWord, Prog.lift, Prog.bind_op, Prog.bind_ret, Prog.pure_eq_ret, Prog.bind_assoc]
  simp only [dev2_eq d]
  unfold E1 Know Inputs
  iintro ⟨⟨⟨#HR, #Hlev⟩, ⟨Hx, Hw1, Hw2⟩, ⟨%W, HO⟩, Hat, Hc, HtB, Hun, Hunw, ⟨Hh0, Hh1, Hh2, Hh3⟩, ⟨Ht0, Ht1, Ht2, Ht3, Ht4, Ht5, Ht6, Ht7⟩, HsB⟩, Hk⟩

  iapply (step_signal m K d (pB d) true (O₀' := O₁ d) (O := oweL d sends) rfl) $$ [HO HtB HsB]
  · isplitr; · iexact HR
    isplitl [HO]; · iexact HO
    isplitl [HtB]; · iexact HtB
    rw [barPay_pB]; iexact HsB
  iintro HO

  iapply (step_bar_wait m K d) $$ [HO Hat Hc]
  · iframe # ∗
  iintro ⟨HO, HpF, HpT⟩
  ihave HpF' := (Entails.of_eq (barPay_false (F := F) d)) $$ HpF
  ihave HpT' := (Entails.of_eq (barPay_true (F := F) d)) $$ HpT
  icases HpF' with ⟨Hp1, Hp2, Hp3, Hp4⟩
  icases HpT' with ⟨Hp5, Hp6, Hp7, Hp8⟩

  iapply (wp_load_w1 d (w1stg m d) rfl) $$ Hw1
  iintro Hw1
  iapply (wp_load_w2 d (w2stg m d) rfl) $$ Hw2
  iintro Hw2

  iapply (wp_load_xrows d (sendQ 0 d) (xstg m d) (off1_eq d)) $$ Hx
  iintro Hx
  icases Hh0 with ⟨%h0, Hh0⟩
  iapply (wp_load_hid d (sendQ 0 d) h0 (off2_eq d)) $$ Hh0
  iintro Hh0
  iapply (wp_store_hid d (sendQ 0 d) h0 (k0_pay3 (w1stg m d) (rowsQ (sendQ 0 d) (xstg m d))) (off2_eq d)) $$ Hh0
  iintro Hh0
  rw [hid_staged m d (sendQ 0 d)]
  iapply (wp_load_hid d (sendQ 0 d) (Hq m d (sendQ 0 d)) (off2_eq d)) $$ Hh0
  iintro Hh0

  icases Ht0 with ⟨%t0, Ht0⟩
  iapply (wp_load_tile d (sendQ 0 d) 0 t0 (off3_eq d)) $$ Ht0
  iintro Ht0
  iapply (wp_store_tile d (sendQ 0 d) 0 t0 (k0_pay4 (w2stg m d) (Hq m d (sendQ 0 d))) (off3_eq d)) $$ Ht0
  iintro Ht0
  rw [part0_staged m d (sendQ 0 d)]

  rw [wp_ret]
  imodintro
  iapply Hk
  unfold E2 Know Inputs
  iframe # ∗; iexists _; iframe

theorem proto_1_0 (d : Dev nD) :
    Proto (F := F) 1 0 d
      = iprop((∃ W, owes (d : Thread nD τ) (oweL d (sends.drop 1)) W) ∗ Unissued (F := F) d (sends.drop 1)
          ∗ cred (tallyAt (sendCell d 0 0 0) () N) ∗ Unwaited (F := F) d sends ∗ emp) := rfl

theorem part3_spec (K : Dev nD × Fin 25 → ℕ) (d : Dev nD) (v3 v28 : BitVec 32) {Q : PUnit → sProp 𝕄} :
    iprop(E2 m K d ∗ (B3 m K d -∗ Q ⟨⟩))
      ⊢ wp frame (wpE (defs₀ (F := F)) 𝒱₀ (d : Thread nD τ) none) Set.univ
          (atBufs (k0_part3 (F := F)) d v3 v28 (w1b m d) (w2b m d)) Q := by
  simp only [atBufs, k0_part3_eq_skeleton]; unfold k0_part3_skel
  simp only [Prog.lift, Prog.bind_op, Prog.bind_ret, Prog.pure_eq_ret, Prog.bind_assoc]
  unfold E2 Know Inputs
  iintro ⟨⟨⟨#HR, #Hlev⟩, ⟨Hx, Hw1, Hw2⟩, ⟨%W, HO⟩, Hun, Hunw, ⟨Hh0, Hh1, Hh2, Hh3⟩, ⟨Ht0, Ht1, Ht2, Ht3, Ht4, Ht5, Ht6, Ht7⟩, ⟨Hs0, Hs1, Hs2, Hs3, Hs4, Hs5, Hs6, Hs7⟩⟩, Hk⟩
  ihave Hun' := (Entails.of_eq (unissued_sends (F := F) d)) $$ Hun
  icases Hun' with ⟨⟨HtR, HtS⟩, Hun⟩

  iapply (step_send0 m K d 0 0 (sends.drop 1) (dev3_eq d) (off4_eq d) (sendSem_spell 0 0 0 _) (recvSem_spell 0 0 0 _)) $$ [Ht0 Hs0 HO HtS HtR]
  · iframe # ∗; iexact HO
  iintro ⟨Hcr, HO⟩

  iapply (wp_load_xrows d (sendQ 1 d) (xstg m d) (off5_eq d)) $$ Hx
  iintro Hx
  icases Hh1 with ⟨%h1, Hh1⟩
  iapply (wp_load_hid d (sendQ 1 d) h1 (off6_eq d)) $$ Hh1
  iintro Hh1
  iapply (wp_store_hid d (sendQ 1 d) h1 (k0_pay5 (w1b m d) (rowsQ (sendQ 1 d) (xstg m d))) (off6_eq d)) $$ Hh1
  iintro Hh1
  rw [hid_staged' m d (sendQ 1 d)]
  iapply (wp_load_hid d (sendQ 1 d) (Hq m d (sendQ 1 d)) (off6_eq d)) $$ Hh1
  iintro Hh1

  icases Ht1 with ⟨%t1, Ht1⟩
  iapply (wp_load_tile d (sendQ 1 d) 0 t1 (off7_eq d)) $$ Ht1
  iintro Ht1
  iapply (wp_store_tile d (sendQ 1 d) 0 t1 (k0_pay6 (w2b m d) (Hq m d (sendQ 1 d))) (off7_eq d)) $$ Ht1
  iintro Ht1
  rw [part0_staged' m d (sendQ 1 d)]
  rw [wp_ret]
  imodintro
  iapply Hk
  unfold B3 Know Inputs
  rw [proto_1_0]
  isplitr
  · isplitr <;> iassumption
  isplitl [Hx Hw1 Hw2]
  · isplitl [Hx]; · iexact Hx
    isplitl [Hw1]; · iexact Hw1
    iexact Hw2
  isplitl [HO Hun Hcr Hunw]
  · isplitl [HO]; · iexists _; iexact HO
    isplitl [Hun]; · iexact Hun
    isplitl [Hcr]; · iexact Hcr
    isplitl [Hunw]; · iexact Hunw
    iempintro
  iframe # ∗

end Cert.Kernel.Coll

end
-- ==== Proof.Kernel.BodyF.lean ====
/-
  The other three step-0 transfers are issued, and the hidden rows and column-0 partials of the two kept quarters
  computed.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.Offsets
import proofs.«900576_g7700000000000577_dist_mlp2_tp_i_m1024_h2048_out1024_v7x_i4_bf16_1_alg».proof.Proof.Kernel.StgEq

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem hid_val (d : Dev nD) (q : Fin 4) : k0_pay5 (w1b m d) (rowsQ q (xstg m d)) = Hq m d q := by
  show k0_pay5 (k0_pay1 (w1stg m d)) (rowsQ q (xstg m d)) = k0_pay5 (k0_pay1 ((A m).w1 d)) (rowsQ q ((A m).x d))
  rw [xstg_eq, w1stg_eq]

private theorem part0_val (d : Dev nD) (q : Fin 4) : k0_pay6 (w2b m d) (Hq m d q) = partial_ (A m) d q 0 := by
  show k0_pay6 (k0_pay2 (w2stg m d)) (Hq m d q) = k0_pay6 (k0_pay2 ((A m).w2 d)) (Hq m d q)
  rw [w2stg_eq]

private theorem part1_val (d : Dev nD) (q : Fin 4) : k0_pay7 (w2b m d) (Hq m d q) = partial_ (A m) d q 1 := by
  show k0_pay7 (k0_pay2 (w2stg m d)) (Hq m d q) = k0_pay7 (k0_pay2 ((A m).w2 d)) (Hq m d q)
  rw [w2stg_eq]

def B4 (K : Dev nD × Fin 25 → ℕ) (d : Dev nD) : sProp 𝕄 :=
  iprop(Know m K ∗ Inputs m d ∗ Proto 3 0 d
    ∗ (hidOwns d (sendQ 0 d) (Hq m d (sendQ 0 d)) ∗ hidOwns d (sendQ 1 d) (Hq m d (sendQ 1 d)) ∗ hidAny d (keepQ 0 d) ∗ hidAny d (keepQ 1 d))
    ∗ (tileAny d (sendQ 1 d) 1 ∗ tileAny d (keepQ 0 d) 0 ∗ tileAny d (keepQ 1 d) 0 ∗ tileAny d (keepQ 0 d) 1 ∗ tileAny d (keepQ 1 d) 1)
    ∗ (slotAny (F := F) (partner 0 1 d) 1 0 1 ∗ slotAny (F := F) (partner 1 0 d) 0 1 0 ∗ slotAny (F := F) (partner 1 1 d) 0 1 1 ∗ slotAny (F := F) (partner 1 0 d) 1 1 0 ∗ slotAny (F := F) (partner 1 1 d) 1 1 1))

def B5 (K : Dev nD × Fin 25 → ℕ) (d : Dev nD) : sProp 𝕄 :=
  iprop(Know m K ∗ Inputs m d ∗ Proto 4 0 d
    ∗ (hidOwns d (sendQ 0 d) (Hq m d (sendQ 0 d)) ∗ hidOwns d (sendQ 1 d) (Hq m d (sendQ 1 d)) ∗ hidAny d (keepQ 0 d) ∗ hidAny d (keepQ 1 d))
    ∗ (tileAny d (keepQ 0 d) 0 ∗ tileAny d (keepQ 1 d) 0 ∗ tileAny d (keepQ 0 d) 1 ∗ tileAny d (keepQ 1 d) 1)
    ∗ (slotAny (F := F) (partner 1 0 d) 0 1 0 ∗ slotAny (F := F) (partner 1 1 d) 0 1 1 ∗ slotAny (F := F) (partner 1 0 d) 1 1 0 ∗ slotAny (F := F) (partner 1 1 d) 1 1 1))

private theorem unissued_cons (d : Dev nD) (x : Xf) (l : List Xf) :
    Unissued (F := F) d (x :: l)
      = iprop((dutyTok ER (recvCellX (peerX d x) x) 0 false ∗ dutyTok ER (sendCellX d x) 0 false) ∗ Unissued (F := F) d l) :=
  bigSepL_cons _ _ _

private theorem inFlight_cons (d : Dev nD) (x : Xf) (l : List Xf) :
    InFlight (F := F) d (x :: l) = iprop(cred (tallyAt (sendCellX d x) () N) ∗ InFlight (F := F) d l) :=
  bigSepL_cons _ _ _

theorem part4_spec (K : Dev nD × Fin 25 → ℕ) (d : Dev nD) (v3 v4 v27 : BitVec 32) {Q : BitVec 32 → sProp 𝕄} :
    iprop(B3 m K d ∗ (B4 m K d -∗ Q 256#32))
      ⊢ wp frame (wpE (defs₀ (F := F)) 𝒱₀ (d : Thread nD τ) none) Set.univ
          (atBufs k0_part4 d v3 v4 v27 (w2b m d)) Q := by
  simp only [atBufs, k0_part4_eq_skeleton]; unfold k0_part4_skel
  simp only [Prog.lift, Prog.bind_op, Prog.bind_ret, Prog.pure_eq_ret, Prog.bind_assoc]
  simp only [B3, B4, Know, Inputs, Proto, sends, List.drop, List.take, unissued_cons, inFlight_cons, sendCellX, recvCellX, peerX]
  iintro ⟨⟨⟨#HR, #Hlev⟩, Hin, ⟨⟨%W, HO⟩, ⟨⟨HtR1, HtS1⟩, ⟨HtR2, HtS2⟩, HU⟩, ⟨Hc0, HF⟩, HUw, HD⟩, ⟨Hh0, Hh1, Hhk⟩,
      ⟨Ht10, Ht01, Htk⟩, ⟨Hs001, Hs100, Hsr⟩⟩, Hk⟩

  iapply (step_send0 m K d 0 1 [(1,0,0),(1,0,1),(0,1,0),(0,1,1),(1,1,0),(1,1,1),(0,2,0),(0,2,1),(1,2,0),(1,2,1)] (dev4_eq d) (off8_eq d) (sendSem_spell 0 0 1 _) (recvSem_spell 0 0 1 _)) $$ [Ht10 Hs001 HO HtS1 HtR1]
  · iframe # ∗
  iintro ⟨Hc1, HO⟩

  iapply (wp_load_hid d (sendQ 0 d) (Hq m d (sendQ 0 d)) (off2_eq d)) $$ Hh0
  iintro Hh0

  icases Ht01 with ⟨%t01, Ht01⟩
  iapply (wp_load_tile d (sendQ 0 d) 1 t01 (off9_eq d)) $$ Ht01
  iintro Ht01
  iapply (wp_store_tile d (sendQ 0 d) 1 t01 (k0_pay7 (w2b m d) (Hq m d (sendQ 0 d))) (off9_eq d)) $$ Ht01
  iintro Ht01
  rw [part1_val]

  iapply (step_send0 m K d 1 0 [(1,0,1),(0,1,0),(0,1,1),(1,1,0),(1,1,1),(0,2,0),(0,2,1),(1,2,0),(1,2,1)] (dev5_eq d) (off10_eq d) (sendSem_spell 1 0 0 _) (recvSem_spell 1 0 0 _)) $$ [Ht01 Hs100 HO HtS2 HtR2]
  · iframe # ∗
  iintro ⟨Hc2, HO⟩
  rw [wp_ret]; imodintro; iapply Hk
  iframe ∗ #
  iexists W; iexact HO

theorem part5_spec (K : Dev nD × Fin 25 → ℕ) (d : Dev nD) (v4 v8 v28 c256 : BitVec 32) {Q : FVec F S256x2048 .bf16 → sProp 𝕄} :
    iprop(B4 m K d ∗ (B5 m K d -∗ Q (Hq m d (keepQ 0 d))))
      ⊢ wp frame (wpE (defs₀ (F := F)) 𝒱₀ (d : Thread nD τ) none) Set.univ
          (atBufs k0_part5 d v4 v8 v28 (w1b m d) (w2b m d) c256) Q := by
  simp only [atBufs, k0_part5_eq_skeleton]; unfold k0_part5_skel
  simp only [Prog.lift, Prog.bind_op, Prog.bind_ret, Prog.pure_eq_ret, Prog.bind_assoc]
  simp only [B4, B5, Know, Inputs, Proto, sends, List.drop, List.take, unissued_cons, inFlight_cons, sendCellX, recvCellX, peerX]
  iintro ⟨⟨⟨#HR, #Hlev⟩, ⟨Hx, Hw⟩, ⟨⟨%W, HO⟩, ⟨⟨HtR, HtS⟩, HU⟩, ⟨Hc0, Hc1, Hc2, HF⟩, HUw, HD⟩, ⟨Hh0, Hh1, Hh2, Hh3⟩,
      ⟨Ht11, Htk⟩, ⟨Hs101, Hsr⟩⟩, Hk⟩

  iapply (wp_load_hid d (sendQ 1 d) (Hq m d (sendQ 1 d)) (off6_eq d)) $$ Hh1
  iintro Hh1

  icases Ht11 with ⟨%t11, Ht11⟩
  iapply (wp_load_tile d (sendQ 1 d) 1 t11 (off11_eq d)) $$ Ht11
  iintro Ht11
  iapply (wp_store_tile d (sendQ 1 d) 1 t11 (k0_pay8 (w2b m d) (Hq m d (sendQ 1 d))) (off11_eq d)) $$ Ht11
  iintro Ht11
  rw [show k0_pay8 (w2b m d) (Hq m d (sendQ 1 d)) = partial_ (A m) d (sendQ 1 d) 1 from part1_val m d _]

  iapply (step_send0 m K d 1 1 [(0,1,0),(0,1,1),(1,1,0),(1,1,1),(0,2,0),(0,2,1),(1,2,0),(1,2,1)] (dev6_eq d) (off12_eq d) (sendSem_spell 1 0 1 _) (recvSem_spell 1 0 1 _)) $$ [Ht11 Hs101 HO HtS HtR]
  · iframe # ∗
  iintro ⟨Hc3, HO⟩

  iapply (wp_load_xrows d (keepQ 0 d) (xstg m d) (off13_eq d)) $$ Hx
  iintro Hx
  icases Hh2 with ⟨%h2, Hh2⟩
  iapply (wp_load_hid d (keepQ 0 d) h2 (off14_eq d)) $$ Hh2
  iintro Hh2
  ihave Hh2' : (hidAny (F := F) d (keepQ 0 d)) $$ [Hh2]
  · iexists h2; iexact Hh2
  rw [wp_ret]; imodintro
  rw [show k0_pay9 (w1b m d) (rowsQ (keepQ 0 d) (xstg m d)) = Hq m d (keepQ 0 d) from hid_val m d _]
  iapply Hk
  iframe ∗ #
  iexists W; iexact HO

theorem part6_spec (K : Dev nD × Fin 25 → ℕ) (d : Dev nD) (v8 v26 : BitVec 32) {Q : PUnit → sProp 𝕄} :
    iprop(B5 m K d ∗ (B6 m K d -∗ Q ⟨⟩))
      ⊢ wp frame (wpE (defs₀ (F := F)) 𝒱₀ (d : Thread nD τ) none) Set.univ
          (atBufs k0_part6 d v8 v26 (w1b m d) (w2b m d) (Hq m d (keepQ 0 d))) Q := by
  simp only [atBufs, k0_part6_eq_skeleton]; unfold k0_part6_skel
  simp only [Prog.lift, Prog.bind_op, Prog.bind_ret, Prog.pure_eq_ret, Prog.bind_assoc]
  simp only [B5, B6, Know, Inputs, Hids]
  iintro ⟨⟨⟨#HR, #Hlev⟩, ⟨Hx, Hw⟩, HP, ⟨Hh0, Hh1, Hh2, Hh3⟩, ⟨Ht00, Ht10, Htk⟩, Hsr⟩, Hk⟩

  icases Hh2 with ⟨%h2, Hh2⟩
  iapply (wp_store_hid d (keepQ 0 d) h2 (Hq m d (keepQ 0 d)) (off14_eq d)) $$ Hh2
  iintro Hh2
  iapply (wp_load_hid d (keepQ 0 d) (Hq m d (keepQ 0 d)) (off14_eq d)) $$ Hh2
  iintro Hh2

  icases Ht00 with ⟨%t00, Ht00⟩
  iapply (wp_load_tile d (keepQ 0 d) 0 t00 (off15_eq d)) $$ Ht00
  iintro Ht00
  iapply (wp_store_tile d (keepQ 0 d) 0 t00 (k0_pay10 (w2b m d) (Hq m d (keepQ 0 d))) (off15_eq d)) $$ Ht00
  iintro Ht00
  rw [show k0_pay10 (w2b m d) (Hq m d (keepQ 0 d)) = partial_ (A m) d (keepQ 0 d) 0 from part0_val m d _]

  iapply (wp_load_xrows d (keepQ 1 d) (xstg m d) (off16_eq d)) $$ Hx
  iintro Hx
  icases Hh3 with ⟨%h3, Hh3⟩
  iapply (wp_load_hid d (keepQ 1 d) h3 (off17_eq d)) $$ Hh3
  iintro Hh3
  iapply (wp_store_hid d (keepQ 1 d) h3 (k0_pay11 (w1b m d) (rowsQ (keepQ 1 d) (xstg m d))) (off17_eq d)) $$ Hh3
  iintro Hh3
  rw [show k0_pay11 (w1b m d) (rowsQ (keepQ 1 d) (xstg m d)) = Hq m d (keepQ 1 d) from hid_val m d _]
  iapply (wp_load_hid d (keepQ 1 d) (Hq m d (keepQ 1 d)) (off17_eq d)) $$ Hh3
  iintro Hh3

  icases Ht10 with ⟨%t10, Ht10⟩
  iapply (wp_load_tile d (keepQ 1 d) 0 t10 (off18_eq d)) $$ Ht10
  iintro Ht10
  iapply (wp_store_tile d (keepQ 1 d) 0 t10 (k0_pay12 (w2b m d) (Hq m d (keepQ 1 d))) (off18_eq d)) $$ Ht10
  iintro Ht10
  rw [show k0_pay12 (w2b m d) (Hq m d (keepQ 1 d)) = partial_ (A m) d (keepQ 1 d) 0 from part0_val m d _]
  rw [wp_ret]; imodintro; iapply Hk
  iframe ∗ #

end Cert.Kernel.Coll

end
-- ==== Proof.Kernel.BodyA.lean ====
/-
  Column half 0, first reduction: each lane's step-0 landing is waited for and added to the kept tile, and the sum
  sent on to the step-1 partner.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.Offsets
import proofs.«900576_g7700000000000577_dist_mlp2_tp_i_m1024_h2048_out1024_v7x_i4_bf16_1_alg».proof.Proof.Kernel.StgEq

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem tile_credit (off : Fin 2 → Nat) (hinb : ∀ a, off a + S256x512.size a ≤ S1024x1024.size a) :
    (outM.slice (Rect.unit (s := S1024x1024) off S256x512.size hinb) (fun _ => rfl)).view.dmaCredit = N := rfl

private theorem slot_credit (c s b : Fin 2) : (slotM c s b).view.dmaCredit = N := by
  revert c s b; decide

private theorem proto_4_0 (d : Dev nD) : Proto (F := F) 4 0 d
    = iprop((∃ W, owes (d : Thread nD τ) (oweL d (sends.drop 4)) W) ∗ Unissued d (sends.drop 4)
        ∗ (cred (tallyAt (sendCell d 0 0 0) () N) ∗ InFlight d ((sends.take 4).drop 1))
        ∗ ((atPos ER (sendCell d 0 0 0) 0 ∅ 0 ∗ atPos ER (recvCell d 0 0 0) 0 ∅ 0 ∗ cred (tallyAt (recvCell d 0 0 0) () N)) ∗ Unwaited d (sends.drop 1))
        ∗ emp) := rfl

private theorem proto_4_1 (d : Dev nD) : Proto (F := F) 4 1 d
    = iprop((∃ W, owes (d : Thread nD τ) (oweL d (sends.drop 4)) W) ∗ Unissued d (sends.drop 4)
        ∗ InFlight d ((sends.take 4).drop 1) ∗ Unwaited d (sends.drop 1)
        ∗ (semVal (sendCell d 0 0 0) 0 ∗ semVal (recvCell d 0 0 0) 0)) := rfl

private theorem proto_4_1_open (d : Dev nD) : Proto (F := F) 4 1 d
    = iprop((∃ W, owes (d : Thread nD τ) (oweL d (((0, 1, 0) : Xf) :: sends.drop 5)) W)
        ∗ ((dutyTok ER (recvCell (partner 1 0 d) 0 1 0) 0 false ∗ dutyTok ER (sendCell d 0 1 0) 0 false) ∗ Unissued d (sends.drop 5))
        ∗ (cred (tallyAt (sendCell d 0 0 1) () N) ∗ cred (tallyAt (sendCell d 1 0 0) () N) ∗ cred (tallyAt (sendCell d 1 0 1) () N))
        ∗ ((atPos ER (sendCell d 0 0 1) 0 ∅ 0 ∗ atPos ER (recvCell d 0 0 1) 0 ∅ 0 ∗ cred (tallyAt (recvCell d 0 0 1) () N)) ∗ Unwaited d (sends.drop 2))
        ∗ (semVal (sendCell d 0 0 0) 0 ∗ semVal (recvCell d 0 0 0) 0)) := rfl

private theorem proto_5_2 (d : Dev nD) : Proto (F := F) 5 2 d
    = iprop((∃ W, owes (d : Thread nD τ) (oweL d (sends.drop 5)) W) ∗ Unissued d (sends.drop 5)
        ∗ (cred (tallyAt (sendCell d 1 0 0) () N) ∗ cred (tallyAt (sendCell d 1 0 1) () N) ∗ cred (tallyAt (sendCell d 0 1 0) () N))
        ∗ Unwaited d (sends.drop 2)
        ∗ ((semVal (sendCell d 0 0 0) 0 ∗ semVal (recvCell d 0 0 0) 0) ∗ (semVal (sendCell d 0 0 1) 0 ∗ semVal (recvCell d 0 0 1) 0))) := rfl

private theorem proto_5_2_open (d : Dev nD) : Proto (F := F) 5 2 d
    = iprop((∃ W, owes (d : Thread nD τ) (oweL d (((0, 1, 1) : Xf) :: sends.drop 6)) W)
        ∗ ((dutyTok ER (recvCell (partner 1 1 d) 0 1 1) 0 false ∗ dutyTok ER (sendCell d 0 1 1) 0 false) ∗ Unissued d (sends.drop 6))
        ∗ (cred (tallyAt (sendCell d 1 0 0) () N) ∗ cred (tallyAt (sendCell d 1 0 1) () N) ∗ cred (tallyAt (sendCell d 0 1 0) () N))
        ∗ Unwaited d (sends.drop 2) ∗ Done d (sends.take 2)) := rfl

private theorem proto_6_2 (d : Dev nD) : Proto (F := F) 6 2 d
    = iprop((∃ W, owes (d : Thread nD τ) (oweL d (sends.drop 6)) W) ∗ Unissued d (sends.drop 6)
        ∗ (cred (tallyAt (sendCell d 1 0 0) () N) ∗ cred (tallyAt (sendCell d 1 0 1) () N) ∗ cred (tallyAt (sendCell d 0 1 0) () N)
          ∗ cred (tallyAt (sendCell d 0 1 1) () N))
        ∗ Unwaited d (sends.drop 2) ∗ Done d (sends.take 2)) := rfl

def B7 (K : Dev nD × Fin 25 → ℕ) (d : Dev nD) : sProp 𝕄 :=
  iprop(Know m K ∗ Inputs m d ∗ Proto 4 1 d
    ∗ Hids m d
    ∗ (tileOwns d (keepQ 0 d) 0 (afterFirst (A m) d 0 0) ∗ tileOwns d (keepQ 1 d) 0 (partial_ (A m) d (keepQ 1 d) 0)
      ∗ tileAny d (keepQ 0 d) 1 ∗ tileAny d (keepQ 1 d) 1)
    ∗ (slotOwns d 0 0 0 (peerPart m d 0 0) ∗ tileOwns (p0 0 d) (keepQ 0 d) 0 (peerPart m d 0 0))
    ∗ (slotAny (F := F) (partner 1 0 d) 0 1 0 ∗ slotAny (F := F) (partner 1 1 d) 0 1 1 ∗ slotAny (F := F) (partner 1 0 d) 1 1 0 ∗ slotAny (F := F) (partner 1 1 d) 1 1 1))

def B8 (K : Dev nD × Fin 25 → ℕ) (d : Dev nD) : sProp 𝕄 :=
  iprop(Know m K ∗ Inputs m d ∗ Proto 5 2 d
    ∗ Hids m d
    ∗ (tileOwns d (keepQ 1 d) 0 (partial_ (A m) d (keepQ 1 d) 0) ∗ tileAny d (keepQ 0 d) 1 ∗ tileAny d (keepQ 1 d) 1)
    ∗ (slotOwns d 0 0 0 (peerPart m d 0 0) ∗ slotOwns d 0 0 1 (peerPart m d 0 1))
    ∗ (tileOwns (p0 0 d) (keepQ 0 d) 0 (peerPart m d 0 0) ∗ tileOwns (p0 1 d) (keepQ 1 d) 0 (peerPart m d 0 1))
    ∗ (slotAny (F := F) (partner 1 1 d) 0 1 1 ∗ slotAny (F := F) (partner 1 0 d) 1 1 0 ∗ slotAny (F := F) (partner 1 1 d) 1 1 1))

private theorem ret9_eq (d : Dev nD) : k0_pay15 (w2b m d) (Hq m d (keepQ 0 d)) = ret9 m d := by
  show k0_pay15 (k0_pay2 (w2stg m d)) (Hq m d (keepQ 0 d)) = part 1 ((A m).w2 d) (Hq m d (keepQ 0 d))
  rw [w2stg_eq]
  unfold part
  rw [if_neg (by decide)]
  rfl

theorem part7_spec (K : Dev nD × Fin 25 → ℕ) (d : Dev nD) (v3 v8 : BitVec 32) {Q : PUnit → sProp 𝕄} :
    iprop(B6 m K d ∗ (B7 m K d -∗ Q ⟨⟩))
      ⊢ wp frame (wpE (defs₀ (F := F)) 𝒱₀ (d : Thread nD τ) none) Set.univ
          (atBufs k0_part7 d v3 v8) Q := by
  simp only [atBufs, k0_part7_eq_skeleton]; unfold k0_part7_skel
  simp only [Prog.lift, Prog.bind_op, Prog.bind_ret, Prog.pure_eq_ret, Prog.bind_assoc]
  unfold B6 B7 Know
  rw [proto_4_0, proto_4_1]
  iintro ⟨⟨⟨#HR, #Hlev⟩, Hin, ⟨⟨%W, HO⟩, Hun, ⟨Hc0, Hfl⟩, ⟨⟨HatS, HatR, HcR⟩, Huw⟩, -⟩, Hhid, ⟨Ht0, Ht1, Ht01, Ht11⟩, Hsl⟩, Hk⟩

  iapply (step_wait_send m K d 0 0 0 (sends.drop 4) (sendSem_spell 0 0 0 _) (tile_credit _ _)) $$ [Hc0 HO HatS]
  · iframe # ∗
  iintro ⟨HO, HzS, -⟩

  iapply (step_wait_recv m K d 0 0 0 (sends.drop 4) (by decide) (recvSem_spell 0 0 0 _) (slot_credit 0 0 0)) $$ [HcR HO HatR]
  · iframe # ∗
  iintro ⟨HO, HzR, HpR⟩
  ihave Hp := (Entails.of_eq (recvPay_0 m d 0 0)) $$ HpR
  icases Hp with ⟨Hs0, Hpt0⟩

  iapply (wp_load_tile d (keepQ 0 d) 0 (partial_ (A m) d (keepQ 0 d) 0) (off15_eq d)) $$ Ht0
  iintro Ht0
  iapply (wp_load_slot d 0 0 0 (peerPart m d 0 0) rfl) $$ Hs0
  iintro Hs0
  iapply (wp_load_tile d (keepQ 0 d) 0 (partial_ (A m) d (keepQ 0 d) 0) (off15_eq d)) $$ Ht0
  iintro Ht0
  iapply (wp_store_tile d (keepQ 0 d) 0 (partial_ (A m) d (keepQ 0 d) 0) (afterFirst (A m) d 0 0) (off15_eq d)) $$ Ht0
  iintro Ht0
  rw [wp_ret]
  imodintro
  iapply Hk
  iframe # ∗; iexists _; iframe

theorem part8_spec (K : Dev nD × Fin 25 → ℕ) (d : Dev nD) (v4 : BitVec 32) {Q : PUnit → sProp 𝕄} :
    iprop(B7 m K d ∗ (B8 m K d -∗ Q ⟨⟩))
      ⊢ wp frame (wpE (defs₀ (F := F)) 𝒱₀ (d : Thread nD τ) none) Set.univ
          (atBufs k0_part8 d v4) Q := by
  simp only [atBufs, k0_part8_eq_skeleton]; unfold k0_part8_skel
  simp only [Prog.lift, Prog.bind_op, Prog.bind_ret, Prog.pure_eq_ret, Prog.bind_assoc]
  unfold B7 B8 Know
  rw [proto_4_1_open, proto_5_2]
  iintro ⟨⟨⟨#HR, #Hlev⟩, Hin, ⟨⟨%W, HO⟩, ⟨⟨HtR, HtS⟩, Hun⟩, ⟨Hc1, Hc2, Hc3⟩, ⟨⟨HatS, HatR, HcR⟩, Huw⟩, Hdone⟩, Hhid, ⟨Ht0, Ht1, Ht01, Ht11⟩,
    ⟨Hs0, Hpt0⟩, ⟨Hsl0, Hsl1, Hsl2, Hsl3⟩⟩, Hk⟩

  iapply (step_send1 m K d 0 0 (sends.drop 5) (dev7_eq d) (off19_eq d) (sendSem_spell 0 1 0 _) (recvSem_spell 0 1 0 _)) $$ [Ht0 Hsl0 HO HtS HtR]
  · iframe # ∗
  iintro ⟨Hc4, HO⟩

  iapply (step_wait_send m K d 0 0 1 (sends.drop 5) (sendSem_spell 0 0 1 _) (tile_credit _ _)) $$ [Hc1 HO HatS]
  · iframe # ∗
  iintro ⟨HO, HzS, -⟩

  iapply (step_wait_recv m K d 0 0 1 (sends.drop 5) (by decide) (recvSem_spell 0 0 1 _) (slot_credit 0 0 1)) $$ [HcR HO HatR]
  · iframe # ∗
  iintro ⟨HO, HzR, HpR⟩
  ihave Hp := (Entails.of_eq (recvPay_0 m d 0 1)) $$ HpR
  icases Hp with ⟨Hs1, Hpt1⟩
  rw [wp_ret]
  imodintro
  iapply Hk
  iframe # ∗; iexists _; iframe

theorem part9_spec (K : Dev nD × Fin 25 → ℕ) (d : Dev nD) (v3 v8 v26 : BitVec 32) {Q : FVec F S256x512 .bf16 → sProp 𝕄} :
    iprop(B8 m K d ∗ (B9 m K d -∗ Q (ret9 m d)))
      ⊢ wp frame (wpE (defs₀ (F := F)) 𝒱₀ (d : Thread nD τ) none) Set.univ
          (atBufs k0_part9 d v3 v8 v26 (w2b m d)) Q := by
  simp only [atBufs, k0_part9_eq_skeleton]; unfold k0_part9_skel
  simp only [Prog.lift, Prog.bind_op, Prog.bind_ret, Prog.pure_eq_ret, Prog.bind_assoc]
  unfold B8 B9 Know
  rw [proto_5_2_open, proto_6_2, ← ret9_eq]
  iintro ⟨⟨⟨#HR, #Hlev⟩, Hin, ⟨⟨%W, HO⟩, ⟨⟨HtR, HtS⟩, Hun⟩, ⟨Hc2, Hc3, Hc4⟩, Huw, Hdone⟩, ⟨Hh0, Hh1, Hh2, Hh3⟩, ⟨Ht1, Ht01, Ht11⟩,
    ⟨Hs0, Hs1⟩, ⟨Hpt0, Hpt1⟩, ⟨Hsl1, Hsl2, Hsl3⟩⟩, Hk⟩

  iapply (wp_load_tile d (keepQ 1 d) 0 (partial_ (A m) d (keepQ 1 d) 0) (off18_eq d)) $$ Ht1
  iintro Ht1
  iapply (wp_load_slot d 0 0 1 (peerPart m d 0 1) rfl) $$ Hs1
  iintro Hs1
  iapply (wp_load_tile d (keepQ 1 d) 0 (partial_ (A m) d (keepQ 1 d) 0) (off18_eq d)) $$ Ht1
  iintro Ht1
  iapply (wp_store_tile d (keepQ 1 d) 0 (partial_ (A m) d (keepQ 1 d) 0) (afterFirst (A m) d 0 1) (off18_eq d)) $$ Ht1
  iintro Ht1

  iapply (step_send1 m K d 0 1 (sends.drop 6) (dev8_eq d) (off20_eq d) (sendSem_spell 0 1 1 _) (recvSem_spell 0 1 1 _)) $$ [Ht1 Hsl1 HO HtS HtR]
  · iframe # ∗
  iintro ⟨Hc5, HO⟩

  iapply (wp_load_hid d (keepQ 0 d) (Hq m d (keepQ 0 d)) (off14_eq d)) $$ Hh2
  iintro Hh2
  icases Ht01 with ⟨%v01, Ht01⟩
  iapply (wp_load_tile d (keepQ 0 d) 1 v01 (off21_eq d)) $$ Ht01
  iintro Ht01
  rw [wp_ret]
  imodintro
  iapply Hk
  isplitr
  · isplitr
    · iexact HR
    · iexact Hlev
  isplitl [Hin]; · iexact Hin
  isplitl [HO Hun Hc2 Hc3 Hc4 Hc5 Huw Hdone]
  · isplitl [HO]; · iexists _; iexact HO
    isplitl [Hun]; · iexact Hun
    isplitl [Hc2 Hc3 Hc4 Hc5]
    · isplitl [Hc2]; · iexact Hc2
      isplitl [Hc3]; · iexact Hc3
      isplitl [Hc4]; · iexact Hc4
      iexact Hc5
    isplitl [Huw]; · iexact Huw
    iexact Hdone
  isplitl [Hh0 Hh1 Hh2 Hh3]
  · isplitl [Hh0]; · iexact Hh0
    isplitl [Hh1]; · iexact Hh1
    isplitl [Hh2]; · iexact Hh2
    iexact Hh3
  isplitl [Ht01 Ht11]
  · isplitl [Ht01]; · iexists _; iexact Ht01
    iexact Ht11
  isplitl [Hs0 Hs1]
  · isplitl [Hs0]; · iexact Hs0
    iexact Hs1
  isplitl [Hpt0 Hpt1]
  · isplitl [Hpt0]; · iexact Hpt0
    iexact Hpt1
  isplitl [Hsl2]; · iexact Hsl2
  iexact Hsl3

end Cert.Kernel.Coll

end
-- ==== Proof.Kernel.BodyG.lean ====
/-
  Column half 1, first reduction: the kept quarters' partials are stored, each lane's step-0 landing is added in
  and the sum sent on; the first step-1 landing of column half 0 is waited for.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.StgEq
import proofs.«900576_g7700000000000577_dist_mlp2_tp_i_m1024_h2048_out1024_v7x_i4_bf16_1_alg».proof.Proof.Kernel.Offsets

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem part1_eq (d : Dev nD) (q : Fin 4) : k0_pay16 (w2b m d) (Hq m d q) = partial_ (A m) d q 1 := by
  show k0_pay16 (k0_pay2 (w2stg m d)) (Hq m d q) = _
  rw [w2stg_eq]; rfl

private theorem credit_tile (off : Fin 2 → Nat) (hinb : ∀ a, off a + S256x512.size a ≤ S1024x1024.size a) (hst) :
    ((outM : Memref sig .tc .vmem S1024x1024 .bf16).slice (Rect.unit (s := S1024x1024) off S256x512.size hinb) hst).view.dmaCredit = N := rfl

private theorem credit_slot (c s b : Fin 2) : (slotM c s b).view.dmaCredit = N := rfl

def G10 (K : Dev nD × Fin 25 → ℕ) (d : Dev nD) : sProp 𝕄 :=
  iprop(Know m K ∗ Inputs m d ∗ Proto 6 3 d
    ∗ Hids m d
    ∗ (tileOwns d (keepQ 0 d) 1 (partial_ (A m) d (keepQ 0 d) 1) ∗ tileOwns d (keepQ 1 d) 1 (partial_ (A m) d (keepQ 1 d) 1))
    ∗ (slotOwns d 0 0 0 (peerPart m d 0 0) ∗ slotOwns d 0 0 1 (peerPart m d 0 1) ∗ slotOwns d 1 0 0 (peerPart m d 1 0))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0))
    ∗ (slotAny (F := F) (partner 1 0 d) 1 1 0 ∗ slotAny (F := F) (partner 1 1 d) 1 1 1))

def G11 (K : Dev nD × Fin 25 → ℕ) (d : Dev nD) : sProp 𝕄 :=
  iprop(Know m K ∗ Inputs m d ∗ Proto 7 3 d
    ∗ Hids m d
    ∗ tileOwns d (keepQ 1 d) 1 (partial_ (A m) d (keepQ 1 d) 1)
    ∗ (slotOwns d 0 0 0 (peerPart m d 0 0) ∗ slotOwns d 0 0 1 (peerPart m d 0 1) ∗ slotOwns d 1 0 0 (peerPart m d 1 0))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0))
    ∗ slotAny (F := F) (partner 1 1 d) 1 1 1)

def G12 (K : Dev nD × Fin 25 → ℕ) (d : Dev nD) : sProp 𝕄 :=
  iprop(Know m K ∗ Inputs m d ∗ Proto 7 4 d
    ∗ Hids m d
    ∗ tileOwns d (keepQ 1 d) 1 (afterFirst (A m) d 1 1)
    ∗ (slotOwns d 0 0 0 (peerPart m d 0 0) ∗ slotOwns d 0 0 1 (peerPart m d 0 1) ∗ slotOwns d 1 0 0 (peerPart m d 1 0) ∗ slotOwns d 1 0 1 (peerPart m d 1 1))
    ∗ (tileOwns (p0 0 d) (keepQ 0 d) 0 (peerPart m d 0 0) ∗ tileOwns (p0 1 d) (keepQ 1 d) 0 (peerPart m d 0 1)
      ∗ tileOwns (p0 0 d) (keepQ 0 d) 1 (peerPart m d 1 0) ∗ tileOwns (p0 1 d) (keepQ 1 d) 1 (peerPart m d 1 1))
    ∗ slotAny (F := F) (partner 1 1 d) 1 1 1)

theorem part10_spec (K : Dev nD × Fin 25 → ℕ) (d : Dev nD) (v3 v8 v26 : BitVec 32) {Q : PUnit → sProp 𝕄} :
    iprop(B9 m K d ∗ (G10 m K d -∗ Q ⟨⟩))
      ⊢ wp frame (wpE (defs₀ (F := F)) 𝒱₀ (d : Thread nD τ) none) Set.univ
          (atBufs k0_part10 d v3 v8 v26 (w2b m d) (ret9 m d)) Q := by
  simp only [atBufs, k0_part10_eq_skeleton]; unfold k0_part10_skel
  simp only [Prog.lift, Prog.bind_op, Prog.bind_ret, Prog.pure_eq_ret, Prog.bind_assoc]
  unfold B9 G10 Know Hids
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, Hun, ⟨F100, Hfl⟩, ⟨⟨WS100, WR100, WC100⟩, Huw⟩, ⟨D000, D001⟩⟩, ⟨Hh0, Hh1, Hh2, Hh3⟩, ⟨⟨%t0, Ht0⟩, ⟨%t1, Ht1⟩⟩, ⟨Hs000, Hs001⟩, ⟨Hp000, Hp001⟩, Hps⟩, Hk⟩

  iapply (wp_store_tile d (keepQ 0 d) 1 t0 (ret9 m d) (off21_eq d)) $$ Ht0
  iintro Ht0

  iapply (wp_load_hid d (keepQ 1 d) (Hq m d (keepQ 1 d)) (off17_eq d)) $$ Hh3
  iintro Hh3

  iapply (wp_load_tile d (keepQ 1 d) 1 t1 (off22_eq d)) $$ Ht1
  iintro Ht1
  iapply (wp_store_tile d (keepQ 1 d) 1 t1 (k0_pay16 (w2b m d) (Hq m d (keepQ 1 d))) (off22_eq d)) $$ Ht1
  rw [part1_eq m d (keepQ 1 d)]
  iintro Ht1

  iapply (step_wait_send m K d 1 0 0 [(1, 1, 0), (1, 1, 1), (0, 2, 0), (0, 2, 1), (1, 2, 0), (1, 2, 1)] (sendSem_spell 1 0 0 _) (dst := outM.slice (Rect.unit (s := S1024x1024) (k0_off10 d) S256x512.size (k0_off10_inb d)) (fun _ => rfl)) (credit_tile _ _ _)) $$ [F100 HO WS100]
  · iframe # ∗
  iintro ⟨HO, ZS100, -⟩

  iapply (step_wait_recv m K d 1 0 0 [(1, 1, 0), (1, 1, 1), (0, 2, 0), (0, 2, 1), (1, 2, 0), (1, 2, 1)] (by decide) (recvSem_spell 1 0 0 _) (dst := slotM 1 0 0) (credit_slot 1 0 0)) $$ [WC100 HO WR100]
  · iframe # ∗
  iintro ⟨HO, ZR100, Hpay⟩
  ihave Hp := (Entails.of_eq (recvPay_0 m d 1 0)) $$ Hpay
  icases Hp with ⟨Hs100, Hp100⟩
  rw [wp_ret]; imodintro
  iapply Hk
  iframe # ∗; iexists _; iframe

theorem part11_spec (K : Dev nD × Fin 25 → ℕ) (d : Dev nD) (v4 v8 : BitVec 32) {Q : PUnit → sProp 𝕄} :
    iprop(G10 m K d ∗ (G11 m K d -∗ Q ⟨⟩))
      ⊢ wp frame (wpE (defs₀ (F := F)) 𝒱₀ (d : Thread nD τ) none) Set.univ
          (atBufs k0_part11 d v4 v8) Q := by
  simp only [atBufs, k0_part11_eq_skeleton]; unfold k0_part11_skel
  simp only [Prog.lift, Prog.bind_op, Prog.bind_ret, Prog.pure_eq_ret, Prog.bind_assoc]
  unfold G10 G11 Know
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, ⟨⟨UR110, US110⟩, Hun⟩, ⟨F101, F010, F011⟩, Huw, Hdn⟩, Hhid, ⟨Ht0, Ht1⟩, ⟨Hs000, Hs001, Hs100⟩, Hpt, ⟨Hps110, Hps111⟩⟩, Hk⟩

  iapply (wp_load_tile d (keepQ 0 d) 1 (partial_ (A m) d (keepQ 0 d) 1) (off21_eq d)) $$ Ht0
  iintro Ht0
  iapply (wp_load_slot d 1 0 0 (peerPart m d 1 0) (show (![1, 0, 0, 0, 0] : Fin 5 → Nat) = ![(1 : Fin 2).val, (0 : Fin 2).val, (0 : Fin 2).val, 0, 0] from rfl)) $$ Hs100
  iintro Hs100

  iapply (wp_load_tile d (keepQ 0 d) 1 (partial_ (A m) d (keepQ 0 d) 1) (off21_eq d)) $$ Ht0
  iintro Ht0
  iapply (wp_store_tile d (keepQ 0 d) 1 (partial_ (A m) d (keepQ 0 d) 1) (afterFirst (A m) d 1 0) (off21_eq d)) $$ Ht0
  iintro Ht0

  iapply (step_send1 m K d 1 0 [(1, 1, 1), (0, 2, 0), (0, 2, 1), (1, 2, 0), (1, 2, 1)] (dev9_eq d) (off23_eq d) (sendSem_spell 1 1 0 _) (recvSem_spell 1 1 0 _)) $$ [Ht0 Hps110 HO US110 UR110]
  · iframe # ∗
  iintro ⟨F110, HO⟩
  rw [wp_ret]; imodintro
  iapply Hk
  iframe # ∗; iexists _; iframe

theorem part12_spec (K : Dev nD × Fin 25 → ℕ) (d : Dev nD) (v3 v4 v26 : BitVec 32) {Q : PUnit → sProp 𝕄} :
    iprop(G11 m K d ∗ (G12 m K d -∗ Q ⟨⟩))
      ⊢ wp frame (wpE (defs₀ (F := F)) 𝒱₀ (d : Thread nD τ) none) Set.univ
          (atBufs k0_part12 d v3 v4 v26) Q := by
  simp only [atBufs, k0_part12_eq_skeleton]; unfold k0_part12_skel
  simp only [Prog.lift, Prog.bind_op, Prog.bind_ret, Prog.pure_eq_ret, Prog.bind_assoc]
  unfold G11 G12 Know
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, Hun, ⟨F101, Hfl⟩, ⟨⟨WS101, WR101, WC101⟩, Huw⟩, ⟨D000, D001, D100⟩⟩, Hhid, Ht1, ⟨Hs000, Hs001, Hs100⟩, ⟨Hp000, Hp001, Hp100⟩, Hps111⟩, Hk⟩

  iapply (step_wait_send m K d 1 0 1 [(1, 1, 1), (0, 2, 0), (0, 2, 1), (1, 2, 0), (1, 2, 1)] (sendSem_spell 1 0 1 _) (dst := outM.slice (Rect.unit (s := S1024x1024) (k0_off12 d) S256x512.size (k0_off12_inb d)) (fun _ => rfl)) (credit_tile _ _ _)) $$ [F101 HO WS101]
  · iframe # ∗
  iintro ⟨HO, ZS101, -⟩

  iapply (step_wait_recv m K d 1 0 1 [(1, 1, 1), (0, 2, 0), (0, 2, 1), (1, 2, 0), (1, 2, 1)] (by decide) (recvSem_spell 1 0 1 _) (dst := slotM 1 0 1) (credit_slot 1 0 1)) $$ [WC101 HO WR101]
  · iframe # ∗
  iintro ⟨HO, ZR101, Hpay⟩
  ihave Hp := (Entails.of_eq (recvPay_0 m d 1 1)) $$ Hpay
  icases Hp with ⟨Hs101, Hp101⟩

  iapply (wp_load_tile d (keepQ 1 d) 1 (partial_ (A m) d (keepQ 1 d) 1) (off22_eq d)) $$ Ht1
  iintro Ht1
  iapply (wp_load_slot d 1 0 1 (peerPart m d 1 1) (show (![1, 0, 1, 0, 0] : Fin 5 → Nat) = ![(1 : Fin 2).val, (0 : Fin 2).val, (1 : Fin 2).val, 0, 0] from rfl)) $$ Hs101
  iintro Hs101

  iapply (wp_load_tile d (keepQ 1 d) 1 (partial_ (A m) d (keepQ 1 d) 1) (off22_eq d)) $$ Ht1
  iintro Ht1
  iapply (wp_store_tile d (keepQ 1 d) 1 (partial_ (A m) d (keepQ 1 d) 1) (afterFirst (A m) d 1 1) (off22_eq d)) $$ Ht1
  iintro Ht1
  rw [wp_ret]; imodintro
  iapply Hk
  iframe # ∗; iexists _; iframe

theorem part13_spec (K : Dev nD × Fin 25 → ℕ) (d : Dev nD) (v4 v8 : BitVec 32) {Q : FVec F S256x512 .bf16 → sProp 𝕄} :
    iprop(G12 m K d ∗ (B13 m K d -∗ Q (ret13 m d)))
      ⊢ wp frame (wpE (defs₀ (F := F)) 𝒱₀ (d : Thread nD τ) none) Set.univ
          (atBufs k0_part13 d v4 v8) Q := by
  simp only [atBufs, k0_part13_eq_skeleton]; unfold k0_part13_skel
  simp only [Prog.lift, Prog.bind_op, Prog.bind_ret, Prog.pure_eq_ret, Prog.bind_assoc]
  unfold G12 B13 Know
  simp only [Proto, sends, List.drop, List.take, Unissued, InFlight, Unwaited, Done, bigSepL_cons_cons, bigSepL_singleton, bigSepL_nil, sep_fold]
  iintro ⟨⟨⟨#HR, #Hlev⟩, Hin, ⟨⟨%W, HO⟩, ⟨⟨UR111, US111⟩, Hun⟩, ⟨F010, F011, F110⟩, ⟨⟨WS010, WR010, WC010⟩, Huw⟩, ⟨D000, D001, D100, D101⟩⟩, Hhid, Ht1, Hsl, Hpt, Hps111⟩, Hk⟩

  iapply (step_send1 m K d 1 1 [(0, 2, 0), (0, 2, 1), (1, 2, 0), (1, 2, 1)] (dev10_eq d) (off24_eq d) (sendSem_spell 1 1 1 _) (recvSem_spell 1 1 1 _)) $$ [Ht1 Hps111 HO US111 UR111]
  · iframe # ∗
  iintro ⟨F111, HO⟩

  iapply (step_wait_send m K d 0 1 0 [(0, 2, 0), (0, 2, 1), (1, 2, 0), (1, 2, 1)] (sendSem_spell 0 1 0 _) (dst := outM.slice (Rect.unit (s := S1024x1024) (k0_off19 d) S256x512.size (k0_off19_inb d)) (fun _ => rfl)) (credit_tile _ _ _)) $$ [F010 HO WS010]
  · iframe # ∗
  iintro ⟨HO, ZS010, Hpay⟩
  ihave Ht00 := (Entails.of_eq (sendPay_1 m d 0 0)) $$ Hpay

  iapply (step_wait_recv m K d 0 1 0 [(0, 2, 0), (0, 2, 1), (1, 2, 0), (1, 2, 1)] (by decide) (recvSem_spell 0 1 0 _) (dst := slotM 0 1 0) (credit_slot 0 1 0)) $$ [WC010 HO WR010]
  · iframe # ∗
  iintro ⟨HO, ZR010, Hpay⟩
  ihave Hs010 := (Entails.of_eq (recvPay_1 m d 0 0)) $$ Hpay

  iapply (wp_load_tile d (keepQ 0 d) 0 (afterFirst (A m) d 0 0) (off15_eq d)) $$ Ht00
  iintro Ht00
  rw [wp_ret]; imodintro
  iapply Hk
  icases Hsl with ⟨Hs000, Hs001, Hs100, Hs101⟩
  iframe # ∗; iexists _; iframe

end Cert.Kernel.Coll

end
-- ==== Proof.Kernel.BodyH.lean ====
/-
  Column half 0, second reduction: each lane's step-1 landing is added to the tile held and the finished sum sent
  to the step-2 partner, into the tile that partner gave up at step 0; column half 1 likewise in lane 0.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.States
import proofs.«900576_g7700000000000577_dist_mlp2_tp_i_m1024_h2048_out1024_v7x_i4_bf16_1_alg».proof.Proof.Kernel.Offsets

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def H14 (K : Dev nD × Fin 25 → ℕ) (d : Dev nD) : sProp 𝕄 :=
  iprop(Know m K ∗ Inputs m d
    ∗ ((∃ W, owes (d : Thread nD τ) (oweL d (sends.drop 9)) W) ∗ Unissued d (sends.drop 9) ∗ InFlight d ((sends.take 9).drop 6)
      ∗ (atPos ER (recvCell d 0 1 1) 0 ∅ 0 ∗ cred (tallyAt (recvCell d 0 1 1) () N)) ∗ Unwaited d (sends.drop 6)
      ∗ semVal (sendCell d 0 1 1) 0 ∗ Done d (sends.take 5))
    ∗ Hids m d
    ∗ tileOwns d (keepQ 1 d) 0 (afterFirst (A m) d 0 1)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0))
    ∗ (tileOwns (p0 1 d) (keepQ 1 d) 0 (peerPart m d 0 1)
      ∗ tileOwns (p0 0 d) (keepQ 0 d) 1 (peerPart m d 1 0) ∗ tileOwns (p0 1 d) (keepQ 1 d) 1 (peerPart m d 1 1)))

def H15 (K : Dev nD × Fin 25 → ℕ) (d : Dev nD) : sProp 𝕄 :=
  iprop(Know m K ∗ Inputs m d ∗ Proto 10 6 d
    ∗ Hids m d
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1))
    ∗ (tileOwns (p0 0 d) (keepQ 0 d) 1 (peerPart m d 1 0) ∗ tileOwns (p0 1 d) (keepQ 1 d) 1 (peerPart m d 1 1)))

private theorem partner2_eq_p0 (b : Fin 2) (d : Dev nD) : partner 2 b d = p0 b d := by revert b d; decide

theorem part14_spec (K : Dev nD × Fin 25 → ℕ) (d : Dev nD) (v3 v8 : BitVec 32) {Q : PUnit → sProp 𝕄} :
    iprop(B13 m K d ∗ (H14 m K d -∗ Q ⟨⟩))
      ⊢ wp frame (wpE (defs₀ (F := F)) 𝒱₀ (d : Thread nD τ) none) Set.univ
          (atBufs k0_part14 d v3 v8 (ret13 m d)) Q := by
  simp only [atBufs, k0_part14_eq_skeleton]; unfold k0_part14_skel
  simp only [Prog.lift, Prog.bind_op, Prog.bind_ret, Prog.pure_eq_ret, Prog.bind_assoc]
  unfold B13 Know
  simp only [Proto, sends, List.drop, List.take, Unissued, InFlight, Unwaited, Done, bigSepL_cons_cons, bigSepL_singleton, bigSepL_nil, sep_fold]
  iintro ⟨⟨⟨#HR, #Hlev⟩, HIn, ⟨⟨%W, HO⟩, ⟨⟨HtR020, HtS020⟩, Hun⟩, ⟨Hc011, Hfl⟩, ⟨⟨Hat011s, Hat011r, Hc011r⟩, Huw⟩, Hdone⟩, Hhid, Ht,
    ⟨Hs000, Hs001, Hs100, Hs101, Hs010⟩, ⟨Hp00, Hp01, Hp10, Hp11⟩⟩, Hk⟩

  iapply (wp_load_slot d 0 1 0 (afterFirst (A m) (partner 1 0 d) 0 0) (off := ![0, 1, 0, 0, 0]) rfl) $$ Hs010
  iintro Hs010

  iapply (wp_load_tile d (keepQ 0 d) 0 (afterFirst (A m) d 0 0) (off := k0_off15 d) (off15_eq d)) $$ Ht
  iintro Ht
  iapply (wp_store_tile d (keepQ 0 d) 0 (afterFirst (A m) d 0 0) (afterSecond (A m) d 0 0) (off := k0_off15 d) (off15_eq d)) $$ Ht
  iintro Ht

  iapply (step_send2 m K d 0 0 [(0, 2, 1), (1, 2, 0), (1, 2, 1)] (peerPart m d 0 0) (dev11_eq d) (off19_eq d) (sendSem_spell 0 2 0 _) (recvSem_spell 0 2 0 _))
    $$ [HO Ht Hp00 HtS020 HtR020]
  · isplitr; · iexact HR
    isplitl [Ht]; · iexact Ht
    isplitl [Hp00]; · rw [partner2_eq_p0]; iexact Hp00
    iframe # ∗
  iintro ⟨Hc020, HO⟩

  have hN20 : (outM.slice (Rect.unit (s := S1024x1024) (k0_off20 d) S256x512.size (k0_off20_inb d)) (fun _ => rfl)).view.dmaCredit = N := rfl
  iapply (step_wait_send m K d 0 1 1 [(0, 2, 1), (1, 2, 0), (1, 2, 1)] (sendSem_spell 0 1 1 _) (src := slotM 0 1 1)
      (dst := outM.slice (Rect.unit (s := S1024x1024) (k0_off20 d) S256x512.size (k0_off20_inb d)) (fun _ => rfl)) hN20) $$ [Hc011 HO Hat011s]
  · iframe # ∗
  iintro ⟨HO, Hz011s, Hpay⟩
  ihave Hpay := (Entails.of_eq (sendPay_1 m d 0 1)) $$ Hpay
  rw [wp_ret]
  imodintro
  iapply Hk
  unfold H14 Know
  simp only [sends, List.drop, List.take, Unissued, InFlight, Unwaited, Done, bigSepL_cons_cons, bigSepL_singleton, bigSepL_nil, sep_fold]
  isplitr; · isplitr; · iexact HR
             iexact Hlev
  isplitl [HIn]; · iexact HIn
  isplitl [HO Hun Hfl Hc020 Hat011r Hc011r Huw Hz011s Hdone]
  · isplitl [HO]; · iexists _; iexact HO
    isplitl [Hun]; · iexact Hun
    isplitl [Hfl Hc020]
    · icases Hfl with ⟨Hc110, Hc111⟩
      isplitl [Hc110]; · iexact Hc110
      isplitl [Hc111]; · iexact Hc111
      iexact Hc020
    isplitl [Hat011r Hc011r]
    · iframe # ∗
    isplitl [Huw]; · iexact Huw
    isplitl [Hz011s]; · iexact Hz011s
    iexact Hdone
  iframe # ∗

theorem part15_spec (K : Dev nD × Fin 25 → ℕ) (d : Dev nD) (v3 v4 v26 : BitVec 32) {Q : PUnit → sProp 𝕄} :
    iprop(H14 m K d ∗ (H15 m K d -∗ Q ⟨⟩))
      ⊢ wp frame (wpE (defs₀ (F := F)) 𝒱₀ (d : Thread nD τ) none) Set.univ
          (atBufs k0_part15 d v3 v4 v26) Q := by
  simp only [atBufs, k0_part15_eq_skeleton]; unfold k0_part15_skel
  simp only [Prog.lift, Prog.bind_op, Prog.bind_ret, Prog.pure_eq_ret, Prog.bind_assoc]
  unfold H14 Know
  simp only [sends, List.drop, List.take, Unissued, InFlight, Unwaited, Done, bigSepL_cons_cons, bigSepL_singleton, bigSepL_nil, sep_fold]
  iintro ⟨⟨⟨#HR, #Hlev⟩, HIn, ⟨⟨%W, HO⟩, ⟨⟨HtR021, HtS021⟩, Hun⟩, ⟨Hc110, Hc111, Hc020⟩, ⟨Hat011r, Hc011r⟩, Huw, Hz011s, ⟨Hd1, Hd2, Hd3, Hd4, Hd5⟩⟩, Hhid, Ht,
    ⟨Hs000, Hs001, Hs100, Hs101, Hs010⟩, ⟨Hp01, Hp10, Hp11⟩⟩, Hk⟩

  have hNs : (slotM 0 1 1).view.dmaCredit = N := rfl
  iapply (step_wait_recv m K d 0 1 1 [(0, 2, 1), (1, 2, 0), (1, 2, 1)] (by decide) (recvSem_spell 0 1 1 _)
      (src := outM.slice (Rect.unit (s := S1024x1024) (k0_off20 d) S256x512.size (k0_off20_inb d)) (fun _ => rfl))
      (dst := slotM 0 1 1) hNs) $$ [Hc011r HO Hat011r]
  · iframe # ∗
  iintro ⟨HO, Hz011r, Hpay⟩
  ihave Hs011 := (Entails.of_eq (recvPay_1 m d 0 1)) $$ Hpay

  iapply (wp_load_tile d (keepQ 1 d) 0 (afterFirst (A m) d 0 1) (off := k0_off18 d) (off18_eq d)) $$ Ht
  iintro Ht
  iapply (wp_load_slot d 0 1 1 (afterFirst (A m) (partner 1 1 d) 0 1) (off := ![0, 1, 1, 0, 0]) rfl) $$ Hs011
  iintro Hs011
  iapply (wp_load_tile d (keepQ 1 d) 0 (afterFirst (A m) d 0 1) (off := k0_off18 d) (off18_eq d)) $$ Ht
  iintro Ht
  iapply (wp_store_tile d (keepQ 1 d) 0 (afterFirst (A m) d 0 1) (afterSecond (A m) d 0 1) (off := k0_off18 d) (off18_eq d)) $$ Ht
  iintro Ht

  iapply (step_send2 m K d 0 1 [(1, 2, 0), (1, 2, 1)] (peerPart m d 0 1) (dev12_eq d) (off20_eq d) (sendSem_spell 0 2 1 _) (recvSem_spell 0 2 1 _))
    $$ [HO Ht Hp01 HtS021 HtR021]
  · isplitr; · iexact HR
    isplitl [Ht]; · iexact Ht
    isplitl [Hp01]; · rw [partner2_eq_p0]; iexact Hp01
    iframe # ∗
  iintro ⟨Hc021, HO⟩
  rw [wp_ret]
  imodintro
  iapply Hk
  unfold H15 Know
  simp only [Proto, sends, List.drop, List.take, Unissued, InFlight, Unwaited, Done, bigSepL_cons_cons, bigSepL_singleton, bigSepL_nil, sep_fold]
  iframe # ∗; iexists _; iframe

theorem part16_spec (K : Dev nD × Fin 25 → ℕ) (d : Dev nD) (v4 v8 : BitVec 32) {Q : BitVec 32 → sProp 𝕄} :
    iprop(H15 m K d ∗ (B16 m K d -∗ Q 256#32))
      ⊢ wp frame (wpE (defs₀ (F := F)) 𝒱₀ (d : Thread nD τ) none) Set.univ
          (atBufs k0_part16 d v4 v8) Q := by
  simp only [atBufs, k0_part16_eq_skeleton]; unfold k0_part16_skel
  simp only [Prog.lift, Prog.bind_op, Prog.bind_ret, Prog.pure_eq_ret, Prog.bind_assoc]
  unfold H15 Know
  simp only [Proto, sends, List.drop, List.take, Unissued, InFlight, Unwaited, Done, bigSepL_cons_cons, bigSepL_singleton, bigSepL_nil, sep_fold]
  iintro ⟨⟨⟨#HR, #Hlev⟩, HIn, ⟨⟨%W, HO⟩, Hun, ⟨Hc110, Hfl⟩, ⟨⟨Hat110s, Hat110r, Hc110r⟩, Huw⟩, ⟨Hd1, Hd2, Hd3, Hd4, Hd5, Hd6⟩⟩, Hhid,
    ⟨Hs000, Hs001, Hs100, Hs101, Hs010, Hs011⟩, ⟨Hp10, Hp11⟩⟩, Hk⟩

  have hN23 : (outM.slice (Rect.unit (s := S1024x1024) (k0_off23 d) S256x512.size (k0_off23_inb d)) (fun _ => rfl)).view.dmaCredit = N := rfl
  iapply (step_wait_send m K d 1 1 0 [(1, 2, 0), (1, 2, 1)] (sendSem_spell 1 1 0 _) (src := slotM 1 1 0)
      (dst := outM.slice (Rect.unit (s := S1024x1024) (k0_off23 d) S256x512.size (k0_off23_inb d)) (fun _ => rfl)) hN23) $$ [Hc110 HO Hat110s]
  · iframe # ∗
  iintro ⟨HO, Hz110s, Hpay⟩
  ihave Ht := (Entails.of_eq (sendPay_1 m d 1 0)) $$ Hpay

  have hNs : (slotM 1 1 0).view.dmaCredit = N := rfl
  iapply (step_wait_recv m K d 1 1 0 [(1, 2, 0), (1, 2, 1)] (by decide) (recvSem_spell 1 1 0 _)
      (src := outM.slice (Rect.unit (s := S1024x1024) (k0_off23 d) S256x512.size (k0_off23_inb d)) (fun _ => rfl))
      (dst := slotM 1 1 0) hNs) $$ [Hc110r HO Hat110r]
  · iframe # ∗
  iintro ⟨HO, Hz110r, Hpay⟩
  ihave Hs110 := (Entails.of_eq (recvPay_1 m d 1 0)) $$ Hpay

  iapply (wp_load_tile d (keepQ 0 d) 1 (afterFirst (A m) d 1 0) (off := k0_off21 d) (off21_eq d)) $$ Ht
  iintro Ht
  iapply (wp_load_slot d 1 1 0 (afterFirst (A m) (partner 1 0 d) 1 0) (off := ![1, 1, 0, 0, 0]) rfl) $$ Hs110
  iintro Hs110
  iapply (wp_load_tile d (keepQ 0 d) 1 (afterFirst (A m) d 1 0) (off := k0_off21 d) (off21_eq d)) $$ Ht
  iintro Ht
  iapply (wp_store_tile d (keepQ 0 d) 1 (afterFirst (A m) d 1 0) (afterSecond (A m) d 1 0) (off := k0_off21 d) (off21_eq d)) $$ Ht
  iintro Ht
  rw [wp_ret]
  imodintro
  iapply Hk
  unfold B16 Know
  simp only [Proto, sends, List.drop, List.take, Unissued, InFlight, Unwaited, Done, bigSepL_cons_cons, bigSepL_singleton, bigSepL_nil, sep_fold]
  iframe # ∗; iexists _; iframe

end Cert.Kernel.Coll

end
-- ==== Proof.Kernel.BodyI.lean ====
/-
  Column half 1 is finished in both lanes and sent to the step-2 partners; the two step-2 landings of column half
  0 are waited for.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.States
import proofs.«900576_g7700000000000577_dist_mlp2_tp_i_m1024_h2048_out1024_v7x_i4_bf16_1_alg».proof.Proof.Kernel.Offsets

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def HalfWaitedI (d : Dev nD) (x : Xf) : sProp 𝕄 :=
  iprop(semVal (sendCellX d x) 0 ∗ atPos ER (recvCellX d x) 0 ∅ 0 ∗ cred (tallyAt (recvCellX d x) () N))

def ProtoHalfI (k j : ℕ) (x : Xf) (d : Dev nD) : sProp 𝕄 :=
  iprop((∃ W, owes (d : Thread nD τ) (oweL d (sends.drop k)) W) ∗ Unissued d (sends.drop k) ∗ InFlight d ((sends.take k).drop (j + 1))
    ∗ HalfWaitedI d x ∗ Unwaited d (sends.drop (j + 1)) ∗ Done d (sends.take j))

def B17 (K : Dev nD × Fin 25 → ℕ) (d : Dev nD) : sProp 𝕄 :=
  iprop(Know m K ∗ Inputs m d ∗ ProtoHalfI 11 7 (1, 1, 1) d
    ∗ Hids m d
    ∗ tileOwns d (keepQ 1 d) 1 (afterFirst (A m) d 1 1)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0))
    ∗ tileOwns (p0 1 d) (keepQ 1 d) 1 (peerPart m d 1 1))

def B18 (K : Dev nD × Fin 25 → ℕ) (d : Dev nD) : sProp 𝕄 :=
  iprop(Know m K ∗ Inputs m d ∗ ProtoHalfI 12 8 (0, 2, 0) d
    ∗ Hids m d
    ∗ tileOwns d (keepQ 0 d) 0 (afterSecond (A m) d 0 0)
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

theorem empI_eq : (BI.emp : sProp 𝕄) = iprop(emp) := rfl

theorem dropI10 : sends.drop 10 = [(1, 2, 0), (1, 2, 1)] := rfl
theorem dropI11 : sends.drop 11 = [(1, 2, 1)] := rfl
theorem dropI12 : sends.drop 12 = [] := rfl
theorem flyI10_7 : (sends.take 10).drop 7 = [(1, 1, 1), (0, 2, 0), (0, 2, 1)] := rfl
theorem flyI11_8 : (sends.take 11).drop (7 + 1) = [(0, 2, 0), (0, 2, 1), (1, 2, 0)] := rfl
theorem flyI12_9 : (sends.take 12).drop (8 + 1) = [(0, 2, 1), (1, 2, 0), (1, 2, 1)] := rfl
theorem flyI12_10 : (sends.take 12).drop 10 = [(1, 2, 0), (1, 2, 1)] := rfl
theorem dropI7 : sends.drop 7 = [(1, 1, 1), (0, 2, 0), (0, 2, 1), (1, 2, 0), (1, 2, 1)] := rfl
theorem dropI8 : sends.drop (7 + 1) = [(0, 2, 0), (0, 2, 1), (1, 2, 0), (1, 2, 1)] := rfl
theorem dropI9 : sends.drop (8 + 1) = [(0, 2, 1), (1, 2, 0), (1, 2, 1)] := rfl
theorem takeI7 : sends.take 7 = [(0, 0, 0), (0, 0, 1), (1, 0, 0), (1, 0, 1), (0, 1, 0), (0, 1, 1), (1, 1, 0)] := rfl
theorem takeI8 : sends.take 8 = [(0, 0, 0), (0, 0, 1), (1, 0, 0), (1, 0, 1), (0, 1, 0), (0, 1, 1), (1, 1, 0), (1, 1, 1)] := rfl
theorem takeI10 : sends.take 10 = [(0, 0, 0), (0, 0, 1), (1, 0, 0), (1, 0, 1), (0, 1, 0), (0, 1, 1), (1, 1, 0), (1, 1, 1), (0, 2, 0), (0, 2, 1)] := rfl

theorem partner2I (b : Fin 2) (d : Dev nD) : partner 2 b d = partner 0 b d := by revert b d; decide

abbrev tileViewI (off : Fin 2 → Nat) (hinb : ∀ a, off a + S256x512.size a ≤ S1024x1024.size a) : Memref sig .tc .vmem S256x512 .bf16 :=
  outM.slice (Rect.unit (s := S1024x1024) off S256x512.size hinb) (fun _ => rfl)

theorem part17_spec (K : Dev nD × Fin 25 → ℕ) (d : Dev nD) (v3 v8 c256 : BitVec 32) {Q : PUnit → sProp 𝕄} :
    iprop(B16 m K d ∗ (B17 m K d -∗ Q ⟨⟩))
      ⊢ wp frame (wpE (defs₀ (F := F)) 𝒱₀ (d : Thread nD τ) none) Set.univ
          (atBufs k0_part17 d v3 v8 c256) Q := by
  simp only [atBufs, k0_part17_eq_skeleton]; unfold k0_part17_skel
  simp only [Prog.lift, Prog.bind_op, Prog.bind_ret, Prog.pure_eq_ret, Prog.bind_assoc]
  unfold B16 Know Proto
  simp only [dropI10, flyI10_7, dropI7, takeI7, Unissued, InFlight, Unwaited, Done, bigSepL_cons_cons, bigSepL_singleton, bigSepL_nil, sep_fold]
  iintro ⟨⟨⟨#HR, #Hlev⟩, Hin, ⟨⟨%W, HO⟩, ⟨⟨HtR120, HtS120⟩, Htok121⟩, ⟨Hc111, Hc020, Hc021⟩, ⟨⟨HaS111, Hhalf⟩, Hunw⟩, Hdone⟩, Hh, Ht, Hsl, ⟨Hp0, Hp1⟩⟩, Hk⟩

  iapply (step_send2 m K d 1 0 [(1, 2, 1)] (peerPart m d 1 0) (dev13_eq d) (off23_eq d) (sendSem_spell 1 2 0 _) (recvSem_spell 1 2 0 _)) $$ [Ht Hp0 HO HtS120 HtR120]
  · isplitr; · iexact HR
    isplitl [Ht]; · iexact Ht
    isplitl [Hp0]; · rw [partner2I]; iexact Hp0
    isplitl [HO]; · iexact HO
    isplitl [HtS120]; · iexact HtS120
    rw [partner2I]; iexact HtR120
  iintro ⟨Hc120, HO⟩

  iapply (step_wait_send m K d 1 1 1 [(1, 2, 1)] (sendSem_spell 1 1 1 _) (dst := tileViewI (k0_off24 d) (k0_off24_inb d)) rfl) $$ [Hc111 HO HaS111]
  · iframe # ∗
  iintro ⟨HO, Hz111, Hpay⟩
  rw [wp_ret]; imodintro
  iapply Hk
  unfold B17 ProtoHalfI HalfWaitedI Know
  simp only [dropI11, flyI11_8, dropI8, takeI7, Unissued, InFlight, Unwaited, Done, bigSepL_cons_cons, bigSepL_singleton, bigSepL_nil, sep_fold, sendPay_1]
  iframe
  iframe # ∗; iexists _; iframe

theorem part18_spec (K : Dev nD × Fin 25 → ℕ) (d : Dev nD) (v4 v26 : BitVec 32) {Q : PUnit → sProp 𝕄} :
    iprop(B17 m K d ∗ (B18 m K d -∗ Q ⟨⟩))
      ⊢ wp frame (wpE (defs₀ (F := F)) 𝒱₀ (d : Thread nD τ) none) Set.univ
          (atBufs k0_part18 d v4 v26) Q := by
  simp only [atBufs, k0_part18_eq_skeleton]; unfold k0_part18_skel
  simp only [Prog.lift, Prog.bind_op, Prog.bind_ret, Prog.pure_eq_ret, Prog.bind_assoc]
  unfold B17 ProtoHalfI HalfWaitedI Know
  simp only [dropI11, flyI11_8, dropI8, takeI7, Unissued, InFlight, Unwaited, Done, bigSepL_cons_cons, bigSepL_singleton, bigSepL_nil, sep_fold, empI_eq]
  iintro ⟨⟨⟨#HR, #Hlev⟩, Hin, ⟨⟨%W, HO⟩, ⟨HtR121, HtS121⟩, ⟨Hc020, Hc021, Hc120⟩, ⟨Hz111, HaR111, HcR111⟩, ⟨⟨HaS020, Hhalf020⟩, Hunw⟩, ⟨Hd0, Hd1, Hd2, Hd3, Hd4, Hd5, Hd6⟩⟩, Hh, Ht, ⟨Hs000, Hs001, Hs100, Hs101, Hs010, Hs011, Hs110⟩, Hp1⟩, Hk⟩

  iapply (step_wait_recv m K d 1 1 1 [(1, 2, 1)] (by decide) (recvSem_spell 1 1 1 _) (dst := slotM 1 1 1) rfl) $$ [HcR111 HO HaR111]
  · iframe # ∗
  iintro ⟨HO, Hzr111, Hs111⟩
  simp only [recvPay_1]

  iapply (wp_load_tile d (keepQ 1 d) 1 (afterFirst (A m) d 1 1) (off22_eq d)) $$ Ht
  iintro Ht
  iapply (wp_load_slot d 1 1 1 (afterFirst (A m) (partner 1 1 d) 1 1) (off := ![1, 1, 1, 0, 0]) rfl) $$ Hs111
  iintro Hs111
  iapply (wp_load_tile d (keepQ 1 d) 1 (afterFirst (A m) d 1 1) (off22_eq d)) $$ Ht
  iintro Ht
  iapply (wp_store_tile d (keepQ 1 d) 1 (afterFirst (A m) d 1 1) (afterSecond (A m) d 1 1) (off22_eq d)) $$ Ht
  iintro Ht

  iapply (step_send2 m K d 1 1 [] (peerPart m d 1 1) (dev14_eq d) (off24_eq d) (sendSem_spell 1 2 1 _) (recvSem_spell 1 2 1 _)) $$ [Ht Hp1 HO HtS121 HtR121]
  · isplitr; · iexact HR
    isplitl [Ht]; · iexact Ht
    isplitl [Hp1]; · rw [partner2I]; iexact Hp1
    isplitl [HO]; · iexact HO
    isplitl [HtS121]; · iexact HtS121
    rw [partner2I]; iexact HtR121
  iintro ⟨Hc121, HO⟩

  iapply (step_wait_send m K d 0 2 0 [] (sendSem_spell 0 2 0 _) (dst := tileViewI (k0_off19 d) (k0_off19_inb d)) rfl) $$ [Hc020 HO HaS020]
  · iframe # ∗
  iintro ⟨HO, Hz020, Ht020⟩
  rw [wp_ret]; imodintro
  iapply Hk
  unfold B18 ProtoHalfI HalfWaitedI Know
  simp only [dropI12, flyI12_9, dropI9, takeI8, Unissued, InFlight, Unwaited, Done, bigSepL_cons_cons, bigSepL_singleton, bigSepL_nil, sep_fold, empI_eq, sendPay_2]
  iframe
  iframe # ∗; iexists _; iframe

theorem part19_spec (K : Dev nD × Fin 25 → ℕ) (d : Dev nD) (v3 v4 : BitVec 32) {Q : PUnit → sProp 𝕄} :
    iprop(B18 m K d ∗ (B19 m K d -∗ Q ⟨⟩))
      ⊢ wp frame (wpE (defs₀ (F := F)) 𝒱₀ (d : Thread nD τ) none) Set.univ
          (atBufs k0_part19 d v3 v4) Q := by
  simp only [atBufs, k0_part19_eq_skeleton]; unfold k0_part19_skel
  simp only [Prog.lift, Prog.bind_op, Prog.bind_ret, Prog.pure_eq_ret, Prog.bind_assoc]
  unfold B18 ProtoHalfI HalfWaitedI Know
  simp only [dropI12, flyI12_9, dropI9, takeI8, Unissued, InFlight, Unwaited, Done, bigSepL_cons_cons, bigSepL_singleton, bigSepL_nil, sep_fold, empI_eq]
  iintro ⟨⟨⟨#HR, #Hlev⟩, Hin, ⟨⟨%W, HO⟩, Hemp, ⟨Hc021, Hc120, Hc121⟩, ⟨Hz020, HaR020, HcR020⟩, ⟨⟨HaS021, HaR021, HcR021⟩, Hunw⟩, ⟨Hd0, Hd1, Hd2, Hd3, Hd4, Hd5, Hd6, Hd7⟩⟩, Hh, Ht020, Hsl⟩, Hk⟩

  iapply (step_wait_recv m K d 0 2 0 [] (by simp) (recvSem_spell 0 2 0 _) (dst := tileViewI (k0_off19 d) (k0_off19_inb d)) rfl) $$ [HcR020 HO HaR020]
  · iframe # ∗
  iintro ⟨HO, Hzr020, Htr020⟩

  iapply (step_wait_send m K d 0 2 1 [] (sendSem_spell 0 2 1 _) (dst := tileViewI (k0_off20 d) (k0_off20_inb d)) rfl) $$ [Hc021 HO HaS021]
  · iframe # ∗
  iintro ⟨HO, Hz021, Ht021⟩

  iapply (step_wait_recv m K d 0 2 1 [] (by simp) (recvSem_spell 0 2 1 _) (dst := tileViewI (k0_off20 d) (k0_off20_inb d)) rfl) $$ [HcR021 HO HaR021]
  · iframe # ∗
  iintro ⟨HO, Hzr021, Htr021⟩
  rw [wp_ret]; imodintro
  iapply Hk
  unfold B19 Proto Know
  simp only [dropI12, flyI12_10, dropI10, takeI10, Unissued, InFlight, Unwaited, Done, bigSepL_cons_cons, bigSepL_singleton, bigSepL_nil, sep_fold, empI_eq, sendPay_2, recvPay_2]
  iframe
  iframe # ∗; iexists _; iframe

end Cert.Kernel.Coll

end
-- ==== Proof.Kernel.BodyTail.lean ====
/-
  The last waits: the two step-2 landings of column half 1. After them every transfer is waited for and every tile
  holds its final sum.
-/
import proofs.«900576_g7700000000000577_dist_mlp2_tp_i_m1024_h2048_out1024_v7x_i4_bf16_1_alg».proof.Proof.Kernel.Steps
import proofs.«900576_g7700000000000577_dist_mlp2_tp_i_m1024_h2048_out1024_v7x_i4_bf16_1_alg».proof.Proof.Kernel.States
import proofs.«900576_g7700000000000577_dist_mlp2_tp_i_m1024_h2048_out1024_v7x_i4_bf16_1_alg».proof.Proof.Kernel.Offsets

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def tail20Prog (arg3 : Memref sig .tc .vmem S1024x1024 .bf16) (harg3 : arg3.IsWhole) (arg6 : DmaSems sig S2x3x2) (arg7 : DmaSems sig S2x3x2)
    (d0 : Dev nD) (v4 : BitVec 32) : Prog (TpuEff nD τ sig (Elt F) Λ₀ .tc) (Σ' (d0 : Dev nD), BitVec 32) := do
  let v487 : Memref sig .tc .vmem S256x512 .bf16 := arg3.slice (Rect.unit (s := S1024x1024) (k0_off23 d0) S256x512.size (k0_off23_inb d0)) (fun _ => rfl)
  let v484 : DmaSems sig S1x1x1 := arg6.slice (Rect.unit (s := S2x3x2) ![1, 2, 0] S1x1x1.size inb_S2x3x2_S1x1x1_1_2_0)
  let v485 : DmaSems sig S_ := v484.squeeze S_ squeezes_S1x1x1_S_
  let v486 : Memref sig .tc .vmem S256x512 .bf16 := arg3.slice (Rect.unit (s := S1024x1024) (k0_off23 d0) S256x512.size (k0_off23_inb d0)) (fun _ => rfl)
  Prog.lift (.waitDma2 v485.sem v487 v486 (harg3.wordExact_slice rfl _ (k0_off23_wordsbf16 d0)) (harg3.wordExact_slice rfl _ (k0_off23_wordsbf16 d0)))
  let v490 : DmaSems sig S1x1x1 := arg7.slice (Rect.unit (s := S2x3x2) ![1, 2, 0] S1x1x1.size inb_S2x3x2_S1x1x1_1_2_0)
  let v491 : DmaSems sig S_ := v490.squeeze S_ squeezes_S1x1x1_S_
  let v492 : Memref sig .tc .vmem S256x512 .bf16 := arg3.slice (Rect.unit (s := S1024x1024) (k0_off23 d0) S256x512.size (k0_off23_inb d0)) (fun _ => rfl)
  let v493 : Memref sig .tc .vmem S256x512 .bf16 := arg3.slice (Rect.unit (s := S1024x1024) (k0_off23 d0) S256x512.size (k0_off23_inb d0)) (fun _ => rfl)
  Prog.lift (.waitDma2 v491.sem v493 v492 (harg3.wordExact_slice rfl _ (k0_off23_wordsbf16 d0)) (harg3.wordExact_slice rfl _ (k0_off23_wordsbf16 d0)))
  let v494 : DmaSems sig S1x1x1 := arg6.slice (Rect.unit (s := S2x3x2) ![1, 2, 1] S1x1x1.size inb_S2x3x2_S1x1x1_1_2_1)
  let v495 : DmaSems sig S_ := v494.squeeze S_ squeezes_S1x1x1_S_
  let v496 : Memref sig .tc .vmem S256x512 .bf16 := arg3.slice (Rect.unit (s := S1024x1024) (k0_off24 d0) S256x512.size (k0_off24_inb d0)) (fun _ => rfl)
  let v497 : Memref sig .tc .vmem S256x512 .bf16 := arg3.slice (Rect.unit (s := S1024x1024) (k0_off24 d0) S256x512.size (k0_off24_inb d0)) (fun _ => rfl)
  Prog.lift (.waitDma2 v495.sem v497 v496 (harg3.wordExact_slice rfl _ (k0_off24_wordsbf16 d0)) (harg3.wordExact_slice rfl _ (k0_off24_wordsbf16 d0)))
  let v498 : BitVec 32 := Scalar.muli v4 1#32
  pure ⟨d0, v498⟩

theorem part20_split (arg0 : Memref sig .tc .vmem S1024x1024 .f32) (harg0 : arg0.IsWhole) (arg1 : Memref sig .tc .vmem S1024x2048 .f32) (harg1 : arg1.IsWhole) (arg2 : Memref sig .tc .vmem S2048x1024 .f32) (harg2 : arg2.IsWhole) (arg3 : Memref sig .tc .vmem S1024x1024 .bf16) (harg3 : arg3.IsWhole) (arg4 : Memref sig .tc .vmem S1024x2048 .bf16) (harg4 : arg4.IsWhole) (arg5 : Memref sig .tc .vmem S2x2x2x256x512 .bf16) (harg5 : arg5.IsWhole) (arg6 : DmaSems sig S2x3x2) (arg7 : DmaSems sig S2x3x2) :
    k0_part20_skel (F := F) arg0 harg0 arg1 harg1 arg2 harg2 arg3 harg3 arg4 harg4 arg5 harg5 arg6 arg7 = (do
      let ⟨d0, v3, v4, v8, v26, v27, v28, v29⟩ : Σ' (d0 : Dev nD) (v3 : BitVec 32) (v4 : BitVec 32) (v8 : BitVec 32) (v26 : BitVec 32) (v27 : BitVec 32) (v28 : BitVec 32), Sems sig S_ ← k0_part1 arg0 harg0 arg1 harg1 arg2 harg2 arg3 harg3 arg4 harg4 arg5 harg5 arg6 arg7
      let ⟨v36, v39⟩ : Σ' (v36 : FVec F S1024x2048 .bf16), FVec F S2048x1024 .bf16 ← k0_part2 arg0 harg0 arg1 harg1 arg2 harg2 arg3 harg3 arg4 harg4 arg5 harg5 arg6 arg7 d0 v27 v29
      k0_part3 arg0 harg0 arg1 harg1 arg2 harg2 arg3 harg3 arg4 harg4 arg5 harg5 arg6 arg7 d0 v3 v28 v36 v39
      let c256_i32_91 : BitVec 32 ← k0_part4 arg0 harg0 arg1 harg1 arg2 harg2 arg3 harg3 arg4 harg4 arg5 harg5 arg6 arg7 d0 v3 v4 v27 v39
      let v157 : FVec F S256x2048 .bf16 ← k0_part5 arg0 harg0 arg1 harg1 arg2 harg2 arg3 harg3 arg4 harg4 arg5 harg5 arg6 arg7 d0 v4 v8 v28 v36 v39 c256_i32_91
      k0_part6 arg0 harg0 arg1 harg1 arg2 harg2 arg3 harg3 arg4 harg4 arg5 harg5 arg6 arg7 d0 v8 v26 v36 v39 v157
      k0_part7 arg0 harg0 arg1 harg1 arg2 harg2 arg3 harg3 arg4 harg4 arg5 harg5 arg6 arg7 d0 v3 v8
      k0_part8 arg0 harg0 arg1 harg1 arg2 harg2 arg3 harg3 arg4 harg4 arg5 harg5 arg6 arg7 d0 v4
      let v259 : FVec F S256x512 .bf16 ← k0_part9 arg0 harg0 arg1 harg1 arg2 harg2 arg3 harg3 arg4 harg4 arg5 harg5 arg6 arg7 d0 v3 v8 v26 v39
      k0_part10 arg0 harg0 arg1 harg1 arg2 harg2 arg3 harg3 arg4 harg4 arg5 harg5 arg6 arg7 d0 v3 v8 v26 v39 v259
      k0_part11 arg0 harg0 arg1 harg1 arg2 harg2 arg3 harg3 arg4 harg4 arg5 harg5 arg6 arg7 d0 v4 v8
      k0_part12 arg0 harg0 arg1 harg1 arg2 harg2 arg3 harg3 arg4 harg4 arg5 harg5 arg6 arg7 d0 v3 v4 v26
      let v351 : FVec F S256x512 .bf16 ← k0_part13 arg0 harg0 arg1 harg1 arg2 harg2 arg3 harg3 arg4 harg4 arg5 harg5 arg6 arg7 d0 v4 v8
      k0_part14 arg0 harg0 arg1 harg1 arg2 harg2 arg3 harg3 arg4 harg4 arg5 harg5 arg6 arg7 d0 v3 v8 v351
      k0_part15 arg0 harg0 arg1 harg1 arg2 harg2 arg3 harg3 arg4 harg4 arg5 harg5 arg6 arg7 d0 v3 v4 v26
      let c256_i32_478 : BitVec 32 ← k0_part16 arg0 harg0 arg1 harg1 arg2 harg2 arg3 harg3 arg4 harg4 arg5 harg5 arg6 arg7 d0 v4 v8
      k0_part17 arg0 harg0 arg1 harg1 arg2 harg2 arg3 harg3 arg4 harg4 arg5 harg5 arg6 arg7 d0 v3 v8 c256_i32_478
      k0_part18 arg0 harg0 arg1 harg1 arg2 harg2 arg3 harg3 arg4 harg4 arg5 harg5 arg6 arg7 d0 v4 v26
      k0_part19 arg0 harg0 arg1 harg1 arg2 harg2 arg3 harg3 arg4 harg4 arg5 harg5 arg6 arg7 d0 v3 v4
      tail20Prog arg3 harg3 arg6 arg7 d0 v4) := rfl

def tailBodyProg (arg3 : Memref sig .tc .vmem S1024x1024 .bf16) (harg3 : arg3.IsWhole) (arg7 : DmaSems sig S2x3x2)
    (r : Σ' (d0 : Dev nD), BitVec 32) : Prog (TpuEff nD τ sig (Elt F) Λ₀ .tc) PUnit :=
  match r with
  | ⟨d0, v498⟩ => do
    let v500 : DmaSems sig S1x1x1 := arg7.slice (Rect.unit (s := S2x3x2) ![1, 2, 1] S1x1x1.size inb_S2x3x2_S1x1x1_1_2_1)
    let v501 : DmaSems sig S_ := v500.squeeze S_ squeezes_S1x1x1_S_
    let v502 : Memref sig .tc .vmem S256x512 .bf16 := arg3.slice (Rect.unit (s := S1024x1024) (k0_off24 d0) S256x512.size (k0_off24_inb d0)) (fun _ => rfl)
    let v503 : Memref sig .tc .vmem S256x512 .bf16 := arg3.slice (Rect.unit (s := S1024x1024) (k0_off24 d0) S256x512.size (k0_off24_inb d0)) (fun _ => rfl)
    Prog.lift (.waitDma2 v501.sem v503 v502 (harg3.wordExact_slice rfl _ (k0_off24_wordsbf16 d0)) (harg3.wordExact_slice rfl _ (k0_off24_wordsbf16 d0)))
    pure ⟨⟩

theorem body_split (arg0 : Memref sig .tc .vmem S1024x1024 .f32) (harg0 : arg0.IsWhole) (arg1 : Memref sig .tc .vmem S1024x2048 .f32) (harg1 : arg1.IsWhole) (arg2 : Memref sig .tc .vmem S2048x1024 .f32) (harg2 : arg2.IsWhole) (arg3 : Memref sig .tc .vmem S1024x1024 .bf16) (harg3 : arg3.IsWhole) (arg4 : Memref sig .tc .vmem S1024x2048 .bf16) (harg4 : arg4.IsWhole) (arg5 : Memref sig .tc .vmem S2x2x2x256x512 .bf16) (harg5 : arg5.IsWhole) (arg6 : DmaSems sig S2x3x2) (arg7 : DmaSems sig S2x3x2) :
    cc0_body_skel (F := F) arg0 harg0 arg1 harg1 arg2 harg2 arg3 harg3 arg4 harg4 arg5 harg5 arg6 arg7 = (do
      let r ← k0_part20 arg0 harg0 arg1 harg1 arg2 harg2 arg3 harg3 arg4 harg4 arg5 harg5 arg6 arg7
      tailBodyProg arg3 harg3 arg7 r) := rfl

namespace Tail

theorem bigSepL_snoc {I : Type} (l : List I) (x : I) (Φ : I → sProp 𝕄) :
    bigSepL (l ++ [x]) Φ = iprop(bigSepL l Φ ∗ Φ x) := by
  induction l with
  | nil =>
    show Φ x = iprop(emp ∗ Φ x)
    exact (BI.equiv_iff.mp emp_sep).symm
  | cons i l ih =>
    rw [List.cons_append, bigSepL_cons, ih, bigSepL_cons]
    exact BI.equiv_iff.mp ⟨BI.sep_assoc', BI.sep_assoc⟩

theorem done_snoc (d : Dev nD) (l : List Xf) (x : Xf) :
    (Done d (l ++ [x]) : sProp 𝕄) = iprop(Done d l ∗ (semVal (sendCellX d x) 0 ∗ semVal (recvCellX d x) 0)) := by
  unfold Done; exact bigSepL_snoc l x _

theorem done_11 (d : Dev nD) :
    (Done d (sends.take 11) : sProp 𝕄) = iprop(Done d (sends.take 10) ∗ (semVal (sendCell d 1 2 0) 0 ∗ semVal (recvCell d 1 2 0) 0)) :=
  done_snoc d (sends.take 10) (1, 2, 0)

theorem done_12 (d : Dev nD) :
    (Done d (sends.take 12) : sProp 𝕄) = iprop(Done d (sends.take 11) ∗ (semVal (sendCell d 1 2 1) 0 ∗ semVal (recvCell d 1 2 1) 0)) :=
  done_snoc d (sends.take 11) (1, 2, 1)

theorem proto_12_10 (d : Dev nD) :
    (Proto 12 10 d : sProp 𝕄)
      = iprop((∃ W, owes (d : Thread nD τ) (oweL d (sends.drop 12)) W) ∗ Unissued d (sends.drop 12)
          ∗ (cred (tallyAt (sendCell d 1 2 0) () N) ∗ cred (tallyAt (sendCell d 1 2 1) () N))
          ∗ ((atPos ER (sendCell d 1 2 0) 0 ∅ 0 ∗ atPos ER (recvCell d 1 2 0) 0 ∅ 0 ∗ cred (tallyAt (recvCell d 1 2 0) () N))
            ∗ (atPos ER (sendCell d 1 2 1) 0 ∅ 0 ∗ atPos ER (recvCell d 1 2 1) 0 ∅ 0 ∗ cred (tallyAt (recvCell d 1 2 1) () N)))
          ∗ Done d (sends.take 10)) := rfl

theorem proto_12_12 (d : Dev nD) :
    (Proto 12 12 d : sProp 𝕄)
      = iprop((∃ W, owes (d : Thread nD τ) (oweL d (sends.drop 12)) W) ∗ Unissued d (sends.drop 12)
          ∗ emp ∗ emp ∗ Done d (sends.take 12)) := rfl

theorem tile_credit {off : Fin 2 → Nat} (hinb : ∀ a, off a + S256x512.size a ≤ S1024x1024.size a) :
    ((outM : Memref sig .tc .vmem S1024x1024 .bf16).slice (Rect.unit (s := S1024x1024) off S256x512.size hinb) (fun _ => rfl)).view.dmaCredit = N := rfl

end Tail

open Tail

variable (m : (ℓ : Loc nD τ sig) → Buf (Elt F) ℓ)

def S20 (K : Dev nD × Fin 25 → ℕ) (d : Dev nD) : sProp 𝕄 :=
  iprop(Know m K ∗ Inputs m d
    ∗ ((∃ W, owes (d : Thread nD τ) (oweL d (sends.drop 12)) W) ∗ Unissued d (sends.drop 12)
      ∗ (atPos ER (recvCell d 1 2 1) 0 ∅ 0 ∗ cred (tallyAt (recvCell d 1 2 1) () N))
      ∗ semVal (sendCell d 1 2 1) 0 ∗ Done d (sends.take 11))
    ∗ Hids m d
    ∗ (tileOwns d (keepQ 0 d) 0 (afterSecond (A m) d 0 0) ∗ tileOwns d (keepQ 1 d) 0 (afterSecond (A m) d 0 1)
      ∗ tileOwns d (keepQ 0 d) 1 (afterSecond (A m) d 1 0) ∗ tileOwns d (keepQ 1 d) 1 (afterSecond (A m) d 1 1)
      ∗ tileOwns d (sendQ 0 d) 0 (afterSecond (A m) (partner 2 0 d) 0 0) ∗ tileOwns d (sendQ 1 d) 0 (afterSecond (A m) (partner 2 1 d) 0 1)
      ∗ tileOwns d (sendQ 0 d) 1 (afterSecond (A m) (partner 2 0 d) 1 0))
    ∗ (slotOwns d 0 0 0 (peerPart m d 0 0) ∗ slotOwns d 0 0 1 (peerPart m d 0 1) ∗ slotOwns d 1 0 0 (peerPart m d 1 0) ∗ slotOwns d 1 0 1 (peerPart m d 1 1)
      ∗ slotOwns d 0 1 0 (afterFirst (A m) (partner 1 0 d) 0 0) ∗ slotOwns d 0 1 1 (afterFirst (A m) (partner 1 1 d) 0 1)
      ∗ slotOwns d 1 1 0 (afterFirst (A m) (partner 1 0 d) 1 0) ∗ slotOwns d 1 1 1 (afterFirst (A m) (partner 1 1 d) 1 1)))

abbrev ret20 (d : Dev nD) (v4 : BitVec 32) : Σ' (d0 : Dev nD), BitVec 32 := ⟨d, Scalar.muli v4 1#32⟩

theorem tail20_spec (K : Dev nD × Fin 25 → ℕ) (d : Dev nD) (v4 : BitVec 32) {Q : (Σ' (d0 : Dev nD), BitVec 32) → sProp 𝕄} :
    iprop(B19 m K d ∗ (S20 m K d -∗ Q (ret20 d v4)))
      ⊢ wp frame (wpE (defs₀ (F := F)) 𝒱₀ (d : Thread nD τ) none) Set.univ
          (tail20Prog (F := F) (Memref.whole cc0_stg3_0) (Memref.isWhole_whole _) cc0_scratch2 cc0_scratch3 d v4) Q := by
  unfold tail20Prog
  simp only [Prog.lift, Prog.bind_op, Prog.bind_ret, Prog.pure_eq_ret, Prog.bind_assoc]
  unfold B19 S20 Know
  rw [proto_12_10, done_11]
  iintro ⟨⟨⟨#HR, #Hlev⟩, Hin, ⟨⟨%W, HO⟩, Hun, ⟨Hc0, Hc1⟩, ⟨⟨HaS0, HaR0, HcR0⟩, HaS1, HaR1, HcR1⟩, HD⟩, Hhid, ⟨Tk00, Tk10, Ts00, Ts10⟩, Hslots⟩, Hk⟩

  iapply (step_wait_send m K d 1 2 0 (sends.drop 12) (sendSem_spell 1 2 0 _) (tile_credit (k0_off23_inb d))) $$ [Hc0 HO HaS0]
  · iframe # ∗
  iintro ⟨HO, Hz0, Hp⟩
  ihave Tk01 := (Entails.of_eq (sendPay_2 m d 1 0)) $$ Hp

  iapply (step_wait_recv m K d 1 2 0 (sends.drop 12) (by decide) (recvSem_spell 1 2 0 _) (tile_credit (k0_off23_inb d))) $$ [HcR0 HO HaR0]
  · iframe # ∗
  iintro ⟨HO, Hz0r, Hp⟩
  ihave Ts01 := (Entails.of_eq (recvPay_2 m d 1 0)) $$ Hp

  iapply (step_wait_send m K d 1 2 1 (sends.drop 12) (sendSem_spell 1 2 1 _) (tile_credit (k0_off24_inb d))) $$ [Hc1 HO HaS1]
  · iframe # ∗
  iintro ⟨HO, Hz1, Hp⟩
  ihave Tk11 := (Entails.of_eq (sendPay_2 m d 1 1)) $$ Hp
  rw [wp_ret]; imodintro
  iapply Hk
  iframe # ∗; iexists _; iframe

theorem tail_body_spec (K : Dev nD × Fin 25 → ℕ) (d : Dev nD) (w : BitVec 32) {Q : PUnit → sProp 𝕄} :
    iprop(S20 m K d ∗ (Bend m K d -∗ Q ⟨⟩))
      ⊢ wp frame (wpE (defs₀ (F := F)) 𝒱₀ (d : Thread nD τ) none) Set.univ
          (tailBodyProg (F := F) (Memref.whole cc0_stg3_0) (Memref.isWhole_whole _) cc0_scratch3 ⟨d, w⟩) Q := by
  unfold tailBodyProg
  simp only [Prog.lift, Prog.bind_op, Prog.bind_ret, Prog.pure_eq_ret, Prog.bind_assoc]
  unfold S20 Bend Know
  rw [proto_12_12, done_12]
  iintro ⟨⟨⟨#HR, #Hlev⟩, Hin, ⟨⟨%W, HO⟩, Hun, ⟨HaR1, HcR1⟩, Hz1, HD⟩, Hhid, ⟨Tk00, Tk10, Tk01, Tk11, Ts00, Ts10, Ts01⟩, Hslots⟩, Hk⟩

  iapply (step_wait_recv m K d 1 2 1 (sends.drop 12) (by decide) (recvSem_spell 1 2 1 _) (tile_credit (k0_off24_inb d))) $$ [HcR1 HO HaR1]
  · iframe # ∗
  iintro ⟨HO, Hz1r, Hp⟩
  ihave Ts11 := (Entails.of_eq (recvPay_2 m d 1 1)) $$ Hp
  rw [wp_ret]; imodintro
  iapply Hk
  isplitr
  · iframe # ∗
  isplitl [Hin]; · iexact Hin
  isplitl [HO Hun Hz1 HD Hz1r]
  · isplitl [HO]; · iexists _; iexact HO
    isplitl [Hun]; · iexact Hun
    isplitr; · iempintro
    isplitr; · iempintro
    isplitl [HD]; · iexact HD
    isplitl [Hz1]; · iexact Hz1
    iexact Hz1r
  iframe # ∗

end Cert.Kernel.Coll

end
-- ==== Proof.Kernel.Body.lean ====
/-
  The stretches chained: one device's body from its precondition to its postcondition.
-/
import proofs.«900576_g7700000000000577_dist_mlp2_tp_i_m1024_h2048_out1024_v7x_i4_bf16_1_alg».proof.Proof.Kernel.BodyEnds
import proofs.«900576_g7700000000000577_dist_mlp2_tp_i_m1024_h2048_out1024_v7x_i4_bf16_1_alg».proof.Proof.Kernel.BodyE
import proofs.«900576_g7700000000000577_dist_mlp2_tp_i_m1024_h2048_out1024_v7x_i4_bf16_1_alg».proof.Proof.Kernel.BodyF
import proofs.«900576_g7700000000000577_dist_mlp2_tp_i_m1024_h2048_out1024_v7x_i4_bf16_1_alg».proof.Proof.Kernel.BodyA
import proofs.«900576_g7700000000000577_dist_mlp2_tp_i_m1024_h2048_out1024_v7x_i4_bf16_1_alg».proof.Proof.Kernel.BodyG
import proofs.«900576_g7700000000000577_dist_mlp2_tp_i_m1024_h2048_out1024_v7x_i4_bf16_1_alg».proof.Proof.Kernel.BodyH
import proofs.«900576_g7700000000000577_dist_mlp2_tp_i_m1024_h2048_out1024_v7x_i4_bf16_1_alg».proof.Proof.Kernel.BodyI
import proofs.«900576_g7700000000000577_dist_mlp2_tp_i_m1024_h2048_out1024_v7x_i4_bf16_1_alg».proof.Proof.Kernel.BodyTail

noncomputable section

namespace Cert.Kernel.Coll

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sound_body : SoundBody m ρ := by
  intro K d Kt
  unfold theBody
  simp only [atBufs, cc0_body_eq_skeleton]
  rw [body_split, wp_bind]
  simp only [atBufs, k0_part20_eq_skeleton]
  rw [part20_split]
  iintro ⟨Hpre, Hk⟩
  ihave H := (enter m ρ K d) $$ Hpre

  rw [wp_bind]
  iapply (part1_spec m K d)
  isplitl [H]; · iexact H
  iintro %v3 %v4 %v8 %v26 %v27 %v28 H
  try dsimp only

  rw [wp_bind]
  iapply (part2_spec m K d _)
  isplitl [H]; · iexact H
  iintro H
  try dsimp only

  rw [wp_bind]
  iapply (part3_spec m K d _ _)
  isplitl [H]; · iexact H
  iintro H
  try dsimp only
  rw [wp_bind]
  iapply (part4_spec m K d _ _ _)
  isplitl [H]; · iexact H
  iintro H
  try dsimp only
  rw [wp_bind]
  iapply (part5_spec m K d _ _ _ _)
  isplitl [H]; · iexact H
  iintro H
  try dsimp only
  rw [wp_bind]
  iapply (part6_spec m K d _ _)
  isplitl [H]; · iexact H
  iintro H
  try dsimp only

  rw [wp_bind]
  iapply (part7_spec m K d _ _)
  isplitl [H]; · iexact H
  iintro H
  try dsimp only
  rw [wp_bind]
  iapply (part8_spec m K d _)
  isplitl [H]; · iexact H
  iintro H
  try dsimp only
  rw [wp_bind]
  iapply (part9_spec m K d _ _ _)
  isplitl [H]; · iexact H
  iintro H
  try dsimp only

  rw [wp_bind]
  iapply (part10_spec m K d _ _ _)
  isplitl [H]; · iexact H
  iintro H
  try dsimp only
  rw [wp_bind]
  iapply (part11_spec m K d _ _)
  isplitl [H]; · iexact H
  iintro H
  try dsimp only
  rw [wp_bind]
  iapply (part12_spec m K d _ _ _)
  isplitl [H]; · iexact H
  iintro H
  try dsimp only
  rw [wp_bind]
  iapply (part13_spec m K d _ _)
  isplitl [H]; · iexact H
  iintro H
  try dsimp only

  rw [wp_bind]
  iapply (part14_spec m K d _ _)
  isplitl [H]; · iexact H
  iintro H
  try dsimp only
  rw [wp_bind]
  iapply (part15_spec m K d _ _ _)
  isplitl [H]; · iexact H
  iintro H
  try dsimp only
  rw [wp_bind]
  iapply (part16_spec m K d _ _)
  isplitl [H]; · iexact H
  iintro H
  try dsimp only

  rw [wp_bind]
  iapply (part17_spec m K d _ _ _)
  isplitl [H]; · iexact H
  iintro H
  try dsimp only
  rw [wp_bind]
  iapply (part18_spec m K d _ _)
  isplitl [H]; · iexact H
  iintro H
  try dsimp only
  rw [wp_bind]
  iapply (part19_spec m K d _ _)
  isplitl [H]; · iexact H
  iintro H
  try dsimp only

  iapply (tail20_spec m K d v4)
  isplitl [H]; · iexact H
  iintro H
  iapply (tail_body_spec m K d _)
  isplitl [H]; · iexact H
  iintro H

  iapply Hk
  iapply (leave m ρ K d)
  iexact H

end Cert.Kernel.Coll

end
-- ==== Proof.Kernel.Run.lean ====
/-
  The run closed: every fair execution of the four devices terminates with each result array at the sum of the
  four partials, tile by tile, and the arguments unchanged.
-/
import proofs.«900576_g7700000000000577_dist_mlp2_tp_i_m1024_h2048_out1024_v7x_i4_bf16_1_alg».proof.Proof.Kernel.Launch
import proofs.«900576_g7700000000000577_dist_mlp2_tp_i_m1024_h2048_out1024_v7x_i4_bf16_1_alg».proof.Proof.Kernel.Body

noncomputable section

namespace Cert.Kernel.Coll

open Cert.Kernel Cert.Kernel.Gen Cert.Kernel.Spec

open Idealize.ShloMosaic
open Idealize.ShloMosaic.TcCoe
open Idealize.SL.Sem

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ (fun r => ∀ d : Dev nD,
      r.2.mem ((d.tc : Thread nD τ).loc main_v1) = Spec.result (argsOf m) d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) :=
  run_result m ρ (sound_body m ρ)

end Cert.Kernel.Coll

end
-- ==== Proof.lean ====
/-
  Four devices each hold x, a column block of W1 and the matching row block of W2. Each computes relu(x · W1ₑ) ·
  W2ₑ tile by tile; a two-step butterfly adds the four partials and a third step hands the finished tiles round.
  Over the extended reals the sum is relu(x · W1) · W2.
-/
import proofs.«900576_g7700000000000577_dist_mlp2_tp_i_m1024_h2048_out1024_v7x_i4_bf16_1_alg».proof.Defs
import proofs.«900576_g7700000000000577_dist_mlp2_tp_i_m1024_h2048_out1024_v7x_i4_bf16_1_alg».proof.Proof.Gen.Kernel
import proofs.«900576_g7700000000000577_dist_mlp2_tp_i_m1024_h2048_out1024_v7x_i4_bf16_1_alg».proof.Proof.Gen.Kernel.Skeleton
import proofs.«900576_g7700000000000577_dist_mlp2_tp_i_m1024_h2048_out1024_v7x_i4_bf16_1_alg».proof.Proof.Gen.Kernel.Launch
import proofs.«900576_g7700000000000577_dist_mlp2_tp_i_m1024_h2048_out1024_v7x_i4_bf16_1_alg».proof.Proof.Gen.Kernel.Points
import proofs.«900576_g7700000000000577_dist_mlp2_tp_i_m1024_h2048_out1024_v7x_i4_bf16_1_alg».proof.Proof.Gen.Kernel.Frame
import proofs.«900576_g7700000000000577_dist_mlp2_tp_i_m1024_h2048_out1024_v7x_i4_bf16_1_alg».proof.Proof.Gen.KernelIdeal
import proofs.«900576_g7700000000000577_dist_mlp2_tp_i_m1024_h2048_out1024_v7x_i4_bf16_1_alg».proof.Proof.Gen.KernelIdeal.Skeleton
import proofs.«900576_g7700000000000577_dist_mlp2_tp_i_m1024_h2048_out1024_v7x_i4_bf16_1_alg».proof.Proof.Gen.KernelIdeal.Launch
import proofs.«900576_g7700000000000577_dist_mlp2_tp_i_m1024_h2048_out1024_v7x_i4_bf16_1_alg».proof.Proof.Gen.KernelIdeal.Points
import proofs.«900576_g7700000000000577_dist_mlp2_tp_i_m1024_h2048_out1024_v7x_i4_bf16_1_alg».proof.Proof.Gen.KernelIdeal.Frame
import proofs.«900576_g7700000000000577_dist_mlp2_tp_i_m1024_h2048_out1024_v7x_i4_bf16_1_alg».proof.Proof.Gen.ReferenceIdeal
import proofs.«900576_g7700000000000577_dist_mlp2_tp_i_m1024_h2048_out1024_v7x_i4_bf16_1_alg».proof.Proof.Gen.Pre_finite_inputs_Kernel
import proofs.«900576_g7700000000000577_dist_mlp2_tp_i_m1024_h2048_out1024_v7x_i4_bf16_1_alg».proof.Proof.Gen.Pre_finite_inputs_ReferenceIdeal
import Idealize.ShloMosaic.Adequacy
import Idealize.ShloMosaic.Init
import proofs.«900576_g7700000000000577_dist_mlp2_tp_i_m1024_h2048_out1024_v7x_i4_bf16_1_alg».proof.Proof.Bridge
import proofs.«900576_g7700000000000577_dist_mlp2_tp_i_m1024_h2048_out1024_v7x_i4_bf16_1_alg».proof.Proof.KernelIdeal.Run
import proofs.«900576_g7700000000000577_dist_mlp2_tp_i_m1024_h2048_out1024_v7x_i4_bf16_1_alg».proof.Proof.Kernel.Run

noncomputable section

namespace Cert.Proof

open Idealize.ShloMosaic Idealize.SL.Sem

theorem frame_Kernel : Cert.frame_Kernel (hKernel := Cert.Kernel.Gen.facts) (hPre_finite_inputs_Kernel := Cert.Pre_finite_inputs_Kernel.Gen.facts) :=
  fun m ρ _ => (θ_run _ _ _).mono (fun _ h c => (h c).2) (Cert.Kernel.Coll.run (F := Bits) m ρ)

theorem frame_KernelIdeal : Cert.frame_KernelIdeal (hKernelIdeal := Cert.KernelIdeal.Gen.facts) (hPre_finite_inputs_Kernel := Cert.Pre_finite_inputs_Kernel.Gen.facts) :=
  fun m ρ _ => (θ_run _ _ _).mono (fun _ h c => (h c).2) (Cert.KernelIdeal.Coll.run (F := Ideal) m ρ)

theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  Cert.Bridge.algebraic_of_run fun m ρ => Cert.KernelIdeal.Coll.run (F := Ideal) m ρ

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, Cert.Bridge.frame_ReferenceIdeal_holds, trivial, algebraic⟩

end Cert.Proof

end
